-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v710) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x32 : Shape := ⟨2, ![200000, 32]⟩
abbrev S200000x3 : Shape := ⟨2, ![200000, 3]⟩
abbrev S1x128x128x128x1 : Shape := ⟨5, ![1, 128, 128, 128, 1]⟩
abbrev S3x3x3x32x32 : Shape := ⟨5, ![3, 3, 3, 32, 32]⟩
abbrev S32 : Shape := ⟨1, ![32]⟩
abbrev S_ : Shape := ⟨0, ![]⟩

class Facts : Prop where
  bcast_S_S200000x32 : S_.BroadcastsInDim S200000x32 (![] : Fin 0 → Fin S200000x32.rank)
  reducesTo_S200000x32_S_d0_1 : S200000x32.ReducesTo [0, 1] S_
  h_S_ : 0 < S_.numel
  bcast_S_S1x128x128x128x1 : S_.BroadcastsInDim S1x128x128x128x1 (![] : Fin 0 → Fin S1x128x128x128x1.rank)
  reducesTo_S1x128x128x128x1_S_d0_1_2_3_4 : S1x128x128x128x1.ReducesTo [0, 1, 2, 3, 4] S_
  bcast_S_S3x3x3x32x32 : S_.BroadcastsInDim S3x3x3x32x32 (![] : Fin 0 → Fin S3x3x3x32x32.rank)
  reducesTo_S3x3x3x32x32_S_d0_1_2_3_4 : S3x3x3x32x32.ReducesTo [0, 1, 2, 3, 4] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S200000x32 .f32) (main_arg1 : IVec S200000x3 32) (main_arg2 : FVec F S1x128x128x128x1 .f32) (main_arg3 : FVec F S3x3x3x32x32 .f32) (main_arg4 : FVec F S32 .f32) : IVec S_ 1 :=
  let main_v0 : FVec F S200000x32 .f32 := Host.absf main_arg0
  let main_cst : FVec F S_ .f32 := constant S_ .f32 0x7F800000#32
  let main_v1 : FVec F S200000x32 .f32 := broadcastInDim S200000x32 ![] bcast_S_S200000x32 main_cst
  let main_v2 : IVec S200000x32 1 := cmpf .olt main_v0 main_v1
  let main_c : IVec S_ 1 := constantI S_ 1 1#1
  let main_v3 : IVec S_ 1 := (fun x v => Host.reduce IntOp.andi x v reducesTo_S200000x32_S_d0_1 h_S_) main_v2 main_c
  let main_v4 : FVec F S1x128x128x128x1 .f32 := Host.absf main_arg2
  let main_cst_0 : FVec F S_ .f32 := constant S_ .f32 0x7F800000#32
  let main_v5 : FVec F S1x128x128x128x1 .f32 := broadcastInDim S1x128x128x128x1 ![] bcast_S_S1x128x128x128x1 main_cst_0
  let main_v6 : IVec S1x128x128x128x1 1 := cmpf .olt main_v4 main_v5
  let main_c_1 : IVec S_ 1 := constantI S_ 1 1#1
  let main_v7 : IVec S_ 1 := (fun x v => Host.reduce IntOp.andi x v reducesTo_S1x128x128x128x1_S_d0_1_2_3_4 h_S_) main_v6 main_c_1
  let main_v8 : IVec S_ 1 := andi main_v3 main_v7
  let main_v9 : FVec F S3x3x3x32x32 .f32 := Host.absf main_arg3
  let main_cst_2 : FVec F S_ .f32 := constant S_ .f32 0x7F800000#32
  let main_v10 : FVec F S3x3x3x32x32 .f32 := broadcastInDim S3x3x3x32x32 ![] bcast_S_S3x3x3x32x32 main_cst_2
  let main_v11 : IVec S3x3x3x32x32 1 := cmpf .olt main_v9 main_v10
  let main_c_3 : IVec S_ 1 := constantI S_ 1 1#1
  let main_v12 : IVec S_ 1 := (fun x v => Host.reduce IntOp.andi x v reducesTo_S3x3x3x32x32_S_d0_1_2_3_4 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S200000x32 : Shape := ⟨2, ![200000, 32]⟩
abbrev S200000x3 : Shape := ⟨2, ![200000, 3]⟩
abbrev S1x128x128x128x1 : Shape := ⟨5, ![1, 128, 128, 128, 1]⟩
abbrev S3x3x3x32x32 : Shape := ⟨5, ![3, 3, 3, 32, 32]⟩
abbrev S32 : Shape := ⟨1, ![32]⟩
abbrev S3 : Shape := ⟨1, ![3]⟩
abbrev S27x32x32 : Shape := ⟨3, ![27, 32, 32]⟩
abbrev S32x27x32 : Shape := ⟨3, ![32, 27, 32]⟩
abbrev S32x864 : Shape := ⟨2, ![32, 864]⟩
abbrev S200000x864 : Shape := ⟨2, ![200000, 864]⟩
abbrev S1000x32 : Shape := ⟨2, ![1000, 32]⟩
abbrev S1000x864 : Shape := ⟨2, ![1000, 864]⟩
abbrev S200000x27x32 : Shape := ⟨3, ![200000, 27, 32]⟩
abbrev S27 : Shape := ⟨1, ![27]⟩
abbrev S_ : Shape := ⟨0, ![]⟩
abbrev S27x1 : Shape := ⟨2, ![27, 1]⟩
abbrev S27x3 : Shape := ⟨2, ![27, 3]⟩
abbrev S200000x1x3 : Shape := ⟨3, ![200000, 1, 3]⟩
abbrev S1x27x3 : Shape := ⟨3, ![1, 27, 3]⟩
abbrev S200000x27x3 : Shape := ⟨3, ![200000, 27, 3]⟩
abbrev S1x1x3 : Shape := ⟨3, ![1, 1, 3]⟩
abbrev S200000x27x1 : Shape := ⟨3, ![200000, 27, 1]⟩
abbrev S200000x27 : Shape := ⟨2, ![200000, 27]⟩
abbrev S5400000 : Shape := ⟨1, ![5400000]⟩
abbrev S5400000x32 : Shape := ⟨2, ![5400000, 32]⟩
abbrev S2097152x32 : Shape := ⟨2, ![2097152, 32]⟩
abbrev S5400000x1 : Shape := ⟨2, ![5400000, 1]⟩
abbrev S1x128x128x128x32 : Shape := ⟨5, ![1, 128, 128, 128, 32]⟩
abbrev S1x128x128x128 : Shape := ⟨4, ![1, 128, 128, 128]⟩
abbrev S1x1x128x128x32 : Shape := ⟨5, ![1, 1, 128, 128, 32]⟩
abbrev S1x1x128x128 : Shape := ⟨4, ![1, 1, 128, 128]⟩
abbrev S1x1x128x128x1 : Shape := ⟨5, ![1, 1, 128, 128, 1]⟩
abbrev S1x1x1x1x32 : Shape := ⟨5, ![1, 1, 1, 1, 32]⟩

abbrev nBuf : Space → Nat
  | .hbm => 147
  | .vmem => 12
  | .smem => 0
  | _ => 0

abbrev hbmTy0_0 (i : Nat) : BufTy := match i % 128 with
  | 0 => ⟨S200000x32, .f32⟩
  | 1 => ⟨S200000x3, .i32⟩
  | 2 => ⟨S1x128x128x128x1, .f32⟩
  | 3 => ⟨S3x3x3x32x32, .f32⟩
  | 4 => ⟨S32, .f32⟩
  | 5 => ⟨S3, .i32⟩
  | 6 => ⟨S27x32x32, .f32⟩
  | 7 => ⟨S32x27x32, .f32⟩
  | 8 => ⟨S32x864, .f32⟩
  | 9 => ⟨S200000x864, .f32⟩
  | 10 => ⟨S200000x27x32, .f32⟩
  | 11 => ⟨S27, .i32⟩
  | 12 => ⟨S_, .i32⟩
  | 13 => ⟨S_, .i32⟩
  | 14 => ⟨S27, .i32⟩
  | 15 => ⟨S27, .i32⟩
  | 16 => ⟨S27, .i32⟩
  | 17 => ⟨S_, .i32⟩
  | 18 => ⟨S27, .i32⟩
  | 19 => ⟨S27, .i1⟩
  | 20 => ⟨S27, .i32⟩
  | 21 => ⟨S27, .i32⟩
  | 22 => ⟨S_, .i32⟩
  | 23 => ⟨S27, .i32⟩
  | 24 => ⟨S27, .i1⟩
  | 25 => ⟨S27, .i1⟩
  | 26 => ⟨S_, .i32⟩
  | 27 => ⟨S27, .i32⟩
  | 28 => ⟨S27, .i32⟩
  | 29 => ⟨S27, .i32⟩
  | 30 => ⟨S_, .i32⟩
  | 31 => ⟨S_, .i32⟩
  | 32 => ⟨S27, .i32⟩
  | 33 => ⟨S27, .i32⟩
  | 34 => ⟨S27, .i32⟩
  | 35 => ⟨S_, .i32⟩
  | 36 => ⟨S27, .i32⟩
  | 37 => ⟨S27, .i1⟩
  | 38 => ⟨S27, .i32⟩
  | 39 => ⟨S27, .i32⟩
  | 40 => ⟨S_, .i32⟩
  | 41 => ⟨S27, .i32⟩
  | 42 => ⟨S27, .i1⟩
  | 43 => ⟨S27, .i1⟩
  | 44 => ⟨S_, .i32⟩
  | 45 => ⟨S27, .i32⟩
  | 46 => ⟨S27, .i32⟩
  | 47 => ⟨S27, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S27, .i32⟩
  | 55 => ⟨S27, .i32⟩
  | 56 => ⟨S_, .i32⟩
  | 57 => ⟨S27, .i32⟩
  | 58 => ⟨S27, .i1⟩
  | 59 => ⟨S_, .i32⟩
  | 60 => ⟨S27, .i32⟩
  | 61 => ⟨S27, .i1⟩
  | 62 => ⟨S_, .i32⟩
  | 63 => ⟨S_, .i1⟩
  | 64 => ⟨S27, .i1⟩
  | 65 => ⟨S27, .i1⟩
  | 66 => ⟨S27, .i1⟩
  | 67 => ⟨S27, .i32⟩
  | 68 => ⟨S27, .i32⟩
  | 69 => ⟨S27, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S27, .i32⟩
  | 77 => ⟨S27, .i32⟩
  | 78 => ⟨S_, .i32⟩
  | 79 => ⟨S27, .i32⟩
  | 80 => ⟨S27, .i1⟩
  | 81 => ⟨S_, .i32⟩
  | 82 => ⟨S27, .i32⟩
  | 83 => ⟨S27, .i1⟩
  | 84 => ⟨S_, .i32⟩
  | 85 => ⟨S_, .i1⟩
  | 86 => ⟨S27, .i1⟩
  | 87 => ⟨S27, .i1⟩
  | 88 => ⟨S27, .i1⟩
  | 89 => ⟨S27, .i32⟩
  | 90 => ⟨S27, .i32⟩
  | 91 => ⟨S27, .i32⟩
  | 92 => ⟨S_, .i32⟩
  | 93 => ⟨S27, .i32⟩
  | 94 => ⟨S27, .i32⟩
  | 95 => ⟨S_, .i32⟩
  | 96 => ⟨S27, .i32⟩
  | 97 => ⟨S27, .i32⟩
  | 98 => ⟨S_, .i32⟩
  | 99 => ⟨S27, .i32⟩
  | 100 => ⟨S27, .i32⟩
  | 101 => ⟨S27x1, .i32⟩
  | 102 => ⟨S27x1, .i32⟩
  | 103 => ⟨S27x1, .i32⟩
  | 104 => ⟨S27x3, .i32⟩
  | 105 => ⟨S200000x1x3, .i32⟩
  | 106 => ⟨S1x27x3, .i32⟩
  | 107 => ⟨S200000x27x3, .i32⟩
  | 108 => ⟨S200000x27x3, .i32⟩
  | 109 => ⟨S200000x27x3, .i32⟩
  | 110 => ⟨S_, .i32⟩
  | 111 => ⟨S_, .i32⟩
  | 112 => ⟨S200000x27x3, .i32⟩
  | 113 => ⟨S200000x27x3, .i32⟩
  | 114 => ⟨S1x1x3, .i32⟩
  | 115 => ⟨S200000x27x3, .i32⟩
  | 116 => ⟨S200000x27x3, .i32⟩
  | 117 => ⟨S200000x27x1, .i32⟩
  | 118 => ⟨S200000x27, .i32⟩
  | 119 => ⟨S_, .i32⟩
  | 120 => ⟨S200000x27, .i32⟩
  | 121 => ⟨S200000x27, .i32⟩
  | 122 => ⟨S200000x27x1, .i32⟩
  | 123 => ⟨S200000x27, .i32⟩
  | 124 => ⟨S200000x27, .i32⟩
  | 125 => ⟨S_, .i32⟩
  | 126 => ⟨S200000x27, .i32⟩
  | 127 => ⟨S200000x27, .i32⟩
  | _ => ⟨S200000x32, .f32⟩

abbrev hbmTy0_1 (i : Nat) : BufTy := match i % 128 with
  | 0 => ⟨S200000x27x1, .i32⟩
  | 1 => ⟨S200000x27, .i32⟩
  | 2 => ⟨S200000x27, .i32⟩
  | 3 => ⟨S5400000, .i32⟩
  | 4 => ⟨S5400000x32, .f32⟩
  | 5 => ⟨S_, .f32⟩
  | 6 => ⟨S2097152x32, .f32⟩
  | 7 => ⟨S_, .i32⟩
  | 8 => ⟨S5400000, .i32⟩
  | 9 => ⟨S5400000, .i1⟩
  | 10 => ⟨S_, .i32⟩
  | 11 => ⟨S5400000, .i32⟩
  | 12 => ⟨S5400000, .i32⟩
  | 13 => ⟨S5400000, .i32⟩
  | 14 => ⟨S5400000x1, .i32⟩
  | 15 => ⟨S2097152x32, .f32⟩
  | 16 => ⟨S1x128x128x128x32, .f32⟩
  | 17 => ⟨S1x128x128x128, .f32⟩
  | 18 => ⟨S1x128x128x128x32, .f32⟩
  | _ => ⟨S200000x32, .f32⟩

abbrev hbmTy (i : Nat) : BufTy := match i / 128 with
  | 0 => hbmTy0_0 i
  | 1 => hbmTy0_1 i
  | _ => ⟨S200000x32, .f32⟩

abbrev bufTy : (tb : Table) → Fin (tcTables nBuf tb) → BufTy
  | .hbm, ⟨i, _⟩ => hbmTy i
  | .local _ .vmem, ⟨0, _⟩ => ⟨S1000x32, .f32⟩
  | .local _ .vmem, ⟨1, _⟩ => ⟨S1000x32, .f32⟩
  | .local _ .vmem, ⟨2, _⟩ => ⟨S32x864, .f32⟩
  | .local _ .vmem, ⟨3, _⟩ => ⟨S1000x864, .f32⟩
  | .local _ .vmem, ⟨4, _⟩ => ⟨S1000x864, .f32⟩
  | .local _ .vmem, ⟨5, _⟩ => ⟨S1x1x128x128x32, .f32⟩
  | .local _ .vmem, ⟨6, _⟩ => ⟨S1x1x128x128x32, .f32⟩
  | .local _ .vmem, ⟨7, _⟩ => ⟨S1x1x128x128, .f32⟩
  | .local _ .vmem, ⟨8, _⟩ => ⟨S1x1x128x128, .f32⟩
  | .local _ .vmem, ⟨9, _⟩ => ⟨S32, .f32⟩
  | .local _ .vmem, ⟨10, _⟩ => ⟨S1x1x128x128x32, .f32⟩
  | .local _ .vmem, ⟨11, _⟩ => ⟨S1x1x128x128x32, .f32⟩
  | _, _ => ⟨S200000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v6 : Ref sig .tc := ⟨.hbm, 29, rfl⟩
abbrev main_c_1 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v7 : Ref sig .tc := ⟨.hbm, 47, rfl⟩
abbrev main_c_2 : Ref sig .tc := ⟨.hbm, 48, rfl⟩
abbrev main_call2_v0 : Ref sig .tc := ⟨.hbm, 49, rfl⟩
abbrev main_call2_c : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_c_1 : Ref sig .tc := ⟨.hbm, 56, rfl⟩
abbrev main_call2_v5 : Ref sig .tc := ⟨.hbm, 57, rfl⟩
abbrev main_call2_v6 : Ref sig .tc := ⟨.hbm, 58, rfl⟩
abbrev main_call2_c_2 : Ref sig .tc := ⟨.hbm, 59, rfl⟩
abbrev main_call2_v7 : Ref sig .tc := ⟨.hbm, 60, rfl⟩
abbrev main_call2_v8 : Ref sig .tc := ⟨.hbm, 61, rfl⟩
abbrev main_call2_c_3 : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_v12 : Ref sig .tc := ⟨.hbm, 66, rfl⟩
abbrev main_call2_v13 : Ref sig .tc := ⟨.hbm, 67, rfl⟩
abbrev main_call2_v14 : Ref sig .tc := ⟨.hbm, 68, rfl⟩
abbrev main_v8 : Ref sig .tc := ⟨.hbm, 69, rfl⟩
abbrev main_c_3 : Ref sig .tc := ⟨.hbm, 70, rfl⟩
abbrev main_call3_v0 : Ref sig .tc := ⟨.hbm, 71, rfl⟩
abbrev main_call3_c : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_c_1 : Ref sig .tc := ⟨.hbm, 78, rfl⟩
abbrev main_call3_v5 : Ref sig .tc := ⟨.hbm, 79, rfl⟩
abbrev main_call3_v6 : Ref sig .tc := ⟨.hbm, 80, rfl⟩
abbrev main_call3_c_2 : Ref sig .tc := ⟨.hbm, 81, rfl⟩
abbrev main_call3_v7 : Ref sig .tc := ⟨.hbm, 82, rfl⟩
abbrev main_call3_v8 : Ref sig .tc := ⟨.hbm, 83, rfl⟩
abbrev main_call3_c_3 : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_v12 : Ref sig .tc := ⟨.hbm, 88, rfl⟩
abbrev main_call3_v13 : Ref sig .tc := ⟨.hbm, 89, rfl⟩
abbrev main_call3_v14 : Ref sig .tc := ⟨.hbm, 90, rfl⟩
abbrev main_v9 : Ref sig .tc := ⟨.hbm, 91, rfl⟩
abbrev main_c_4 : Ref sig .tc := ⟨.hbm, 92, rfl⟩
abbrev main_v10 : Ref sig .tc := ⟨.hbm, 93, rfl⟩
abbrev main_v11 : Ref sig .tc := ⟨.hbm, 94, rfl⟩
abbrev main_c_5 : Ref sig .tc := ⟨.hbm, 95, rfl⟩
abbrev main_v12 : Ref sig .tc := ⟨.hbm, 96, rfl⟩
abbrev main_v13 : Ref sig .tc := ⟨.hbm, 97, rfl⟩
abbrev main_c_6 : Ref sig .tc := ⟨.hbm, 98, rfl⟩
abbrev main_v14 : Ref sig .tc := ⟨.hbm, 99, rfl⟩
abbrev main_v15 : Ref sig .tc := ⟨.hbm, 100, rfl⟩
abbrev main_v16 : Ref sig .tc := ⟨.hbm, 101, rfl⟩
abbrev main_v17 : Ref sig .tc := ⟨.hbm, 102, rfl⟩
abbrev main_v18 : Ref sig .tc := ⟨.hbm, 103, rfl⟩
abbrev main_v19 : Ref sig .tc := ⟨.hbm, 104, rfl⟩
abbrev main_v20 : Ref sig .tc := ⟨.hbm, 105, rfl⟩
abbrev main_v21 : Ref sig .tc := ⟨.hbm, 106, rfl⟩
abbrev main_v22 : Ref sig .tc := ⟨.hbm, 107, rfl⟩
abbrev main_v23 : Ref sig .tc := ⟨.hbm, 108, rfl⟩
abbrev main_v24 : Ref sig .tc := ⟨.hbm, 109, rfl⟩
abbrev main_c_7 : Ref sig .tc := ⟨.hbm, 110, rfl⟩
abbrev main_call4_v0 : Ref sig .tc := ⟨.hbm, 111, rfl⟩
abbrev main_call4_v1 : Ref sig .tc := ⟨.hbm, 112, rfl⟩
abbrev main_call4_v2 : Ref sig .tc := ⟨.hbm, 113, rfl⟩
abbrev main_call4_v3 : Ref sig .tc := ⟨.hbm, 114, rfl⟩
abbrev main_call4_v4 : Ref sig .tc := ⟨.hbm, 115, rfl⟩
abbrev main_v25 : Ref sig .tc := ⟨.hbm, 116, rfl⟩
abbrev main_v26 : Ref sig .tc := ⟨.hbm, 117, rfl⟩
abbrev main_v27 : Ref sig .tc := ⟨.hbm, 118, rfl⟩
abbrev main_c_8 : Ref sig .tc := ⟨.hbm, 119, rfl⟩
abbrev main_v28 : Ref sig .tc := ⟨.hbm, 120, rfl⟩
abbrev main_v29 : Ref sig .tc := ⟨.hbm, 121, rfl⟩
abbrev main_v30 : Ref sig .tc := ⟨.hbm, 122, rfl⟩
abbrev main_v31 : Ref sig .tc := ⟨.hbm, 123, rfl⟩
abbrev main_v32 : Ref sig .tc := ⟨.hbm, 124, rfl⟩
abbrev main_c_9 : Ref sig .tc := ⟨.hbm, 125, rfl⟩
abbrev main_v33 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst : Ref sig .tc := ⟨.hbm, 133, rfl⟩
abbrev main_v40 : Ref sig .tc := ⟨.hbm, 134, rfl⟩
abbrev main_c_10 : Ref sig .tc := ⟨.hbm, 135, rfl⟩
abbrev main_v41 : Ref sig .tc := ⟨.hbm, 136, rfl⟩
abbrev main_v42 : Ref sig .tc := ⟨.hbm, 137, rfl⟩
abbrev main_c_11 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_v46 : Ref sig .tc := ⟨.hbm, 142, rfl⟩
abbrev main_v47 : Ref sig .tc := ⟨.hbm, 143, rfl⟩
abbrev main_v48 : Ref sig .tc := ⟨.hbm, 144, rfl⟩
abbrev main_v49 : Ref sig .tc := ⟨.hbm, 145, rfl⟩
abbrev main_v50 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x864 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x864 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![128], ![false]⟩

def cc1_transform_0 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage1_0 : Fin 2 → Memref sig .tc .vmem S1x1x128x128x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1x128x128x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S3x3x3x32x32_S27x32x32 : S3x3x3x32x32.ShapeCasts S27x32x32
  transposes_S27x32x32_S32x27x32_1_0_2 : S27x32x32.Transposes [1, 0, 2] S32x27x32
  shapeCasts_S32x27x32_S32x864 : S32x27x32.ShapeCasts S32x864
  inb_S1000x32_S1000x32_0_0 : ∀ a, (![0, 0] : Fin 2 → Nat) a + S1000x32.size a ≤ S1000x32.size a
  h_S1000x32 : 0 < S1000x32.numel
  inb_S32x864_S32x864_0_0 : ∀ a, (![0, 0] : Fin 2 → Nat) a + S32x864.size a ≤ S32x864.size a
  h_S32x864 : 0 < S32x864.numel
  shapeCasts_S32x864_S32x864 : S32x864.ShapeCasts S32x864
  inb_S1000x864_S1000x864_0_0 : ∀ a, (![0, 0] : Fin 2 → Nat) a + S1000x864.size a ≤ S1000x864.size a
  h_S1000x864 : 0 < S1000x864.numel
  shapeCasts_S200000x864_S200000x27x32 : S200000x864.ShapeCasts S200000x27x32
  bcast_S_S27 : S_.BroadcastsInDim S27 (![] : Fin 0 → Fin S27.rank)
  bcast_S27_S27x1_0 : S27.BroadcastsInDim S27x1 (![0] : Fin 1 → Fin S27x1.rank)
  concatenates_S27x1_S27x1_S27x1_S27x3_d1 : Shape.Concatenates [S27x1, S27x1, S27x1] S27x3 1
  bcast_S200000x3_S200000x1x3_0_2 : S200000x3.BroadcastsInDim S200000x1x3 (![0, 2] : Fin 2 → Fin S200000x1x3.rank)
  bcast_S27x3_S1x27x3_1_2 : S27x3.BroadcastsInDim S1x27x3 (![1, 2] : Fin 2 → Fin S1x27x3.rank)
  bcast_S200000x1x3_S200000x27x3_0_1_2 : S200000x1x3.BroadcastsInDim S200000x27x3 (![0, 1, 2] : Fin 3 → Fin S200000x27x3.rank)
  bcast_S1x27x3_S200000x27x3_0_1_2 : S1x27x3.BroadcastsInDim S200000x27x3 (![0, 1, 2] : Fin 3 → Fin S200000x27x3.rank)
  bcast_S_S200000x27x3 : S_.BroadcastsInDim S200000x27x3 (![] : Fin 0 → Fin S200000x27x3.rank)
  bcast_S3_S1x1x3_2 : S3.BroadcastsInDim S1x1x3 (![2] : Fin 1 → Fin S1x1x3.rank)
  bcast_S1x1x3_S200000x27x3_0_1_2 : S1x1x3.BroadcastsInDim S200000x27x3 (![0, 1, 2] : Fin 3 → Fin S200000x27x3.rank)
  slices_S200000x27x3_S200000x27x1_0_0_0 : S200000x27x3.Slices ![0, 0, 0] S200000x27x1
  shapeCasts_S200000x27x1_S200000x27 : S200000x27x1.ShapeCasts S200000x27
  bcast_S_S200000x27 : S_.BroadcastsInDim S200000x27 (![] : Fin 0 → Fin S200000x27.rank)
  slices_S200000x27x3_S200000x27x1_0_0_1 : S200000x27x3.Slices ![0, 0, 1] S200000x27x1
  slices_S200000x27x3_S200000x27x1_0_0_2 : S200000x27x3.Slices ![0, 0, 2] S200000x27x1
  shapeCasts_S200000x27_S5400000 : S200000x27.ShapeCasts S5400000
  shapeCasts_S200000x27x32_S5400000x32 : S200000x27x32.ShapeCasts S5400000x32
  bcast_S_S2097152x32 : S_.BroadcastsInDim S2097152x32 (![] : Fin 0 → Fin S2097152x32.rank)
  bcast_S_S5400000 : S_.BroadcastsInDim S5400000 (![] : Fin 0 → Fin S5400000.rank)
  bcast_S5400000_S5400000x1_0 : S5400000.BroadcastsInDim S5400000x1 (![0] : Fin 1 → Fin S5400000x1.rank)
  shapeCasts_S2097152x32_S1x128x128x128x32 : S2097152x32.ShapeCasts S1x128x128x128x32
  shapeCasts_S1x128x128x128x1_S1x128x128x128 : S1x128x128x128x1.ShapeCasts S1x128x128x128
  inb_S1x1x128x128x32_S1x1x128x128x32_0_0_0_0_0 : ∀ a, (![0, 0, 0, 0, 0] : Fin 5 → Nat) a + S1x1x128x128x32.size a ≤ S1x1x128x128x32.size a
  h_S1x1x128x128x32 : 0 < S1x1x128x128x32.numel
  shapeCasts_S1x1x128x128x32_S1x1x128x128x32 : S1x1x128x128x32.ShapeCasts S1x1x128x128x32
  inb_S1x1x128x128_S1x1x128x128_0_0_0_0 : ∀ a, (![0, 0, 0, 0] : Fin 4 → Nat) a + S1x1x128x128.size a ≤ S1x1x128x128.size a
  h_S1x1x128x128 : 0 < S1x1x128x128.numel
  shapeCasts_S1x1x128x128_S1x1x128x128 : S1x1x128x128.ShapeCasts S1x1x128x128
  shapeCasts_S1x1x128x128_S1x1x128x128x1 : S1x1x128x128.ShapeCasts S1x1x128x128x1
  inb_S32_S32_0 : ∀ a, (![0] : Fin 1 → Nat) a + S32.size a ≤ S32.size a
  h_S32 : 0 < S32.numel
  shapeCasts_S32_S1x1x1x1x32 : S32.ShapeCasts S1x1x1x1x32
  broadcasts_S1x1x128x128x1_S1x1x128x128x32 : S1x1x128x128x1.Broadcasts S1x1x128x128x32
  broadcasts_S1x1x1x1x32_S1x1x128x128x32 : S1x1x1x1x32.Broadcasts S1x1x128x128x32
  dot_S1000x32_S32x864_S1000x864_1_0_0_1_n_n_wf : DotDims.WF S1000x32 S32x864 S1000x864 [1] [0] [0] [1] [] []
  scatter_S2097152x32_S5400000x1_S5400000x32_1_0_0_1_wf : ScatterDims.WF S2097152x32 S5400000x1 S5400000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x32.size a ≤ S200000x32.size a
  hwx0_0 : ∀ i : grid0.Coords, EltTy.bits .f32 = 32 ∨ (Rect.block (s := S200000x32) S1000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x864.size a ≤ S32x864.size a
  hwx0_1 : ∀ i : grid0.Coords, EltTy.bits .f32 = 32 ∨ (Rect.block (s := S32x864) S32x864.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x864.size a ≤ S200000x864.size a
  hwx0_2 : ∀ i : grid0.Coords, EltTy.bits .f32 = 32 ∨ (Rect.block (s := S200000x864) S1000x864.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x128x128x32.size a ≤ S1x128x128x128x32.size a
  hwx1_0 : ∀ i : grid1.Coords, EltTy.bits .f32 = 32 ∨ (Rect.block (s := S1x128x128x128x32) S1x1x128x128x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x128x128.size a ≤ S1x128x128x128.size a
  hwx1_1 : ∀ i : grid1.Coords, EltTy.bits .f32 = 32 ∨ (Rect.block (s := S1x128x128x128) S1x1x128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32.size a ≤ S32.size a
  hwx1_2 : ∀ i : grid1.Coords, EltTy.bits .f32 = 32 ∨ (Rect.block (s := S32) S32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x128x128x32.size a ≤ S1x128x128x128x32.size a
  hwx1_3 : ∀ i : grid1.Coords, EltTy.bits .f32 = 32 ∨ (Rect.block (s := S1x128x128x128x32) S1x1x128x128x32.size (cc1_transform_3 i) (hinb1_3 i)).WholeWords (EltTy.packing .f32)

variable [Facts₀]

def dot_S1000x32_S32x864_S1000x864_1_0_0_1_n_n : DotDims S1000x32 S32x864 S1000x864 where
  lhsContracting := [1]
  rhsContracting := [0]
  lhsNonContracting := [0]
  rhsNonContracting := [1]
  lhsBatch := []
  rhsBatch := []
  wf := dot_S1000x32_S32x864_S1000x864_1_0_0_1_n_n_wf
def scatter_S2097152x32_S5400000x1_S5400000x32_1_0_0_1 : ScatterDims S2097152x32 S5400000x1 S5400000x32 where
  updateWindowDims := [1]
  insertedWindowDims := [0]
  scatterDimsToOperandDims := [0]
  indexVectorDim := 1
  wf := scatter_S2097152x32_S5400000x1_S5400000x32_1_0_0_1_wf

abbrev win0_0 : Pipeline.Window sig grid0 :=
  Pipeline.Window.ofSpec (Memref.whole main_arg0) S1000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S32x864.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1000x864.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S1x1x128x128x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x1x128x128x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where
  halias1_3 : Pipeline.Aliased win1 0 3

variable [Facts]
-- ==== ReferenceIdeal.lean ====
abbrev S200000x32 : Shape := ⟨2, ![200000, 32]⟩
abbrev S200000x3 : Shape := ⟨2, ![200000, 3]⟩
abbrev S1x128x128x128x1 : Shape := ⟨5, ![1, 128, 128, 128, 1]⟩
abbrev S3x3x3x32x32 : Shape := ⟨5, ![3, 3, 3, 32, 32]⟩
abbrev S32 : Shape := ⟨1, ![32]⟩
abbrev S3 : Shape := ⟨1, ![3]⟩
abbrev S_ : Shape := ⟨0, ![]⟩
abbrev S2097152x32 : Shape := ⟨2, ![2097152, 32]⟩
abbrev S1x1x1x32x32 : Shape := ⟨5, ![1, 1, 1, 32, 32]⟩
abbrev S32x32 : Shape := ⟨2, ![32, 32]⟩
abbrev S1x3 : Shape := ⟨2, ![1, 3]⟩
abbrev S200000x1 : Shape := ⟨2, ![200000, 1]⟩
abbrev S200000 : Shape := ⟨1, ![200000]⟩
abbrev S1x128x128x128x32 : Shape := ⟨5, ![1, 128, 128, 128, 32]⟩
abbrev S1x1x1x1x32 : Shape := ⟨5, ![1, 1, 1, 1, 32]⟩

abbrev nBuf : Space → Nat
  | .hbm => 1015
  | .vmem => 0
  | .smem => 0
  | _ => 0

abbrev hbmTy0_0 (i : Nat) : BufTy := match i % 128 with
  | 0 => ⟨S200000x32, .f32⟩
  | 1 => ⟨S200000x3, .i32⟩
  | 2 => ⟨S1x128x128x128x1, .f32⟩
  | 3 => ⟨S3x3x3x32x32, .f32⟩
  | 4 => ⟨S32, .f32⟩
  | 5 => ⟨S3, .i32⟩
  | 6 => ⟨S3, .i32⟩
  | 7 => ⟨S3, .i32⟩
  | 8 => ⟨S3, .i32⟩
  | 9 => ⟨S3, .i32⟩
  | 10 => ⟨S3, .i32⟩
  | 11 => ⟨S3, .i32⟩
  | 12 => ⟨S3, .i32⟩
  | 13 => ⟨S3, .i32⟩
  | 14 => ⟨S3, .i32⟩
  | 15 => ⟨S3, .i32⟩
  | 16 => ⟨S3, .i32⟩
  | 17 => ⟨S3, .i32⟩
  | 18 => ⟨S3, .i32⟩
  | 19 => ⟨S3, .i32⟩
  | 20 => ⟨S3, .i32⟩
  | 21 => ⟨S3, .i32⟩
  | 22 => ⟨S3, .i32⟩
  | 23 => ⟨S3, .i32⟩
  | 24 => ⟨S3, .i32⟩
  | 25 => ⟨S3, .i32⟩
  | 26 => ⟨S3, .i32⟩
  | 27 => ⟨S3, .i32⟩
  | 28 => ⟨S3, .i32⟩
  | 29 => ⟨S3, .i32⟩
  | 30 => ⟨S3, .i32⟩
  | 31 => ⟨S3, .i32⟩
  | 32 => ⟨S3, .i32⟩
  | 33 => ⟨S_, .f32⟩
  | 34 => ⟨S2097152x32, .f32⟩
  | 35 => ⟨S1x1x1x32x32, .f32⟩
  | 36 => ⟨S32x32, .f32⟩
  | 37 => ⟨S200000x32, .f32⟩
  | 38 => ⟨S1x3, .i32⟩
  | 39 => ⟨S200000x3, .i32⟩
  | 40 => ⟨S200000x3, .i32⟩
  | 41 => ⟨S_, .i32⟩
  | 42 => ⟨S_, .i32⟩
  | 43 => ⟨S200000x3, .i32⟩
  | 44 => ⟨S200000x3, .i32⟩
  | 45 => ⟨S1x3, .i32⟩
  | 46 => ⟨S200000x3, .i32⟩
  | 47 => ⟨S200000x3, .i32⟩
  | 48 => ⟨S200000x1, .i32⟩
  | 49 => ⟨S200000, .i32⟩
  | 50 => ⟨S_, .i32⟩
  | 51 => ⟨S200000, .i32⟩
  | 52 => ⟨S200000, .i32⟩
  | 53 => ⟨S200000x1, .i32⟩
  | 54 => ⟨S200000, .i32⟩
  | 55 => ⟨S200000, .i32⟩
  | 56 => ⟨S_, .i32⟩
  | 57 => ⟨S200000, .i32⟩
  | 58 => ⟨S200000, .i32⟩
  | 59 => ⟨S200000x1, .i32⟩
  | 60 => ⟨S200000, .i32⟩
  | 61 => ⟨S200000, .i32⟩
  | 62 => ⟨S_, .i32⟩
  | 63 => ⟨S200000, .i32⟩
  | 64 => ⟨S200000, .i1⟩
  | 65 => ⟨S_, .i32⟩
  | 66 => ⟨S200000, .i32⟩
  | 67 => ⟨S200000, .i32⟩
  | 68 => ⟨S200000, .i32⟩
  | 69 => ⟨S200000x1, .i32⟩
  | 70 => ⟨S2097152x32, .f32⟩
  | 71 => ⟨S1x1x1x32x32, .f32⟩
  | 72 => ⟨S32x32, .f32⟩
  | 73 => ⟨S200000x32, .f32⟩
  | 74 => ⟨S1x3, .i32⟩
  | 75 => ⟨S200000x3, .i32⟩
  | 76 => ⟨S200000x3, .i32⟩
  | 77 => ⟨S_, .i32⟩
  | 78 => ⟨S_, .i32⟩
  | 79 => ⟨S200000x3, .i32⟩
  | 80 => ⟨S200000x3, .i32⟩
  | 81 => ⟨S1x3, .i32⟩
  | 82 => ⟨S200000x3, .i32⟩
  | 83 => ⟨S200000x3, .i32⟩
  | 84 => ⟨S200000x1, .i32⟩
  | 85 => ⟨S200000, .i32⟩
  | 86 => ⟨S_, .i32⟩
  | 87 => ⟨S200000, .i32⟩
  | 88 => ⟨S200000, .i32⟩
  | 89 => ⟨S200000x1, .i32⟩
  | 90 => ⟨S200000, .i32⟩
  | 91 => ⟨S200000, .i32⟩
  | 92 => ⟨S_, .i32⟩
  | 93 => ⟨S200000, .i32⟩
  | 94 => ⟨S200000, .i32⟩
  | 95 => ⟨S200000x1, .i32⟩
  | 96 => ⟨S200000, .i32⟩
  | 97 => ⟨S200000, .i32⟩
  | 98 => ⟨S_, .i32⟩
  | 99 => ⟨S200000, .i32⟩
  | 100 => ⟨S200000, .i1⟩
  | 101 => ⟨S_, .i32⟩
  | 102 => ⟨S200000, .i32⟩
  | 103 => ⟨S200000, .i32⟩
  | 104 => ⟨S200000, .i32⟩
  | 105 => ⟨S200000x1, .i32⟩
  | 106 => ⟨S2097152x32, .f32⟩
  | 107 => ⟨S1x1x1x32x32, .f32⟩
  | 108 => ⟨S32x32, .f32⟩
  | 109 => ⟨S200000x32, .f32⟩
  | 110 => ⟨S1x3, .i32⟩
  | 111 => ⟨S200000x3, .i32⟩
  | 112 => ⟨S200000x3, .i32⟩
  | 113 => ⟨S_, .i32⟩
  | 114 => ⟨S_, .i32⟩
  | 115 => ⟨S200000x3, .i32⟩
  | 116 => ⟨S200000x3, .i32⟩
  | 117 => ⟨S1x3, .i32⟩
  | 118 => ⟨S200000x3, .i32⟩
  | 119 => ⟨S200000x3, .i32⟩
  | 120 => ⟨S200000x1, .i32⟩
  | 121 => ⟨S200000, .i32⟩
  | 122 => ⟨S_, .i32⟩
  | 123 => ⟨S200000, .i32⟩
  | 124 => ⟨S200000, .i32⟩
  | 125 => ⟨S200000x1, .i32⟩
  | 126 => ⟨S200000, .i32⟩
  | 127 => ⟨S200000, .i32⟩
  | _ => ⟨S200000x32, .f32⟩

abbrev hbmTy0_1 (i : Nat) : BufTy := match i % 128 with
  | 0 => ⟨S_, .i32⟩
  | 1 => ⟨S200000, .i32⟩
  | 2 => ⟨S200000, .i32⟩
  | 3 => ⟨S200000x1, .i32⟩
  | 4 => ⟨S200000, .i32⟩
  | 5 => ⟨S200000, .i32⟩
  | 6 => ⟨S_, .i32⟩
  | 7 => ⟨S200000, .i32⟩
  | 8 => ⟨S200000, .i1⟩
  | 9 => ⟨S_, .i32⟩
  | 10 => ⟨S200000, .i32⟩
  | 11 => ⟨S200000, .i32⟩
  | 12 => ⟨S200000, .i32⟩
  | 13 => ⟨S200000x1, .i32⟩
  | 14 => ⟨S2097152x32, .f32⟩
  | 15 => ⟨S1x1x1x32x32, .f32⟩
  | 16 => ⟨S32x32, .f32⟩
  | 17 => ⟨S200000x32, .f32⟩
  | 18 => ⟨S1x3, .i32⟩
  | 19 => ⟨S200000x3, .i32⟩
  | 20 => ⟨S200000x3, .i32⟩
  | 21 => ⟨S_, .i32⟩
  | 22 => ⟨S_, .i32⟩
  | 23 => ⟨S200000x3, .i32⟩
  | 24 => ⟨S200000x3, .i32⟩
  | 25 => ⟨S1x3, .i32⟩
  | 26 => ⟨S200000x3, .i32⟩
  | 27 => ⟨S200000x3, .i32⟩
  | 28 => ⟨S200000x1, .i32⟩
  | 29 => ⟨S200000, .i32⟩
  | 30 => ⟨S_, .i32⟩
  | 31 => ⟨S200000, .i32⟩
  | 32 => ⟨S200000, .i32⟩
  | 33 => ⟨S200000x1, .i32⟩
  | 34 => ⟨S200000, .i32⟩
  | 35 => ⟨S200000, .i32⟩
  | 36 => ⟨S_, .i32⟩
  | 37 => ⟨S200000, .i32⟩
  | 38 => ⟨S200000, .i32⟩
  | 39 => ⟨S200000x1, .i32⟩
  | 40 => ⟨S200000, .i32⟩
  | 41 => ⟨S200000, .i32⟩
  | 42 => ⟨S_, .i32⟩
  | 43 => ⟨S200000, .i32⟩
  | 44 => ⟨S200000, .i1⟩
  | 45 => ⟨S_, .i32⟩
  | 46 => ⟨S200000, .i32⟩
  | 47 => ⟨S200000, .i32⟩
  | 48 => ⟨S200000, .i32⟩
  | 49 => ⟨S200000x1, .i32⟩
  | 50 => ⟨S2097152x32, .f32⟩
  | 51 => ⟨S1x1x1x32x32, .f32⟩
  | 52 => ⟨S32x32, .f32⟩
  | 53 => ⟨S200000x32, .f32⟩
  | 54 => ⟨S1x3, .i32⟩
  | 55 => ⟨S200000x3, .i32⟩
  | 56 => ⟨S200000x3, .i32⟩
  | 57 => ⟨S_, .i32⟩
  | 58 => ⟨S_, .i32⟩
  | 59 => ⟨S200000x3, .i32⟩
  | 60 => ⟨S200000x3, .i32⟩
  | 61 => ⟨S1x3, .i32⟩
  | 62 => ⟨S200000x3, .i32⟩
  | 63 => ⟨S200000x3, .i32⟩
  | 64 => ⟨S200000x1, .i32⟩
  | 65 => ⟨S200000, .i32⟩
  | 66 => ⟨S_, .i32⟩
  | 67 => ⟨S200000, .i32⟩
  | 68 => ⟨S200000, .i32⟩
  | 69 => ⟨S200000x1, .i32⟩
  | 70 => ⟨S200000, .i32⟩
  | 71 => ⟨S200000, .i32⟩
  | 72 => ⟨S_, .i32⟩
  | 73 => ⟨S200000, .i32⟩
  | 74 => ⟨S200000, .i32⟩
  | 75 => ⟨S200000x1, .i32⟩
  | 76 => ⟨S200000, .i32⟩
  | 77 => ⟨S200000, .i32⟩
  | 78 => ⟨S_, .i32⟩
  | 79 => ⟨S200000, .i32⟩
  | 80 => ⟨S200000, .i1⟩
  | 81 => ⟨S_, .i32⟩
  | 82 => ⟨S200000, .i32⟩
  | 83 => ⟨S200000, .i32⟩
  | 84 => ⟨S200000, .i32⟩
  | 85 => ⟨S200000x1, .i32⟩
  | 86 => ⟨S2097152x32, .f32⟩
  | 87 => ⟨S1x1x1x32x32, .f32⟩
  | 88 => ⟨S32x32, .f32⟩
  | 89 => ⟨S200000x32, .f32⟩
  | 90 => ⟨S1x3, .i32⟩
  | 91 => ⟨S200000x3, .i32⟩
  | 92 => ⟨S200000x3, .i32⟩
  | 93 => ⟨S_, .i32⟩
  | 94 => ⟨S_, .i32⟩
  | 95 => ⟨S200000x3, .i32⟩
  | 96 => ⟨S200000x3, .i32⟩
  | 97 => ⟨S1x3, .i32⟩
  | 98 => ⟨S200000x3, .i32⟩
  | 99 => ⟨S200000x3, .i32⟩
  | 100 => ⟨S200000x1, .i32⟩
  | 101 => ⟨S200000, .i32⟩
  | 102 => ⟨S_, .i32⟩
  | 103 => ⟨S200000, .i32⟩
  | 104 => ⟨S200000, .i32⟩
  | 105 => ⟨S200000x1, .i32⟩
  | 106 => ⟨S200000, .i32⟩
  | 107 => ⟨S200000, .i32⟩
  | 108 => ⟨S_, .i32⟩
  | 109 => ⟨S200000, .i32⟩
  | 110 => ⟨S200000, .i32⟩
  | 111 => ⟨S200000x1, .i32⟩
  | 112 => ⟨S200000, .i32⟩
  | 113 => ⟨S200000, .i32⟩
  | 114 => ⟨S_, .i32⟩
  | 115 => ⟨S200000, .i32⟩
  | 116 => ⟨S200000, .i1⟩
  | 117 => ⟨S_, .i32⟩
  | 118 => ⟨S200000, .i32⟩
  | 119 => ⟨S200000, .i32⟩
  | 120 => ⟨S200000, .i32⟩
  | 121 => ⟨S200000x1, .i32⟩
  | 122 => ⟨S2097152x32, .f32⟩
  | 123 => ⟨S1x1x1x32x32, .f32⟩
  | 124 => ⟨S32x32, .f32⟩
  | 125 => ⟨S200000x32, .f32⟩
  | 126 => ⟨S1x3, .i32⟩
  | 127 => ⟨S200000x3, .i32⟩
  | _ => ⟨S200000x32, .f32⟩

abbrev hbmTy0_2 (i : Nat) : BufTy := match i % 128 with
  | 0 => ⟨S200000x3, .i32⟩
  | 1 => ⟨S_, .i32⟩
  | 2 => ⟨S_, .i32⟩
  | 3 => ⟨S200000x3, .i32⟩
  | 4 => ⟨S200000x3, .i32⟩
  | 5 => ⟨S1x3, .i32⟩
  | 6 => ⟨S200000x3, .i32⟩
  | 7 => ⟨S200000x3, .i32⟩
  | 8 => ⟨S200000x1, .i32⟩
  | 9 => ⟨S200000, .i32⟩
  | 10 => ⟨S_, .i32⟩
  | 11 => ⟨S200000, .i32⟩
  | 12 => ⟨S200000, .i32⟩
  | 13 => ⟨S200000x1, .i32⟩
  | 14 => ⟨S200000, .i32⟩
  | 15 => ⟨S200000, .i32⟩
  | 16 => ⟨S_, .i32⟩
  | 17 => ⟨S200000, .i32⟩
  | 18 => ⟨S200000, .i32⟩
  | 19 => ⟨S200000x1, .i32⟩
  | 20 => ⟨S200000, .i32⟩
  | 21 => ⟨S200000, .i32⟩
  | 22 => ⟨S_, .i32⟩
  | 23 => ⟨S200000, .i32⟩
  | 24 => ⟨S200000, .i1⟩
  | 25 => ⟨S_, .i32⟩
  | 26 => ⟨S200000, .i32⟩
  | 27 => ⟨S200000, .i32⟩
  | 28 => ⟨S200000, .i32⟩
  | 29 => ⟨S200000x1, .i32⟩
  | 30 => ⟨S2097152x32, .f32⟩
  | 31 => ⟨S1x1x1x32x32, .f32⟩
  | 32 => ⟨S32x32, .f32⟩
  | 33 => ⟨S200000x32, .f32⟩
  | 34 => ⟨S1x3, .i32⟩
  | 35 => ⟨S200000x3, .i32⟩
  | 36 => ⟨S200000x3, .i32⟩
  | 37 => ⟨S_, .i32⟩
  | 38 => ⟨S_, .i32⟩
  | 39 => ⟨S200000x3, .i32⟩
  | 40 => ⟨S200000x3, .i32⟩
  | 41 => ⟨S1x3, .i32⟩
  | 42 => ⟨S200000x3, .i32⟩
  | 43 => ⟨S200000x3, .i32⟩
  | 44 => ⟨S200000x1, .i32⟩
  | 45 => ⟨S200000, .i32⟩
  | 46 => ⟨S_, .i32⟩
  | 47 => ⟨S200000, .i32⟩
  | 48 => ⟨S200000, .i32⟩
  | 49 => ⟨S200000x1, .i32⟩
  | 50 => ⟨S200000, .i32⟩
  | 51 => ⟨S200000, .i32⟩
  | 52 => ⟨S_, .i32⟩
  | 53 => ⟨S200000, .i32⟩
  | 54 => ⟨S200000, .i32⟩
  | 55 => ⟨S200000x1, .i32⟩
  | 56 => ⟨S200000, .i32⟩
  | 57 => ⟨S200000, .i32⟩
  | 58 => ⟨S_, .i32⟩
  | 59 => ⟨S200000, .i32⟩
  | 60 => ⟨S200000, .i1⟩
  | 61 => ⟨S_, .i32⟩
  | 62 => ⟨S200000, .i32⟩
  | 63 => ⟨S200000, .i32⟩
  | 64 => ⟨S200000, .i32⟩
  | 65 => ⟨S200000x1, .i32⟩
  | 66 => ⟨S2097152x32, .f32⟩
  | 67 => ⟨S1x1x1x32x32, .f32⟩
  | 68 => ⟨S32x32, .f32⟩
  | 69 => ⟨S200000x32, .f32⟩
  | 70 => ⟨S1x3, .i32⟩
  | 71 => ⟨S200000x3, .i32⟩
  | 72 => ⟨S200000x3, .i32⟩
  | 73 => ⟨S_, .i32⟩
  | 74 => ⟨S_, .i32⟩
  | 75 => ⟨S200000x3, .i32⟩
  | 76 => ⟨S200000x3, .i32⟩
  | 77 => ⟨S1x3, .i32⟩
  | 78 => ⟨S200000x3, .i32⟩
  | 79 => ⟨S200000x3, .i32⟩
  | 80 => ⟨S200000x1, .i32⟩
  | 81 => ⟨S200000, .i32⟩
  | 82 => ⟨S_, .i32⟩
  | 83 => ⟨S200000, .i32⟩
  | 84 => ⟨S200000, .i32⟩
  | 85 => ⟨S200000x1, .i32⟩
  | 86 => ⟨S200000, .i32⟩
  | 87 => ⟨S200000, .i32⟩
  | 88 => ⟨S_, .i32⟩
  | 89 => ⟨S200000, .i32⟩
  | 90 => ⟨S200000, .i32⟩
  | 91 => ⟨S200000x1, .i32⟩
  | 92 => ⟨S200000, .i32⟩
  | 93 => ⟨S200000, .i32⟩
  | 94 => ⟨S_, .i32⟩
  | 95 => ⟨S200000, .i32⟩
  | 96 => ⟨S200000, .i1⟩
  | 97 => ⟨S_, .i32⟩
  | 98 => ⟨S200000, .i32⟩
  | 99 => ⟨S200000, .i32⟩
  | 100 => ⟨S200000, .i32⟩
  | 101 => ⟨S200000x1, .i32⟩
  | 102 => ⟨S2097152x32, .f32⟩
  | 103 => ⟨S1x1x1x32x32, .f32⟩
  | 104 => ⟨S32x32, .f32⟩
  | 105 => ⟨S200000x32, .f32⟩
  | 106 => ⟨S1x3, .i32⟩
  | 107 => ⟨S200000x3, .i32⟩
  | 108 => ⟨S200000x3, .i32⟩
  | 109 => ⟨S_, .i32⟩
  | 110 => ⟨S_, .i32⟩
  | 111 => ⟨S200000x3, .i32⟩
  | 112 => ⟨S200000x3, .i32⟩
  | 113 => ⟨S1x3, .i32⟩
  | 114 => ⟨S200000x3, .i32⟩
  | 115 => ⟨S200000x3, .i32⟩
  | 116 => ⟨S200000x1, .i32⟩
  | 117 => ⟨S200000, .i32⟩
  | 118 => ⟨S_, .i32⟩
  | 119 => ⟨S200000, .i32⟩
  | 120 => ⟨S200000, .i32⟩
  | 121 => ⟨S200000x1, .i32⟩
  | 122 => ⟨S200000, .i32⟩
  | 123 => ⟨S200000, .i32⟩
  | 124 => ⟨S_, .i32⟩
  | 125 => ⟨S200000, .i32⟩
  | 126 => ⟨S200000, .i32⟩
  | 127 => ⟨S200000x1, .i32⟩
  | _ => ⟨S200000x32, .f32⟩

abbrev hbmTy0_3 (i : Nat) : BufTy := match i % 128 with
  | 0 => ⟨S200000, .i32⟩
  | 1 => ⟨S200000, .i32⟩
  | 2 => ⟨S_, .i32⟩
  | 3 => ⟨S200000, .i32⟩
  | 4 => ⟨S200000, .i1⟩
  | 5 => ⟨S_, .i32⟩
  | 6 => ⟨S200000, .i32⟩
  | 7 => ⟨S200000, .i32⟩
  | 8 => ⟨S200000, .i32⟩
  | 9 => ⟨S200000x1, .i32⟩
  | 10 => ⟨S2097152x32, .f32⟩
  | 11 => ⟨S1x1x1x32x32, .f32⟩
  | 12 => ⟨S32x32, .f32⟩
  | 13 => ⟨S200000x32, .f32⟩
  | 14 => ⟨S1x3, .i32⟩
  | 15 => ⟨S200000x3, .i32⟩
  | 16 => ⟨S200000x3, .i32⟩
  | 17 => ⟨S_, .i32⟩
  | 18 => ⟨S_, .i32⟩
  | 19 => ⟨S200000x3, .i32⟩
  | 20 => ⟨S200000x3, .i32⟩
  | 21 => ⟨S1x3, .i32⟩
  | 22 => ⟨S200000x3, .i32⟩
  | 23 => ⟨S200000x3, .i32⟩
  | 24 => ⟨S200000x1, .i32⟩
  | 25 => ⟨S200000, .i32⟩
  | 26 => ⟨S_, .i32⟩
  | 27 => ⟨S200000, .i32⟩
  | 28 => ⟨S200000, .i32⟩
  | 29 => ⟨S200000x1, .i32⟩
  | 30 => ⟨S200000, .i32⟩
  | 31 => ⟨S200000, .i32⟩
  | 32 => ⟨S_, .i32⟩
  | 33 => ⟨S200000, .i32⟩
  | 34 => ⟨S200000, .i32⟩
  | 35 => ⟨S200000x1, .i32⟩
  | 36 => ⟨S200000, .i32⟩
  | 37 => ⟨S200000, .i32⟩
  | 38 => ⟨S_, .i32⟩
  | 39 => ⟨S200000, .i32⟩
  | 40 => ⟨S200000, .i1⟩
  | 41 => ⟨S_, .i32⟩
  | 42 => ⟨S200000, .i32⟩
  | 43 => ⟨S200000, .i32⟩
  | 44 => ⟨S200000, .i32⟩
  | 45 => ⟨S200000x1, .i32⟩
  | 46 => ⟨S2097152x32, .f32⟩
  | 47 => ⟨S1x1x1x32x32, .f32⟩
  | 48 => ⟨S32x32, .f32⟩
  | 49 => ⟨S200000x32, .f32⟩
  | 50 => ⟨S1x3, .i32⟩
  | 51 => ⟨S200000x3, .i32⟩
  | 52 => ⟨S200000x3, .i32⟩
  | 53 => ⟨S_, .i32⟩
  | 54 => ⟨S_, .i32⟩
  | 55 => ⟨S200000x3, .i32⟩
  | 56 => ⟨S200000x3, .i32⟩
  | 57 => ⟨S1x3, .i32⟩
  | 58 => ⟨S200000x3, .i32⟩
  | 59 => ⟨S200000x3, .i32⟩
  | 60 => ⟨S200000x1, .i32⟩
  | 61 => ⟨S200000, .i32⟩
  | 62 => ⟨S_, .i32⟩
  | 63 => ⟨S200000, .i32⟩
  | 64 => ⟨S200000, .i32⟩
  | 65 => ⟨S200000x1, .i32⟩
  | 66 => ⟨S200000, .i32⟩
  | 67 => ⟨S200000, .i32⟩
  | 68 => ⟨S_, .i32⟩
  | 69 => ⟨S200000, .i32⟩
  | 70 => ⟨S200000, .i32⟩
  | 71 => ⟨S200000x1, .i32⟩
  | 72 => ⟨S200000, .i32⟩
  | 73 => ⟨S200000, .i32⟩
  | 74 => ⟨S_, .i32⟩
  | 75 => ⟨S200000, .i32⟩
  | 76 => ⟨S200000, .i1⟩
  | 77 => ⟨S_, .i32⟩
  | 78 => ⟨S200000, .i32⟩
  | 79 => ⟨S200000, .i32⟩
  | 80 => ⟨S200000, .i32⟩
  | 81 => ⟨S200000x1, .i32⟩
  | 82 => ⟨S2097152x32, .f32⟩
  | 83 => ⟨S1x1x1x32x32, .f32⟩
  | 84 => ⟨S32x32, .f32⟩
  | 85 => ⟨S200000x32, .f32⟩
  | 86 => ⟨S1x3, .i32⟩
  | 87 => ⟨S200000x3, .i32⟩
  | 88 => ⟨S200000x3, .i32⟩
  | 89 => ⟨S_, .i32⟩
  | 90 => ⟨S_, .i32⟩
  | 91 => ⟨S200000x3, .i32⟩
  | 92 => ⟨S200000x3, .i32⟩
  | 93 => ⟨S1x3, .i32⟩
  | 94 => ⟨S200000x3, .i32⟩
  | 95 => ⟨S200000x3, .i32⟩
  | 96 => ⟨S200000x1, .i32⟩
  | 97 => ⟨S200000, .i32⟩
  | 98 => ⟨S_, .i32⟩
  | 99 => ⟨S200000, .i32⟩
  | 100 => ⟨S200000, .i32⟩
  | 101 => ⟨S200000x1, .i32⟩
  | 102 => ⟨S200000, .i32⟩
  | 103 => ⟨S200000, .i32⟩
  | 104 => ⟨S_, .i32⟩
  | 105 => ⟨S200000, .i32⟩
  | 106 => ⟨S200000, .i32⟩
  | 107 => ⟨S200000x1, .i32⟩
  | 108 => ⟨S200000, .i32⟩
  | 109 => ⟨S200000, .i32⟩
  | 110 => ⟨S_, .i32⟩
  | 111 => ⟨S200000, .i32⟩
  | 112 => ⟨S200000, .i1⟩
  | 113 => ⟨S_, .i32⟩
  | 114 => ⟨S200000, .i32⟩
  | 115 => ⟨S200000, .i32⟩
  | 116 => ⟨S200000, .i32⟩
  | 117 => ⟨S200000x1, .i32⟩
  | 118 => ⟨S2097152x32, .f32⟩
  | 119 => ⟨S1x1x1x32x32, .f32⟩
  | 120 => ⟨S32x32, .f32⟩
  | 121 => ⟨S200000x32, .f32⟩
  | 122 => ⟨S1x3, .i32⟩
  | 123 => ⟨S200000x3, .i32⟩
  | 124 => ⟨S200000x3, .i32⟩
  | 125 => ⟨S_, .i32⟩
  | 126 => ⟨S_, .i32⟩
  | 127 => ⟨S200000x3, .i32⟩
  | _ => ⟨S200000x32, .f32⟩

abbrev hbmTy0_4 (i : Nat) : BufTy := match i % 128 with
  | 0 => ⟨S200000x3, .i32⟩
  | 1 => ⟨S1x3, .i32⟩
  | 2 => ⟨S200000x3, .i32⟩
  | 3 => ⟨S200000x3, .i32⟩
  | 4 => ⟨S200000x1, .i32⟩
  | 5 => ⟨S200000, .i32⟩
  | 6 => ⟨S_, .i32⟩
  | 7 => ⟨S200000, .i32⟩
  | 8 => ⟨S200000, .i32⟩
  | 9 => ⟨S200000x1, .i32⟩
  | 10 => ⟨S200000, .i32⟩
  | 11 => ⟨S200000, .i32⟩
  | 12 => ⟨S_, .i32⟩
  | 13 => ⟨S200000, .i32⟩
  | 14 => ⟨S200000, .i32⟩
  | 15 => ⟨S200000x1, .i32⟩
  | 16 => ⟨S200000, .i32⟩
  | 17 => ⟨S200000, .i32⟩
  | 18 => ⟨S_, .i32⟩
  | 19 => ⟨S200000, .i32⟩
  | 20 => ⟨S200000, .i1⟩
  | 21 => ⟨S_, .i32⟩
  | 22 => ⟨S200000, .i32⟩
  | 23 => ⟨S200000, .i32⟩
  | 24 => ⟨S200000, .i32⟩
  | 25 => ⟨S200000x1, .i32⟩
  | 26 => ⟨S2097152x32, .f32⟩
  | 27 => ⟨S1x1x1x32x32, .f32⟩
  | 28 => ⟨S32x32, .f32⟩
  | 29 => ⟨S200000x32, .f32⟩
  | 30 => ⟨S1x3, .i32⟩
  | 31 => ⟨S200000x3, .i32⟩
  | 32 => ⟨S200000x3, .i32⟩
  | 33 => ⟨S_, .i32⟩
  | 34 => ⟨S_, .i32⟩
  | 35 => ⟨S200000x3, .i32⟩
  | 36 => ⟨S200000x3, .i32⟩
  | 37 => ⟨S1x3, .i32⟩
  | 38 => ⟨S200000x3, .i32⟩
  | 39 => ⟨S200000x3, .i32⟩
  | 40 => ⟨S200000x1, .i32⟩
  | 41 => ⟨S200000, .i32⟩
  | 42 => ⟨S_, .i32⟩
  | 43 => ⟨S200000, .i32⟩
  | 44 => ⟨S200000, .i32⟩
  | 45 => ⟨S200000x1, .i32⟩
  | 46 => ⟨S200000, .i32⟩
  | 47 => ⟨S200000, .i32⟩
  | 48 => ⟨S_, .i32⟩
  | 49 => ⟨S200000, .i32⟩
  | 50 => ⟨S200000, .i32⟩
  | 51 => ⟨S200000x1, .i32⟩
  | 52 => ⟨S200000, .i32⟩
  | 53 => ⟨S200000, .i32⟩
  | 54 => ⟨S_, .i32⟩
  | 55 => ⟨S200000, .i32⟩
  | 56 => ⟨S200000, .i1⟩
  | 57 => ⟨S_, .i32⟩
  | 58 => ⟨S200000, .i32⟩
  | 59 => ⟨S200000, .i32⟩
  | 60 => ⟨S200000, .i32⟩
  | 61 => ⟨S200000x1, .i32⟩
  | 62 => ⟨S2097152x32, .f32⟩
  | 63 => ⟨S1x1x1x32x32, .f32⟩
  | 64 => ⟨S32x32, .f32⟩
  | 65 => ⟨S200000x32, .f32⟩
  | 66 => ⟨S1x3, .i32⟩
  | 67 => ⟨S200000x3, .i32⟩
  | 68 => ⟨S200000x3, .i32⟩
  | 69 => ⟨S_, .i32⟩
  | 70 => ⟨S_, .i32⟩
  | 71 => ⟨S200000x3, .i32⟩
  | 72 => ⟨S200000x3, .i32⟩
  | 73 => ⟨S1x3, .i32⟩
  | 74 => ⟨S200000x3, .i32⟩
  | 75 => ⟨S200000x3, .i32⟩
  | 76 => ⟨S200000x1, .i32⟩
  | 77 => ⟨S200000, .i32⟩
  | 78 => ⟨S_, .i32⟩
  | 79 => ⟨S200000, .i32⟩
  | 80 => ⟨S200000, .i32⟩
  | 81 => ⟨S200000x1, .i32⟩
  | 82 => ⟨S200000, .i32⟩
  | 83 => ⟨S200000, .i32⟩
  | 84 => ⟨S_, .i32⟩
  | 85 => ⟨S200000, .i32⟩
  | 86 => ⟨S200000, .i32⟩
  | 87 => ⟨S200000x1, .i32⟩
  | 88 => ⟨S200000, .i32⟩
  | 89 => ⟨S200000, .i32⟩
  | 90 => ⟨S_, .i32⟩
  | 91 => ⟨S200000, .i32⟩
  | 92 => ⟨S200000, .i1⟩
  | 93 => ⟨S_, .i32⟩
  | 94 => ⟨S200000, .i32⟩
  | 95 => ⟨S200000, .i32⟩
  | 96 => ⟨S200000, .i32⟩
  | 97 => ⟨S200000x1, .i32⟩
  | 98 => ⟨S2097152x32, .f32⟩
  | 99 => ⟨S1x1x1x32x32, .f32⟩
  | 100 => ⟨S32x32, .f32⟩
  | 101 => ⟨S200000x32, .f32⟩
  | 102 => ⟨S1x3, .i32⟩
  | 103 => ⟨S200000x3, .i32⟩
  | 104 => ⟨S200000x3, .i32⟩
  | 105 => ⟨S_, .i32⟩
  | 106 => ⟨S_, .i32⟩
  | 107 => ⟨S200000x3, .i32⟩
  | 108 => ⟨S200000x3, .i32⟩
  | 109 => ⟨S1x3, .i32⟩
  | 110 => ⟨S200000x3, .i32⟩
  | 111 => ⟨S200000x3, .i32⟩
  | 112 => ⟨S200000x1, .i32⟩
  | 113 => ⟨S200000, .i32⟩
  | 114 => ⟨S_, .i32⟩
  | 115 => ⟨S200000, .i32⟩
  | 116 => ⟨S200000, .i32⟩
  | 117 => ⟨S200000x1, .i32⟩
  | 118 => ⟨S200000, .i32⟩
  | 119 => ⟨S200000, .i32⟩
  | 120 => ⟨S_, .i32⟩
  | 121 => ⟨S200000, .i32⟩
  | 122 => ⟨S200000, .i32⟩
  | 123 => ⟨S200000x1, .i32⟩
  | 124 => ⟨S200000, .i32⟩
  | 125 => ⟨S200000, .i32⟩
  | 126 => ⟨S_, .i32⟩
  | 127 => ⟨S200000, .i32⟩
  | _ => ⟨S200000x32, .f32⟩

abbrev hbmTy0_5 (i : Nat) : BufTy := match i % 128 with
  | 0 => ⟨S200000, .i1⟩
  | 1 => ⟨S_, .i32⟩
  | 2 => ⟨S200000, .i32⟩
  | 3 => ⟨S200000, .i32⟩
  | 4 => ⟨S200000, .i32⟩
  | 5 => ⟨S200000x1, .i32⟩
  | 6 => ⟨S2097152x32, .f32⟩
  | 7 => ⟨S1x1x1x32x32, .f32⟩
  | 8 => ⟨S32x32, .f32⟩
  | 9 => ⟨S200000x32, .f32⟩
  | 10 => ⟨S1x3, .i32⟩
  | 11 => ⟨S200000x3, .i32⟩
  | 12 => ⟨S200000x3, .i32⟩
  | 13 => ⟨S_, .i32⟩
  | 14 => ⟨S_, .i32⟩
  | 15 => ⟨S200000x3, .i32⟩
  | 16 => ⟨S200000x3, .i32⟩
  | 17 => ⟨S1x3, .i32⟩
  | 18 => ⟨S200000x3, .i32⟩
  | 19 => ⟨S200000x3, .i32⟩
  | 20 => ⟨S200000x1, .i32⟩
  | 21 => ⟨S200000, .i32⟩
  | 22 => ⟨S_, .i32⟩
  | 23 => ⟨S200000, .i32⟩
  | 24 => ⟨S200000, .i32⟩
  | 25 => ⟨S200000x1, .i32⟩
  | 26 => ⟨S200000, .i32⟩
  | 27 => ⟨S200000, .i32⟩
  | 28 => ⟨S_, .i32⟩
  | 29 => ⟨S200000, .i32⟩
  | 30 => ⟨S200000, .i32⟩
  | 31 => ⟨S200000x1, .i32⟩
  | 32 => ⟨S200000, .i32⟩
  | 33 => ⟨S200000, .i32⟩
  | 34 => ⟨S_, .i32⟩
  | 35 => ⟨S200000, .i32⟩
  | 36 => ⟨S200000, .i1⟩
  | 37 => ⟨S_, .i32⟩
  | 38 => ⟨S200000, .i32⟩
  | 39 => ⟨S200000, .i32⟩
  | 40 => ⟨S200000, .i32⟩
  | 41 => ⟨S200000x1, .i32⟩
  | 42 => ⟨S2097152x32, .f32⟩
  | 43 => ⟨S1x1x1x32x32, .f32⟩
  | 44 => ⟨S32x32, .f32⟩
  | 45 => ⟨S200000x32, .f32⟩
  | 46 => ⟨S1x3, .i32⟩
  | 47 => ⟨S200000x3, .i32⟩
  | 48 => ⟨S200000x3, .i32⟩
  | 49 => ⟨S_, .i32⟩
  | 50 => ⟨S_, .i32⟩
  | 51 => ⟨S200000x3, .i32⟩
  | 52 => ⟨S200000x3, .i32⟩
  | 53 => ⟨S1x3, .i32⟩
  | 54 => ⟨S200000x3, .i32⟩
  | 55 => ⟨S200000x3, .i32⟩
  | 56 => ⟨S200000x1, .i32⟩
  | 57 => ⟨S200000, .i32⟩
  | 58 => ⟨S_, .i32⟩
  | 59 => ⟨S200000, .i32⟩
  | 60 => ⟨S200000, .i32⟩
  | 61 => ⟨S200000x1, .i32⟩
  | 62 => ⟨S200000, .i32⟩
  | 63 => ⟨S200000, .i32⟩
  | 64 => ⟨S_, .i32⟩
  | 65 => ⟨S200000, .i32⟩
  | 66 => ⟨S200000, .i32⟩
  | 67 => ⟨S200000x1, .i32⟩
  | 68 => ⟨S200000, .i32⟩
  | 69 => ⟨S200000, .i32⟩
  | 70 => ⟨S_, .i32⟩
  | 71 => ⟨S200000, .i32⟩
  | 72 => ⟨S200000, .i1⟩
  | 73 => ⟨S_, .i32⟩
  | 74 => ⟨S200000, .i32⟩
  | 75 => ⟨S200000, .i32⟩
  | 76 => ⟨S200000, .i32⟩
  | 77 => ⟨S200000x1, .i32⟩
  | 78 => ⟨S2097152x32, .f32⟩
  | 79 => ⟨S1x1x1x32x32, .f32⟩
  | 80 => ⟨S32x32, .f32⟩
  | 81 => ⟨S200000x32, .f32⟩
  | 82 => ⟨S1x3, .i32⟩
  | 83 => ⟨S200000x3, .i32⟩
  | 84 => ⟨S200000x3, .i32⟩
  | 85 => ⟨S_, .i32⟩
  | 86 => ⟨S_, .i32⟩
  | 87 => ⟨S200000x3, .i32⟩
  | 88 => ⟨S200000x3, .i32⟩
  | 89 => ⟨S1x3, .i32⟩
  | 90 => ⟨S200000x3, .i32⟩
  | 91 => ⟨S200000x3, .i32⟩
  | 92 => ⟨S200000x1, .i32⟩
  | 93 => ⟨S200000, .i32⟩
  | 94 => ⟨S_, .i32⟩
  | 95 => ⟨S200000, .i32⟩
  | 96 => ⟨S200000, .i32⟩
  | 97 => ⟨S200000x1, .i32⟩
  | 98 => ⟨S200000, .i32⟩
  | 99 => ⟨S200000, .i32⟩
  | 100 => ⟨S_, .i32⟩
  | 101 => ⟨S200000, .i32⟩
  | 102 => ⟨S200000, .i32⟩
  | 103 => ⟨S200000x1, .i32⟩
  | 104 => ⟨S200000, .i32⟩
  | 105 => ⟨S200000, .i32⟩
  | 106 => ⟨S_, .i32⟩
  | 107 => ⟨S200000, .i32⟩
  | 108 => ⟨S200000, .i1⟩
  | 109 => ⟨S_, .i32⟩
  | 110 => ⟨S200000, .i32⟩
  | 111 => ⟨S200000, .i32⟩
  | 112 => ⟨S200000, .i32⟩
  | 113 => ⟨S200000x1, .i32⟩
  | 114 => ⟨S2097152x32, .f32⟩
  | 115 => ⟨S1x1x1x32x32, .f32⟩
  | 116 => ⟨S32x32, .f32⟩
  | 117 => ⟨S200000x32, .f32⟩
  | 118 => ⟨S1x3, .i32⟩
  | 119 => ⟨S200000x3, .i32⟩
  | 120 => ⟨S200000x3, .i32⟩
  | 121 => ⟨S_, .i32⟩
  | 122 => ⟨S_, .i32⟩
  | 123 => ⟨S200000x3, .i32⟩
  | 124 => ⟨S200000x3, .i32⟩
  | 125 => ⟨S1x3, .i32⟩
  | 126 => ⟨S200000x3, .i32⟩
  | 127 => ⟨S200000x3, .i32⟩
  | _ => ⟨S200000x32, .f32⟩

abbrev hbmTy0_6 (i : Nat) : BufTy := match i % 128 with
  | 0 => ⟨S200000x1, .i32⟩
  | 1 => ⟨S200000, .i32⟩
  | 2 => ⟨S_, .i32⟩
  | 3 => ⟨S200000, .i32⟩
  | 4 => ⟨S200000, .i32⟩
  | 5 => ⟨S200000x1, .i32⟩
  | 6 => ⟨S200000, .i32⟩
  | 7 => ⟨S200000, .i32⟩
  | 8 => ⟨S_, .i32⟩
  | 9 => ⟨S200000, .i32⟩
  | 10 => ⟨S200000, .i32⟩
  | 11 => ⟨S200000x1, .i32⟩
  | 12 => ⟨S200000, .i32⟩
  | 13 => ⟨S200000, .i32⟩
  | 14 => ⟨S_, .i32⟩
  | 15 => ⟨S200000, .i32⟩
  | 16 => ⟨S200000, .i1⟩
  | 17 => ⟨S_, .i32⟩
  | 18 => ⟨S200000, .i32⟩
  | 19 => ⟨S200000, .i32⟩
  | 20 => ⟨S200000, .i32⟩
  | 21 => ⟨S200000x1, .i32⟩
  | 22 => ⟨S2097152x32, .f32⟩
  | 23 => ⟨S1x1x1x32x32, .f32⟩
  | 24 => ⟨S32x32, .f32⟩
  | 25 => ⟨S200000x32, .f32⟩
  | 26 => ⟨S1x3, .i32⟩
  | 27 => ⟨S200000x3, .i32⟩
  | 28 => ⟨S200000x3, .i32⟩
  | 29 => ⟨S_, .i32⟩
  | 30 => ⟨S_, .i32⟩
  | 31 => ⟨S200000x3, .i32⟩
  | 32 => ⟨S200000x3, .i32⟩
  | 33 => ⟨S1x3, .i32⟩
  | 34 => ⟨S200000x3, .i32⟩
  | 35 => ⟨S200000x3, .i32⟩
  | 36 => ⟨S200000x1, .i32⟩
  | 37 => ⟨S200000, .i32⟩
  | 38 => ⟨S_, .i32⟩
  | 39 => ⟨S200000, .i32⟩
  | 40 => ⟨S200000, .i32⟩
  | 41 => ⟨S200000x1, .i32⟩
  | 42 => ⟨S200000, .i32⟩
  | 43 => ⟨S200000, .i32⟩
  | 44 => ⟨S_, .i32⟩
  | 45 => ⟨S200000, .i32⟩
  | 46 => ⟨S200000, .i32⟩
  | 47 => ⟨S200000x1, .i32⟩
  | 48 => ⟨S200000, .i32⟩
  | 49 => ⟨S200000, .i32⟩
  | 50 => ⟨S_, .i32⟩
  | 51 => ⟨S200000, .i32⟩
  | 52 => ⟨S200000, .i1⟩
  | 53 => ⟨S_, .i32⟩
  | 54 => ⟨S200000, .i32⟩
  | 55 => ⟨S200000, .i32⟩
  | 56 => ⟨S200000, .i32⟩
  | 57 => ⟨S200000x1, .i32⟩
  | 58 => ⟨S2097152x32, .f32⟩
  | 59 => ⟨S1x1x1x32x32, .f32⟩
  | 60 => ⟨S32x32, .f32⟩
  | 61 => ⟨S200000x32, .f32⟩
  | 62 => ⟨S1x3, .i32⟩
  | 63 => ⟨S200000x3, .i32⟩
  | 64 => ⟨S200000x3, .i32⟩
  | 65 => ⟨S_, .i32⟩
  | 66 => ⟨S_, .i32⟩
  | 67 => ⟨S200000x3, .i32⟩
  | 68 => ⟨S200000x3, .i32⟩
  | 69 => ⟨S1x3, .i32⟩
  | 70 => ⟨S200000x3, .i32⟩
  | 71 => ⟨S200000x3, .i32⟩
  | 72 => ⟨S200000x1, .i32⟩
  | 73 => ⟨S200000, .i32⟩
  | 74 => ⟨S_, .i32⟩
  | 75 => ⟨S200000, .i32⟩
  | 76 => ⟨S200000, .i32⟩
  | 77 => ⟨S200000x1, .i32⟩
  | 78 => ⟨S200000, .i32⟩
  | 79 => ⟨S200000, .i32⟩
  | 80 => ⟨S_, .i32⟩
  | 81 => ⟨S200000, .i32⟩
  | 82 => ⟨S200000, .i32⟩
  | 83 => ⟨S200000x1, .i32⟩
  | 84 => ⟨S200000, .i32⟩
  | 85 => ⟨S200000, .i32⟩
  | 86 => ⟨S_, .i32⟩
  | 87 => ⟨S200000, .i32⟩
  | 88 => ⟨S200000, .i1⟩
  | 89 => ⟨S_, .i32⟩
  | 90 => ⟨S200000, .i32⟩
  | 91 => ⟨S200000, .i32⟩
  | 92 => ⟨S200000, .i32⟩
  | 93 => ⟨S200000x1, .i32⟩
  | 94 => ⟨S2097152x32, .f32⟩
  | 95 => ⟨S1x1x1x32x32, .f32⟩
  | 96 => ⟨S32x32, .f32⟩
  | 97 => ⟨S200000x32, .f32⟩
  | 98 => ⟨S1x3, .i32⟩
  | 99 => ⟨S200000x3, .i32⟩
  | 100 => ⟨S200000x3, .i32⟩
  | 101 => ⟨S_, .i32⟩
  | 102 => ⟨S_, .i32⟩
  | 103 => ⟨S200000x3, .i32⟩
  | 104 => ⟨S200000x3, .i32⟩
  | 105 => ⟨S1x3, .i32⟩
  | 106 => ⟨S200000x3, .i32⟩
  | 107 => ⟨S200000x3, .i32⟩
  | 108 => ⟨S200000x1, .i32⟩
  | 109 => ⟨S200000, .i32⟩
  | 110 => ⟨S_, .i32⟩
  | 111 => ⟨S200000, .i32⟩
  | 112 => ⟨S200000, .i32⟩
  | 113 => ⟨S200000x1, .i32⟩
  | 114 => ⟨S200000, .i32⟩
  | 115 => ⟨S200000, .i32⟩
  | 116 => ⟨S_, .i32⟩
  | 117 => ⟨S200000, .i32⟩
  | 118 => ⟨S200000, .i32⟩
  | 119 => ⟨S200000x1, .i32⟩
  | 120 => ⟨S200000, .i32⟩
  | 121 => ⟨S200000, .i32⟩
  | 122 => ⟨S_, .i32⟩
  | 123 => ⟨S200000, .i32⟩
  | 124 => ⟨S200000, .i1⟩
  | 125 => ⟨S_, .i32⟩
  | 126 => ⟨S200000, .i32⟩
  | 127 => ⟨S200000, .i32⟩
  | _ => ⟨S200000x32, .f32⟩

abbrev hbmTy0_7 (i : Nat) : BufTy := match i % 128 with
  | 0 => ⟨S200000, .i32⟩
  | 1 => ⟨S200000x1, .i32⟩
  | 2 => ⟨S2097152x32, .f32⟩
  | 3 => ⟨S1x1x1x32x32, .f32⟩
  | 4 => ⟨S32x32, .f32⟩
  | 5 => ⟨S200000x32, .f32⟩
  | 6 => ⟨S1x3, .i32⟩
  | 7 => ⟨S200000x3, .i32⟩
  | 8 => ⟨S200000x3, .i32⟩
  | 9 => ⟨S_, .i32⟩
  | 10 => ⟨S_, .i32⟩
  | 11 => ⟨S200000x3, .i32⟩
  | 12 => ⟨S200000x3, .i32⟩
  | 13 => ⟨S1x3, .i32⟩
  | 14 => ⟨S200000x3, .i32⟩
  | 15 => ⟨S200000x3, .i32⟩
  | 16 => ⟨S200000x1, .i32⟩
  | 17 => ⟨S200000, .i32⟩
  | 18 => ⟨S_, .i32⟩
  | 19 => ⟨S200000, .i32⟩
  | 20 => ⟨S200000, .i32⟩
  | 21 => ⟨S200000x1, .i32⟩
  | 22 => ⟨S200000, .i32⟩
  | 23 => ⟨S200000, .i32⟩
  | 24 => ⟨S_, .i32⟩
  | 25 => ⟨S200000, .i32⟩
  | 26 => ⟨S200000, .i32⟩
  | 27 => ⟨S200000x1, .i32⟩
  | 28 => ⟨S200000, .i32⟩
  | 29 => ⟨S200000, .i32⟩
  | 30 => ⟨S_, .i32⟩
  | 31 => ⟨S200000, .i32⟩
  | 32 => ⟨S200000, .i1⟩
  | 33 => ⟨S_, .i32⟩
  | 34 => ⟨S200000, .i32⟩
  | 35 => ⟨S200000, .i32⟩
  | 36 => ⟨S200000, .i32⟩
  | 37 => ⟨S200000x1, .i32⟩
  | 38 => ⟨S2097152x32, .f32⟩
  | 39 => ⟨S1x1x1x32x32, .f32⟩
  | 40 => ⟨S32x32, .f32⟩
  | 41 => ⟨S200000x32, .f32⟩
  | 42 => ⟨S1x3, .i32⟩
  | 43 => ⟨S200000x3, .i32⟩
  | 44 => ⟨S200000x3, .i32⟩
  | 45 => ⟨S_, .i32⟩
  | 46 => ⟨S_, .i32⟩
  | 47 => ⟨S200000x3, .i32⟩
  | 48 => ⟨S200000x3, .i32⟩
  | 49 => ⟨S1x3, .i32⟩
  | 50 => ⟨S200000x3, .i32⟩
  | 51 => ⟨S200000x3, .i32⟩
  | 52 => ⟨S200000x1, .i32⟩
  | 53 => ⟨S200000, .i32⟩
  | 54 => ⟨S_, .i32⟩
  | 55 => ⟨S200000, .i32⟩
  | 56 => ⟨S200000, .i32⟩
  | 57 => ⟨S200000x1, .i32⟩
  | 58 => ⟨S200000, .i32⟩
  | 59 => ⟨S200000, .i32⟩
  | 60 => ⟨S_, .i32⟩
  | 61 => ⟨S200000, .i32⟩
  | 62 => ⟨S200000, .i32⟩
  | 63 => ⟨S200000x1, .i32⟩
  | 64 => ⟨S200000, .i32⟩
  | 65 => ⟨S200000, .i32⟩
  | 66 => ⟨S_, .i32⟩
  | 67 => ⟨S200000, .i32⟩
  | 68 => ⟨S200000, .i1⟩
  | 69 => ⟨S_, .i32⟩
  | 70 => ⟨S200000, .i32⟩
  | 71 => ⟨S200000, .i32⟩
  | 72 => ⟨S200000, .i32⟩
  | 73 => ⟨S200000x1, .i32⟩
  | 74 => ⟨S2097152x32, .f32⟩
  | 75 => ⟨S1x1x1x32x32, .f32⟩
  | 76 => ⟨S32x32, .f32⟩
  | 77 => ⟨S200000x32, .f32⟩
  | 78 => ⟨S1x3, .i32⟩
  | 79 => ⟨S200000x3, .i32⟩
  | 80 => ⟨S200000x3, .i32⟩
  | 81 => ⟨S_, .i32⟩
  | 82 => ⟨S_, .i32⟩
  | 83 => ⟨S200000x3, .i32⟩
  | 84 => ⟨S200000x3, .i32⟩
  | 85 => ⟨S1x3, .i32⟩
  | 86 => ⟨S200000x3, .i32⟩
  | 87 => ⟨S200000x3, .i32⟩
  | 88 => ⟨S200000x1, .i32⟩
  | 89 => ⟨S200000, .i32⟩
  | 90 => ⟨S_, .i32⟩
  | 91 => ⟨S200000, .i32⟩
  | 92 => ⟨S200000, .i32⟩
  | 93 => ⟨S200000x1, .i32⟩
  | 94 => ⟨S200000, .i32⟩
  | 95 => ⟨S200000, .i32⟩
  | 96 => ⟨S_, .i32⟩
  | 97 => ⟨S200000, .i32⟩
  | 98 => ⟨S200000, .i32⟩
  | 99 => ⟨S200000x1, .i32⟩
  | 100 => ⟨S200000, .i32⟩
  | 101 => ⟨S200000, .i32⟩
  | 102 => ⟨S_, .i32⟩
  | 103 => ⟨S200000, .i32⟩
  | 104 => ⟨S200000, .i1⟩
  | 105 => ⟨S_, .i32⟩
  | 106 => ⟨S200000, .i32⟩
  | 107 => ⟨S200000, .i32⟩
  | 108 => ⟨S200000, .i32⟩
  | 109 => ⟨S200000x1, .i32⟩
  | 110 => ⟨S2097152x32, .f32⟩
  | 111 => ⟨S1x128x128x128x32, .f32⟩
  | 112 => ⟨S1x1x1x1x32, .f32⟩
  | 113 => ⟨S1x128x128x128x32, .f32⟩
  | 114 => ⟨S1x128x128x128x32, .f32⟩
  | 115 => ⟨S1x128x128x128x32, .f32⟩
  | 116 => ⟨S1x128x128x128x32, .f32⟩
  | 117 => ⟨S1x128x128x128x32, .f32⟩
  | 118 => ⟨S1x128x128x128x32, .f32⟩
  | _ => ⟨S200000x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S200000x32, .f32⟩

abbrev bufTy : (tb : Table) → Fin (tcTables nBuf tb) → BufTy
  | .hbm, ⟨i, _⟩ => hbmTy i
  | _, _ => ⟨S200000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_c_6 : Ref sig .tc := ⟨.hbm, 12, rfl⟩
abbrev main_c_7 : Ref sig .tc := ⟨.hbm, 13, rfl⟩
abbrev main_c_8 : Ref sig .tc := ⟨.hbm, 14, rfl⟩
abbrev main_c_9 : Ref sig .tc := ⟨.hbm, 15, rfl⟩
abbrev main_c_10 : Ref sig .tc := ⟨.hbm, 16, rfl⟩
abbrev main_c_11 : Ref sig .tc := ⟨.hbm, 17, rfl⟩
abbrev main_c_12 : Ref sig .tc := ⟨.hbm, 18, rfl⟩
abbrev main_c_13 : Ref sig .tc := ⟨.hbm, 19, rfl⟩
abbrev main_c_14 : Ref sig .tc := ⟨.hbm, 20, rfl⟩
abbrev main_c_15 : Ref sig .tc := ⟨.hbm, 21, rfl⟩
abbrev main_c_16 : Ref sig .tc := ⟨.hbm, 22, rfl⟩
abbrev main_c_17 : Ref sig .tc := ⟨.hbm, 23, rfl⟩
abbrev main_c_18 : Ref sig .tc := ⟨.hbm, 24, rfl⟩
abbrev main_c_19 : Ref sig .tc := ⟨.hbm, 25, rfl⟩
abbrev main_c_20 : Ref sig .tc := ⟨.hbm, 26, rfl⟩
abbrev main_c_21 : Ref sig .tc := ⟨.hbm, 27, rfl⟩
abbrev main_c_22 : Ref sig .tc := ⟨.hbm, 28, rfl⟩
abbrev main_c_23 : Ref sig .tc := ⟨.hbm, 29, rfl⟩
abbrev main_c_24 : Ref sig .tc := ⟨.hbm, 30, rfl⟩
abbrev main_c_25 : Ref sig .tc := ⟨.hbm, 31, rfl⟩
abbrev main_c_26 : Ref sig .tc := ⟨.hbm, 32, rfl⟩
abbrev main_cst : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_c_27 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_c_28 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_c_29 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_c_30 : Ref sig .tc := ⟨.hbm, 62, rfl⟩
abbrev main_v20 : Ref sig .tc := ⟨.hbm, 63, rfl⟩
abbrev main_v21 : Ref sig .tc := ⟨.hbm, 64, rfl⟩
abbrev main_c_31 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_c_32 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_c_33 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_c_34 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_c_35 : Ref sig .tc := ⟨.hbm, 98, rfl⟩
abbrev main_v46 : Ref sig .tc := ⟨.hbm, 99, rfl⟩
abbrev main_v47 : Ref sig .tc := ⟨.hbm, 100, rfl⟩
abbrev main_c_36 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_c_37 : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_c_38 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_c_39 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_c_40 : Ref sig .tc := ⟨.hbm, 134, rfl⟩
abbrev main_v72 : Ref sig .tc := ⟨.hbm, 135, rfl⟩
abbrev main_v73 : Ref sig .tc := ⟨.hbm, 136, rfl⟩
abbrev main_c_41 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_c_42 : Ref sig .tc := ⟨.hbm, 149, rfl⟩
abbrev main_call3_v0 : Ref sig .tc := ⟨.hbm, 150, rfl⟩
abbrev main_call3_v1 : Ref sig .tc := ⟨.hbm, 151, rfl⟩
abbrev main_call3_v2 : Ref sig .tc := ⟨.hbm, 152, rfl⟩
abbrev main_call3_v3 : Ref sig .tc := ⟨.hbm, 153, rfl⟩
abbrev main_call3_v4 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_c_43 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_c_44 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_c_45 : Ref sig .tc := ⟨.hbm, 170, rfl⟩
abbrev main_v98 : Ref sig .tc := ⟨.hbm, 171, rfl⟩
abbrev main_v99 : Ref sig .tc := ⟨.hbm, 172, rfl⟩
abbrev main_c_46 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_c_47 : Ref sig .tc := ⟨.hbm, 185, rfl⟩
abbrev main_call4_v0 : Ref sig .tc := ⟨.hbm, 186, rfl⟩
abbrev main_call4_v1 : Ref sig .tc := ⟨.hbm, 187, rfl⟩
abbrev main_call4_v2 : Ref sig .tc := ⟨.hbm, 188, rfl⟩
abbrev main_call4_v3 : Ref sig .tc := ⟨.hbm, 189, rfl⟩
abbrev main_call4_v4 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_c_48 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_c_49 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_v123 : Ref sig .tc := ⟨.hbm, 205, rfl⟩
abbrev main_c_50 : Ref sig .tc := ⟨.hbm, 206, rfl⟩
abbrev main_v124 : Ref sig .tc := ⟨.hbm, 207, rfl⟩
abbrev main_v125 : Ref sig .tc := ⟨.hbm, 208, rfl⟩
abbrev main_c_51 : Ref sig .tc := ⟨.hbm, 209, rfl⟩
abbrev main_v126 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_c_52 : Ref sig .tc := ⟨.hbm, 221, rfl⟩
abbrev main_call5_v0 : Ref sig .tc := ⟨.hbm, 222, rfl⟩
abbrev main_call5_v1 : Ref sig .tc := ⟨.hbm, 223, rfl⟩
abbrev main_call5_v2 : Ref sig .tc := ⟨.hbm, 224, rfl⟩
abbrev main_call5_v3 : Ref sig .tc := ⟨.hbm, 225, rfl⟩
abbrev main_call5_v4 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_c_53 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_v144 : Ref sig .tc := ⟨.hbm, 235, rfl⟩
abbrev main_c_54 : Ref sig .tc := ⟨.hbm, 236, rfl⟩
abbrev main_v145 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_v149 : Ref sig .tc := ⟨.hbm, 241, rfl⟩
abbrev main_c_55 : Ref sig .tc := ⟨.hbm, 242, rfl⟩
abbrev main_v150 : Ref sig .tc := ⟨.hbm, 243, rfl⟩
abbrev main_v151 : Ref sig .tc := ⟨.hbm, 244, rfl⟩
abbrev main_c_56 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_v161 : Ref sig .tc := ⟨.hbm, 255, rfl⟩
abbrev main_v162 : Ref sig .tc := ⟨.hbm, 256, rfl⟩
abbrev main_c_57 : Ref sig .tc := ⟨.hbm, 257, rfl⟩
abbrev main_call6_v0 : Ref sig .tc := ⟨.hbm, 258, rfl⟩
abbrev main_call6_v1 : Ref sig .tc := ⟨.hbm, 259, rfl⟩
abbrev main_call6_v2 : Ref sig .tc := ⟨.hbm, 260, rfl⟩
abbrev main_call6_v3 : Ref sig .tc := ⟨.hbm, 261, rfl⟩
abbrev main_call6_v4 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_c_58 : Ref sig .tc := ⟨.hbm, 266, rfl⟩
abbrev main_v166 : Ref sig .tc := ⟨.hbm, 267, rfl⟩
abbrev main_v167 : Ref sig .tc := ⟨.hbm, 268, rfl⟩
abbrev main_v168 : Ref sig .tc := ⟨.hbm, 269, rfl⟩
abbrev main_v169 : Ref sig .tc := ⟨.hbm, 270, rfl⟩
abbrev main_v170 : Ref sig .tc := ⟨.hbm, 271, rfl⟩
abbrev main_c_59 : Ref sig .tc := ⟨.hbm, 272, rfl⟩
abbrev main_v171 : Ref sig .tc := ⟨.hbm, 273, rfl⟩
abbrev main_v172 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_c_60 : Ref sig .tc := ⟨.hbm, 278, rfl⟩
abbrev main_v176 : Ref sig .tc := ⟨.hbm, 279, rfl⟩
abbrev main_v177 : Ref sig .tc := ⟨.hbm, 280, rfl⟩
abbrev main_c_61 : Ref sig .tc := ⟨.hbm, 281, rfl⟩
abbrev main_v178 : Ref sig .tc := ⟨.hbm, 282, rfl⟩
abbrev main_v179 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_v185 : Ref sig .tc := ⟨.hbm, 289, rfl⟩
abbrev main_v186 : Ref sig .tc := ⟨.hbm, 290, rfl⟩
abbrev main_v187 : Ref sig .tc := ⟨.hbm, 291, rfl⟩
abbrev main_v188 : Ref sig .tc := ⟨.hbm, 292, rfl⟩
abbrev main_c_62 : Ref sig .tc := ⟨.hbm, 293, rfl⟩
abbrev main_call7_v0 : Ref sig .tc := ⟨.hbm, 294, rfl⟩
abbrev main_call7_v1 : Ref sig .tc := ⟨.hbm, 295, rfl⟩
abbrev main_call7_v2 : Ref sig .tc := ⟨.hbm, 296, rfl⟩
abbrev main_call7_v3 : Ref sig .tc := ⟨.hbm, 297, rfl⟩
abbrev main_call7_v4 : Ref sig .tc := ⟨.hbm, 298, rfl⟩
abbrev main_v189 : Ref sig .tc := ⟨.hbm, 299, rfl⟩
abbrev main_v190 : Ref sig .tc := ⟨.hbm, 300, rfl⟩
abbrev main_v191 : Ref sig .tc := ⟨.hbm, 301, rfl⟩
abbrev main_c_63 : Ref sig .tc := ⟨.hbm, 302, rfl⟩
abbrev main_v192 : Ref sig .tc := ⟨.hbm, 303, rfl⟩
abbrev main_v193 : Ref sig .tc := ⟨.hbm, 304, rfl⟩
abbrev main_v194 : Ref sig .tc := ⟨.hbm, 305, rfl⟩
abbrev main_v195 : Ref sig .tc := ⟨.hbm, 306, rfl⟩
abbrev main_v196 : Ref sig .tc := ⟨.hbm, 307, rfl⟩
abbrev main_c_64 : Ref sig .tc := ⟨.hbm, 308, rfl⟩
abbrev main_v197 : Ref sig .tc := ⟨.hbm, 309, rfl⟩
abbrev main_v198 : Ref sig .tc := ⟨.hbm, 310, rfl⟩
abbrev main_v199 : Ref sig .tc := ⟨.hbm, 311, rfl⟩
abbrev main_v200 : Ref sig .tc := ⟨.hbm, 312, rfl⟩
abbrev main_v201 : Ref sig .tc := ⟨.hbm, 313, rfl⟩
abbrev main_c_65 : Ref sig .tc := ⟨.hbm, 314, rfl⟩
abbrev main_v202 : Ref sig .tc := ⟨.hbm, 315, rfl⟩
abbrev main_v203 : Ref sig .tc := ⟨.hbm, 316, rfl⟩
abbrev main_c_66 : Ref sig .tc := ⟨.hbm, 317, rfl⟩
abbrev main_v204 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_v208 : Ref sig .tc := ⟨.hbm, 322, rfl⟩
abbrev main_v209 : Ref sig .tc := ⟨.hbm, 323, rfl⟩
abbrev main_v210 : Ref sig .tc := ⟨.hbm, 324, rfl⟩
abbrev main_v211 : Ref sig .tc := ⟨.hbm, 325, rfl⟩
abbrev main_v212 : Ref sig .tc := ⟨.hbm, 326, rfl⟩
abbrev main_v213 : Ref sig .tc := ⟨.hbm, 327, rfl⟩
abbrev main_v214 : Ref sig .tc := ⟨.hbm, 328, rfl⟩
abbrev main_c_67 : Ref sig .tc := ⟨.hbm, 329, rfl⟩
abbrev main_call8_v0 : Ref sig .tc := ⟨.hbm, 330, rfl⟩
abbrev main_call8_v1 : Ref sig .tc := ⟨.hbm, 331, rfl⟩
abbrev main_call8_v2 : Ref sig .tc := ⟨.hbm, 332, rfl⟩
abbrev main_call8_v3 : Ref sig .tc := ⟨.hbm, 333, rfl⟩
abbrev main_call8_v4 : Ref sig .tc := ⟨.hbm, 334, rfl⟩
abbrev main_v215 : Ref sig .tc := ⟨.hbm, 335, rfl⟩
abbrev main_v216 : Ref sig .tc := ⟨.hbm, 336, rfl⟩
abbrev main_v217 : Ref sig .tc := ⟨.hbm, 337, rfl⟩
abbrev main_c_68 : Ref sig .tc := ⟨.hbm, 338, rfl⟩
abbrev main_v218 : Ref sig .tc := ⟨.hbm, 339, rfl⟩
abbrev main_v219 : Ref sig .tc := ⟨.hbm, 340, rfl⟩
abbrev main_v220 : Ref sig .tc := ⟨.hbm, 341, rfl⟩
abbrev main_v221 : Ref sig .tc := ⟨.hbm, 342, rfl⟩
abbrev main_v222 : Ref sig .tc := ⟨.hbm, 343, rfl⟩
abbrev main_c_69 : Ref sig .tc := ⟨.hbm, 344, rfl⟩
abbrev main_v223 : Ref sig .tc := ⟨.hbm, 345, rfl⟩
abbrev main_v224 : Ref sig .tc := ⟨.hbm, 346, rfl⟩
abbrev main_v225 : Ref sig .tc := ⟨.hbm, 347, rfl⟩
abbrev main_v226 : Ref sig .tc := ⟨.hbm, 348, rfl⟩
abbrev main_v227 : Ref sig .tc := ⟨.hbm, 349, rfl⟩
abbrev main_c_70 : Ref sig .tc := ⟨.hbm, 350, rfl⟩
abbrev main_v228 : Ref sig .tc := ⟨.hbm, 351, rfl⟩
abbrev main_v229 : Ref sig .tc := ⟨.hbm, 352, rfl⟩
abbrev main_c_71 : Ref sig .tc := ⟨.hbm, 353, rfl⟩
abbrev main_v230 : Ref sig .tc := ⟨.hbm, 354, rfl⟩
abbrev main_v231 : Ref sig .tc := ⟨.hbm, 355, rfl⟩
abbrev main_v232 : Ref sig .tc := ⟨.hbm, 356, rfl⟩
abbrev main_v233 : Ref sig .tc := ⟨.hbm, 357, rfl⟩
abbrev main_v234 : Ref sig .tc := ⟨.hbm, 358, rfl⟩
abbrev main_v235 : Ref sig .tc := ⟨.hbm, 359, rfl⟩
abbrev main_v236 : Ref sig .tc := ⟨.hbm, 360, rfl⟩
abbrev main_v237 : Ref sig .tc := ⟨.hbm, 361, rfl⟩
abbrev main_v238 : Ref sig .tc := ⟨.hbm, 362, rfl⟩
abbrev main_v239 : Ref sig .tc := ⟨.hbm, 363, rfl⟩
abbrev main_v240 : Ref sig .tc := ⟨.hbm, 364, rfl⟩
abbrev main_c_72 : Ref sig .tc := ⟨.hbm, 365, rfl⟩
abbrev main_call9_v0 : Ref sig .tc := ⟨.hbm, 366, rfl⟩
abbrev main_call9_v1 : Ref sig .tc := ⟨.hbm, 367, rfl⟩
abbrev main_call9_v2 : Ref sig .tc := ⟨.hbm, 368, rfl⟩
abbrev main_call9_v3 : Ref sig .tc := ⟨.hbm, 369, rfl⟩
abbrev main_call9_v4 : Ref sig .tc := ⟨.hbm, 370, rfl⟩
abbrev main_v241 : Ref sig .tc := ⟨.hbm, 371, rfl⟩
abbrev main_v242 : Ref sig .tc := ⟨.hbm, 372, rfl⟩
abbrev main_v243 : Ref sig .tc := ⟨.hbm, 373, rfl⟩
abbrev main_c_73 : Ref sig .tc := ⟨.hbm, 374, rfl⟩
abbrev main_v244 : Ref sig .tc := ⟨.hbm, 375, rfl⟩
abbrev main_v245 : Ref sig .tc := ⟨.hbm, 376, rfl⟩
abbrev main_v246 : Ref sig .tc := ⟨.hbm, 377, rfl⟩
abbrev main_v247 : Ref sig .tc := ⟨.hbm, 378, rfl⟩
abbrev main_v248 : Ref sig .tc := ⟨.hbm, 379, rfl⟩
abbrev main_c_74 : Ref sig .tc := ⟨.hbm, 380, rfl⟩
abbrev main_v249 : Ref sig .tc := ⟨.hbm, 381, rfl⟩
abbrev main_v250 : Ref sig .tc := ⟨.hbm, 382, rfl⟩
abbrev main_v251 : Ref sig .tc := ⟨.hbm, 383, rfl⟩
abbrev main_v252 : Ref sig .tc := ⟨.hbm, 384, rfl⟩
abbrev main_v253 : Ref sig .tc := ⟨.hbm, 385, rfl⟩
abbrev main_c_75 : Ref sig .tc := ⟨.hbm, 386, rfl⟩
abbrev main_v254 : Ref sig .tc := ⟨.hbm, 387, rfl⟩
abbrev main_v255 : Ref sig .tc := ⟨.hbm, 388, rfl⟩
abbrev main_c_76 : Ref sig .tc := ⟨.hbm, 389, rfl⟩
abbrev main_v256 : Ref sig .tc := ⟨.hbm, 390, rfl⟩
abbrev main_v257 : Ref sig .tc := ⟨.hbm, 391, rfl⟩
abbrev main_v258 : Ref sig .tc := ⟨.hbm, 392, rfl⟩
abbrev main_v259 : Ref sig .tc := ⟨.hbm, 393, rfl⟩
abbrev main_v260 : Ref sig .tc := ⟨.hbm, 394, rfl⟩
abbrev main_v261 : Ref sig .tc := ⟨.hbm, 395, rfl⟩
abbrev main_v262 : Ref sig .tc := ⟨.hbm, 396, rfl⟩
abbrev main_v263 : Ref sig .tc := ⟨.hbm, 397, rfl⟩
abbrev main_v264 : Ref sig .tc := ⟨.hbm, 398, rfl⟩
abbrev main_v265 : Ref sig .tc := ⟨.hbm, 399, rfl⟩
abbrev main_v266 : Ref sig .tc := ⟨.hbm, 400, rfl⟩
abbrev main_c_77 : Ref sig .tc := ⟨.hbm, 401, rfl⟩
abbrev main_call10_v0 : Ref sig .tc := ⟨.hbm, 402, rfl⟩
abbrev main_call10_v1 : Ref sig .tc := ⟨.hbm, 403, rfl⟩
abbrev main_call10_v2 : Ref sig .tc := ⟨.hbm, 404, rfl⟩
abbrev main_call10_v3 : Ref sig .tc := ⟨.hbm, 405, rfl⟩
abbrev main_call10_v4 : Ref sig .tc := ⟨.hbm, 406, rfl⟩
abbrev main_v267 : Ref sig .tc := ⟨.hbm, 407, rfl⟩
abbrev main_v268 : Ref sig .tc := ⟨.hbm, 408, rfl⟩
abbrev main_v269 : Ref sig .tc := ⟨.hbm, 409, rfl⟩
abbrev main_c_78 : Ref sig .tc := ⟨.hbm, 410, rfl⟩
abbrev main_v270 : Ref sig .tc := ⟨.hbm, 411, rfl⟩
abbrev main_v271 : Ref sig .tc := ⟨.hbm, 412, rfl⟩
abbrev main_v272 : Ref sig .tc := ⟨.hbm, 413, rfl⟩
abbrev main_v273 : Ref sig .tc := ⟨.hbm, 414, rfl⟩
abbrev main_v274 : Ref sig .tc := ⟨.hbm, 415, rfl⟩
abbrev main_c_79 : Ref sig .tc := ⟨.hbm, 416, rfl⟩
abbrev main_v275 : Ref sig .tc := ⟨.hbm, 417, rfl⟩
abbrev main_v276 : Ref sig .tc := ⟨.hbm, 418, rfl⟩
abbrev main_v277 : Ref sig .tc := ⟨.hbm, 419, rfl⟩
abbrev main_v278 : Ref sig .tc := ⟨.hbm, 420, rfl⟩
abbrev main_v279 : Ref sig .tc := ⟨.hbm, 421, rfl⟩
abbrev main_c_80 : Ref sig .tc := ⟨.hbm, 422, rfl⟩
abbrev main_v280 : Ref sig .tc := ⟨.hbm, 423, rfl⟩
abbrev main_v281 : Ref sig .tc := ⟨.hbm, 424, rfl⟩
abbrev main_c_81 : Ref sig .tc := ⟨.hbm, 425, rfl⟩
abbrev main_v282 : Ref sig .tc := ⟨.hbm, 426, rfl⟩
abbrev main_v283 : Ref sig .tc := ⟨.hbm, 427, rfl⟩
abbrev main_v284 : Ref sig .tc := ⟨.hbm, 428, rfl⟩
abbrev main_v285 : Ref sig .tc := ⟨.hbm, 429, rfl⟩
abbrev main_v286 : Ref sig .tc := ⟨.hbm, 430, rfl⟩
abbrev main_v287 : Ref sig .tc := ⟨.hbm, 431, rfl⟩
abbrev main_v288 : Ref sig .tc := ⟨.hbm, 432, rfl⟩
abbrev main_v289 : Ref sig .tc := ⟨.hbm, 433, rfl⟩
abbrev main_v290 : Ref sig .tc := ⟨.hbm, 434, rfl⟩
abbrev main_v291 : Ref sig .tc := ⟨.hbm, 435, rfl⟩
abbrev main_v292 : Ref sig .tc := ⟨.hbm, 436, rfl⟩
abbrev main_c_82 : Ref sig .tc := ⟨.hbm, 437, rfl⟩
abbrev main_call11_v0 : Ref sig .tc := ⟨.hbm, 438, rfl⟩
abbrev main_call11_v1 : Ref sig .tc := ⟨.hbm, 439, rfl⟩
abbrev main_call11_v2 : Ref sig .tc := ⟨.hbm, 440, rfl⟩
abbrev main_call11_v3 : Ref sig .tc := ⟨.hbm, 441, rfl⟩
abbrev main_call11_v4 : Ref sig .tc := ⟨.hbm, 442, rfl⟩
abbrev main_v293 : Ref sig .tc := ⟨.hbm, 443, rfl⟩
abbrev main_v294 : Ref sig .tc := ⟨.hbm, 444, rfl⟩
abbrev main_v295 : Ref sig .tc := ⟨.hbm, 445, rfl⟩
abbrev main_c_83 : Ref sig .tc := ⟨.hbm, 446, rfl⟩
abbrev main_v296 : Ref sig .tc := ⟨.hbm, 447, rfl⟩
abbrev main_v297 : Ref sig .tc := ⟨.hbm, 448, rfl⟩
abbrev main_v298 : Ref sig .tc := ⟨.hbm, 449, rfl⟩
abbrev main_v299 : Ref sig .tc := ⟨.hbm, 450, rfl⟩
abbrev main_v300 : Ref sig .tc := ⟨.hbm, 451, rfl⟩
abbrev main_c_84 : Ref sig .tc := ⟨.hbm, 452, rfl⟩
abbrev main_v301 : Ref sig .tc := ⟨.hbm, 453, rfl⟩
abbrev main_v302 : Ref sig .tc := ⟨.hbm, 454, rfl⟩
abbrev main_v303 : Ref sig .tc := ⟨.hbm, 455, rfl⟩
abbrev main_v304 : Ref sig .tc := ⟨.hbm, 456, rfl⟩
abbrev main_v305 : Ref sig .tc := ⟨.hbm, 457, rfl⟩
abbrev main_c_85 : Ref sig .tc := ⟨.hbm, 458, rfl⟩
abbrev main_v306 : Ref sig .tc := ⟨.hbm, 459, rfl⟩
abbrev main_v307 : Ref sig .tc := ⟨.hbm, 460, rfl⟩
abbrev main_c_86 : Ref sig .tc := ⟨.hbm, 461, rfl⟩
abbrev main_v308 : Ref sig .tc := ⟨.hbm, 462, rfl⟩
abbrev main_v309 : Ref sig .tc := ⟨.hbm, 463, rfl⟩
abbrev main_v310 : Ref sig .tc := ⟨.hbm, 464, rfl⟩
abbrev main_v311 : Ref sig .tc := ⟨.hbm, 465, rfl⟩
abbrev main_v312 : Ref sig .tc := ⟨.hbm, 466, rfl⟩
abbrev main_v313 : Ref sig .tc := ⟨.hbm, 467, rfl⟩
abbrev main_v314 : Ref sig .tc := ⟨.hbm, 468, rfl⟩
abbrev main_v315 : Ref sig .tc := ⟨.hbm, 469, rfl⟩
abbrev main_v316 : Ref sig .tc := ⟨.hbm, 470, rfl⟩
abbrev main_v317 : Ref sig .tc := ⟨.hbm, 471, rfl⟩
abbrev main_v318 : Ref sig .tc := ⟨.hbm, 472, rfl⟩
abbrev main_c_87 : Ref sig .tc := ⟨.hbm, 473, rfl⟩
abbrev main_call12_v0 : Ref sig .tc := ⟨.hbm, 474, rfl⟩
abbrev main_call12_v1 : Ref sig .tc := ⟨.hbm, 475, rfl⟩
abbrev main_call12_v2 : Ref sig .tc := ⟨.hbm, 476, rfl⟩
abbrev main_call12_v3 : Ref sig .tc := ⟨.hbm, 477, rfl⟩
abbrev main_call12_v4 : Ref sig .tc := ⟨.hbm, 478, rfl⟩
abbrev main_v319 : Ref sig .tc := ⟨.hbm, 479, rfl⟩
abbrev main_v320 : Ref sig .tc := ⟨.hbm, 480, rfl⟩
abbrev main_v321 : Ref sig .tc := ⟨.hbm, 481, rfl⟩
abbrev main_c_88 : Ref sig .tc := ⟨.hbm, 482, rfl⟩
abbrev main_v322 : Ref sig .tc := ⟨.hbm, 483, rfl⟩
abbrev main_v323 : Ref sig .tc := ⟨.hbm, 484, rfl⟩
abbrev main_v324 : Ref sig .tc := ⟨.hbm, 485, rfl⟩
abbrev main_v325 : Ref sig .tc := ⟨.hbm, 486, rfl⟩
abbrev main_v326 : Ref sig .tc := ⟨.hbm, 487, rfl⟩
abbrev main_c_89 : Ref sig .tc := ⟨.hbm, 488, rfl⟩
abbrev main_v327 : Ref sig .tc := ⟨.hbm, 489, rfl⟩
abbrev main_v328 : Ref sig .tc := ⟨.hbm, 490, rfl⟩
abbrev main_v329 : Ref sig .tc := ⟨.hbm, 491, rfl⟩
abbrev main_v330 : Ref sig .tc := ⟨.hbm, 492, rfl⟩
abbrev main_v331 : Ref sig .tc := ⟨.hbm, 493, rfl⟩
abbrev main_c_90 : Ref sig .tc := ⟨.hbm, 494, rfl⟩
abbrev main_v332 : Ref sig .tc := ⟨.hbm, 495, rfl⟩
abbrev main_v333 : Ref sig .tc := ⟨.hbm, 496, rfl⟩
abbrev main_c_91 : Ref sig .tc := ⟨.hbm, 497, rfl⟩
abbrev main_v334 : Ref sig .tc := ⟨.hbm, 498, rfl⟩
abbrev main_v335 : Ref sig .tc := ⟨.hbm, 499, rfl⟩
abbrev main_v336 : Ref sig .tc := ⟨.hbm, 500, rfl⟩
abbrev main_v337 : Ref sig .tc := ⟨.hbm, 501, rfl⟩
abbrev main_v338 : Ref sig .tc := ⟨.hbm, 502, rfl⟩
abbrev main_v339 : Ref sig .tc := ⟨.hbm, 503, rfl⟩
abbrev main_v340 : Ref sig .tc := ⟨.hbm, 504, rfl⟩
abbrev main_v341 : Ref sig .tc := ⟨.hbm, 505, rfl⟩
abbrev main_v342 : Ref sig .tc := ⟨.hbm, 506, rfl⟩
abbrev main_v343 : Ref sig .tc := ⟨.hbm, 507, rfl⟩
abbrev main_v344 : Ref sig .tc := ⟨.hbm, 508, rfl⟩
abbrev main_c_92 : Ref sig .tc := ⟨.hbm, 509, rfl⟩
abbrev main_call13_v0 : Ref sig .tc := ⟨.hbm, 510, rfl⟩
abbrev main_call13_v1 : Ref sig .tc := ⟨.hbm, 511, rfl⟩
abbrev main_call13_v2 : Ref sig .tc := ⟨.hbm, 512, rfl⟩
abbrev main_call13_v3 : Ref sig .tc := ⟨.hbm, 513, rfl⟩
abbrev main_call13_v4 : Ref sig .tc := ⟨.hbm, 514, rfl⟩
abbrev main_v345 : Ref sig .tc := ⟨.hbm, 515, rfl⟩
abbrev main_v346 : Ref sig .tc := ⟨.hbm, 516, rfl⟩
abbrev main_v347 : Ref sig .tc := ⟨.hbm, 517, rfl⟩
abbrev main_c_93 : Ref sig .tc := ⟨.hbm, 518, rfl⟩
abbrev main_v348 : Ref sig .tc := ⟨.hbm, 519, rfl⟩
abbrev main_v349 : Ref sig .tc := ⟨.hbm, 520, rfl⟩
abbrev main_v350 : Ref sig .tc := ⟨.hbm, 521, rfl⟩
abbrev main_v351 : Ref sig .tc := ⟨.hbm, 522, rfl⟩
abbrev main_v352 : Ref sig .tc := ⟨.hbm, 523, rfl⟩
abbrev main_c_94 : Ref sig .tc := ⟨.hbm, 524, rfl⟩
abbrev main_v353 : Ref sig .tc := ⟨.hbm, 525, rfl⟩
abbrev main_v354 : Ref sig .tc := ⟨.hbm, 526, rfl⟩
abbrev main_v355 : Ref sig .tc := ⟨.hbm, 527, rfl⟩
abbrev main_v356 : Ref sig .tc := ⟨.hbm, 528, rfl⟩
abbrev main_v357 : Ref sig .tc := ⟨.hbm, 529, rfl⟩
abbrev main_c_95 : Ref sig .tc := ⟨.hbm, 530, rfl⟩
abbrev main_v358 : Ref sig .tc := ⟨.hbm, 531, rfl⟩
abbrev main_v359 : Ref sig .tc := ⟨.hbm, 532, rfl⟩
abbrev main_c_96 : Ref sig .tc := ⟨.hbm, 533, rfl⟩
abbrev main_v360 : Ref sig .tc := ⟨.hbm, 534, rfl⟩
abbrev main_v361 : Ref sig .tc := ⟨.hbm, 535, rfl⟩
abbrev main_v362 : Ref sig .tc := ⟨.hbm, 536, rfl⟩
abbrev main_v363 : Ref sig .tc := ⟨.hbm, 537, rfl⟩
abbrev main_v364 : Ref sig .tc := ⟨.hbm, 538, rfl⟩
abbrev main_v365 : Ref sig .tc := ⟨.hbm, 539, rfl⟩
abbrev main_v366 : Ref sig .tc := ⟨.hbm, 540, rfl⟩
abbrev main_v367 : Ref sig .tc := ⟨.hbm, 541, rfl⟩
abbrev main_v368 : Ref sig .tc := ⟨.hbm, 542, rfl⟩
abbrev main_v369 : Ref sig .tc := ⟨.hbm, 543, rfl⟩
abbrev main_v370 : Ref sig .tc := ⟨.hbm, 544, rfl⟩
abbrev main_c_97 : Ref sig .tc := ⟨.hbm, 545, rfl⟩
abbrev main_call14_v0 : Ref sig .tc := ⟨.hbm, 546, rfl⟩
abbrev main_call14_v1 : Ref sig .tc := ⟨.hbm, 547, rfl⟩
abbrev main_call14_v2 : Ref sig .tc := ⟨.hbm, 548, rfl⟩
abbrev main_call14_v3 : Ref sig .tc := ⟨.hbm, 549, rfl⟩
abbrev main_call14_v4 : Ref sig .tc := ⟨.hbm, 550, rfl⟩
abbrev main_v371 : Ref sig .tc := ⟨.hbm, 551, rfl⟩
abbrev main_v372 : Ref sig .tc := ⟨.hbm, 552, rfl⟩
abbrev main_v373 : Ref sig .tc := ⟨.hbm, 553, rfl⟩
abbrev main_c_98 : Ref sig .tc := ⟨.hbm, 554, rfl⟩
abbrev main_v374 : Ref sig .tc := ⟨.hbm, 555, rfl⟩
abbrev main_v375 : Ref sig .tc := ⟨.hbm, 556, rfl⟩
abbrev main_v376 : Ref sig .tc := ⟨.hbm, 557, rfl⟩
abbrev main_v377 : Ref sig .tc := ⟨.hbm, 558, rfl⟩
abbrev main_v378 : Ref sig .tc := ⟨.hbm, 559, rfl⟩
abbrev main_c_99 : Ref sig .tc := ⟨.hbm, 560, rfl⟩
abbrev main_v379 : Ref sig .tc := ⟨.hbm, 561, rfl⟩
abbrev main_v380 : Ref sig .tc := ⟨.hbm, 562, rfl⟩
abbrev main_v381 : Ref sig .tc := ⟨.hbm, 563, rfl⟩
abbrev main_v382 : Ref sig .tc := ⟨.hbm, 564, rfl⟩
abbrev main_v383 : Ref sig .tc := ⟨.hbm, 565, rfl⟩
abbrev main_c_100 : Ref sig .tc := ⟨.hbm, 566, rfl⟩
abbrev main_v384 : Ref sig .tc := ⟨.hbm, 567, rfl⟩
abbrev main_v385 : Ref sig .tc := ⟨.hbm, 568, rfl⟩
abbrev main_c_101 : Ref sig .tc := ⟨.hbm, 569, rfl⟩
abbrev main_v386 : Ref sig .tc := ⟨.hbm, 570, rfl⟩
abbrev main_v387 : Ref sig .tc := ⟨.hbm, 571, rfl⟩
abbrev main_v388 : Ref sig .tc := ⟨.hbm, 572, rfl⟩
abbrev main_v389 : Ref sig .tc := ⟨.hbm, 573, rfl⟩
abbrev main_v390 : Ref sig .tc := ⟨.hbm, 574, rfl⟩
abbrev main_v391 : Ref sig .tc := ⟨.hbm, 575, rfl⟩
abbrev main_v392 : Ref sig .tc := ⟨.hbm, 576, rfl⟩
abbrev main_v393 : Ref sig .tc := ⟨.hbm, 577, rfl⟩
abbrev main_v394 : Ref sig .tc := ⟨.hbm, 578, rfl⟩
abbrev main_v395 : Ref sig .tc := ⟨.hbm, 579, rfl⟩
abbrev main_v396 : Ref sig .tc := ⟨.hbm, 580, rfl⟩
abbrev main_c_102 : Ref sig .tc := ⟨.hbm, 581, rfl⟩
abbrev main_call15_v0 : Ref sig .tc := ⟨.hbm, 582, rfl⟩
abbrev main_call15_v1 : Ref sig .tc := ⟨.hbm, 583, rfl⟩
abbrev main_call15_v2 : Ref sig .tc := ⟨.hbm, 584, rfl⟩
abbrev main_call15_v3 : Ref sig .tc := ⟨.hbm, 585, rfl⟩
abbrev main_call15_v4 : Ref sig .tc := ⟨.hbm, 586, rfl⟩
abbrev main_v397 : Ref sig .tc := ⟨.hbm, 587, rfl⟩
abbrev main_v398 : Ref sig .tc := ⟨.hbm, 588, rfl⟩
abbrev main_v399 : Ref sig .tc := ⟨.hbm, 589, rfl⟩
abbrev main_c_103 : Ref sig .tc := ⟨.hbm, 590, rfl⟩
abbrev main_v400 : Ref sig .tc := ⟨.hbm, 591, rfl⟩
abbrev main_v401 : Ref sig .tc := ⟨.hbm, 592, rfl⟩
abbrev main_v402 : Ref sig .tc := ⟨.hbm, 593, rfl⟩
abbrev main_v403 : Ref sig .tc := ⟨.hbm, 594, rfl⟩
abbrev main_v404 : Ref sig .tc := ⟨.hbm, 595, rfl⟩
abbrev main_c_104 : Ref sig .tc := ⟨.hbm, 596, rfl⟩
abbrev main_v405 : Ref sig .tc := ⟨.hbm, 597, rfl⟩
abbrev main_v406 : Ref sig .tc := ⟨.hbm, 598, rfl⟩
abbrev main_v407 : Ref sig .tc := ⟨.hbm, 599, rfl⟩
abbrev main_v408 : Ref sig .tc := ⟨.hbm, 600, rfl⟩
abbrev main_v409 : Ref sig .tc := ⟨.hbm, 601, rfl⟩
abbrev main_c_105 : Ref sig .tc := ⟨.hbm, 602, rfl⟩
abbrev main_v410 : Ref sig .tc := ⟨.hbm, 603, rfl⟩
abbrev main_v411 : Ref sig .tc := ⟨.hbm, 604, rfl⟩
abbrev main_c_106 : Ref sig .tc := ⟨.hbm, 605, rfl⟩
abbrev main_v412 : Ref sig .tc := ⟨.hbm, 606, rfl⟩
abbrev main_v413 : Ref sig .tc := ⟨.hbm, 607, rfl⟩
abbrev main_v414 : Ref sig .tc := ⟨.hbm, 608, rfl⟩
abbrev main_v415 : Ref sig .tc := ⟨.hbm, 609, rfl⟩
abbrev main_v416 : Ref sig .tc := ⟨.hbm, 610, rfl⟩
abbrev main_v417 : Ref sig .tc := ⟨.hbm, 611, rfl⟩
abbrev main_v418 : Ref sig .tc := ⟨.hbm, 612, rfl⟩
abbrev main_v419 : Ref sig .tc := ⟨.hbm, 613, rfl⟩
abbrev main_v420 : Ref sig .tc := ⟨.hbm, 614, rfl⟩
abbrev main_v421 : Ref sig .tc := ⟨.hbm, 615, rfl⟩
abbrev main_v422 : Ref sig .tc := ⟨.hbm, 616, rfl⟩
abbrev main_c_107 : Ref sig .tc := ⟨.hbm, 617, rfl⟩
abbrev main_call16_v0 : Ref sig .tc := ⟨.hbm, 618, rfl⟩
abbrev main_call16_v1 : Ref sig .tc := ⟨.hbm, 619, rfl⟩
abbrev main_call16_v2 : Ref sig .tc := ⟨.hbm, 620, rfl⟩
abbrev main_call16_v3 : Ref sig .tc := ⟨.hbm, 621, rfl⟩
abbrev main_call16_v4 : Ref sig .tc := ⟨.hbm, 622, rfl⟩
abbrev main_v423 : Ref sig .tc := ⟨.hbm, 623, rfl⟩
abbrev main_v424 : Ref sig .tc := ⟨.hbm, 624, rfl⟩
abbrev main_v425 : Ref sig .tc := ⟨.hbm, 625, rfl⟩
abbrev main_c_108 : Ref sig .tc := ⟨.hbm, 626, rfl⟩
abbrev main_v426 : Ref sig .tc := ⟨.hbm, 627, rfl⟩
abbrev main_v427 : Ref sig .tc := ⟨.hbm, 628, rfl⟩
abbrev main_v428 : Ref sig .tc := ⟨.hbm, 629, rfl⟩
abbrev main_v429 : Ref sig .tc := ⟨.hbm, 630, rfl⟩
abbrev main_v430 : Ref sig .tc := ⟨.hbm, 631, rfl⟩
abbrev main_c_109 : Ref sig .tc := ⟨.hbm, 632, rfl⟩
abbrev main_v431 : Ref sig .tc := ⟨.hbm, 633, rfl⟩
abbrev main_v432 : Ref sig .tc := ⟨.hbm, 634, rfl⟩
abbrev main_v433 : Ref sig .tc := ⟨.hbm, 635, rfl⟩
abbrev main_v434 : Ref sig .tc := ⟨.hbm, 636, rfl⟩
abbrev main_v435 : Ref sig .tc := ⟨.hbm, 637, rfl⟩
abbrev main_c_110 : Ref sig .tc := ⟨.hbm, 638, rfl⟩
abbrev main_v436 : Ref sig .tc := ⟨.hbm, 639, rfl⟩
abbrev main_v437 : Ref sig .tc := ⟨.hbm, 640, rfl⟩
abbrev main_c_111 : Ref sig .tc := ⟨.hbm, 641, rfl⟩
abbrev main_v438 : Ref sig .tc := ⟨.hbm, 642, rfl⟩
abbrev main_v439 : Ref sig .tc := ⟨.hbm, 643, rfl⟩
abbrev main_v440 : Ref sig .tc := ⟨.hbm, 644, rfl⟩
abbrev main_v441 : Ref sig .tc := ⟨.hbm, 645, rfl⟩
abbrev main_v442 : Ref sig .tc := ⟨.hbm, 646, rfl⟩
abbrev main_v443 : Ref sig .tc := ⟨.hbm, 647, rfl⟩
abbrev main_v444 : Ref sig .tc := ⟨.hbm, 648, rfl⟩
abbrev main_v445 : Ref sig .tc := ⟨.hbm, 649, rfl⟩
abbrev main_v446 : Ref sig .tc := ⟨.hbm, 650, rfl⟩
abbrev main_v447 : Ref sig .tc := ⟨.hbm, 651, rfl⟩
abbrev main_v448 : Ref sig .tc := ⟨.hbm, 652, rfl⟩
abbrev main_c_112 : Ref sig .tc := ⟨.hbm, 653, rfl⟩
abbrev main_call17_v0 : Ref sig .tc := ⟨.hbm, 654, rfl⟩
abbrev main_call17_v1 : Ref sig .tc := ⟨.hbm, 655, rfl⟩
abbrev main_call17_v2 : Ref sig .tc := ⟨.hbm, 656, rfl⟩
abbrev main_call17_v3 : Ref sig .tc := ⟨.hbm, 657, rfl⟩
abbrev main_call17_v4 : Ref sig .tc := ⟨.hbm, 658, rfl⟩
abbrev main_v449 : Ref sig .tc := ⟨.hbm, 659, rfl⟩
abbrev main_v450 : Ref sig .tc := ⟨.hbm, 660, rfl⟩
abbrev main_v451 : Ref sig .tc := ⟨.hbm, 661, rfl⟩
abbrev main_c_113 : Ref sig .tc := ⟨.hbm, 662, rfl⟩
abbrev main_v452 : Ref sig .tc := ⟨.hbm, 663, rfl⟩
abbrev main_v453 : Ref sig .tc := ⟨.hbm, 664, rfl⟩
abbrev main_v454 : Ref sig .tc := ⟨.hbm, 665, rfl⟩
abbrev main_v455 : Ref sig .tc := ⟨.hbm, 666, rfl⟩
abbrev main_v456 : Ref sig .tc := ⟨.hbm, 667, rfl⟩
abbrev main_c_114 : Ref sig .tc := ⟨.hbm, 668, rfl⟩
abbrev main_v457 : Ref sig .tc := ⟨.hbm, 669, rfl⟩
abbrev main_v458 : Ref sig .tc := ⟨.hbm, 670, rfl⟩
abbrev main_v459 : Ref sig .tc := ⟨.hbm, 671, rfl⟩
abbrev main_v460 : Ref sig .tc := ⟨.hbm, 672, rfl⟩
abbrev main_v461 : Ref sig .tc := ⟨.hbm, 673, rfl⟩
abbrev main_c_115 : Ref sig .tc := ⟨.hbm, 674, rfl⟩
abbrev main_v462 : Ref sig .tc := ⟨.hbm, 675, rfl⟩
abbrev main_v463 : Ref sig .tc := ⟨.hbm, 676, rfl⟩
abbrev main_c_116 : Ref sig .tc := ⟨.hbm, 677, rfl⟩
abbrev main_v464 : Ref sig .tc := ⟨.hbm, 678, rfl⟩
abbrev main_v465 : Ref sig .tc := ⟨.hbm, 679, rfl⟩
abbrev main_v466 : Ref sig .tc := ⟨.hbm, 680, rfl⟩
abbrev main_v467 : Ref sig .tc := ⟨.hbm, 681, rfl⟩
abbrev main_v468 : Ref sig .tc := ⟨.hbm, 682, rfl⟩
abbrev main_v469 : Ref sig .tc := ⟨.hbm, 683, rfl⟩
abbrev main_v470 : Ref sig .tc := ⟨.hbm, 684, rfl⟩
abbrev main_v471 : Ref sig .tc := ⟨.hbm, 685, rfl⟩
abbrev main_v472 : Ref sig .tc := ⟨.hbm, 686, rfl⟩
abbrev main_v473 : Ref sig .tc := ⟨.hbm, 687, rfl⟩
abbrev main_v474 : Ref sig .tc := ⟨.hbm, 688, rfl⟩
abbrev main_c_117 : Ref sig .tc := ⟨.hbm, 689, rfl⟩
abbrev main_call18_v0 : Ref sig .tc := ⟨.hbm, 690, rfl⟩
abbrev main_call18_v1 : Ref sig .tc := ⟨.hbm, 691, rfl⟩
abbrev main_call18_v2 : Ref sig .tc := ⟨.hbm, 692, rfl⟩
abbrev main_call18_v3 : Ref sig .tc := ⟨.hbm, 693, rfl⟩
abbrev main_call18_v4 : Ref sig .tc := ⟨.hbm, 694, rfl⟩
abbrev main_v475 : Ref sig .tc := ⟨.hbm, 695, rfl⟩
abbrev main_v476 : Ref sig .tc := ⟨.hbm, 696, rfl⟩
abbrev main_v477 : Ref sig .tc := ⟨.hbm, 697, rfl⟩
abbrev main_c_118 : Ref sig .tc := ⟨.hbm, 698, rfl⟩
abbrev main_v478 : Ref sig .tc := ⟨.hbm, 699, rfl⟩
abbrev main_v479 : Ref sig .tc := ⟨.hbm, 700, rfl⟩
abbrev main_v480 : Ref sig .tc := ⟨.hbm, 701, rfl⟩
abbrev main_v481 : Ref sig .tc := ⟨.hbm, 702, rfl⟩
abbrev main_v482 : Ref sig .tc := ⟨.hbm, 703, rfl⟩
abbrev main_c_119 : Ref sig .tc := ⟨.hbm, 704, rfl⟩
abbrev main_v483 : Ref sig .tc := ⟨.hbm, 705, rfl⟩
abbrev main_v484 : Ref sig .tc := ⟨.hbm, 706, rfl⟩
abbrev main_v485 : Ref sig .tc := ⟨.hbm, 707, rfl⟩
abbrev main_v486 : Ref sig .tc := ⟨.hbm, 708, rfl⟩
abbrev main_v487 : Ref sig .tc := ⟨.hbm, 709, rfl⟩
abbrev main_c_120 : Ref sig .tc := ⟨.hbm, 710, rfl⟩
abbrev main_v488 : Ref sig .tc := ⟨.hbm, 711, rfl⟩
abbrev main_v489 : Ref sig .tc := ⟨.hbm, 712, rfl⟩
abbrev main_c_121 : Ref sig .tc := ⟨.hbm, 713, rfl⟩
abbrev main_v490 : Ref sig .tc := ⟨.hbm, 714, rfl⟩
abbrev main_v491 : Ref sig .tc := ⟨.hbm, 715, rfl⟩
abbrev main_v492 : Ref sig .tc := ⟨.hbm, 716, rfl⟩
abbrev main_v493 : Ref sig .tc := ⟨.hbm, 717, rfl⟩
abbrev main_v494 : Ref sig .tc := ⟨.hbm, 718, rfl⟩
abbrev main_v495 : Ref sig .tc := ⟨.hbm, 719, rfl⟩
abbrev main_v496 : Ref sig .tc := ⟨.hbm, 720, rfl⟩
abbrev main_v497 : Ref sig .tc := ⟨.hbm, 721, rfl⟩
abbrev main_v498 : Ref sig .tc := ⟨.hbm, 722, rfl⟩
abbrev main_v499 : Ref sig .tc := ⟨.hbm, 723, rfl⟩
abbrev main_v500 : Ref sig .tc := ⟨.hbm, 724, rfl⟩
abbrev main_c_122 : Ref sig .tc := ⟨.hbm, 725, rfl⟩
abbrev main_call19_v0 : Ref sig .tc := ⟨.hbm, 726, rfl⟩
abbrev main_call19_v1 : Ref sig .tc := ⟨.hbm, 727, rfl⟩
abbrev main_call19_v2 : Ref sig .tc := ⟨.hbm, 728, rfl⟩
abbrev main_call19_v3 : Ref sig .tc := ⟨.hbm, 729, rfl⟩
abbrev main_call19_v4 : Ref sig .tc := ⟨.hbm, 730, rfl⟩
abbrev main_v501 : Ref sig .tc := ⟨.hbm, 731, rfl⟩
abbrev main_v502 : Ref sig .tc := ⟨.hbm, 732, rfl⟩
abbrev main_v503 : Ref sig .tc := ⟨.hbm, 733, rfl⟩
abbrev main_c_123 : Ref sig .tc := ⟨.hbm, 734, rfl⟩
abbrev main_v504 : Ref sig .tc := ⟨.hbm, 735, rfl⟩
abbrev main_v505 : Ref sig .tc := ⟨.hbm, 736, rfl⟩
abbrev main_v506 : Ref sig .tc := ⟨.hbm, 737, rfl⟩
abbrev main_v507 : Ref sig .tc := ⟨.hbm, 738, rfl⟩
abbrev main_v508 : Ref sig .tc := ⟨.hbm, 739, rfl⟩
abbrev main_c_124 : Ref sig .tc := ⟨.hbm, 740, rfl⟩
abbrev main_v509 : Ref sig .tc := ⟨.hbm, 741, rfl⟩
abbrev main_v510 : Ref sig .tc := ⟨.hbm, 742, rfl⟩
abbrev main_v511 : Ref sig .tc := ⟨.hbm, 743, rfl⟩
abbrev main_v512 : Ref sig .tc := ⟨.hbm, 744, rfl⟩
abbrev main_v513 : Ref sig .tc := ⟨.hbm, 745, rfl⟩
abbrev main_c_125 : Ref sig .tc := ⟨.hbm, 746, rfl⟩
abbrev main_v514 : Ref sig .tc := ⟨.hbm, 747, rfl⟩
abbrev main_v515 : Ref sig .tc := ⟨.hbm, 748, rfl⟩
abbrev main_c_126 : Ref sig .tc := ⟨.hbm, 749, rfl⟩
abbrev main_v516 : Ref sig .tc := ⟨.hbm, 750, rfl⟩
abbrev main_v517 : Ref sig .tc := ⟨.hbm, 751, rfl⟩
abbrev main_v518 : Ref sig .tc := ⟨.hbm, 752, rfl⟩
abbrev main_v519 : Ref sig .tc := ⟨.hbm, 753, rfl⟩
abbrev main_v520 : Ref sig .tc := ⟨.hbm, 754, rfl⟩
abbrev main_v521 : Ref sig .tc := ⟨.hbm, 755, rfl⟩
abbrev main_v522 : Ref sig .tc := ⟨.hbm, 756, rfl⟩
abbrev main_v523 : Ref sig .tc := ⟨.hbm, 757, rfl⟩
abbrev main_v524 : Ref sig .tc := ⟨.hbm, 758, rfl⟩
abbrev main_v525 : Ref sig .tc := ⟨.hbm, 759, rfl⟩
abbrev main_v526 : Ref sig .tc := ⟨.hbm, 760, rfl⟩
abbrev main_c_127 : Ref sig .tc := ⟨.hbm, 761, rfl⟩
abbrev main_call20_v0 : Ref sig .tc := ⟨.hbm, 762, rfl⟩
abbrev main_call20_v1 : Ref sig .tc := ⟨.hbm, 763, rfl⟩
abbrev main_call20_v2 : Ref sig .tc := ⟨.hbm, 764, rfl⟩
abbrev main_call20_v3 : Ref sig .tc := ⟨.hbm, 765, rfl⟩
abbrev main_call20_v4 : Ref sig .tc := ⟨.hbm, 766, rfl⟩
abbrev main_v527 : Ref sig .tc := ⟨.hbm, 767, rfl⟩
abbrev main_v528 : Ref sig .tc := ⟨.hbm, 768, rfl⟩
abbrev main_v529 : Ref sig .tc := ⟨.hbm, 769, rfl⟩
abbrev main_c_128 : Ref sig .tc := ⟨.hbm, 770, rfl⟩
abbrev main_v530 : Ref sig .tc := ⟨.hbm, 771, rfl⟩
abbrev main_v531 : Ref sig .tc := ⟨.hbm, 772, rfl⟩
abbrev main_v532 : Ref sig .tc := ⟨.hbm, 773, rfl⟩
abbrev main_v533 : Ref sig .tc := ⟨.hbm, 774, rfl⟩
abbrev main_v534 : Ref sig .tc := ⟨.hbm, 775, rfl⟩
abbrev main_c_129 : Ref sig .tc := ⟨.hbm, 776, rfl⟩
abbrev main_v535 : Ref sig .tc := ⟨.hbm, 777, rfl⟩
abbrev main_v536 : Ref sig .tc := ⟨.hbm, 778, rfl⟩
abbrev main_v537 : Ref sig .tc := ⟨.hbm, 779, rfl⟩
abbrev main_v538 : Ref sig .tc := ⟨.hbm, 780, rfl⟩
abbrev main_v539 : Ref sig .tc := ⟨.hbm, 781, rfl⟩
abbrev main_c_130 : Ref sig .tc := ⟨.hbm, 782, rfl⟩
abbrev main_v540 : Ref sig .tc := ⟨.hbm, 783, rfl⟩
abbrev main_v541 : Ref sig .tc := ⟨.hbm, 784, rfl⟩
abbrev main_c_131 : Ref sig .tc := ⟨.hbm, 785, rfl⟩
abbrev main_v542 : Ref sig .tc := ⟨.hbm, 786, rfl⟩
abbrev main_v543 : Ref sig .tc := ⟨.hbm, 787, rfl⟩
abbrev main_v544 : Ref sig .tc := ⟨.hbm, 788, rfl⟩
abbrev main_v545 : Ref sig .tc := ⟨.hbm, 789, rfl⟩
abbrev main_v546 : Ref sig .tc := ⟨.hbm, 790, rfl⟩
abbrev main_v547 : Ref sig .tc := ⟨.hbm, 791, rfl⟩
abbrev main_v548 : Ref sig .tc := ⟨.hbm, 792, rfl⟩
abbrev main_v549 : Ref sig .tc := ⟨.hbm, 793, rfl⟩
abbrev main_v550 : Ref sig .tc := ⟨.hbm, 794, rfl⟩
abbrev main_v551 : Ref sig .tc := ⟨.hbm, 795, rfl⟩
abbrev main_v552 : Ref sig .tc := ⟨.hbm, 796, rfl⟩
abbrev main_c_132 : Ref sig .tc := ⟨.hbm, 797, rfl⟩
abbrev main_call21_v0 : Ref sig .tc := ⟨.hbm, 798, rfl⟩
abbrev main_call21_v1 : Ref sig .tc := ⟨.hbm, 799, rfl⟩
abbrev main_call21_v2 : Ref sig .tc := ⟨.hbm, 800, rfl⟩
abbrev main_call21_v3 : Ref sig .tc := ⟨.hbm, 801, rfl⟩
abbrev main_call21_v4 : Ref sig .tc := ⟨.hbm, 802, rfl⟩
abbrev main_v553 : Ref sig .tc := ⟨.hbm, 803, rfl⟩
abbrev main_v554 : Ref sig .tc := ⟨.hbm, 804, rfl⟩
abbrev main_v555 : Ref sig .tc := ⟨.hbm, 805, rfl⟩
abbrev main_c_133 : Ref sig .tc := ⟨.hbm, 806, rfl⟩
abbrev main_v556 : Ref sig .tc := ⟨.hbm, 807, rfl⟩
abbrev main_v557 : Ref sig .tc := ⟨.hbm, 808, rfl⟩
abbrev main_v558 : Ref sig .tc := ⟨.hbm, 809, rfl⟩
abbrev main_v559 : Ref sig .tc := ⟨.hbm, 810, rfl⟩
abbrev main_v560 : Ref sig .tc := ⟨.hbm, 811, rfl⟩
abbrev main_c_134 : Ref sig .tc := ⟨.hbm, 812, rfl⟩
abbrev main_v561 : Ref sig .tc := ⟨.hbm, 813, rfl⟩
abbrev main_v562 : Ref sig .tc := ⟨.hbm, 814, rfl⟩
abbrev main_v563 : Ref sig .tc := ⟨.hbm, 815, rfl⟩
abbrev main_v564 : Ref sig .tc := ⟨.hbm, 816, rfl⟩
abbrev main_v565 : Ref sig .tc := ⟨.hbm, 817, rfl⟩
abbrev main_c_135 : Ref sig .tc := ⟨.hbm, 818, rfl⟩
abbrev main_v566 : Ref sig .tc := ⟨.hbm, 819, rfl⟩
abbrev main_v567 : Ref sig .tc := ⟨.hbm, 820, rfl⟩
abbrev main_c_136 : Ref sig .tc := ⟨.hbm, 821, rfl⟩
abbrev main_v568 : Ref sig .tc := ⟨.hbm, 822, rfl⟩
abbrev main_v569 : Ref sig .tc := ⟨.hbm, 823, rfl⟩
abbrev main_v570 : Ref sig .tc := ⟨.hbm, 824, rfl⟩
abbrev main_v571 : Ref sig .tc := ⟨.hbm, 825, rfl⟩
abbrev main_v572 : Ref sig .tc := ⟨.hbm, 826, rfl⟩
abbrev main_v573 : Ref sig .tc := ⟨.hbm, 827, rfl⟩
abbrev main_v574 : Ref sig .tc := ⟨.hbm, 828, rfl⟩
abbrev main_v575 : Ref sig .tc := ⟨.hbm, 829, rfl⟩
abbrev main_v576 : Ref sig .tc := ⟨.hbm, 830, rfl⟩
abbrev main_v577 : Ref sig .tc := ⟨.hbm, 831, rfl⟩
abbrev main_v578 : Ref sig .tc := ⟨.hbm, 832, rfl⟩
abbrev main_c_137 : Ref sig .tc := ⟨.hbm, 833, rfl⟩
abbrev main_call22_v0 : Ref sig .tc := ⟨.hbm, 834, rfl⟩
abbrev main_call22_v1 : Ref sig .tc := ⟨.hbm, 835, rfl⟩
abbrev main_call22_v2 : Ref sig .tc := ⟨.hbm, 836, rfl⟩
abbrev main_call22_v3 : Ref sig .tc := ⟨.hbm, 837, rfl⟩
abbrev main_call22_v4 : Ref sig .tc := ⟨.hbm, 838, rfl⟩
abbrev main_v579 : Ref sig .tc := ⟨.hbm, 839, rfl⟩
abbrev main_v580 : Ref sig .tc := ⟨.hbm, 840, rfl⟩
abbrev main_v581 : Ref sig .tc := ⟨.hbm, 841, rfl⟩
abbrev main_c_138 : Ref sig .tc := ⟨.hbm, 842, rfl⟩
abbrev main_v582 : Ref sig .tc := ⟨.hbm, 843, rfl⟩
abbrev main_v583 : Ref sig .tc := ⟨.hbm, 844, rfl⟩
abbrev main_v584 : Ref sig .tc := ⟨.hbm, 845, rfl⟩
abbrev main_v585 : Ref sig .tc := ⟨.hbm, 846, rfl⟩
abbrev main_v586 : Ref sig .tc := ⟨.hbm, 847, rfl⟩
abbrev main_c_139 : Ref sig .tc := ⟨.hbm, 848, rfl⟩
abbrev main_v587 : Ref sig .tc := ⟨.hbm, 849, rfl⟩
abbrev main_v588 : Ref sig .tc := ⟨.hbm, 850, rfl⟩
abbrev main_v589 : Ref sig .tc := ⟨.hbm, 851, rfl⟩
abbrev main_v590 : Ref sig .tc := ⟨.hbm, 852, rfl⟩
abbrev main_v591 : Ref sig .tc := ⟨.hbm, 853, rfl⟩
abbrev main_c_140 : Ref sig .tc := ⟨.hbm, 854, rfl⟩
abbrev main_v592 : Ref sig .tc := ⟨.hbm, 855, rfl⟩
abbrev main_v593 : Ref sig .tc := ⟨.hbm, 856, rfl⟩
abbrev main_c_141 : Ref sig .tc := ⟨.hbm, 857, rfl⟩
abbrev main_v594 : Ref sig .tc := ⟨.hbm, 858, rfl⟩
abbrev main_v595 : Ref sig .tc := ⟨.hbm, 859, rfl⟩
abbrev main_v596 : Ref sig .tc := ⟨.hbm, 860, rfl⟩
abbrev main_v597 : Ref sig .tc := ⟨.hbm, 861, rfl⟩
abbrev main_v598 : Ref sig .tc := ⟨.hbm, 862, rfl⟩
abbrev main_v599 : Ref sig .tc := ⟨.hbm, 863, rfl⟩
abbrev main_v600 : Ref sig .tc := ⟨.hbm, 864, rfl⟩
abbrev main_v601 : Ref sig .tc := ⟨.hbm, 865, rfl⟩
abbrev main_v602 : Ref sig .tc := ⟨.hbm, 866, rfl⟩
abbrev main_v603 : Ref sig .tc := ⟨.hbm, 867, rfl⟩
abbrev main_v604 : Ref sig .tc := ⟨.hbm, 868, rfl⟩
abbrev main_c_142 : Ref sig .tc := ⟨.hbm, 869, rfl⟩
abbrev main_call23_v0 : Ref sig .tc := ⟨.hbm, 870, rfl⟩
abbrev main_call23_v1 : Ref sig .tc := ⟨.hbm, 871, rfl⟩
abbrev main_call23_v2 : Ref sig .tc := ⟨.hbm, 872, rfl⟩
abbrev main_call23_v3 : Ref sig .tc := ⟨.hbm, 873, rfl⟩
abbrev main_call23_v4 : Ref sig .tc := ⟨.hbm, 874, rfl⟩
abbrev main_v605 : Ref sig .tc := ⟨.hbm, 875, rfl⟩
abbrev main_v606 : Ref sig .tc := ⟨.hbm, 876, rfl⟩
abbrev main_v607 : Ref sig .tc := ⟨.hbm, 877, rfl⟩
abbrev main_c_143 : Ref sig .tc := ⟨.hbm, 878, rfl⟩
abbrev main_v608 : Ref sig .tc := ⟨.hbm, 879, rfl⟩
abbrev main_v609 : Ref sig .tc := ⟨.hbm, 880, rfl⟩
abbrev main_v610 : Ref sig .tc := ⟨.hbm, 881, rfl⟩
abbrev main_v611 : Ref sig .tc := ⟨.hbm, 882, rfl⟩
abbrev main_v612 : Ref sig .tc := ⟨.hbm, 883, rfl⟩
abbrev main_c_144 : Ref sig .tc := ⟨.hbm, 884, rfl⟩
abbrev main_v613 : Ref sig .tc := ⟨.hbm, 885, rfl⟩
abbrev main_v614 : Ref sig .tc := ⟨.hbm, 886, rfl⟩
abbrev main_v615 : Ref sig .tc := ⟨.hbm, 887, rfl⟩
abbrev main_v616 : Ref sig .tc := ⟨.hbm, 888, rfl⟩
abbrev main_v617 : Ref sig .tc := ⟨.hbm, 889, rfl⟩
abbrev main_c_145 : Ref sig .tc := ⟨.hbm, 890, rfl⟩
abbrev main_v618 : Ref sig .tc := ⟨.hbm, 891, rfl⟩
abbrev main_v619 : Ref sig .tc := ⟨.hbm, 892, rfl⟩
abbrev main_c_146 : Ref sig .tc := ⟨.hbm, 893, rfl⟩
abbrev main_v620 : Ref sig .tc := ⟨.hbm, 894, rfl⟩
abbrev main_v621 : Ref sig .tc := ⟨.hbm, 895, rfl⟩
abbrev main_v622 : Ref sig .tc := ⟨.hbm, 896, rfl⟩
abbrev main_v623 : Ref sig .tc := ⟨.hbm, 897, rfl⟩
abbrev main_v624 : Ref sig .tc := ⟨.hbm, 898, rfl⟩
abbrev main_v625 : Ref sig .tc := ⟨.hbm, 899, rfl⟩
abbrev main_v626 : Ref sig .tc := ⟨.hbm, 900, rfl⟩
abbrev main_v627 : Ref sig .tc := ⟨.hbm, 901, rfl⟩
abbrev main_v628 : Ref sig .tc := ⟨.hbm, 902, rfl⟩
abbrev main_v629 : Ref sig .tc := ⟨.hbm, 903, rfl⟩
abbrev main_v630 : Ref sig .tc := ⟨.hbm, 904, rfl⟩
abbrev main_c_147 : Ref sig .tc := ⟨.hbm, 905, rfl⟩
abbrev main_call24_v0 : Ref sig .tc := ⟨.hbm, 906, rfl⟩
abbrev main_call24_v1 : Ref sig .tc := ⟨.hbm, 907, rfl⟩
abbrev main_call24_v2 : Ref sig .tc := ⟨.hbm, 908, rfl⟩
abbrev main_call24_v3 : Ref sig .tc := ⟨.hbm, 909, rfl⟩
abbrev main_call24_v4 : Ref sig .tc := ⟨.hbm, 910, rfl⟩
abbrev main_v631 : Ref sig .tc := ⟨.hbm, 911, rfl⟩
abbrev main_v632 : Ref sig .tc := ⟨.hbm, 912, rfl⟩
abbrev main_v633 : Ref sig .tc := ⟨.hbm, 913, rfl⟩
abbrev main_c_148 : Ref sig .tc := ⟨.hbm, 914, rfl⟩
abbrev main_v634 : Ref sig .tc := ⟨.hbm, 915, rfl⟩
abbrev main_v635 : Ref sig .tc := ⟨.hbm, 916, rfl⟩
abbrev main_v636 : Ref sig .tc := ⟨.hbm, 917, rfl⟩
abbrev main_v637 : Ref sig .tc := ⟨.hbm, 918, rfl⟩
abbrev main_v638 : Ref sig .tc := ⟨.hbm, 919, rfl⟩
abbrev main_c_149 : Ref sig .tc := ⟨.hbm, 920, rfl⟩
abbrev main_v639 : Ref sig .tc := ⟨.hbm, 921, rfl⟩
abbrev main_v640 : Ref sig .tc := ⟨.hbm, 922, rfl⟩
abbrev main_v641 : Ref sig .tc := ⟨.hbm, 923, rfl⟩
abbrev main_v642 : Ref sig .tc := ⟨.hbm, 924, rfl⟩
abbrev main_v643 : Ref sig .tc := ⟨.hbm, 925, rfl⟩
abbrev main_c_150 : Ref sig .tc := ⟨.hbm, 926, rfl⟩
abbrev main_v644 : Ref sig .tc := ⟨.hbm, 927, rfl⟩
abbrev main_v645 : Ref sig .tc := ⟨.hbm, 928, rfl⟩
abbrev main_c_151 : Ref sig .tc := ⟨.hbm, 929, rfl⟩
abbrev main_v646 : Ref sig .tc := ⟨.hbm, 930, rfl⟩
abbrev main_v647 : Ref sig .tc := ⟨.hbm, 931, rfl⟩
abbrev main_v648 : Ref sig .tc := ⟨.hbm, 932, rfl⟩
abbrev main_v649 : Ref sig .tc := ⟨.hbm, 933, rfl⟩
abbrev main_v650 : Ref sig .tc := ⟨.hbm, 934, rfl⟩
abbrev main_v651 : Ref sig .tc := ⟨.hbm, 935, rfl⟩
abbrev main_v652 : Ref sig .tc := ⟨.hbm, 936, rfl⟩
abbrev main_v653 : Ref sig .tc := ⟨.hbm, 937, rfl⟩
abbrev main_v654 : Ref sig .tc := ⟨.hbm, 938, rfl⟩
abbrev main_v655 : Ref sig .tc := ⟨.hbm, 939, rfl⟩
abbrev main_v656 : Ref sig .tc := ⟨.hbm, 940, rfl⟩
abbrev main_c_152 : Ref sig .tc := ⟨.hbm, 941, rfl⟩
abbrev main_call25_v0 : Ref sig .tc := ⟨.hbm, 942, rfl⟩
abbrev main_call25_v1 : Ref sig .tc := ⟨.hbm, 943, rfl⟩
abbrev main_call25_v2 : Ref sig .tc := ⟨.hbm, 944, rfl⟩
abbrev main_call25_v3 : Ref sig .tc := ⟨.hbm, 945, rfl⟩
abbrev main_call25_v4 : Ref sig .tc := ⟨.hbm, 946, rfl⟩
abbrev main_v657 : Ref sig .tc := ⟨.hbm, 947, rfl⟩
abbrev main_v658 : Ref sig .tc := ⟨.hbm, 948, rfl⟩
abbrev main_v659 : Ref sig .tc := ⟨.hbm, 949, rfl⟩
abbrev main_c_153 : Ref sig .tc := ⟨.hbm, 950, rfl⟩
abbrev main_v660 : Ref sig .tc := ⟨.hbm, 951, rfl⟩
abbrev main_v661 : Ref sig .tc := ⟨.hbm, 952, rfl⟩
abbrev main_v662 : Ref sig .tc := ⟨.hbm, 953, rfl⟩
abbrev main_v663 : Ref sig .tc := ⟨.hbm, 954, rfl⟩
abbrev main_v664 : Ref sig .tc := ⟨.hbm, 955, rfl⟩
abbrev main_c_154 : Ref sig .tc := ⟨.hbm, 956, rfl⟩
abbrev main_v665 : Ref sig .tc := ⟨.hbm, 957, rfl⟩
abbrev main_v666 : Ref sig .tc := ⟨.hbm, 958, rfl⟩
abbrev main_v667 : Ref sig .tc := ⟨.hbm, 959, rfl⟩
abbrev main_v668 : Ref sig .tc := ⟨.hbm, 960, rfl⟩
abbrev main_v669 : Ref sig .tc := ⟨.hbm, 961, rfl⟩
abbrev main_c_155 : Ref sig .tc := ⟨.hbm, 962, rfl⟩
abbrev main_v670 : Ref sig .tc := ⟨.hbm, 963, rfl⟩
abbrev main_v671 : Ref sig .tc := ⟨.hbm, 964, rfl⟩
abbrev main_c_156 : Ref sig .tc := ⟨.hbm, 965, rfl⟩
abbrev main_v672 : Ref sig .tc := ⟨.hbm, 966, rfl⟩
abbrev main_v673 : Ref sig .tc := ⟨.hbm, 967, rfl⟩
abbrev main_v674 : Ref sig .tc := ⟨.hbm, 968, rfl⟩
abbrev main_v675 : Ref sig .tc := ⟨.hbm, 969, rfl⟩
abbrev main_v676 : Ref sig .tc := ⟨.hbm, 970, rfl⟩
abbrev main_v677 : Ref sig .tc := ⟨.hbm, 971, rfl⟩
abbrev main_v678 : Ref sig .tc := ⟨.hbm, 972, rfl⟩
abbrev main_v679 : Ref sig .tc := ⟨.hbm, 973, rfl⟩
abbrev main_v680 : Ref sig .tc := ⟨.hbm, 974, rfl⟩
abbrev main_v681 : Ref sig .tc := ⟨.hbm, 975, rfl⟩
abbrev main_v682 : Ref sig .tc := ⟨.hbm, 976, rfl⟩
abbrev main_c_157 : Ref sig .tc := ⟨.hbm, 977, rfl⟩
abbrev main_call26_v0 : Ref sig .tc := ⟨.hbm, 978, rfl⟩
abbrev main_call26_v1 : Ref sig .tc := ⟨.hbm, 979, rfl⟩
abbrev main_call26_v2 : Ref sig .tc := ⟨.hbm, 980, rfl⟩
abbrev main_call26_v3 : Ref sig .tc := ⟨.hbm, 981, rfl⟩
abbrev main_call26_v4 : Ref sig .tc := ⟨.hbm, 982, rfl⟩
abbrev main_v683 : Ref sig .tc := ⟨.hbm, 983, rfl⟩
abbrev main_v684 : Ref sig .tc := ⟨.hbm, 984, rfl⟩
abbrev main_v685 : Ref sig .tc := ⟨.hbm, 985, rfl⟩
abbrev main_c_158 : Ref sig .tc := ⟨.hbm, 986, rfl⟩
abbrev main_v686 : Ref sig .tc := ⟨.hbm, 987, rfl⟩
abbrev main_v687 : Ref sig .tc := ⟨.hbm, 988, rfl⟩
abbrev main_v688 : Ref sig .tc := ⟨.hbm, 989, rfl⟩
abbrev main_v689 : Ref sig .tc := ⟨.hbm, 990, rfl⟩
abbrev main_v690 : Ref sig .tc := ⟨.hbm, 991, rfl⟩
abbrev main_c_159 : Ref sig .tc := ⟨.hbm, 992, rfl⟩
abbrev main_v691 : Ref sig .tc := ⟨.hbm, 993, rfl⟩
abbrev main_v692 : Ref sig .tc := ⟨.hbm, 994, rfl⟩
abbrev main_v693 : Ref sig .tc := ⟨.hbm, 995, rfl⟩
abbrev main_v694 : Ref sig .tc := ⟨.hbm, 996, rfl⟩
abbrev main_v695 : Ref sig .tc := ⟨.hbm, 997, rfl⟩
abbrev main_c_160 : Ref sig .tc := ⟨.hbm, 998, rfl⟩
abbrev main_v696 : Ref sig .tc := ⟨.hbm, 999, rfl⟩
abbrev main_v697 : Ref sig .tc := ⟨.hbm, 1000, rfl⟩
abbrev main_c_161 : Ref sig .tc := ⟨.hbm, 1001, rfl⟩
abbrev main_v698 : Ref sig .tc := ⟨.hbm, 1002, rfl⟩
abbrev main_v699 : Ref sig .tc := ⟨.hbm, 1003, rfl⟩
abbrev main_v700 : Ref sig .tc := ⟨.hbm, 1004, rfl⟩
abbrev main_v701 : Ref sig .tc := ⟨.hbm, 1005, rfl⟩
abbrev main_v702 : Ref sig .tc := ⟨.hbm, 1006, rfl⟩
abbrev main_v703 : Ref sig .tc := ⟨.hbm, 1007, rfl⟩
abbrev main_v704 : Ref sig .tc := ⟨.hbm, 1008, rfl⟩
abbrev main_v705 : Ref sig .tc := ⟨.hbm, 1009, rfl⟩
abbrev main_v706 : Ref sig .tc := ⟨.hbm, 1010, rfl⟩
abbrev main_v707 : Ref sig .tc := ⟨.hbm, 1011, rfl⟩
abbrev main_v708 : Ref sig .tc := ⟨.hbm, 1012, rfl⟩
abbrev main_v709 : Ref sig .tc := ⟨.hbm, 1013, rfl⟩
abbrev main_v710 : Ref sig .tc := ⟨.hbm, 1014, rfl⟩

abbrev nD : Nat := 1
abbrev τ : Topo := Topo.v7x

variable {F : FTy → Type} [FloatOps F]

class Facts₀ : Prop where
  bcast_S_S2097152x32 : S_.BroadcastsInDim S2097152x32 (![] : Fin 0 → Fin S2097152x32.rank)
  slices_S3x3x3x32x32_S1x1x1x32x32_0_0_0_0_0 : S3x3x3x32x32.Slices ![0, 0, 0, 0, 0] S1x1x1x32x32
  shapeCasts_S1x1x1x32x32_S32x32 : S1x1x1x32x32.ShapeCasts S32x32
  bcast_S3_S1x3_1 : S3.BroadcastsInDim S1x3 (![1] : Fin 1 → Fin S1x3.rank)
  bcast_S1x3_S200000x3_0_1 : S1x3.BroadcastsInDim S200000x3 (![0, 1] : Fin 2 → Fin S200000x3.rank)
  bcast_S_S200000x3 : S_.BroadcastsInDim S200000x3 (![] : Fin 0 → Fin S200000x3.rank)
  slices_S200000x3_S200000x1_0_0 : S200000x3.Slices ![0, 0] S200000x1
  shapeCasts_S200000x1_S200000 : S200000x1.ShapeCasts S200000
  bcast_S_S200000 : S_.BroadcastsInDim S200000 (![] : Fin 0 → Fin S200000.rank)
  slices_S200000x3_S200000x1_0_1 : S200000x3.Slices ![0, 1] S200000x1
  slices_S200000x3_S200000x1_0_2 : S200000x3.Slices ![0, 2] S200000x1
  bcast_S200000_S200000x1_0 : S200000.BroadcastsInDim S200000x1 (![0] : Fin 1 → Fin S200000x1.rank)
  slices_S3x3x3x32x32_S1x1x1x32x32_0_0_1_0_0 : S3x3x3x32x32.Slices ![0, 0, 1, 0, 0] S1x1x1x32x32
  slices_S3x3x3x32x32_S1x1x1x32x32_0_0_2_0_0 : S3x3x3x32x32.Slices ![0, 0, 2, 0, 0] S1x1x1x32x32
  slices_S3x3x3x32x32_S1x1x1x32x32_0_1_0_0_0 : S3x3x3x32x32.Slices ![0, 1, 0, 0, 0] S1x1x1x32x32
  slices_S3x3x3x32x32_S1x1x1x32x32_0_1_1_0_0 : S3x3x3x32x32.Slices ![0, 1, 1, 0, 0] S1x1x1x32x32
  slices_S3x3x3x32x32_S1x1x1x32x32_0_1_2_0_0 : S3x3x3x32x32.Slices ![0, 1, 2, 0, 0] S1x1x1x32x32
  slices_S3x3x3x32x32_S1x1x1x32x32_0_2_0_0_0 : S3x3x3x32x32.Slices ![0, 2, 0, 0, 0] S1x1x1x32x32
  slices_S3x3x3x32x32_S1x1x1x32x32_0_2_1_0_0 : S3x3x3x32x32.Slices ![0, 2, 1, 0, 0] S1x1x1x32x32
  slices_S3x3x3x32x32_S1x1x1x32x32_0_2_2_0_0 : S3x3x3x32x32.Slices ![0, 2, 2, 0, 0] S1x1x1x32x32
  slices_S3x3x3x32x32_S1x1x1x32x32_1_0_0_0_0 : S3x3x3x32x32.Slices ![1, 0, 0, 0, 0] S1x1x1x32x32
  slices_S3x3x3x32x32_S1x1x1x32x32_1_0_1_0_0 : S3x3x3x32x32.Slices ![1, 0, 1, 0, 0] S1x1x1x32x32
  slices_S3x3x3x32x32_S1x1x1x32x32_1_0_2_0_0 : S3x3x3x32x32.Slices ![1, 0, 2, 0, 0] S1x1x1x32x32
  slices_S3x3x3x32x32_S1x1x1x32x32_1_1_0_0_0 : S3x3x3x32x32.Slices ![1, 1, 0, 0, 0] S1x1x1x32x32
  slices_S3x3x3x32x32_S1x1x1x32x32_1_1_1_0_0 : S3x3x3x32x32.Slices ![1, 1, 1, 0, 0] S1x1x1x32x32
  slices_S3x3x3x32x32_S1x1x1x32x32_1_1_2_0_0 : S3x3x3x32x32.Slices ![1, 1, 2, 0, 0] S1x1x1x32x32
  slices_S3x3x3x32x32_S1x1x1x32x32_1_2_0_0_0 : S3x3x3x32x32.Slices ![1, 2, 0, 0, 0] S1x1x1x32x32
  slices_S3x3x3x32x32_S1x1x1x32x32_1_2_1_0_0 : S3x3x3x32x32.Slices ![1, 2, 1, 0, 0] S1x1x1x32x32
  slices_S3x3x3x32x32_S1x1x1x32x32_1_2_2_0_0 : S3x3x3x32x32.Slices ![1, 2, 2, 0, 0] S1x1x1x32x32
  slices_S3x3x3x32x32_S1x1x1x32x32_2_0_0_0_0 : S3x3x3x32x32.Slices ![2, 0, 0, 0, 0] S1x1x1x32x32
  slices_S3x3x3x32x32_S1x1x1x32x32_2_0_1_0_0 : S3x3x3x32x32.Slices ![2, 0, 1, 0, 0] S1x1x1x32x32
  slices_S3x3x3x32x32_S1x1x1x32x32_2_0_2_0_0 : S3x3x3x32x32.Slices ![2, 0, 2, 0, 0] S1x1x1x32x32
  slices_S3x3x3x32x32_S1x1x1x32x32_2_1_0_0_0 : S3x3x3x32x32.Slices ![2, 1, 0, 0, 0] S1x1x1x32x32
  slices_S3x3x3x32x32_S1x1x1x32x32_2_1_1_0_0 : S3x3x3x32x32.Slices ![2, 1, 1, 0, 0] S1x1x1x32x32
  slices_S3x3x3x32x32_S1x1x1x32x32_2_1_2_0_0 : S3x3x3x32x32.Slices ![2, 1, 2, 0, 0] S1x1x1x32x32
  slices_S3x3x3x32x32_S1x1x1x32x32_2_2_0_0_0 : S3x3x3x32x32.Slices ![2, 2, 0, 0, 0] S1x1x1x32x32
  slices_S3x3x3x32x32_S1x1x1x32x32_2_2_1_0_0 : S3x3x3x32x32.Slices ![2, 2, 1, 0, 0] S1x1x1x32x32
  slices_S3x3x3x32x32_S1x1x1x32x32_2_2_2_0_0 : S3x3x3x32x32.Slices ![2, 2, 2, 0, 0] S1x1x1x32x32
  shapeCasts_S2097152x32_S1x128x128x128x32 : S2097152x32.ShapeCasts S1x128x128x128x32
  bcast_S32_S1x1x1x1x32_4 : S32.BroadcastsInDim S1x1x1x1x32 (![4] : Fin 1 → Fin S1x1x1x1x32.rank)
  bcast_S1x128x128x128x1_S1x128x128x128x32_0_1_2_3_4 : S1x128x128x128x1.BroadcastsInDim S1x128x128x128x32 (![0, 1, 2, 3, 4] : Fin 5 → Fin S1x128x128x128x32.rank)
  bcast_S1x1x1x1x32_S1x128x128x128x32_0_1_2_3_4 : S1x1x1x1x32.BroadcastsInDim S1x128x128x128x32 (![0, 1, 2, 3, 4] : Fin 5 → Fin S1x128x128x128x32.rank)
  dot_S200000x32_S32x32_S200000x32_1_0_0_1_n_n_wf : DotDims.WF S200000x32 S32x32 S200000x32 [1] [0] [0] [1] [] []
  scatter_S2097152x32_S200000x1_S200000x32_1_0_0_1_wf : ScatterDims.WF S2097152x32 S200000x1 S200000x32 [1] [0] [0] 1

variable [Facts₀]

def dot_S200000x32_S32x32_S200000x32_1_0_0_1_n_n : DotDims S200000x32 S32x32 S200000x32 where
  lhsContracting := [1]
  rhsContracting := [0]
  lhsNonContracting := [0]
  rhsNonContracting := [1]
  lhsBatch := []
  rhsBatch := []
  wf := dot_S200000x32_S32x32_S200000x32_1_0_0_1_n_n_wf
def scatter_S2097152x32_S200000x1_S200000x32_1_0_0_1 : ScatterDims S2097152x32 S200000x1 S200000x32 where
  updateWindowDims := [1]
  insertedWindowDims := [0]
  scatterDimsToOperandDims := [0]
  indexVectorDim := 1
  wf := scatter_S2097152x32_S200000x1_S200000x32_1_0_0_1_wf

class Facts : Prop extends Facts₀ where

variable [Facts]
-- ==== Proof.Spec.lean ====
import proofs.«406342_j15479062134906_3_alg».proof.KernelIdeal
import proofs.«406342_j15479062134906_3_alg».proof.ReferenceIdeal
import Idealize.ShloMosaic.PureOps.Ideal
import Idealize.ShloMosaic.Lib.ValueIdx

noncomputable section

namespace Cert.Spec

open Idealize.ShloMosaic Idealize.ShloMosaic.ValueIdx
open Cert.KernelIdeal (S200000x32 S200000x3 S1x128x128x128x1 S3x3x3x32x32 S32 S5400000x1 S5400000x32 S2097152x32 S1x128x128x128x32)

abbrev arr (S : Shape) (x : S.Idx → EReal) : S.Idx → EReal := x

abbrev iarr (S : Shape) (x : IVec S 32) : IVec S 32 := x

def dz (t : Fin 27) : Fin 3 := ⟨t.val / 9, by omega⟩

def dy (t : Fin 27) : Fin 3 := ⟨(t.val / 3) % 3, by omega⟩

def dx (t : Fin 27) : Fin 3 := ⟨t.val % 3, by omega⟩

def digit (t : Fin 27) (a : Fin 3) : Fin 3 := match a with | ⟨0, _⟩ => dz t | ⟨1, _⟩ => dy t | ⟨2, _⟩ => dx t

def shiftOf (t : Fin 27) (a : Fin 3) : BitVec 32 := BitVec.ofNat 32 (digit t a).val - 1#32

def clamp (v : BitVec 32) : BitVec 32 := IntOp.minsi 127#32 (IntOp.maxsi 0#32 v)

def flat3 (a b c : BitVec 32) : BitVec 32 := IntOp.addi (IntOp.muli (IntOp.addi (IntOp.muli a 128#32) b) 128#32) c

def wrapNeg (f : BitVec 32) : BitVec 32 := Scalar.select (IntOp.cmpi .slt f 0#32) (IntOp.addi f 2097152#32) f

def rowIdx (cd : IVec S200000x3 32) (n : Fin 200000) (t : Fin 27) : BitVec 32 :=
  wrapNeg (flat3 (clamp (IntOp.addi (cd (ix2 n (0 : Fin 3))) (shiftOf t 0)))
    (clamp (IntOp.addi (cd (ix2 n (1 : Fin 3))) (shiftOf t 1)))
    (clamp (IntOp.addi (cd (ix2 n (2 : Fin 3))) (shiftOf t 2))))

def tapVal (x : S200000x32.Idx → EReal) (kr : S3x3x3x32x32.Idx → EReal) (n : Fin 200000) (t : Fin 27) (j : Fin 32) : EReal :=
  ∑ i : Fin 32, x (ix2 n i) * kr (ix5 (dz t) (dy t) (dx t) i j)

def rowN (r : Fin 5400000) : Fin 200000 := ⟨r.val / 27, by omega⟩

def rowT (r : Fin 5400000) : Fin 27 := ⟨r.val % 27, by omega⟩

def idxK (cd : IVec S200000x3 32) : IVec S5400000x1 32 := fun i => rowIdx cd (rowN (i 0)) (rowT (i 0))

def updK (x : S200000x32.Idx → EReal) (kr : S3x3x3x32x32.Idx → EReal) : S5400000x32.Idx → EReal :=
  fun i => tapVal x kr (rowN (i 0)) (rowT (i 0)) (i 1)

variable [Cert.KernelIdeal.Facts]

def acc (x : S200000x32.Idx → EReal) (cd : IVec S200000x3 32) (kr : S3x3x3x32x32.Idx → EReal) : S2097152x32.Idx → EReal :=
  Ideal.hostScatterAdd Cert.KernelIdeal.scatter_S2097152x32_S5400000x1_S5400000x32_1_0_0_1 (fun _ => 0) (idxK cd) (updK x kr)

def cell (d h w : Fin 128) : Fin 2097152 := ⟨(d.val * 128 + h.val) * 128 + w.val, by omega⟩

def result (x : S200000x32.Idx → EReal) (cd : IVec S200000x3 32) (mk : S1x128x128x128x1.Idx → EReal)
    (kr : S3x3x3x32x32.Idx → EReal) (b : S32.Idx → EReal) : S1x128x128x128x32.Idx → EReal :=
  fun i => (acc x cd kr (ix2 (cell (i 1) (i 2) (i 3)) (i 4)) + mk (ix5 (i 0) (i 1) (i 2) (i 3) (0 : Fin 1)) * b (ix1 (i 4)))
    * mk (ix5 (i 0) (i 1) (i 2) (i 3) (0 : Fin 1))

end Cert.Spec

end
-- ==== Proof.KMatmul.lean ====
import proofs.«406342_j15479062134906_3_alg».proof.Proof.Gen.Kernel.Launch
import proofs.«406342_j15479062134906_3_alg».proof.Proof.Gen.Kernel.Skeleton
import proofs.«406342_j15479062134906_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1000x32 := Rect.unit (s := S1000x32) ![0, 0] S1000x32.size inb_S1000x32_S1000x32_0_0
abbrev r0_1 : Rect S32x864 := Rect.unit (s := S32x864) ![0, 0] S32x864.size inb_S32x864_S32x864_0_0
abbrev r0_2 : Rect S1000x864 := Rect.unit (s := S1000x864) ![0, 0] S1000x864.size inb_S1000x864_S1000x864_0_0

def out0_2 (x0 : Vec F S1000x32 .f32) (x1 : Vec F S32x864 .f32) : Vec F S1000x864 .f32 :=
  View.canon [⟨r0_2, k0_pay1 (View.ld x0 r0_0) (View.ld x1 r0_1)⟩]

theorem out0_2_eq (x0 : Vec F S1000x32 .f32) (x1 : Vec F S32x864 .f32) : out0_2 x0 x1 = k0_pay1 x0 x1 := by
  have hz0 : (![0, 0] : Fin S1000x32.rank → Nat) = fun _ => 0 := funext fun a => by fin_cases a <;> rfl
  have hz1 : (![0, 0] : Fin S32x864.rank → Nat) = fun _ => 0 := funext fun a => by fin_cases a <;> rfl
  have hz2 : (![0, 0] : Fin S1000x864.rank → Nat) = fun _ => 0 := funext fun a => by fin_cases a <;> rfl
  unfold out0_2
  rw [View.canon_unit_zero hz2, View.ld_unit_zero hz0, View.ld_unit_zero hz1]

theorem cover0_2 (p0 : Vec F S1000x864 .f32) (y : S1000x864.Idx) :
    ∃ pc ∈ ([⟨r0_2, p0⟩] : List (View.Piece (Elt F) S1000x864 .f32)), y ∈ pc.1.set :=
  View.cover_of_tiled [⟨r0_2, p0⟩] S1000x864.size (by rfl) y

set_option maxHeartbeats 1000000 in

theorem sound_kernel0 (c : Dev nD) (E : Set ℕ) (i : grid0.Coords)
    (arg1 : Memref sig .tc .vmem S1000x32 .f32) (harg1 : arg1.IsWhole)
    (arg2 : Memref sig .tc .vmem S32x864 .f32) (harg2 : arg2.IsWhole)
    (arg3 : Memref sig .tc .vmem S1000x864 .f32) (harg3 : arg3.IsWhole)
    (x0 : Vec F S1000x32 .f32) (x1 : Vec F S32x864 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__tap_matmul_kernel i arg1 harg1 arg2 harg2 arg3 harg3) K := by
  simp only [cc0__tap_matmul_kernel_eq_skeleton]; unfold cc0__tap_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.KCombine.lean ====
import proofs.«406342_j15479062134906_3_alg».proof.Proof.Gen.Kernel.Launch
import proofs.«406342_j15479062134906_3_alg».proof.Proof.Gen.Kernel.Skeleton
import proofs.«406342_j15479062134906_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_o : Rect S1x1x128x128x32 := Rect.unit (s := S1x1x128x128x32) ![0, 0, 0, 0, 0] S1x1x128x128x32.size inb_S1x1x128x128x32_S1x1x128x128x32_0_0_0_0_0
abbrev r1_m : Rect S1x1x128x128 := Rect.unit (s := S1x1x128x128) ![0, 0, 0, 0] S1x1x128x128.size inb_S1x1x128x128_S1x1x128x128_0_0_0_0
abbrev r1_b : Rect S32 := Rect.unit (s := S32) ![0] S32.size inb_S32_S32_0

theorem zeros1_5 : (![0, 0, 0, 0, 0] : Fin 5 → Nat) = fun _ => 0 := funext fun a => by fin_cases a <;> rfl
theorem zeros1_4 : (![0, 0, 0, 0] : Fin 4 → Nat) = fun _ => 0 := funext fun a => by fin_cases a <;> rfl
theorem zeros1_1 : (![0] : Fin 1 → Nat) = fun _ => 0 := funext fun a => by fin_cases a <;> rfl

def out1_3 (x0 : Vec F S1x1x128x128x32 .f32) (x1 : Vec F S1x1x128x128 .f32) (x2 : Vec F S32 .f32) : Vec F S1x1x128x128x32 .f32 :=
  View.canon [⟨r1_o, k1_pay1 (View.ld x0 r1_o) (View.ld x1 r1_m) (View.ld x2 r1_b)⟩]

theorem out1_3_eq (x0 : Vec F S1x1x128x128x32 .f32) (x1 : Vec F S1x1x128x128 .f32) (x2 : Vec F S32 .f32) :
    out1_3 x0 x1 x2 = k1_pay1 x0 x1 x2 := by
  unfold out1_3
  rw [View.canon_unit_zero (S := S1x1x128x128x32) zeros1_5, View.ld_unit_zero (S := S1x1x128x128x32) zeros1_5,
    View.ld_unit_zero (S := S1x1x128x128) zeros1_4, View.ld_unit_zero (S := S32) zeros1_1]

theorem cover1_3 (p0 : Vec F S1x1x128x128x32 .f32) (y : S1x1x128x128x32.Idx) :
    ∃ pc ∈ ([⟨r1_o, p0⟩] : List (View.Piece (Elt F) S1x1x128x128x32 .f32)), y ∈ pc.1.set :=
  ⟨_, List.mem_singleton_self _, View.mem_set_unit_zero (S := S1x1x128x128x32) zeros1_5 inb_S1x1x128x128x32_S1x1x128x128x32_0_0_0_0_0 y⟩

set_option maxHeartbeats 1000000 in

theorem sound_kernel1 (c : Dev nD) (E : Set ℕ) (i : grid1.Coords)
    (arg1 : Memref sig .tc .vmem S1x1x128x128x32 .f32) (harg1 : arg1.IsWhole)
    (arg2 : Memref sig .tc .vmem S1x1x128x128 .f32) (harg2 : arg2.IsWhole)
    (arg3 : Memref sig .tc .vmem S32 .f32) (harg3 : arg3.IsWhole)
    (arg4 : Memref sig .tc .vmem S1x1x128x128x32 .f32) (harg4 : arg4.IsWhole)
    (x0 : Vec F S1x1x128x128x32 .f32) (x1 : Vec F S1x1x128x128 .f32) (x2 : Vec F S32 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E (cc1__combine_kernel i arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.KRun.lean ====
import proofs.«406342_j15479062134906_3_alg».proof.Proof.Gen.Kernel.Regions
import proofs.«406342_j15479062134906_3_alg».proof.Proof.KMatmul
import proofs.«406342_j15479062134906_3_alg».proof.Proof.KCombine
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev VR1 : (c : Dev nD) → (b : Ref sig .tc) → Buf (Elt F) ((c : Thread nD τ).loc b) := fun c b => Gen.V1 m c b

def outs0 (r : Ref sig .tc) (c : Dev nD) : Buf (Elt F) ((c : Thread nD τ).loc r) :=
  Pipeline.withArrays spec0 c (Gen.V1 m c) (fun w => (dat0 (VR1 m) c).arrAt w cfg0.N) (Proc.devRef .tc r)

def outsA : Gen.Outs (F := F) := fun _ => outs0 m

abbrev VA13 : (c : Dev nD) → (b : Ref sig .tc) → Buf (Elt F) ((c : Thread nD τ).loc b) := fun c b => Gen.V13 m (outsA m) c b

def outs1 (r : Ref sig .tc) (c : Dev nD) : Buf (Elt F) ((c : Thread nD τ).loc r) :=
  Pipeline.withArrays spec1 c (Gen.V13 m (outsA m) c) (fun w => (dat1 (VA13 m) c).arrAt w cfg1.N) (Proc.devRef .tc r)

def outsR : Gen.Outs (F := F) := fun J => if J = 14 then outs1 m else outs0 m

theorem outsR_2 : outsR m 2 = outs0 m := rfl
theorem outsR_14 : outsR m 14 = outs1 m := rfl

theorem V2_outsR (c : Dev nD) : Gen.V2 m (outsR m) c = Gen.V2 m (outsA m) c := rfl

theorem V13_outsR (c : Dev nD) : Gen.V13 m (outsR m) c = Gen.V13 m (outsA m) c := by
  show StableHlo.after _ (StableHlo.after _ (StableHlo.after _ (StableHlo.after _ (StableHlo.after _ (StableHlo.after _
    (StableHlo.after _ (StableHlo.after _ (StableHlo.after _ (StableHlo.after _ (StableHlo.after _ (Gen.V2 m (outsR m) c))))))))))) = _
  rw [V2_outsR]

abbrev VR13 : (c : Dev nD) → (b : Ref sig .tc) → Buf (Elt F) ((c : Thread nD τ).loc b) := fun c b => Gen.V13 m (outsR m) c b

theorem VR13_eq : VR13 m = VA13 m := by
  funext c b; exact congrFun (V13_outsR m c) _

theorem outsR_v3 (c : Dev nD) : outsR m 2 main_v3 c = (dat0 (VR1 m) c).arrAt 2 cfg0.N := by
  rw [outsR_2]; unfold outs0
  exact Pipeline.withArrays_arr spec0 launch0.win.arr_inj c _ _ 2

theorem outsR_v50 (c : Dev nD) : outsR m 14 main_v50 c = (dat1 (VR13 m) c).arrAt 3 cfg1.N := by
  rw [outsR_14, VR13_eq]; unfold outs1
  exact Pipeline.withArrays_arr spec1 launch1.win.arr_inj c _ _ 3

theorem hF0 (c : Dev nD) (w : Fin cfg0.W) :
    (dat0 (VR1 m) c).arrAt w cfg0.N = (fun b : Ref sig .tc => Gen.V2 m (outsR m) c b) (Pipeline.arrRef spec0 w) :=
  match w with
  | ⟨0, _⟩ => (((dat0 (VR1 m) c).arrAt_in 0 rfl _).trans (A_eq0 (VR1 m) c 0)).trans (Gen.V2_of m (outsR m) c _ (by decide)).symm
  | ⟨1, _⟩ => (((dat0 (VR1 m) c).arrAt_in 1 rfl _).trans (A_eq0 (VR1 m) c 1)).trans (Gen.V2_of m (outsR m) c _ (by decide)).symm
  | ⟨2, _⟩ => ((outsR_v3 m c).symm.trans (Function.update_self (β := fun b : DevRef τ sig => b.ty.Contents (Elt F)) _ _ _).symm)

theorem hrest0 (c : Dev nD) : ∀ b : Ref sig .tc, b ∉ Finset.univ.image (Pipeline.arrRef spec0) →
    (fun b : Ref sig .tc => Gen.V2 m (outsR m) c b) b = VR1 m c b :=
  fun b hb => Gen.V2_of m (outsR m) c b fun h => hb (Finset.mem_image.mpr ⟨2, Finset.mem_univ _, (List.mem_singleton.mp h).symm⟩)

theorem hF1 (c : Dev nD) (w : Fin cfg1.W) :
    (dat1 (VR13 m) c).arrAt w cfg1.N = (fun b : Ref sig .tc => Gen.V14 m (outsR m) c b) (Pipeline.arrRef spec1 w) :=
  match w with
  | ⟨0, _⟩ => (((dat1 (VR13 m) c).arrAt_in 0 rfl _).trans (A_eq1 (VR13 m) c 0)).trans (Gen.V14_of m (outsR m) c _ (by decide)).symm
  | ⟨1, _⟩ => (((dat1 (VR13 m) c).arrAt_in 1 rfl _).trans (A_eq1 (VR13 m) c 1)).trans (Gen.V14_of m (outsR m) c _ (by decide)).symm
  | ⟨2, _⟩ => (((dat1 (VR13 m) c).arrAt_in 2 rfl _).trans (A_eq1 (VR13 m) c 2)).trans (Gen.V14_of m (outsR m) c _ (by decide)).symm
  | ⟨3, _⟩ => ((outsR_v50 m c).symm.trans (Function.update_self (β := fun b : DevRef τ sig => b.ty.Contents (Elt F)) _ _ _).symm)

theorem hrest1 (c : Dev nD) : ∀ b : Ref sig .tc, b ∉ Finset.univ.image (Pipeline.arrRef spec1) →
    (fun b : Ref sig .tc => Gen.V14 m (outsR m) c b) b = VR13 m c b :=
  fun b hb => Gen.V14_of m (outsR m) c b fun h => hb (Finset.mem_image.mpr ⟨3, Finset.mem_univ _, (List.mem_singleton.mp h).symm⟩)

def pdats : (p : Fin 2) → (c : Dev nD) → Dat τ (Elt F) Unit ℕ (UR sig nD τ) ℕ (cfgs p) c
  | ⟨0, _⟩ => fun c => dat0 (VR1 m) c
  | ⟨1, _⟩ => fun c => dat1 (VR13 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev ER : Fin 3 → Dev nD → sProp 𝕄 := fun _ c => R c

set_option backward.isDefEq.respectTransparency.types false in

def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outsR m) c) ∗ R c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VR1 m c) (fun b : Ref sig .tc => Gen.V2 m (outsR m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR13 m) c).loose
  hwaits := Pipeline.hwaits_of_owed_zero _ _ _ _ L lv 1 fun _ _ => rfl
  pre c := iprop(StableHlo.held (c : Thread nD τ) (Pipeline.ucRefs τ sig) (Gen.V13 m (outsR m) c) ∗ R c)
  post c := iprop(StableHlo.held (c : Thread nD τ) (Pipeline.ucRefs τ sig) (Gen.V14 m (outsR m) c) ∗ R c)
  X c := iprop(∃ r, prngReg c r)
  Y c := iprop(∃ r, prngReg c r)
  Z c := Pipeline.unscopedRest (Ix := Unit) (Name := ℕ) (U := UR sig nD τ) (Lvl := ℕ) spec1 c (VR13 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VR13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VR13 m c) (fun b : Ref sig .tc => Gen.V14 m (outsR m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

section RunCond

open Idealize.ShloMosaic.Pipeline (Seg HostSeg RegionSeg)

set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Gen.Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) Gen.adm pdats ι defs₀ 𝒱₀ L lv 0)
    (hpre0 : ∀ c : Dev nD, iprop(StableHlo.held (c : Thread nD τ) (Pipeline.ucRefs τ sig) (Gen.V1 m c) ∗ E 0 c) ⊢ R0.pre c)
    (hpost0 : ∀ c : Dev nD, R0.post c ⊢ iprop(StableHlo.held (c : Thread nD τ) (Pipeline.ucRefs τ sig) (Gen.V2 m outs c) ∗ E 1 c))
    (R1 : RegionSeg (pcfgs (F := F)) Gen.adm pdats ι defs₀ 𝒱₀ L lv 1)
    (hpre1 : ∀ c : Dev nD, iprop(StableHlo.held (c : Thread nD τ) (Pipeline.ucRefs τ sig) (Gen.V13 m outs c) ∗ E 1 c) ⊢ R1.pre c)
    (hpost1 : ∀ c : Dev nD, R1.post c ⊢ iprop(StableHlo.held (c : Thread nD τ) (Pipeline.ucRefs τ sig) (Gen.V14 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = Gen.V14 m outs c b) := by
  refine Pipeline.θ_run_regions_kit_dev (pcfgs (F := F)) Gen.adm pdats ι cellOf_inj EP defs₀ 𝒱₀ L lv m ρ main
    (Gen.segs m outs 𝒱₀ L lv E ι pdats R0 R1)
    (fun c Q => by
      rewrite [main_chain c, Seg.run_eq_chain,
        show (Gen.segs m outs 𝒱₀ L lv E ι pdats R0 R1 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          Prog.lift (.customCall (Pipeline.entry 1) ()) ] from rfl]
      exact .rfl)
    (fun c => by simp only [Gen.segs, Seg.pipes_host, Seg.pipes_region, Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V14 m outs c))
    (hch := fun c => ⟨.rfl, hpre0 c, hpost0 c, .rfl, .rfl, .rfl, .rfl, .rfl, .rfl, .rfl, .rfl, .rfl, .rfl, hpre1 c, (hpost1 c).trans (sep_mono .rfl (hE2 c))⟩)
    (hinit := ?_) (QY := fun c s => ∀ b ∈ Pipeline.ucRefs τ sig, s.mem (((c : Thread nD τ)).1, b) = Gen.V14 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    imodintro
    iapply (pointsTo_read_all (Pipeline.ucRefs τ sig) (fun b => ((c : Thread nD τ).1, b)) (Gen.V14 m outs c) s')
    isplitl [Hh] <;> iassumption

end RunCond

theorem hu₀ : (ownU (initOf (Pipeline.cells cfgs cellOf_inj) (Pipeline.launchToks cfgs cellOf_inj)) : sProp 𝕄)
    ⊢ |={Set.univ}=> iprop(BI.own ((emb₁ : Emb _ 𝕄) (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (BI.emp : sProp 𝕄)) c)) ∗ levAts L lv)
      ⊢ (|={Set.univ}=> bigSep Finset.univ (ER (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : ER (F := F) 2 c ⊢ (iprop(∃ W, owes (c : Thread nD τ) (0 : CellTallies nD τ sig Unit) W) : sProp 𝕄) := by
  iintro ⟨-, HO⟩; iexact HO

set_option backward.isDefEq.respectTransparency.types false in

theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Gen.V14 m (outsR m) c b) :=
  run_cond m emb₁ () 𝒱₀ L lv (fun _ _ => rfl) ρ (outsR m) (pdats m) 0 (fun _ => iprop(emp))
    (initOf (Pipeline.cells cfgs cellOf_inj) (Pipeline.launchToks cfgs cellOf_inj)) hu₀ ER (hE0 ρ) hE2
    (reg0 m) (fun _ => .rfl) (fun _ => .rfl) (reg1 m) (fun _ => .rfl) (fun _ => .rfl)

set_option backward.isDefEq.respectTransparency.types false in

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m emb₁ () 𝒱₀ L lv (fun _ _ => rfl) ρ (outsR m) (pdats m) 0 (fun _ => iprop(emp))
    (initOf (Pipeline.cells cfgs cellOf_inj) (Pipeline.launchToks cfgs cellOf_inj)) hu₀ ER (hE0 ρ) hE2
    (reg0 m) (fun _ => .rfl) (fun _ => .rfl) (reg1 m) (fun _ => .rfl) (fun _ => .rfl)

end Cert.Kernel.Reg

end
-- ==== Proof.KiMatmul.lean ====
import proofs.«406342_j15479062134906_3_alg».proof.Proof.Gen.KernelIdeal.Launch
import proofs.«406342_j15479062134906_3_alg».proof.Proof.Gen.KernelIdeal.Skeleton
import proofs.«406342_j15479062134906_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1000x32 := Rect.unit (s := S1000x32) ![0, 0] S1000x32.size inb_S1000x32_S1000x32_0_0
abbrev r0_1 : Rect S32x864 := Rect.unit (s := S32x864) ![0, 0] S32x864.size inb_S32x864_S32x864_0_0
abbrev r0_2 : Rect S1000x864 := Rect.unit (s := S1000x864) ![0, 0] S1000x864.size inb_S1000x864_S1000x864_0_0

def out0_2 (x0 : Vec F S1000x32 .f32) (x1 : Vec F S32x864 .f32) : Vec F S1000x864 .f32 :=
  View.canon [⟨r0_2, k0_pay1 (View.ld x0 r0_0) (View.ld x1 r0_1)⟩]

theorem out0_2_eq (x0 : Vec F S1000x32 .f32) (x1 : Vec F S32x864 .f32) : out0_2 x0 x1 = k0_pay1 x0 x1 := by
  have hz0 : (![0, 0] : Fin S1000x32.rank → Nat) = fun _ => 0 := funext fun a => by fin_cases a <;> rfl
  have hz1 : (![0, 0] : Fin S32x864.rank → Nat) = fun _ => 0 := funext fun a => by fin_cases a <;> rfl
  have hz2 : (![0, 0] : Fin S1000x864.rank → Nat) = fun _ => 0 := funext fun a => by fin_cases a <;> rfl
  unfold out0_2
  rw [View.canon_unit_zero hz2, View.ld_unit_zero hz0, View.ld_unit_zero hz1]

theorem cover0_2 (p0 : Vec F S1000x864 .f32) (y : S1000x864.Idx) :
    ∃ pc ∈ ([⟨r0_2, p0⟩] : List (View.Piece (Elt F) S1000x864 .f32)), y ∈ pc.1.set :=
  View.cover_of_tiled [⟨r0_2, p0⟩] S1000x864.size (by rfl) y

set_option maxHeartbeats 1000000 in

theorem sound_kernel0 (c : Dev nD) (E : Set ℕ) (i : grid0.Coords)
    (arg1 : Memref sig .tc .vmem S1000x32 .f32) (harg1 : arg1.IsWhole)
    (arg2 : Memref sig .tc .vmem S32x864 .f32) (harg2 : arg2.IsWhole)
    (arg3 : Memref sig .tc .vmem S1000x864 .f32) (harg3 : arg3.IsWhole)
    (x0 : Vec F S1000x32 .f32) (x1 : Vec F S32x864 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__tap_matmul_kernel i arg1 harg1 arg2 harg2 arg3 harg3) K := by
  simp only [cc0__tap_matmul_kernel_eq_skeleton]; unfold cc0__tap_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KiCombine.lean ====
import proofs.«406342_j15479062134906_3_alg».proof.Proof.Gen.KernelIdeal.Launch
import proofs.«406342_j15479062134906_3_alg».proof.Proof.Gen.KernelIdeal.Skeleton
import proofs.«406342_j15479062134906_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_o : Rect S1x1x128x128x32 := Rect.unit (s := S1x1x128x128x32) ![0, 0, 0, 0, 0] S1x1x128x128x32.size inb_S1x1x128x128x32_S1x1x128x128x32_0_0_0_0_0
abbrev r1_m : Rect S1x1x128x128 := Rect.unit (s := S1x1x128x128) ![0, 0, 0, 0] S1x1x128x128.size inb_S1x1x128x128_S1x1x128x128_0_0_0_0
abbrev r1_b : Rect S32 := Rect.unit (s := S32) ![0] S32.size inb_S32_S32_0

theorem zeros1_5 : (![0, 0, 0, 0, 0] : Fin 5 → Nat) = fun _ => 0 := funext fun a => by fin_cases a <;> rfl
theorem zeros1_4 : (![0, 0, 0, 0] : Fin 4 → Nat) = fun _ => 0 := funext fun a => by fin_cases a <;> rfl
theorem zeros1_1 : (![0] : Fin 1 → Nat) = fun _ => 0 := funext fun a => by fin_cases a <;> rfl

def out1_3 (x0 : Vec F S1x1x128x128x32 .f32) (x1 : Vec F S1x1x128x128 .f32) (x2 : Vec F S32 .f32) : Vec F S1x1x128x128x32 .f32 :=
  View.canon [⟨r1_o, k1_pay1 (View.ld x0 r1_o) (View.ld x1 r1_m) (View.ld x2 r1_b)⟩]

theorem out1_3_eq (x0 : Vec F S1x1x128x128x32 .f32) (x1 : Vec F S1x1x128x128 .f32) (x2 : Vec F S32 .f32) :
    out1_3 x0 x1 x2 = k1_pay1 x0 x1 x2 := by
  unfold out1_3
  rw [View.canon_unit_zero (S := S1x1x128x128x32) zeros1_5, View.ld_unit_zero (S := S1x1x128x128x32) zeros1_5,
    View.ld_unit_zero (S := S1x1x128x128) zeros1_4, View.ld_unit_zero (S := S32) zeros1_1]

theorem cover1_3 (p0 : Vec F S1x1x128x128x32 .f32) (y : S1x1x128x128x32.Idx) :
    ∃ pc ∈ ([⟨r1_o, p0⟩] : List (View.Piece (Elt F) S1x1x128x128x32 .f32)), y ∈ pc.1.set :=
  ⟨_, List.mem_singleton_self _, View.mem_set_unit_zero (S := S1x1x128x128x32) zeros1_5 inb_S1x1x128x128x32_S1x1x128x128x32_0_0_0_0_0 y⟩

set_option maxHeartbeats 1000000 in

theorem sound_kernel1 (c : Dev nD) (E : Set ℕ) (i : grid1.Coords)
    (arg1 : Memref sig .tc .vmem S1x1x128x128x32 .f32) (harg1 : arg1.IsWhole)
    (arg2 : Memref sig .tc .vmem S1x1x128x128 .f32) (harg2 : arg2.IsWhole)
    (arg3 : Memref sig .tc .vmem S32 .f32) (harg3 : arg3.IsWhole)
    (arg4 : Memref sig .tc .vmem S1x1x128x128x32 .f32) (harg4 : arg4.IsWhole)
    (x0 : Vec F S1x1x128x128x32 .f32) (x1 : Vec F S1x1x128x128 .f32) (x2 : Vec F S32 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out1_3 x0 x1 x2)) -∗ K ⟨⟩))
      ⊢ wp frame (wpE (defs₀ (F := F)) Variants.none c none) E (cc1__combine_kernel i arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.KiRun.lean ====
import proofs.«406342_j15479062134906_3_alg».proof.Proof.Gen.KernelIdeal.Regions
import proofs.«406342_j15479062134906_3_alg».proof.Proof.KiMatmul
import proofs.«406342_j15479062134906_3_alg».proof.Proof.KiCombine
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev VR1 : (c : Dev nD) → (b : Ref sig .tc) → Buf (Elt F) ((c : Thread nD τ).loc b) := fun c b => Gen.V1 m c b

def outs0 (r : Ref sig .tc) (c : Dev nD) : Buf (Elt F) ((c : Thread nD τ).loc r) :=
  Pipeline.withArrays spec0 c (Gen.V1 m c) (fun w => (dat0 (VR1 m) c).arrAt w cfg0.N) (Proc.devRef .tc r)

def outsA : Gen.Outs (F := F) := fun _ => outs0 m

abbrev VA13 : (c : Dev nD) → (b : Ref sig .tc) → Buf (Elt F) ((c : Thread nD τ).loc b) := fun c b => Gen.V13 m (outsA m) c b

def outs1 (r : Ref sig .tc) (c : Dev nD) : Buf (Elt F) ((c : Thread nD τ).loc r) :=
  Pipeline.withArrays spec1 c (Gen.V13 m (outsA m) c) (fun w => (dat1 (VA13 m) c).arrAt w cfg1.N) (Proc.devRef .tc r)

def outsR : Gen.Outs (F := F) := fun J => if J = 14 then outs1 m else outs0 m

theorem outsR_2 : outsR m 2 = outs0 m := rfl
theorem outsR_14 : outsR m 14 = outs1 m := rfl

theorem V2_outsR (c : Dev nD) : Gen.V2 m (outsR m) c = Gen.V2 m (outsA m) c := rfl

theorem V13_outsR (c : Dev nD) : Gen.V13 m (outsR m) c = Gen.V13 m (outsA m) c := by
  show StableHlo.after _ (StableHlo.after _ (StableHlo.after _ (StableHlo.after _ (StableHlo.after _ (StableHlo.after _
    (StableHlo.after _ (StableHlo.after _ (StableHlo.after _ (StableHlo.after _ (StableHlo.after _ (Gen.V2 m (outsR m) c))))))))))) = _
  rw [V2_outsR]

abbrev VR13 : (c : Dev nD) → (b : Ref sig .tc) → Buf (Elt F) ((c : Thread nD τ).loc b) := fun c b => Gen.V13 m (outsR m) c b

theorem VR13_eq : VR13 m = VA13 m := by
  funext c b; exact congrFun (V13_outsR m c) _

theorem outsR_v3 (c : Dev nD) : outsR m 2 main_v3 c = (dat0 (VR1 m) c).arrAt 2 cfg0.N := by
  rw [outsR_2]; unfold outs0
  exact Pipeline.withArrays_arr spec0 launch0.win.arr_inj c _ _ 2

theorem outsR_v50 (c : Dev nD) : outsR m 14 main_v50 c = (dat1 (VR13 m) c).arrAt 3 cfg1.N := by
  rw [outsR_14, VR13_eq]; unfold outs1
  exact Pipeline.withArrays_arr spec1 launch1.win.arr_inj c _ _ 3

theorem hF0 (c : Dev nD) (w : Fin cfg0.W) :
    (dat0 (VR1 m) c).arrAt w cfg0.N = (fun b : Ref sig .tc => Gen.V2 m (outsR m) c b) (Pipeline.arrRef spec0 w) :=
  match w with
  | ⟨0, _⟩ => (((dat0 (VR1 m) c).arrAt_in 0 rfl _).trans (A_eq0 (VR1 m) c 0)).trans (Gen.V2_of m (outsR m) c _ (by decide)).symm
  | ⟨1, _⟩ => (((dat0 (VR1 m) c).arrAt_in 1 rfl _).trans (A_eq0 (VR1 m) c 1)).trans (Gen.V2_of m (outsR m) c _ (by decide)).symm
  | ⟨2, _⟩ => ((outsR_v3 m c).symm.trans (Function.update_self (β := fun b : DevRef τ sig => b.ty.Contents (Elt F)) _ _ _).symm)

theorem hrest0 (c : Dev nD) : ∀ b : Ref sig .tc, b ∉ Finset.univ.image (Pipeline.arrRef spec0) →
    (fun b : Ref sig .tc => Gen.V2 m (outsR m) c b) b = VR1 m c b :=
  fun b hb => Gen.V2_of m (outsR m) c b fun h => hb (Finset.mem_image.mpr ⟨2, Finset.mem_univ _, (List.mem_singleton.mp h).symm⟩)

theorem hF1 (c : Dev nD) (w : Fin cfg1.W) :
    (dat1 (VR13 m) c).arrAt w cfg1.N = (fun b : Ref sig .tc => Gen.V14 m (outsR m) c b) (Pipeline.arrRef spec1 w) :=
  match w with
  | ⟨0, _⟩ => (((dat1 (VR13 m) c).arrAt_in 0 rfl _).trans (A_eq1 (VR13 m) c 0)).trans (Gen.V14_of m (outsR m) c _ (by decide)).symm
  | ⟨1, _⟩ => (((dat1 (VR13 m) c).arrAt_in 1 rfl _).trans (A_eq1 (VR13 m) c 1)).trans (Gen.V14_of m (outsR m) c _ (by decide)).symm
  | ⟨2, _⟩ => (((dat1 (VR13 m) c).arrAt_in 2 rfl _).trans (A_eq1 (VR13 m) c 2)).trans (Gen.V14_of m (outsR m) c _ (by decide)).symm
  | ⟨3, _⟩ => ((outsR_v50 m c).symm.trans (Function.update_self (β := fun b : DevRef τ sig => b.ty.Contents (Elt F)) _ _ _).symm)

theorem hrest1 (c : Dev nD) : ∀ b : Ref sig .tc, b ∉ Finset.univ.image (Pipeline.arrRef spec1) →
    (fun b : Ref sig .tc => Gen.V14 m (outsR m) c b) b = VR13 m c b :=
  fun b hb => Gen.V14_of m (outsR m) c b fun h => hb (Finset.mem_image.mpr ⟨3, Finset.mem_univ _, (List.mem_singleton.mp h).symm⟩)

def pdats : (p : Fin 2) → (c : Dev nD) → Dat τ (Elt F) Unit ℕ (UR sig nD τ) ℕ (cfgs p) c
  | ⟨0, _⟩ => fun c => dat0 (VR1 m) c
  | ⟨1, _⟩ => fun c => dat1 (VR13 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev ER : Fin 3 → Dev nD → sProp 𝕄 := fun _ c => R c

set_option backward.isDefEq.respectTransparency.types false in

def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outsR m) c) ∗ R c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VR1 m c) (fun b : Ref sig .tc => Gen.V2 m (outsR m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR13 m) c).loose
  hwaits := Pipeline.hwaits_of_owed_zero _ _ _ _ L lv 1 fun _ _ => rfl
  pre c := iprop(StableHlo.held (c : Thread nD τ) (Pipeline.ucRefs τ sig) (Gen.V13 m (outsR m) c) ∗ R c)
  post c := iprop(StableHlo.held (c : Thread nD τ) (Pipeline.ucRefs τ sig) (Gen.V14 m (outsR m) c) ∗ R c)
  X c := iprop(∃ r, prngReg c r)
  Y c := iprop(∃ r, prngReg c r)
  Z c := Pipeline.unscopedRest (Ix := Unit) (Name := ℕ) (U := UR sig nD τ) (Lvl := ℕ) spec1 c (VR13 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VR13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VR13 m c) (fun b : Ref sig .tc => Gen.V14 m (outsR m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

section RunCond

open Idealize.ShloMosaic.Pipeline (Seg HostSeg RegionSeg)

set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Gen.Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) Gen.adm pdats ι defs₀ 𝒱₀ L lv 0)
    (hpre0 : ∀ c : Dev nD, iprop(StableHlo.held (c : Thread nD τ) (Pipeline.ucRefs τ sig) (Gen.V1 m c) ∗ E 0 c) ⊢ R0.pre c)
    (hpost0 : ∀ c : Dev nD, R0.post c ⊢ iprop(StableHlo.held (c : Thread nD τ) (Pipeline.ucRefs τ sig) (Gen.V2 m outs c) ∗ E 1 c))
    (R1 : RegionSeg (pcfgs (F := F)) Gen.adm pdats ι defs₀ 𝒱₀ L lv 1)
    (hpre1 : ∀ c : Dev nD, iprop(StableHlo.held (c : Thread nD τ) (Pipeline.ucRefs τ sig) (Gen.V13 m outs c) ∗ E 1 c) ⊢ R1.pre c)
    (hpost1 : ∀ c : Dev nD, R1.post c ⊢ iprop(StableHlo.held (c : Thread nD τ) (Pipeline.ucRefs τ sig) (Gen.V14 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = Gen.V14 m outs c b) := by
  refine Pipeline.θ_run_regions_kit_dev (pcfgs (F := F)) Gen.adm pdats ι cellOf_inj EP defs₀ 𝒱₀ L lv m ρ main
    (Gen.segs m outs 𝒱₀ L lv E ι pdats R0 R1)
    (fun c Q => by
      rewrite [main_chain c, Seg.run_eq_chain,
        show (Gen.segs m outs 𝒱₀ L lv E ι pdats R0 R1 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          Prog.lift (.customCall (Pipeline.entry 1) ()) ] from rfl]
      exact .rfl)
    (fun c => by simp only [Gen.segs, Seg.pipes_host, Seg.pipes_region, Seg.pipes_nil]; decide) O₀ hL G u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V14 m outs c))
    (hch := fun c => ⟨.rfl, hpre0 c, hpost0 c, .rfl, .rfl, .rfl, .rfl, .rfl, .rfl, .rfl, .rfl, .rfl, .rfl, hpre1 c, (hpost1 c).trans (sep_mono .rfl (hE2 c))⟩)
    (hinit := ?_) (QY := fun c s => ∀ b ∈ Pipeline.ucRefs τ sig, s.mem (((c : Thread nD τ)).1, b) = Gen.V14 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (Gen.V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (Gen.V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    imodintro
    iapply (pointsTo_read_all (Pipeline.ucRefs τ sig) (fun b => ((c : Thread nD τ).1, b)) (Gen.V14 m outs c) s')
    isplitl [Hh] <;> iassumption

end RunCond

theorem hu₀ : (ownU (initOf (Pipeline.cells cfgs cellOf_inj) (Pipeline.launchToks cfgs cellOf_inj)) : sProp 𝕄)
    ⊢ |={Set.univ}=> iprop(BI.own ((emb₁ : Emb _ 𝕄) (initOf (Pipeline.cells cfgs cellOf_inj) (Pipeline.launchToks cfgs cellOf_inj)))
        ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (BI.emp : sProp 𝕄)) c)) ∗ levAts L lv)
      ⊢ (|={Set.univ}=> bigSep Finset.univ (ER (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : ER (F := F) 2 c ⊢ (iprop(∃ W, owes (c : Thread nD τ) (0 : CellTallies nD τ sig Unit) W) : sProp 𝕄) := by
  iintro ⟨-, HO⟩; iexact HO

set_option backward.isDefEq.respectTransparency.types false in

theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = Gen.V14 m (outsR m) c b) :=
  run_cond m emb₁ () 𝒱₀ L lv (fun _ _ => rfl) ρ (outsR m) (pdats m) 0 (fun _ => iprop(emp))
    (initOf (Pipeline.cells cfgs cellOf_inj) (Pipeline.launchToks cfgs cellOf_inj)) hu₀ ER (hE0 ρ) hE2
    (reg0 m) (fun _ => .rfl) (fun _ => .rfl) (reg1 m) (fun _ => .rfl) (fun _ => .rfl)

set_option backward.isDefEq.respectTransparency.types false in

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m emb₁ () 𝒱₀ L lv (fun _ _ => rfl) ρ (outsR m) (pdats m) 0 (fun _ => iprop(emp))
    (initOf (Pipeline.cells cfgs cellOf_inj) (Pipeline.launchToks cfgs cellOf_inj)) hu₀ ER (hE0 ρ) hE2
    (reg0 m) (fun _ => .rfl) (fun _ => .rfl) (reg1 m) (fun _ => .rfl) (fun _ => .rfl)

end Cert.KernelIdeal.Reg

end
-- ==== Proof.KiMatmulValue.lean ====
import proofs.«406342_j15479062134906_3_alg».proof.Proof.KiMatmul
import proofs.«406342_j15479062134906_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

abbrev rowsTimesWeights (a0 : S200000x32.Idx → EReal) (a1 : S32x864.Idx → EReal) : S200000x864.Idx → EReal :=
  fun i => ∑ k : Fin 32, a0 (ix2 (i 0) k) * a1 (ix2 k (i 1))

theorem lhs_dot_0 (i : S1000x864.Idx) (q : dot_S1000x32_S32x864_S1000x864_1_0_0_1_n_n.contr.Idx) :
    (dot_S1000x32_S32x864_S1000x864_1_0_0_1_n_n.lhsIdx i q 0).val = (i 0).val := by
  unfold DotDims.lhsIdx
  rw [dif_neg (show ¬(0 : Fin S1000x32.rank) ∈ dot_S1000x32_S32x864_S1000x864_1_0_0_1_n_n.lhsBatch by decide),
    dif_pos (show (0 : Fin S1000x32.rank) ∈ dot_S1000x32_S32x864_S1000x864_1_0_0_1_n_n.lhsNonContracting by decide)]
  rfl

theorem lhs_dot_1 (i : S1000x864.Idx) (q : dot_S1000x32_S32x864_S1000x864_1_0_0_1_n_n.contr.Idx) :
    (dot_S1000x32_S32x864_S1000x864_1_0_0_1_n_n.lhsIdx i q 1).val = (q ⟨0, by decide⟩).val :=
  dot_S1000x32_S32x864_S1000x864_1_0_0_1_n_n.lhsIdx_val_of_single rfl i q

theorem rhs_dot_0 (i : S1000x864.Idx) (q : dot_S1000x32_S32x864_S1000x864_1_0_0_1_n_n.contr.Idx) :
    (dot_S1000x32_S32x864_S1000x864_1_0_0_1_n_n.rhsIdx i q 0).val = (q ⟨0, by decide⟩).val :=
  dot_S1000x32_S32x864_S1000x864_1_0_0_1_n_n.rhsIdx_val_of_single rfl i q

theorem rhs_dot_1 (i : S1000x864.Idx) (q : dot_S1000x32_S32x864_S1000x864_1_0_0_1_n_n.contr.Idx) :
    (dot_S1000x32_S32x864_S1000x864_1_0_0_1_n_n.rhsIdx i q 1).val = (i 1).val := by
  unfold DotDims.rhsIdx
  rw [dif_neg (show ¬(1 : Fin S32x864.rank) ∈ dot_S1000x32_S32x864_S1000x864_1_0_0_1_n_n.rhsBatch by decide),
    dif_pos (show (1 : Fin S32x864.rank) ∈ dot_S1000x32_S32x864_S1000x864_1_0_0_1_n_n.rhsNonContracting by decide)]
  rfl

theorem tile_apply (x0 : Vec Ideal S1000x32 .f32) (x1 : Vec Ideal S32x864 .f32) (p : Fin 1000) (q : Fin 864) :
    (k0_pay1 x0 x1 : S1000x864.Idx → EReal) (ix2 p q)
      = ∑ k : Fin 32, (x0 : S1000x32.Idx → EReal) (ix2 p k) * (x1 : S32x864.Idx → EReal) (ix2 k q) := by
  unfold k0_pay1
  simp only [matmul, shapeCast_self]
  rw [Ideal.matmul_constant_zero_apply,
    ← Equiv.sum_comp (contrEquiv1 dot_S1000x32_S32x864_S1000x864_1_0_0_1_n_n 32 rfl rfl).symm]
  refine Finset.sum_congr rfl fun k _ => ?_
  have hk := contrEquiv1_symm_val dot_S1000x32_S32x864_S1000x864_1_0_0_1_n_n 32 rfl rfl k
  have el : dot_S1000x32_S32x864_S1000x864_1_0_0_1_n_n.lhsIdx (ix2 p q)
      ((contrEquiv1 dot_S1000x32_S32x864_S1000x864_1_0_0_1_n_n 32 rfl rfl).symm k) = ix2 p k :=
    funext fun a => Fin.ext (by
      match a with
      | ⟨0, _⟩ => exact lhs_dot_0 _ _
      | ⟨1, _⟩ => exact (lhs_dot_1 _ _).trans hk)
  have er : dot_S1000x32_S32x864_S1000x864_1_0_0_1_n_n.rhsIdx (ix2 p q)
      ((contrEquiv1 dot_S1000x32_S32x864_S1000x864_1_0_0_1_n_n 32 rfl rfl).symm k) = ix2 k q :=
    funext fun a => Fin.ext (by
      match a with
      | ⟨0, _⟩ => exact (rhs_dot_0 _ _).trans hk
      | ⟨1, _⟩ => exact rhs_dot_1 _ _)
  rw [el, er]

theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

theorem rows_block_apply (c : Dev nD) (t : Fin cfg0.N) (x : S1000x32.Idx) (i : S200000x32.Idx)
    (h0 : (i 0).val = 1000 * t.val + (x 0).val) (h1 : (i 1).val = (x 1).val) :
    (Reg.iblk0 V c 0 t : Vec Ideal S1000x32 .f32) x = (V c main_arg0 : S200000x32.Idx → EReal) i := by
  obtain ⟨e0, e1, -⟩ := block_indices t
  unfold Reg.iblk0
  rw [View.read_apply]
  show V c main_arg0 _ = V c main_arg0 _
  congr 1
  funext a
  apply Fin.ext
  match a with
  | ⟨0, _⟩ => show win0_0.index t (0 : Fin 2) * 1000 + 1 * (x 0).val = (i 0).val; rw [e0, h0]; omega
  | ⟨1, _⟩ => show win0_0.index t (1 : Fin 2) * 32 + 1 * (x 1).val = (i 1).val; rw [e1, h1]; omega

theorem weights_block_apply (c : Dev nD) (t : Fin cfg0.N) (x : S32x864.Idx) :
    (Reg.iblk0 V c 1 t : Vec Ideal S32x864 .f32) x = (V c main_v2 : S32x864.Idx → EReal) x := by
  obtain ⟨-, -, e0, e1, -⟩ := block_indices t
  unfold Reg.iblk0
  rw [View.read_apply]
  show V c main_v2 _ = V c main_v2 _
  congr 1
  funext a
  apply Fin.ext
  match a with
  | ⟨0, _⟩ => show win0_1.index t (0 : Fin 2) * 32 + 1 * (x 0).val = (x 0).val; rw [e0]; omega
  | ⟨1, _⟩ => show win0_1.index t (1 : Fin 2) * 864 + 1 * (x 1).val = (x 1).val; rw [e1]; omega

theorem flushed_eq (c : Dev nD) (t : Fin cfg0.N) :
    (Reg.dat0 V c).flushed 2 t
      = ((cfg0.win 2).blk t).view.read (Elt Ideal) (rowsTimesWeights (V c main_arg0) (V c main_v2)) := by
  show (cfg0.win 2).cut (grid0.coords t) ((Reg.dat0 V c).after 2 t) = _
  rw [Reg.after0_2, Reg.out0_2_eq]
  obtain ⟨-, -, -, -, e0, e1⟩ := block_indices t
  funext j
  obtain ⟨p, q, rfl⟩ : ∃ (p : Fin 1000) (q : Fin 864), j = ix2 p q := ⟨j 0, j 1, eq_ix2 j⟩
  have hN : cfg0.N = 200 := rfl
  have hrow : 1000 * t.val + p.val < 200000 := by have := t.isLt; have := p.isLt; omega
  have hemb : ((cfg0.win 2).blk t).view.emb (ix2 p q) = (ix2 (⟨1000 * t.val + p.val, hrow⟩ : Fin 200000) q : S200000x864.Idx) := by
    funext a; apply Fin.ext
    match a with
    | ⟨0, _⟩ => show win0_2.index t (0 : Fin 2) * 1000 + 1 * p.val = 1000 * t.val + p.val; rw [e0]; omega
    | ⟨1, _⟩ => show win0_2.index t (1 : Fin 2) * 864 + 1 * q.val = q.val; rw [e1]; omega
  rw [View.read_apply, hemb]
  refine (tile_apply (Reg.iblk0 V c 0 t) (Reg.iblk0 V c 1 t) p q).trans ?_
  refine Finset.sum_congr rfl fun k _ => ?_
  exact congrArg₂ (fun a b : EReal => a * b)
    (rows_block_apply V c t (ix2 p k) (ix2 (⟨1000 * t.val + p.val, hrow⟩ : Fin 200000) k) rfl rfl)
    (weights_block_apply V c t (ix2 k q))

theorem mem_block (t : Fin cfg0.N) (i : S200000x864.Idx) :
    i ∈ ((cfg0.win 2).blk t).view.set ↔ ∀ a : Fin 2, win0_2.index t a * S1000x864.size a ≤ (i a).val ∧ (i a).val < win0_2.index t a * S1000x864.size a + S1000x864.size a := by
  show i ∈ ((View.whole main_v3).slice (win0_2.rect t)).set ↔ _
  rw [View.set_slice_whole, Rect.mem_set_unit]
  exact Iff.rfl

theorem covered (i : S200000x864.Idx) :
    ∃ t : Fin cfg0.N, (cfg0.win 2).flush t = true ∧ i ∈ ((cfg0.win 2).blk t).view.set := by
  have hi0 : (i 0).val < 200000 := (i 0).isLt
  have hi1 : (i 1).val < 864 := (i 1).isLt
  have hN : cfg0.N = 200 := rfl
  refine ⟨⟨(i 0).val / 1000, by rw [hN]; omega⟩, flush0_2 _, ?_⟩
  obtain ⟨-, -, -, -, e0, e1⟩ := block_indices ⟨(i 0).val / 1000, by rw [hN]; omega⟩
  rw [mem_block]
  intro a
  match a with
  | ⟨0, _⟩ => show win0_2.index _ (0 : Fin 2) * 1000 ≤ (i 0).val ∧ (i 0).val < win0_2.index _ (0 : Fin 2) * 1000 + 1000; rw [e0]; show (i 0).val / 1000 * 1000 ≤ (i 0).val ∧ (i 0).val < (i 0).val / 1000 * 1000 + 1000; omega
  | ⟨1, _⟩ => show win0_2.index _ (1 : Fin 2) * 864 ≤ (i 1).val ∧ (i 1).val < win0_2.index _ (1 : Fin 2) * 864 + 864; rw [e1]; omega

theorem matmul_array (c : Dev nD) :
    (Reg.dat0 V c).arrAt 2 cfg0.N
      = (fun i : S200000x864.Idx => ∑ k : Fin 32, Cert.Spec.arr S200000x32 (V c main_arg0) (ix2 (i 0) k) * Cert.Spec.arr S32x864 (V c main_v2) (ix2 k (i 1)) : S200000x864.Idx → EReal) :=
  (Reg.dat0 V c).arrAt_eq_of_cover 2 (rowsTimesWeights (V c main_arg0) (V c main_v2)) (fun t _ => flushed_eq V c t) covered

end Cert.KernelIdeal.Val

end
-- ==== Proof.KiCombineValue.lean ====
import proofs.«406342_j15479062134906_3_alg».proof.Proof.KiCombine
import proofs.«406342_j15479062134906_3_alg».proof.Proof.Spec
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

theorem combine_pay_apply (x0 : Vec Ideal S1x1x128x128x32 .f32) (x1 : Vec Ideal S1x1x128x128 .f32) (x2 : Vec Ideal S32 .f32)
    (a b : Fin 1) (p q : Fin 128) (r : Fin 32) :
    k1_pay1 x0 x1 x2 (ix5 a b p q r) = (x0 (ix5 a b p q r) + x1 (ix4 a b p q) * x2 (ix1 r)) * x1 (ix4 a b p q) := by
  have ea : a = 0 := Subsingleton.elim _ _
  have eb : b = 0 := Subsingleton.elim _ _
  subst ea eb
  unfold k1_pay1
  have hm : broadcastTo S1x1x128x128x32 (shapeCast S1x1x128x128x1 (shapeCast S1x1x128x128 x1 shapeCasts_S1x1x128x128_S1x1x128x128) shapeCasts_S1x1x128x128_S1x1x128x128x1) broadcasts_S1x1x128x128x1_S1x1x128x128x32 (ix5 (0 : Fin 1) (0 : Fin 1) p q r) = x1 (ix4 (0 : Fin 1) (0 : Fin 1) p q) := by
    refine (broadcastTo_apply _ _ _ (ix5 (0 : Fin 1) (0 : Fin 1) p q (0 : Fin 1)) fun d => ?_).trans ?_
    · match d with
      | ⟨0, _⟩ => rfl
      | ⟨1, _⟩ => rfl
      | ⟨2, _⟩ => rfl
      | ⟨3, _⟩ => rfl
      | ⟨4, _⟩ => rfl
    · refine (shapeCast_apply _ _ _ (ix4 (0 : Fin 1) (0 : Fin 1) p q) ?_).trans ?_
      · rw [Shape.rowMajor_val_four, Shape.rowMajor_val_five]
        show (((0 * 1 + 0) * 128 + p.val) * 128 + q.val) = ((((0 * 1 + 0) * 128 + p.val) * 128 + q.val) * 1 + 0)
        omega
      · rw [shapeCast_self]
  have hb : broadcastTo S1x1x128x128x32 (shapeCast S1x1x1x1x32 x2 shapeCasts_S32_S1x1x1x1x32) broadcasts_S1x1x1x1x32_S1x1x128x128x32 (ix5 (0 : Fin 1) (0 : Fin 1) p q r) = x2 (ix1 r) := by
    refine (broadcastTo_apply _ _ _ (ix5 (0 : Fin 1) (0 : Fin 1) (0 : Fin 1) (0 : Fin 1) r) fun d => ?_).trans ?_
    · match d with
      | ⟨0, _⟩ => rfl
      | ⟨1, _⟩ => rfl
      | ⟨2, _⟩ => rfl
      | ⟨3, _⟩ => rfl
      | ⟨4, _⟩ => rfl
    · refine shapeCast_apply _ _ _ (ix1 r) ?_
      rw [Shape.rowMajor_val_one, Shape.rowMajor_val_five]
      show r.val = ((((0 * 1 + 0) * 1 + 0) * 1 + 0) * 32 + r.val)
      omega
  show (shapeCast S1x1x128x128x32 x0 shapeCasts_S1x1x128x128x32_S1x1x128x128x32 (ix5 (0 : Fin 1) (0 : Fin 1) p q r) + _ * _) * _ = _
  rw [hm, hb, shapeCast_self]

variable (V : (c : Dev nD) → (b : Ref sig .tc) → Buf (Elt Ideal) ((c : Thread nD τ).loc b))

abbrev arrO (c : Dev nD) : S1x128x128x128x32.Idx → EReal := Cert.Spec.arr S1x128x128x128x32 (V c main_v48)
abbrev arrM (c : Dev nD) : S1x128x128x128.Idx → EReal := Cert.Spec.arr S1x128x128x128 (V c main_v49)
abbrev arrB (c : Dev nD) : S32.Idx → EReal := Cert.Spec.arr S32 (V c main_arg4)

abbrev blkO (c : Dev nD) (t : Fin cfg1.N) : Vec Ideal S1x1x128x128x32 .f32 := Reg.iblk1 V c 0 t
abbrev blkM (c : Dev nD) (t : Fin cfg1.N) : Vec Ideal S1x1x128x128 .f32 := Reg.iblk1 V c 1 t
abbrev blkB (c : Dev nD) (t : Fin cfg1.N) : Vec Ideal S32 .f32 := Reg.iblk1 V c 2 t

abbrev combined (c : Dev nD) : S1x128x128x128x32.Idx → EReal := fun i =>
  (arrO V c i + arrM V c (ix4 (i 0) (i 1) (i 2) (i 3)) * arrB V c (ix1 (i 4))) * arrM V c (ix4 (i 0) (i 1) (i 2) (i 3))

theorem combine_idx_facts : ∀ t : Fin cfg1.N,
    (win1_0.index t (0 : Fin 5) = 0 ∧ win1_0.index t (1 : Fin 5) = t.val ∧ win1_0.index t (2 : Fin 5) = 0 ∧ win1_0.index t (3 : Fin 5) = 0 ∧ win1_0.index t (4 : Fin 5) = 0)
    ∧ (win1_1.index t (0 : Fin 4) = 0 ∧ win1_1.index t (1 : Fin 4) = t.val ∧ win1_1.index t (2 : Fin 4) = 0 ∧ win1_1.index t (3 : Fin 4) = 0)
    ∧ win1_2.index t (0 : Fin 1) = 0
    ∧ (win1_3.index t (0 : Fin 5) = 0 ∧ win1_3.index t (1 : Fin 5) = t.val ∧ win1_3.index t (2 : Fin 5) = 0 ∧ win1_3.index t (3 : Fin 5) = 0 ∧ win1_3.index t (4 : Fin 5) = 0) :=
  (by decide +kernel : ∀ t : Fin grid1.N, _)

theorem blkO_apply (c : Dev nD) (t : Fin cfg1.N) (x : S1x1x128x128x32.Idx) (k : S1x128x128x128x32.Idx)
    (h0 : (k 0).val = (x 0).val) (h1 : (k 1).val = t.val + (x 1).val) (h2 : (k 2).val = (x 2).val)
    (h3 : (k 3).val = (x 3).val) (h4 : (k 4).val = (x 4).val) : blkO V c t x = arrO V c k := by
  obtain ⟨⟨e0, e1, e2, e3, e4⟩, -, -, -⟩ := combine_idx_facts t
  unfold blkO Reg.iblk1
  rw [View.read_apply]
  show V c main_v48 _ = V c main_v48 _
  congr 1
  funext a
  apply Fin.ext
  match a with
  | ⟨0, _⟩ => show win1_0.index t (0 : Fin 5) * 1 + 1 * (x 0).val = (k 0).val; omega
  | ⟨1, _⟩ => show win1_0.index t (1 : Fin 5) * 1 + 1 * (x 1).val = (k 1).val; omega
  | ⟨2, _⟩ => show win1_0.index t (2 : Fin 5) * 128 + 1 * (x 2).val = (k 2).val; omega
  | ⟨3, _⟩ => show win1_0.index t (3 : Fin 5) * 128 + 1 * (x 3).val = (k 3).val; omega
  | ⟨4, _⟩ => show win1_0.index t (4 : Fin 5) * 32 + 1 * (x 4).val = (k 4).val; omega

theorem blkM_apply (c : Dev nD) (t : Fin cfg1.N) (x : S1x1x128x128.Idx) (k : S1x128x128x128.Idx)
    (h0 : (k 0).val = (x 0).val) (h1 : (k 1).val = t.val + (x 1).val) (h2 : (k 2).val = (x 2).val)
    (h3 : (k 3).val = (x 3).val) : blkM V c t x = arrM V c k := by
  obtain ⟨-, ⟨e0, e1, e2, e3⟩, -, -⟩ := combine_idx_facts t
  unfold blkM Reg.iblk1
  rw [View.read_apply]
  show V c main_v49 _ = V c main_v49 _
  congr 1
  funext a
  apply Fin.ext
  match a with
  | ⟨0, _⟩ => show win1_1.index t (0 : Fin 4) * 1 + 1 * (x 0).val = (k 0).val; omega
  | ⟨1, _⟩ => show win1_1.index t (1 : Fin 4) * 1 + 1 * (x 1).val = (k 1).val; omega
  | ⟨2, _⟩ => show win1_1.index t (2 : Fin 4) * 128 + 1 * (x 2).val = (k 2).val; omega
  | ⟨3, _⟩ => show win1_1.index t (3 : Fin 4) * 128 + 1 * (x 3).val = (k 3).val; omega

theorem blkB_apply (c : Dev nD) (t : Fin cfg1.N) (x : S32.Idx) (k : S32.Idx)
    (h0 : (k 0).val = (x 0).val) : blkB V c t x = arrB V c k := by
  obtain ⟨-, -, e0, -⟩ := combine_idx_facts t
  unfold blkB Reg.iblk1
  rw [View.read_apply]
  show V c main_arg4 _ = V c main_arg4 _
  congr 1
  funext a
  apply Fin.ext
  match a with
  | ⟨0, _⟩ => show win1_2.index t (0 : Fin 1) * 32 + 1 * (x 0).val = (k 0).val; omega

theorem combined_at (c : Dev nD) (t : Fin cfg1.N) (a b : Fin 1) (p q : Fin 128) (r : Fin 32) (i : S1x128x128x128x32.Idx)
    (h0 : (i 0).val = a.val) (h1 : (i 1).val = t.val + b.val) (h2 : (i 2).val = p.val) (h3 : (i 3).val = q.val)
    (h4 : (i 4).val = r.val) :
    (blkO V c t (ix5 a b p q r) + blkM V c t (ix4 a b p q) * blkB V c t (ix1 r)) * blkM V c t (ix4 a b p q) = combined V c i := by
  rw [blkO_apply V c t (ix5 a b p q r) i h0 h1 h2 h3 h4,
    blkM_apply V c t (ix4 a b p q) (ix4 (i 0) (i 1) (i 2) (i 3)) h0 h1 h2 h3,
    blkB_apply V c t (ix1 r) (ix1 (i 4)) h4]

theorem combine_flushed_eq (c : Dev nD) (t : Fin cfg1.N) :
    (Reg.dat1 V c).flushed 3 t = ((cfg1.win 3).blk t).view.read (Elt Ideal) (combined V c) := by
  show (cfg1.win 3).cut (grid1.coords t) ((Reg.dat1 V c).after 3 t) = _
  rw [Reg.after1_3, Reg.out1_3_eq]
  funext j
  obtain ⟨a, b, p, q, r, rfl⟩ : ∃ (a : Fin 1) (b : Fin 1) (p : Fin 128) (q : Fin 128) (r : Fin 32), j = ix5 a b p q r :=
    ⟨j 0, j 1, j 2, j 3, j 4, eq_ix5 j⟩
  rw [View.read_apply]
  refine (combine_pay_apply (blkO V c t) (blkM V c t) (blkB V c t) a b p q r).trans ?_
  obtain ⟨-, -, -, ⟨e0, e1, e2, e3, e4⟩⟩ := combine_idx_facts t
  refine combined_at V c t a b p q r _ ?_ ?_ ?_ ?_ ?_
  · show win1_3.index t (0 : Fin 5) * 1 + 1 * a.val = a.val; omega
  · show win1_3.index t (1 : Fin 5) * 1 + 1 * b.val = t.val + b.val; omega
  · show win1_3.index t (2 : Fin 5) * 128 + 1 * p.val = p.val; omega
  · show win1_3.index t (3 : Fin 5) * 128 + 1 * q.val = q.val; omega
  · show win1_3.index t (4 : Fin 5) * 32 + 1 * r.val = r.val; omega

theorem combine_mem_blk (t : Fin cfg1.N) (i : S1x128x128x128x32.Idx) :
    i ∈ ((cfg1.win 3).blk t).view.set ↔ ∀ a : Fin 5, win1_3.index t a * S1x1x128x128x32.size a ≤ (i a).val
      ∧ (i a).val < win1_3.index t a * S1x1x128x128x32.size a + S1x1x128x128x32.size a := by
  show i ∈ ((View.whole main_v50).slice (win1_3.rect t)).set ↔ _
  rw [View.set_slice_whole, Rect.mem_set_unit]
  exact Iff.rfl

theorem combine_cover (i : S1x128x128x128x32.Idx) :
    ∃ t : Fin cfg1.N, (cfg1.win 3).flush t = true ∧ i ∈ ((cfg1.win 3).blk t).view.set := by
  have l0 : (i 0).val < 1 := (i 0).isLt
  have l1 : (i 1).val < 128 := (i 1).isLt
  have l2 : (i 2).val < 128 := (i 2).isLt
  have l3 : (i 3).val < 128 := (i 3).isLt
  have l4 : (i 4).val < 32 := (i 4).isLt
  have ht : (i 1).val < grid1.N := by rw [N_1]; exact l1
  refine ⟨⟨(i 1).val, ht⟩, flush1_3 _, ?_⟩
  obtain ⟨-, -, -, ⟨e0, e1, e2, e3, e4⟩⟩ := combine_idx_facts ⟨(i 1).val, ht⟩
  have e1' : win1_3.index ⟨(i 1).val, ht⟩ (1 : Fin 5) = (i 1).val := e1
  rw [combine_mem_blk]
  intro a
  match a with
  | ⟨0, _⟩ => show win1_3.index _ (0 : Fin 5) * 1 ≤ (i 0).val ∧ (i 0).val < win1_3.index _ (0 : Fin 5) * 1 + 1; omega
  | ⟨1, _⟩ => show win1_3.index _ (1 : Fin 5) * 1 ≤ (i 1).val ∧ (i 1).val < win1_3.index _ (1 : Fin 5) * 1 + 1; omega
  | ⟨2, _⟩ => show win1_3.index _ (2 : Fin 5) * 128 ≤ (i 2).val ∧ (i 2).val < win1_3.index _ (2 : Fin 5) * 128 + 128; omega
  | ⟨3, _⟩ => show win1_3.index _ (3 : Fin 5) * 128 ≤ (i 3).val ∧ (i 3).val < win1_3.index _ (3 : Fin 5) * 128 + 128; omega
  | ⟨4, _⟩ => show win1_3.index _ (4 : Fin 5) * 32 ≤ (i 4).val ∧ (i 4).val < win1_3.index _ (4 : Fin 5) * 32 + 32; omega

theorem combine_array (V : (c : Dev nD) → (b : Ref sig .tc) → Buf (Elt Ideal) ((c : Thread nD τ).loc b)) (c : Dev nD) :
    (Reg.dat1 V c).arrAt 3 cfg1.N = fun i : S1x128x128x128x32.Idx =>
      (Cert.Spec.arr S1x128x128x128x32 (V c main_v48) i
        + Cert.Spec.arr S1x128x128x128 (V c main_v49) (ix4 (i 0) (i 1) (i 2) (i 3)) * Cert.Spec.arr S32 (V c main_arg4) (ix1 (i 4)))
      * Cert.Spec.arr S1x128x128x128 (V c main_v49) (ix4 (i 0) (i 1) (i 2) (i 3)) :=
  (Reg.dat1 V c).arrAt_eq_of_cover 3 (combined V c) (fun t _ => combine_flushed_eq V c t) combine_cover

end Cert.KernelIdeal.Val

end
-- ==== Proof.KiHostTail.lean ====
import proofs.«406342_j15479062134906_3_alg».proof.Proof.Gen.KernelIdeal.Regions
import proofs.«406342_j15479062134906_3_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (outs : Gen.Outs (F := Ideal)) (c : Dev nD)

theorem v13_arg4 : Gen.V13 m outs c main_arg4 = m ((c.tc : Thread nD τ).loc main_arg4) :=
  (V13_of m outs c main_arg4 (by decide)).trans <| (V12_of m outs c main_arg4 (by decide)).trans <|
  (V11_of m outs c main_arg4 (by decide)).trans <| (V10_of m outs c main_arg4 (by decide)).trans <|
  (V9_of m outs c main_arg4 (by decide)).trans <| (V8_of m outs c main_arg4 (by decide)).trans <|
  (V7_of m outs c main_arg4 (by decide)).trans <| (V6_of m outs c main_arg4 (by decide)).trans <|
  (V5_of m outs c main_arg4 (by decide)).trans <| (V4_of m outs c main_arg4 (by decide)).trans <|
  (V3_of m outs c main_arg4 (by decide)).trans <| (V2_of m outs c main_arg4 (by decide)).trans <|
  (V1_of m c main_arg4 (by decide)).trans rfl

theorem v12_arg2 : Gen.V12 m outs c main_arg2 = m ((c.tc : Thread nD τ).loc main_arg2) :=
  (V12_of m outs c main_arg2 (by decide)).trans <|
  (V11_of m outs c main_arg2 (by decide)).trans <| (V10_of m outs c main_arg2 (by decide)).trans <|
  (V9_of m outs c main_arg2 (by decide)).trans <| (V8_of m outs c main_arg2 (by decide)).trans <|
  (V7_of m outs c main_arg2 (by decide)).trans <| (V6_of m outs c main_arg2 (by decide)).trans <|
  (V5_of m outs c main_arg2 (by decide)).trans <| (V4_of m outs c main_arg2 (by decide)).trans <|
  (V3_of m outs c main_arg2 (by decide)).trans <| (V2_of m outs c main_arg2 (by decide)).trans <|
  (V1_of m c main_arg2 (by decide)).trans rfl

set_option maxHeartbeats 4000000 in

theorem v49_raw : Gen.V13 m outs c main_v49
    = shapeCast S1x128x128x128 (Cert.Spec.arr S1x128x128x128x1 (Gen.V12 m outs c main_arg2)) shapeCasts_S1x128x128x128x1_S1x128x128x128 := by
  unfold Gen.V13
  generalize Gen.V12 m outs c = W
  after_results_simp
  rfl

theorem dropLast_apply (X : S1x128x128x128x1.Idx → EReal) (i : S1x128x128x128.Idx) :
    shapeCast S1x128x128x128 X shapeCasts_S1x128x128x128x1_S1x128x128x128 i = X (ix5 (i 0) (i 1) (i 2) (i 3) (0 : Fin 1)) := by
  refine shapeCast_apply _ _ _ _ ?_
  rw [Shape.rowMajor_val_four, Shape.rowMajor_val_five]
  show ((((i 0).val * 128 + (i 1).val) * 128 + (i 2).val) * 128 + (i 3).val) * 1 + 0
    = (((i 0).val * 128 + (i 1).val) * 128 + (i 2).val) * 128 + (i 3).val
  omega

theorem v49_eq : Cert.Spec.arr S1x128x128x128 (Gen.V13 m outs c main_v49)
    = fun i => Cert.Spec.arr S1x128x128x128x1 (m ((c.tc : Thread nD τ).loc main_arg2)) (ix5 (i 0) (i 1) (i 2) (i 3) (0 : Fin 1)) := by
  funext i
  show Gen.V13 m outs c main_v49 i = _
  rw [v49_raw, dropLast_apply, v12_arg2]

set_option maxHeartbeats 4000000 in

theorem v48_raw : Gen.V13 m outs c main_v48
    = shapeCast S1x128x128x128x32
        (Host.scatterAdd scatter_S2097152x32_S5400000x1_S5400000x32_1_0_0_1
          (broadcastInDim S2097152x32 ![] bcast_S_S2097152x32 (constant (F := Ideal) S_ .f32 0x00000000#32))
          (Cert.Spec.iarr S5400000x1 (Gen.V13 m outs c main_v46))
          (Cert.Spec.arr S5400000x32 (Gen.V13 m outs c main_v39)))
        shapeCasts_S2097152x32_S1x128x128x128x32 := by
  unfold Gen.V13
  generalize Gen.V12 m outs c = W
  after_results_simp <;> rfl

theorem scatterBase_eq :
    broadcastInDim S2097152x32 ![] bcast_S_S2097152x32 (constant (F := Ideal) S_ .f32 0x00000000#32) = fun _ => (0 : EReal) := by
  funext j
  show Ideal.ofBits .f32 0x00000000#32 = 0
  exact Ideal.ofBits_zero_f32

theorem viewCells_apply (X : S2097152x32.Idx → EReal) (i : S1x128x128x128x32.Idx) :
    shapeCast S1x128x128x128x32 X shapeCasts_S2097152x32_S1x128x128x128x32 i = X (ix2 (Cert.Spec.cell (i 1) (i 2) (i 3)) (i 4)) := by
  refine shapeCast_apply _ _ _ _ ?_
  rw [Shape.rowMajor_val_two, Shape.rowMajor_val_five]
  have h0 : (i 0).val < 1 := (i 0).isLt
  show (((i 1).val * 128 + (i 2).val) * 128 + (i 3).val) * 32 + (i 4).val
    = ((((i 0).val * 128 + (i 1).val) * 128 + (i 2).val) * 128 + (i 3).val) * 32 + (i 4).val
  omega

theorem scatterAdd_ideal {s si su : Shape} (d : ScatterDims s si su) {w : Nat} (x : s.Idx → EReal) (idx : IVec si w)
    (upd : su.Idx → EReal) :
    Host.scatterAdd (F := Ideal) (φ := .f32) d x idx upd = Ideal.hostScatterAdd d x idx upd := rfl

theorem v48_eq : Cert.Spec.arr S1x128x128x128x32 (Gen.V13 m outs c main_v48)
    = fun i => Ideal.hostScatterAdd scatter_S2097152x32_S5400000x1_S5400000x32_1_0_0_1 (fun _ => (0 : EReal))
        (Cert.Spec.iarr S5400000x1 (Gen.V13 m outs c main_v46)) (Cert.Spec.arr S5400000x32 (Gen.V13 m outs c main_v39))
        (ix2 (Cert.Spec.cell (i 1) (i 2) (i 3)) (i 4)) := by
  funext i
  refine (congrFun (v48_raw m outs c) i).trans ?_
  refine (viewCells_apply _ i).trans ?_
  rw [scatterBase_eq]
  exact congrFun (scatterAdd_ideal _ _ _ _) _

end Cert.KernelIdeal.Val

end
-- ==== Proof.KiHostUpd.lean ====
import proofs.«406342_j15479062134906_3_alg».proof.Proof.Gen.KernelIdeal.Regions
import proofs.«406342_j15479062134906_3_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.ValueIdx Idealize.ShloMosaic.StableHlo

variable (m : (ℓ : Loc nD τ sig) → Buf (Elt Ideal) ℓ) (outs : Gen.Outs (F := Ideal)) (c : Dev nD)

theorem v4_at_V3 : Gen.V3 m outs c main_v4
    = shapeCast S200000x27x32 (Cert.Spec.arr S200000x864 (outs 2 main_v3 c)) Gen.shapeCasts_S200000x864_S200000x27x32 := by
  show StableHlo.after hostOps1 _ (Proc.devRef .tc main_v4) = _
  after_results
  show shapeCast S200000x27x32 (Function.update (Gen.V1 m c) (Proc.devRef .tc main_v3) (outs 2 main_v3 c) (Proc.devRef .tc main_v3)) _ = _
  rw [Function.update_self]

theorem v4_at_V12 : Gen.V12 m outs c main_v4 = Gen.V3 m outs c main_v4 :=
  (Gen.V12_of m outs c main_v4 (by decide)).trans <| (Gen.V11_of m outs c main_v4 (by decide)).trans <|
  (Gen.V10_of m outs c main_v4 (by decide)).trans <| (Gen.V9_of m outs c main_v4 (by decide)).trans <|
  (Gen.V8_of m outs c main_v4 (by decide)).trans <| (Gen.V7_of m outs c main_v4 (by decide)).trans <|
  (Gen.V6_of m outs c main_v4 (by decide)).trans <| (Gen.V5_of m outs c main_v4 (by decide)).trans <|
  (Gen.V4_of m outs c main_v4 (by decide))

set_option maxHeartbeats 4000000 in

theorem v39_at_V13 : Gen.V13 m outs c main_v39
    = shapeCast S5400000x32 (Cert.Spec.arr S200000x27x32 (Gen.V12 m outs c main_v4)) Gen.shapeCasts_S200000x27x32_S5400000x32 := by
  show StableHlo.after hostOps1_10 _ (Proc.devRef .tc main_v39) = _
  after_results_simp
  rfl

theorem upd_chain : Cert.Spec.arr S5400000x32 (Gen.V13 m outs c main_v39)
    = fun i => Cert.Spec.arr S200000x864 (outs 2 main_v3 c) (ix2 (Cert.Spec.rowN (i 0))
        (⟨(Cert.Spec.rowT (i 0)).val * 32 + (i 1).val, by have := (Cert.Spec.rowT (i 0)).isLt; have := ValueIdx.idx2_lt1 i; omega⟩ : Fin 864)) := by
  funext i
  have h0 := ValueIdx.idx2_lt0 i
  have h1 := ValueIdx.idx2_lt1 i
  show Gen.V13 m outs c main_v39 i = _
  rw [v39_at_V13, v4_at_V12, v4_at_V3]
  refine (shapeCast_apply (s := S200000x27x32) (t := S5400000x32) _ _ i (ix3 (Cert.Spec.rowN (i 0)) (Cert.Spec.rowT (i 0)) (i 1)) ?_).trans ?_
  · rw [Shape.rowMajor_val_three, Shape.rowMajor_val_two]
    show ((i 0).val / 27 * 27 + (i 0).val % 27) * 32 + (i 1).val = (i 0).val * 32 + (i 1).val
    omega
  · refine shapeCast_apply (s := S200000x864) (t := S200000x27x32) _ _ _ _ ?_
    rw [Shape.rowMajor_val_two, Shape.rowMajor_val_three]
    show (i 0).val / 27 * 864 + ((i 0).val % 27 * 32 + (i 1).val) = ((i 0).val / 27 * 27 + (i 0).val % 27) * 32 + (i 1).val
    omega

end Cert.KernelIdeal.Val

end
-- ==== Proof.KiHost.lean ====
import proofs.«406342_j15479062134906_3_alg».proof.Proof.Gen.KernelIdeal.Regions
import proofs.«406342_j15479062134906_3_alg».proof.Proof.Spec
import Idealize.ShloMosaic.Lib.Pipeline.Value
import Idealize.ShloMosaic.Lib.ValueIdx
import Idealize.ShloMosaic.Lib.IdealHost
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.ShloMosaic.ValueIdx

variable (m : (ℓ : Loc nD τ sig) → Buf (Elt Ideal) ℓ) (outs : Gen.Outs (F := Ideal)) (c : Dev nD)

theorem v1_arg0 : (Gen.V1 m c main_arg0) = m ((c.tc : Thread nD τ).loc main_arg0) :=
  (Gen.V1_of m c main_arg0 (by decide)).trans rfl

private theorem v2_eq : Cert.Spec.arr S32x864 (Gen.V1 m c main_v2)
    = shapeCast S32x864 (transpose S32x27x32 [1, 0, 2]
        (shapeCast S27x32x32 (Cert.Spec.arr S3x3x3x32x32 (m ((c.tc : Thread nD τ).loc main_arg3))) shapeCasts_S3x3x3x32x32_S27x32x32)
        transposes_S27x32x32_S32x27x32_1_0_2) shapeCasts_S32x27x32_S32x864 := by
  show StableHlo.after hostOps0 _ (Proc.devRef .tc main_v2) = _
  after_results
  rfl

theorem wide_at (i : Fin 32) (t : Fin 27) (j : Fin 32) :
    Cert.Spec.arr S32x864 (Gen.V1 m c main_v2) (ix2 i (⟨t.val * 32 + j.val, by omega⟩ : Fin 864))
      = Cert.Spec.arr S3x3x3x32x32 (m ((c.tc : Thread nD τ).loc main_arg3))
          (ix5 (Cert.Spec.dz t) (Cert.Spec.dy t) (Cert.Spec.dx t) i j) := by
  rw [v2_eq]
  refine (shapeCast_apply _ shapeCasts_S32x27x32_S32x864 _ (ix3 i t j) ?_).trans ?_
  · rw [Shape.rowMajor_val_two, Shape.rowMajor_val_three]
    show (i.val * 27 + t.val) * 32 + j.val = i.val * 864 + (t.val * 32 + j.val)
    omega
  refine (transpose_apply _ _ transposes_S27x32x32_S32x27x32_1_0_2 _ (ix3 t i j)
    (fun b => match b with | ⟨0, _⟩ => rfl | ⟨1, _⟩ => rfl | ⟨2, _⟩ => rfl)).trans ?_
  refine (shapeCast_apply _ shapeCasts_S3x3x3x32x32_S27x32x32 _
    (ix5 (Cert.Spec.dz t) (Cert.Spec.dy t) (Cert.Spec.dx t) i j) ?_).trans rfl
  rw [Shape.rowMajor_val_three, Shape.rowMajor_val_five]
  show ((((t.val / 9) * 3 + (t.val / 3) % 3) * 3 + t.val % 3) * 32 + i.val) * 32 + j.val = (t.val * 32 + i.val) * 32 + j.val
  omega

private theorem v10_arg1 : Gen.V10 m outs c main_arg1 = m ((c.tc : Thread nD τ).loc main_arg1) :=
  ((Gen.V10_of m outs c main_arg1 (by decide)).trans <| (Gen.V9_of m outs c main_arg1 (by decide)).trans <|
    (Gen.V8_of m outs c main_arg1 (by decide)).trans <| (Gen.V7_of m outs c main_arg1 (by decide)).trans <|
    (Gen.V6_of m outs c main_arg1 (by decide)).trans <| (Gen.V5_of m outs c main_arg1 (by decide)).trans <|
    (Gen.V4_of m outs c main_arg1 (by decide)).trans <| (Gen.V3_of m outs c main_arg1 (by decide)).trans <|
    (Gen.V2_of m outs c main_arg1 (by decide)).trans <| (Gen.V1_of m c main_arg1 (by decide))).trans rfl

set_option maxHeartbeats 4000000 in

private theorem v24_raw : Cert.Spec.iarr S200000x27x3 (Gen.V11 m outs c main_v24)
    = addi (broadcastInDim S200000x27x3 ![0, 1, 2] bcast_S200000x1x3_S200000x27x3_0_1_2
              (broadcastInDim S200000x1x3 ![0, 2] bcast_S200000x3_S200000x1x3_0_2 (Cert.Spec.iarr S200000x3 (Gen.V10 m outs c main_arg1))))
           (broadcastInDim S200000x27x3 ![0, 1, 2] bcast_S1x27x3_S200000x27x3_0_1_2
              (broadcastInDim S1x27x3 ![1, 2] bcast_S27x3_S1x27x3_1_2 (Cert.Spec.iarr S27x3 (Gen.V11 m outs c main_v19)))) := by
  unfold Gen.V11
  generalize Gen.V10 m outs c = W
  after_results_simp

private theorem v24_at (hsh : Cert.Spec.iarr S27x3 (Gen.V11 m outs c main_v19) = fun i => Cert.Spec.shiftOf (i 0) (i 1))
    (n : Fin 200000) (t : Fin 27) (a : Fin 3) :
    Cert.Spec.iarr S200000x27x3 (Gen.V11 m outs c main_v24) (ix3 n t a)
      = IntOp.addi (Cert.Spec.iarr S200000x3 (m ((c.tc : Thread nD τ).loc main_arg1)) (ix2 n a)) (Cert.Spec.shiftOf t a) := by
  rw [v24_raw, v10_arg1, hsh]
  refine congrArg₂ IntOp.addi ?_ ?_
  · refine (broadcastInDim_apply ![0, 1, 2] bcast_S200000x1x3_S200000x27x3_0_1_2 _ (ix3 n t a) (ix3 n (0 : Fin 1) a)
      (fun b => match b with | ⟨0, _⟩ => rfl | ⟨1, _⟩ => rfl | ⟨2, _⟩ => rfl)).trans ?_
    exact broadcastInDim_apply ![0, 2] bcast_S200000x3_S200000x1x3_0_2 _ (ix3 n (0 : Fin 1) a) (ix2 n a)
      (fun b => match b with | ⟨0, _⟩ => rfl | ⟨1, _⟩ => rfl)
  · refine (broadcastInDim_apply ![0, 1, 2] bcast_S1x27x3_S200000x27x3_0_1_2 _ (ix3 n t a) (ix3 (0 : Fin 1) t a)
      (fun b => match b with | ⟨0, _⟩ => rfl | ⟨1, _⟩ => rfl | ⟨2, _⟩ => rfl)).trans ?_
    exact broadcastInDim_apply ![1, 2] bcast_S27x3_S1x27x3_1_2 _ (ix3 (0 : Fin 1) t a) (ix2 t a)
      (fun b => match b with | ⟨0, _⟩ => rfl | ⟨1, _⟩ => rfl)

private theorem v11_c_eq : Gen.V11 m outs c main_c = Gen.V1 m c main_c :=
  (Gen.V11_of m outs c main_c (by decide)).trans <| (Gen.V10_of m outs c main_c (by decide)).trans <|
    (Gen.V9_of m outs c main_c (by decide)).trans <| (Gen.V8_of m outs c main_c (by decide)).trans <|
    (Gen.V7_of m outs c main_c (by decide)).trans <| (Gen.V6_of m outs c main_c (by decide)).trans <|
    (Gen.V5_of m outs c main_c (by decide)).trans <| (Gen.V4_of m outs c main_c (by decide)).trans <|
    (Gen.V3_of m outs c main_c (by decide)).trans <| (Gen.V2_of m outs c main_c (by decide))

private theorem v1_c : Cert.Spec.iarr S3 (Gen.V1 m c main_c) = constantI S3 32 127#32 := by
  show StableHlo.after hostOps0 _ (Proc.devRef .tc main_c) = _
  after_results

set_option maxHeartbeats 4000000 in

private theorem v11_c7 : Cert.Spec.iarr S_ (Gen.V11 m outs c main_c_7) = constantI S_ 32 0#32 := by
  unfold Gen.V11
  generalize Gen.V10 m outs c = W
  after_results_simp

set_option maxHeartbeats 4000000 in

private theorem v25_raw : Cert.Spec.iarr S200000x27x3 (Gen.V12 m outs c main_v25)
    = minsi (broadcastInDim S200000x27x3 ![0, 1, 2] bcast_S1x1x3_S200000x27x3_0_1_2
              (broadcastInDim S1x1x3 ![2] bcast_S3_S1x1x3_2 (Cert.Spec.iarr S3 (Gen.V11 m outs c main_c))))
            (maxsi (broadcastInDim S200000x27x3 ![] bcast_S_S200000x27x3 (Cert.Spec.iarr S_ (Gen.V11 m outs c main_c_7)))
              (Cert.Spec.iarr S200000x27x3 (Gen.V11 m outs c main_v24))) := by
  unfold Gen.V12
  generalize Gen.V11 m outs c = W
  after_results_simp
  rfl

private theorem v25_at (hsh : Cert.Spec.iarr S27x3 (Gen.V11 m outs c main_v19) = fun i => Cert.Spec.shiftOf (i 0) (i 1))
    (n : Fin 200000) (t : Fin 27) (a : Fin 3) :
    Cert.Spec.iarr S200000x27x3 (Gen.V12 m outs c main_v25) (ix3 n t a)
      = Cert.Spec.clamp (IntOp.addi (Cert.Spec.iarr S200000x3 (m ((c.tc : Thread nD τ).loc main_arg1)) (ix2 n a)) (Cert.Spec.shiftOf t a)) := by
  rw [v25_raw, v11_c_eq, v1_c, v11_c7]
  refine congrArg₂ IntOp.minsi ?_ (congrArg₂ IntOp.maxsi ?_ (v24_at m outs c hsh n t a))
  · refine (broadcastInDim_apply ![0, 1, 2] bcast_S1x1x3_S200000x27x3_0_1_2 _ (ix3 n t a) (ix3 (0 : Fin 1) (0 : Fin 1) a)
      (fun b => match b with | ⟨0, _⟩ => rfl | ⟨1, _⟩ => rfl | ⟨2, _⟩ => rfl)).trans rfl
  · exact broadcastInDim_scalar_apply _ _ _

private theorem slot_at (v : IVec S200000x27x3 32) (a : Fin 3) (h : S200000x27x3.Slices ![0, 0, a.val] S200000x27x1)
    (n : Fin 200000) (t : Fin 27) :
    shapeCast S200000x27 (extractStridedSlice S200000x27x1 ![0, 0, a.val] v h) shapeCasts_S200000x27x1_S200000x27 (ix2 n t)
      = v (ix3 n t a) := by
  refine (shapeCast_apply _ shapeCasts_S200000x27x1_S200000x27 (ix2 n t) (ix3 n t (0 : Fin 1)) ?_).trans ?_
  · rw [Shape.rowMajor_val_two, Shape.rowMajor_val_three]
    show (n.val * 27 + t.val) * 1 + 0 = n.val * 27 + t.val
    omega
  exact extractStridedSlice_apply ![0, 0, a.val] v h (ix3 n t (0 : Fin 1)) (ix3 n t a)
    (fun b => match b with
      | ⟨0, _⟩ => by show n.val = 0 + n.val; omega
      | ⟨1, _⟩ => by show t.val = 0 + t.val; omega
      | ⟨2, _⟩ => by show a.val = a.val + 0; omega)

set_option maxHeartbeats 4000000 in

private theorem v38_raw : Cert.Spec.iarr S5400000 (Gen.V13 m outs c main_v38)
    = shapeCast S5400000
        (addi (muli (addi (muli
            (shapeCast S200000x27 (extractStridedSlice S200000x27x1 ![0, 0, 0] (Cert.Spec.iarr S200000x27x3 (Gen.V12 m outs c main_v25))
              slices_S200000x27x3_S200000x27x1_0_0_0) shapeCasts_S200000x27x1_S200000x27)
            (broadcastInDim S200000x27 ![] bcast_S_S200000x27 (constantI S_ 32 128#32)))
            (shapeCast S200000x27 (extractStridedSlice S200000x27x1 ![0, 0, 1] (Cert.Spec.iarr S200000x27x3 (Gen.V12 m outs c main_v25))
              slices_S200000x27x3_S200000x27x1_0_0_1) shapeCasts_S200000x27x1_S200000x27))
            (broadcastInDim S200000x27 ![] bcast_S_S200000x27 (constantI S_ 32 128#32)))
            (shapeCast S200000x27 (extractStridedSlice S200000x27x1 ![0, 0, 2] (Cert.Spec.iarr S200000x27x3 (Gen.V12 m outs c main_v25))
              slices_S200000x27x3_S200000x27x1_0_0_2) shapeCasts_S200000x27x1_S200000x27))
        shapeCasts_S200000x27_S5400000 := by
  unfold Gen.V13
  generalize Gen.V12 m outs c = W
  after_results_simp
  rfl

set_option maxHeartbeats 4000000 in

private theorem v46_raw : Cert.Spec.iarr S5400000x1 (Gen.V13 m outs c main_v46)
    = broadcastInDim S5400000x1 ![0] bcast_S5400000_S5400000x1_0
        (select (cmpi .slt (Cert.Spec.iarr S5400000 (Gen.V13 m outs c main_v38))
                  (broadcastInDim S5400000 ![] bcast_S_S5400000 (constantI S_ 32 0#32)))
          (addi (Cert.Spec.iarr S5400000 (Gen.V13 m outs c main_v38))
                  (broadcastInDim S5400000 ![] bcast_S_S5400000 (constantI S_ 32 2097152#32)))
          (Cert.Spec.iarr S5400000 (Gen.V13 m outs c main_v38))) := by
  unfold Gen.V13
  generalize Gen.V12 m outs c = W
  after_results_simp
  rfl

private theorem v38_at (hsh : Cert.Spec.iarr S27x3 (Gen.V11 m outs c main_v19) = fun i => Cert.Spec.shiftOf (i 0) (i 1))
    (r : Fin 5400000) :
    Cert.Spec.iarr S5400000 (Gen.V13 m outs c main_v38) (ix1 r)
      = Cert.Spec.flat3
          (Cert.Spec.clamp (IntOp.addi (Cert.Spec.iarr S200000x3 (m ((c.tc : Thread nD τ).loc main_arg1)) (ix2 (Cert.Spec.rowN r) (0 : Fin 3))) (Cert.Spec.shiftOf (Cert.Spec.rowT r) 0)))
          (Cert.Spec.clamp (IntOp.addi (Cert.Spec.iarr S200000x3 (m ((c.tc : Thread nD τ).loc main_arg1)) (ix2 (Cert.Spec.rowN r) (1 : Fin 3))) (Cert.Spec.shiftOf (Cert.Spec.rowT r) 1)))
          (Cert.Spec.clamp (IntOp.addi (Cert.Spec.iarr S200000x3 (m ((c.tc : Thread nD τ).loc main_arg1)) (ix2 (Cert.Spec.rowN r) (2 : Fin 3))) (Cert.Spec.shiftOf (Cert.Spec.rowT r) 2))) := by
  rw [v38_raw]
  refine (shapeCast_apply _ shapeCasts_S200000x27_S5400000 (ix1 r) (ix2 (Cert.Spec.rowN r) (Cert.Spec.rowT r)) ?_).trans ?_
  · rw [Shape.rowMajor_val_two, Shape.rowMajor_val_one]
    show (r.val / 27) * 27 + r.val % 27 = r.val
    omega
  refine congrArg₂ IntOp.addi (congrArg₂ IntOp.muli (congrArg₂ IntOp.addi (congrArg₂ IntOp.muli ?_ ?_) ?_) ?_) ?_
  · exact (slot_at _ 0 slices_S200000x27x3_S200000x27x1_0_0_0 _ _).trans (v25_at m outs c hsh _ _ 0)
  · exact broadcastInDim_scalar_apply _ _ _
  · exact (slot_at _ 1 slices_S200000x27x3_S200000x27x1_0_0_1 _ _).trans (v25_at m outs c hsh _ _ 1)
  · exact broadcastInDim_scalar_apply _ _ _
  · exact (slot_at _ 2 slices_S200000x27x3_S200000x27x1_0_0_2 _ _).trans (v25_at m outs c hsh _ _ 2)

theorem idx_chain (hsh : Cert.Spec.iarr S27x3 (Gen.V11 m outs c main_v19) = fun i => Cert.Spec.shiftOf (i 0) (i 1)) :
    Cert.Spec.iarr S5400000x1 (Gen.V13 m outs c main_v46) = Cert.Spec.idxK (m ((c.tc : Thread nD τ).loc main_arg1)) := by
  funext i
  rw [v46_raw]
  refine (broadcastInDim_apply ![0] bcast_S5400000_S5400000x1_0 _ i (ix1 (⟨(i 0).val, idx2_lt0 i⟩ : Fin 5400000))
    (fun b => match b with | ⟨0, _⟩ => rfl)).trans ?_
  have h38 := v38_at m outs c hsh (⟨(i 0).val, idx2_lt0 i⟩ : Fin 5400000)
  have h0 : broadcastInDim S5400000 ![] bcast_S_S5400000 (constantI S_ 32 0#32) (ix1 (⟨(i 0).val, idx2_lt0 i⟩ : Fin 5400000)) = 0#32 :=
    broadcastInDim_scalar_apply _ _ _
  have hK : broadcastInDim S5400000 ![] bcast_S_S5400000 (constantI S_ 32 2097152#32) (ix1 (⟨(i 0).val, idx2_lt0 i⟩ : Fin 5400000)) = 2097152#32 :=
    broadcastInDim_scalar_apply _ _ _
  show Scalar.select (IntOp.cmpi .slt (Cert.Spec.iarr S5400000 (Gen.V13 m outs c main_v38) (ix1 (⟨(i 0).val, idx2_lt0 i⟩ : Fin 5400000))) _)
      (IntOp.addi (Cert.Spec.iarr S5400000 (Gen.V13 m outs c main_v38) (ix1 (⟨(i 0).val, idx2_lt0 i⟩ : Fin 5400000))) _)
      (Cert.Spec.iarr S5400000 (Gen.V13 m outs c main_v38) (ix1 (⟨(i 0).val, idx2_lt0 i⟩ : Fin 5400000))) = _
  rw [h38, h0, hK]
  rfl

end Cert.KernelIdeal.Val
-- ==== Proof.KiShift.lean ====
import proofs.«406342_j15479062134906_3_alg».proof.Proof.Gen.KernelIdeal.Regions
import proofs.«406342_j15479062134906_3_alg».proof.Proof.Spec
import Idealize.ShloMosaic.Lib.StableHlo.Run
import Idealize.ShloMosaic.Lib.ValueIdx
import Idealize.ShloMosaic.Lib.Pipeline.Value

set_option maxRecDepth 4096

noncomputable section

namespace Cert.KernelIdeal.Val

open Cert.KernelIdeal Cert.KernelIdeal.Gen
open Idealize.ShloMosaic Idealize.ShloMosaic.TcCoe Idealize.ShloMosaic.ValueIdx
open Idealize.ShloMosaic.StableHlo

def sgn (x : BitVec 32) : BitVec 32 := if x = 0 then 0 else if x.msb then -1 else 1

def floorDiv (x y : BitVec 32) : BitVec 32 :=
  Scalar.select (IntOp.andi (IntOp.cmpi .ne (sgn x) (sgn y)) (IntOp.cmpi .ne (IntOp.remsi .host x y) 0#32))
    (IntOp.subi (IntOp.divsi .host x y) 1#32) (IntOp.divsi .host x y)

def safeDen (y : BitVec 32) : BitVec 32 := Scalar.select (IntOp.cmpi .eq y 0#32) 1#32 y

def floorRem (x y : BitVec 32) : BitVec 32 :=
  Scalar.select
    (IntOp.andi (IntOp.cmpi .ne (IntOp.cmpi .slt (IntOp.remsi .host x (safeDen y)) 0#32) (IntOp.cmpi .slt (safeDen y) 0#32))
      (IntOp.cmpi .ne (IntOp.remsi .host x (safeDen y)) 0#32))
    (IntOp.addi (IntOp.remsi .host x (safeDen y)) (safeDen y)) (IntOp.remsi .host x (safeDen y))

abbrev bscal (D : IVec S_ 32) : IVec S27 32 := broadcastInDim S27 ![] bcast_S_S27 D

theorem shift_z : ∀ t : Fin 27, IntOp.subi (floorDiv (BitVec.ofNat 32 t.val) 9#32) 1#32 = Cert.Spec.shiftOf t 0 := by
  decide

theorem shift_y : ∀ t : Fin 27,
    IntOp.subi (floorRem (floorDiv (BitVec.ofNat 32 t.val) 3#32) 3#32) 1#32 = Cert.Spec.shiftOf t 1 := by
  decide

theorem shift_x : ∀ t : Fin 27, IntOp.subi (floorRem (BitVec.ofNat 32 t.val) 3#32) 1#32 = Cert.Spec.shiftOf t 2 := by
  decide

abbrev col (A : IVec S27 32) : IVec S27x1 32 :=
  broadcastInDim S27x1 ![0] bcast_S27_S27x1_0 (subi A (broadcastInDim S27 ![] bcast_S_S27 (constantI S_ 32 1#32)))

theorem col_apply (A : IVec S27 32) (i : S27x1.Idx) : col A i = IntOp.subi (A (ix1 (i 0))) 1#32 := by
  unfold col
  rw [broadcastInDim_apply (s := S27) (t := S27x1) ![0] bcast_S27_S27x1_0 _ i (ix1 (i 0)) (fun a => by
    have ha : a = 0 := Subsingleton.elim _ _
    subst ha; rfl)]
  rfl

theorem table_piece (A B C X : IVec S27 32) (j : S27x3.Idx) (k : Nat) (hk3 : k < 3) (hk : (j 1).val = k)
    (hX : [(⟨S27x1, col A⟩ : (s : Shape) × (s.Idx → BitVec 32)), ⟨S27x1, col B⟩, ⟨S27x1, col C⟩][k]'hk3 = ⟨S27x1, col X⟩)
    (hpre : ((([(⟨S27x1, col A⟩ : (s : Shape) × (s.Idx → BitVec 32)), ⟨S27x1, col B⟩, ⟨S27x1, col C⟩].take k).map (·.1)).map
      fun s => if h : s.rank = S27x3.rank then s.size ((1 : Fin S27x3.rank).cast h.symm) else 0).sum = k) :
    concatenate S27x3 1 [⟨S27x1, col A⟩, ⟨S27x1, col B⟩, ⟨S27x1, col C⟩] concatenates_S27x1_S27x1_S27x1_S27x3_d1 j
      = IntOp.subi (X (ix1 (j 0))) 1#32 := by
  rw [concatenate_apply_piece (t := S27x3) 1 [⟨S27x1, col A⟩, ⟨S27x1, col B⟩, ⟨S27x1, col C⟩]
    concatenates_S27x1_S27x1_S27x1_S27x3_d1 j k hk3 S27x1 (col X) hX rfl k hpre
    (ix2 (j 0) (0 : Fin 1)) (fun b hb => by
      match b with
      | ⟨0, _⟩ => rfl
      | ⟨1, _⟩ => exact absurd rfl hb) (by show k + 0 = (j 1).val; omega)]
  rw [col_apply]

section
variable {Val : EltTy → Type} {x a b y : Ref sig .tc}

theorem nary3_result
    (f : ((k : Fin 3) → ((![x, a, b] : Fin 3 → Ref sig .tc) k).ty.Contents Val) → y.ty.Contents Val) (hxs hy)
    (W : Valuation τ sig Val) :
    (nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [nary_result]; congr 1; funext k; fin_cases k <;> rfl
end

variable {F : FTy → Type} [FloatOps F]

set_option maxHeartbeats 1000000 in

theorem v6_of (W : Valuation τ sig (Elt F)) :
    (StableHlo.after Gen.hostOps1_1 W (Proc.devRef .tc main_v6) : IVec S27 32)
      = fun i => floorDiv ((W (Proc.devRef .tc main_v5) : IVec S27 32) i) (bscal (W (Proc.devRef .tc main_c_0) : IVec S_ 32) i) := by
  after_results
  simp only [TRef.ofBuf, TRef.toBuf, cast_eq]
  rfl

set_option maxHeartbeats 1000000 in

theorem v7_of (W : Valuation τ sig (Elt F)) :
    (StableHlo.after Gen.hostOps1_3 W (Proc.devRef .tc main_v7) : IVec S27 32)
      = fun i => floorDiv ((W (Proc.devRef .tc main_v5) : IVec S27 32) i) (bscal (W (Proc.devRef .tc main_c_1) : IVec S_ 32) i) := by
  after_results
  simp only [TRef.ofBuf, TRef.toBuf, cast_eq]
  rfl

set_option maxHeartbeats 1000000 in

theorem v8_of (W : Valuation τ sig (Elt F)) :
    (StableHlo.after Gen.hostOps1_5 W (Proc.devRef .tc main_v8) : IVec S27 32)
      = fun i => floorRem ((W (Proc.devRef .tc main_v7) : IVec S27 32) i) (bscal (W (Proc.devRef .tc main_c_2) : IVec S_ 32) i) := by
  after_results
  simp only [TRef.ofBuf, TRef.toBuf, cast_eq]
  rfl

set_option maxHeartbeats 1000000 in

theorem v9_of (W : Valuation τ sig (Elt F)) :
    (StableHlo.after Gen.hostOps1_7 W (Proc.devRef .tc main_v9) : IVec S27 32)
      = fun i => floorRem ((W (Proc.devRef .tc main_v5) : IVec S27 32) i) (bscal (W (Proc.devRef .tc main_c_3) : IVec S_ 32) i) := by
  after_results
  simp only [TRef.ofBuf, TRef.toBuf, cast_eq]
  rfl

set_option maxHeartbeats 1000000 in

theorem v19_of (W : Valuation τ sig (Elt F)) :
    (StableHlo.after Gen.hostOps1_8 W (Proc.devRef .tc main_v19) : IVec S27x3 32) =
      concatenate S27x3 1
        [⟨S27x1, col (W (Proc.devRef .tc main_v6) : IVec S27 32)⟩, ⟨S27x1, col (W (Proc.devRef .tc main_v8) : IVec S27 32)⟩,
         ⟨S27x1, col (W (Proc.devRef .tc main_v9) : IVec S27 32)⟩]
        concatenates_S27x1_S27x1_S27x1_S27x3_d1 := by
  simp only [after_cons, after_nil]

  repeat (first
    | (rw [nullary_result_ne]; rotate_left; decide)
    | (rw [unary_result_ne]; rotate_left; decide)
    | (rw [binary_result_ne]; rotate_left; decide))
  rw [nary3_result]

  repeat (first
    | rw [nullary_result] | rw [unary_result] | rw [binary_result]
    | (rw [nullary_result_ne]; rotate_left; decide)
    | (rw [unary_result_ne]; rotate_left; decide)
    | (rw [binary_result_ne]; rotate_left; decide))
  rfl

theorem v5_of (W : Valuation τ sig (Elt F)) :
    (StableHlo.after Gen.hostOps1 W (Proc.devRef .tc main_v5) : IVec S27 32) = iotaInDim S27 32 0 := by
  after_results

theorem c0_of (W : Valuation τ sig (Elt F)) :
    (StableHlo.after Gen.hostOps1 W (Proc.devRef .tc main_c_0) : IVec S_ 32) = constantI S_ 32 9#32 := by
  after_results

theorem c1_of (W : Valuation τ sig (Elt F)) :
    (StableHlo.after Gen.hostOps1_2 W (Proc.devRef .tc main_c_1) : IVec S_ 32) = constantI S_ 32 3#32 := by
  after_results

theorem c2_of (W : Valuation τ sig (Elt F)) :
    (StableHlo.after Gen.hostOps1_4 W (Proc.devRef .tc main_c_2) : IVec S_ 32) = constantI S_ 32 3#32 := by
  after_results

theorem c3_of (W : Valuation τ sig (Elt F)) :
    (StableHlo.after Gen.hostOps1_6 W (Proc.devRef .tc main_c_3) : IVec S_ 32) = constantI S_ 32 3#32 := by
  after_results

variable (m : (ℓ : Loc nD τ sig) → Buf (Elt F) ℓ) (outs : Gen.Outs (F := F)) (c : Dev nD)

theorem v5_3 : (Gen.V3 m outs c main_v5 : IVec S27 32) = iotaInDim S27 32 0 := v5_of _
theorem c0_3 : (Gen.V3 m outs c main_c_0 : IVec S_ 32) = constantI S_ 32 9#32 := c0_of _
theorem v5_5 : (Gen.V5 m outs c main_v5 : IVec S27 32) = iotaInDim S27 32 0 :=
  (Gen.V5_of m outs c main_v5 (by decide)).trans <| (Gen.V4_of m outs c main_v5 (by decide)).trans (v5_3 m outs c)
theorem c1_5 : (Gen.V5 m outs c main_c_1 : IVec S_ 32) = constantI S_ 32 3#32 := c1_of _
theorem c2_7 : (Gen.V7 m outs c main_c_2 : IVec S_ 32) = constantI S_ 32 3#32 := c2_of _
theorem v5_9 : (Gen.V9 m outs c main_v5 : IVec S27 32) = iotaInDim S27 32 0 :=
  (Gen.V9_of m outs c main_v5 (by decide)).trans <| (Gen.V8_of m outs c main_v5 (by decide)).trans <|
    (Gen.V7_of m outs c main_v5 (by decide)).trans <| (Gen.V6_of m outs c main_v5 (by decide)).trans (v5_5 m outs c)
theorem c3_9 : (Gen.V9 m outs c main_c_3 : IVec S_ 32) = constantI S_ 32 3#32 := c3_of _

theorem v6_4 : (Gen.V4 m outs c main_v6 : IVec S27 32) = fun i => floorDiv (BitVec.ofNat 32 (i 0).val) 9#32 := by
  show (StableHlo.after Gen.hostOps1_1 (Gen.V3 m outs c) (Proc.devRef .tc main_v6) : IVec S27 32) = _
  rw [v6_of, v5_3, c0_3]
  rfl

theorem v7_6 : (Gen.V6 m outs c main_v7 : IVec S27 32) = fun i => floorDiv (BitVec.ofNat 32 (i 0).val) 3#32 := by
  show (StableHlo.after Gen.hostOps1_3 (Gen.V5 m outs c) (Proc.devRef .tc main_v7) : IVec S27 32) = _
  rw [v7_of, v5_5, c1_5]
  rfl

theorem v7_7 : (Gen.V7 m outs c main_v7 : IVec S27 32) = fun i => floorDiv (BitVec.ofNat 32 (i 0).val) 3#32 :=
  (Gen.V7_of m outs c main_v7 (by decide)).trans (v7_6 m outs c)

theorem v8_8 : (Gen.V8 m outs c main_v8 : IVec S27 32)
    = fun i => floorRem (floorDiv (BitVec.ofNat 32 (i 0).val) 3#32) 3#32 := by
  show (StableHlo.after Gen.hostOps1_5 (Gen.V7 m outs c) (Proc.devRef .tc main_v8) : IVec S27 32) = _
  rw [v8_of, v7_7, c2_7]
  rfl

theorem v9_10 : (Gen.V10 m outs c main_v9 : IVec S27 32) = fun i => floorRem (BitVec.ofNat 32 (i 0).val) 3#32 := by
  show (StableHlo.after Gen.hostOps1_7 (Gen.V9 m outs c) (Proc.devRef .tc main_v9) : IVec S27 32) = _
  rw [v9_of, v5_9, c3_9]
  rfl

theorem v6_10 : (Gen.V10 m outs c main_v6 : IVec S27 32) = fun i => floorDiv (BitVec.ofNat 32 (i 0).val) 9#32 :=
  (Gen.V10_of m outs c main_v6 (by decide)).trans <| (Gen.V9_of m outs c main_v6 (by decide)).trans <|
    (Gen.V8_of m outs c main_v6 (by decide)).trans <| (Gen.V7_of m outs c main_v6 (by decide)).trans <|
    (Gen.V6_of m outs c main_v6 (by decide)).trans <| (Gen.V5_of m outs c main_v6 (by decide)).trans (v6_4 m outs c)

theorem v8_10 : (Gen.V10 m outs c main_v8 : IVec S27 32)
    = fun i => floorRem (floorDiv (BitVec.ofNat 32 (i 0).val) 3#32) 3#32 :=
  (Gen.V10_of m outs c main_v8 (by decide)).trans <| (Gen.V9_of m outs c main_v8 (by decide)).trans (v8_8 m outs c)

theorem shift_table11 :
    Cert.Spec.iarr S27x3 (Gen.V11 m outs c main_v19) = fun i => Cert.Spec.shiftOf (i 0) (i 1) := by
  show (StableHlo.after Gen.hostOps1_8 (Gen.V10 m outs c) (Proc.devRef .tc main_v19) : IVec S27x3 32) = _
  rw [v19_of, v6_10, v8_10, v9_10]
  funext j
  show _ = Cert.Spec.shiftOf (j 0) (j 1)
  have hlt : (j 1).val = 0 ∨ (j 1).val = 1 ∨ (j 1).val = 2 := by have := idx2_lt1 j; omega
  rcases hlt with h | h | h
  · rw [show j 1 = (0 : Fin 3) from Fin.ext h, table_piece _ _ _ _ j 0 (by decide) h rfl rfl]
    exact shift_z (j 0)
  · rw [show j 1 = (1 : Fin 3) from Fin.ext h, table_piece _ _ _ _ j 1 (by decide) h rfl rfl]
    exact shift_y (j 0)
  · rw [show j 1 = (2 : Fin 3) from Fin.ext h, table_piece _ _ _ _ j 2 (by decide) h rfl rfl]
    exact shift_x (j 0)

theorem shift_table :
    Cert.Spec.iarr S27x3 (Gen.V13 m outs c main_v19) = fun i => Cert.Spec.shiftOf (i 0) (i 1) := by
  show (Gen.V13 m outs c main_v19 : IVec S27x3 32) = _
  exact ((Gen.V13_of m outs c main_v19 (by decide)).trans (Gen.V12_of m outs c main_v19 (by decide))).trans
    (shift_table11 m outs c)

end Cert.KernelIdeal.Val
-- ==== Proof.KiValue.lean ====
import proofs.«406342_j15479062134906_3_alg».proof.Proof.Gen.KernelIdeal.Regions
import proofs.«406342_j15479062134906_3_alg».proof.Proof.KiRun
import proofs.«406342_j15479062134906_3_alg».proof.Proof.KiMatmulValue
import proofs.«406342_j15479062134906_3_alg».proof.Proof.KiCombineValue
import proofs.«406342_j15479062134906_3_alg».proof.Proof.KiHostTail
import proofs.«406342_j15479062134906_3_alg».proof.Proof.KiHostUpd
import proofs.«406342_j15479062134906_3_alg».proof.Proof.KiHost
import proofs.«406342_j15479062134906_3_alg».proof.Proof.KiShift
import proofs.«406342_j15479062134906_3_alg».proof.Proof.Spec
import Idealize.ShloMosaic.Lib.ValueIdx

noncomputable section

namespace Cert.KernelIdeal.Val

open Idealize.ShloMosaic Idealize.ShloMosaic.TcCoe Idealize.SL.Sem Idealize.ShloMosaic.ValueIdx Cert.KernelIdeal Cert.KernelIdeal.Gen

variable (m : (ℓ : Loc nD τ sig) → Buf (Elt Ideal) ℓ) (c : Dev nD)

theorem upd_eq : Cert.Spec.arr S5400000x32 (Gen.V13 m (Reg.outsR m) c main_v39)
    = Cert.Spec.updK (m ((c.tc : Thread nD τ).loc main_arg0)) (m ((c.tc : Thread nD τ).loc main_arg3)) := by
  rw [upd_chain]
  funext i
  rw [Reg.outsR_v3]
  show Cert.Spec.arr S200000x864 ((Reg.dat0 (Reg.VR1 m) c).arrAt 2 cfg0.N) _ = _
  rw [matmul_array]
  unfold Cert.Spec.updK Cert.Spec.tapVal
  refine Finset.sum_congr rfl fun k _ => ?_
  exact congrArg₂ (· * ·) (congrFun (v1_arg0 m c) _) (wide_at m c k (Cert.Spec.rowT (i 0)) (i 1))

theorem value : Cert.Spec.arr S1x128x128x128x32 (Gen.V14 m (Reg.outsR m) c main_v50)
    = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have h14 : Gen.V14 m (Reg.outsR m) c main_v50 = Reg.outsR m 14 main_v50 c := Function.update_self _ _ _
  rw [h14, Reg.outsR_v50, combine_array]
  funext i
  show (Cert.Spec.arr S1x128x128x128x32 (Gen.V13 m (Reg.outsR m) c main_v48) i + Cert.Spec.arr S1x128x128x128 (Gen.V13 m (Reg.outsR m) c main_v49) (ix4 (i 0) (i 1) (i 2) (i 3)) * Cert.Spec.arr S32 (Gen.V13 m (Reg.outsR m) c main_arg4) (ix1 (i 4))) * Cert.Spec.arr S1x128x128x128 (Gen.V13 m (Reg.outsR m) c main_v49) (ix4 (i 0) (i 1) (i 2) (i 3)) = _
  rw [v48_eq, v49_eq, v13_arg4, idx_chain m (Reg.outsR m) c (shift_table11 m (Reg.outsR m) c), upd_eq]
  rfl

end Cert.KernelIdeal.Val

end
-- ==== Proof.RefPro.lean ====
import proofs.«406342_j15479062134906_3_alg».proof.ReferenceIdeal
import proofs.«406342_j15479062134906_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts
open Idealize.ShloMosaic.ValueIdx

variable [Cert.ReferenceIdeal.Facts]

theorem ne_of_lt {r y : Ref sig .tc} {n : Nat} (h : r.idx.val < n) (hy : n ≤ y.idx.val) : r ≠ y :=
  fun e => by subst e; omega

/-- A well-formed straight line of operations that writes no buffer numbered below `n`. -/
structure Line (n : Nat) (l : List (HloOp τ sig (Elt Ideal))) : Prop where
  sub : l.Forall fun op => op.bufs ⊆ tcRefs τ sig
  fresh : l.Forall fun op => op.fresh = ∅
  low : ∀ (W : Valuation τ sig (Elt Ideal)) (r : Ref sig .tc), r.idx.val < n →
    after l W (Proc.devRef .tc r) = W (Proc.devRef .tc r)

theorem Line.app {n : Nat} {l r : List (HloOp τ sig (Elt Ideal))} (hl : Line n l) (hr : Line n r) : Line n (l ++ r) where
  sub := List.forall_append.mpr ⟨hl.sub, hr.sub⟩
  fresh := List.forall_append.mpr ⟨hl.fresh, hr.fresh⟩
  low W b h := by rw [after_append, hr.low _ b h, hl.low W b h]

theorem Line.mono {n k : Nat} {l : List (HloOp τ sig (Elt Ideal))} (h : Line k l) (hn : n ≤ k) : Line n l :=
  ⟨h.sub, h.fresh, fun W r hr => h.low W r (by omega)⟩

abbrev proOps {F : FTy → Type} [FloatOps F] : List (HloOp τ sig (Elt F)) :=
  [ StableHlo.nullary main_c (constantI S3 32 127#32),
    StableHlo.nullary main_c_0 (constantI S3 32 4294967295#32),
    StableHlo.nullary main_c_1 (fun i => lit0 (S3.rowMajor i)),
    StableHlo.nullary main_c_2 (fun i => lit1 (S3.rowMajor i)),
    StableHlo.nullary main_c_3 (fun i => lit2 (S3.rowMajor i)),
    StableHlo.nullary main_c_4 (fun i => lit3 (S3.rowMajor i)),
    StableHlo.nullary main_c_5 (fun i => lit4 (S3.rowMajor i)),
    StableHlo.nullary main_c_6 (fun i => lit5 (S3.rowMajor i)),
    StableHlo.nullary main_c_7 (fun i => lit6 (S3.rowMajor i)),
    StableHlo.nullary main_c_8 (fun i => lit7 (S3.rowMajor i)),
    StableHlo.nullary main_c_9 (fun i => lit8 (S3.rowMajor i)),
    StableHlo.nullary main_c_10 (fun i => lit9 (S3.rowMajor i)),
    StableHlo.nullary main_c_11 (fun i => lit10 (S3.rowMajor i)),
    StableHlo.nullary main_c_12 (fun i => lit11 (S3.rowMajor i)),
    StableHlo.nullary main_c_13 (constantI S3 32 0#32),
    StableHlo.nullary main_c_14 (fun i => lit12 (S3.rowMajor i)),
    StableHlo.nullary main_c_15 (fun i => lit13 (S3.rowMajor i)),
    StableHlo.nullary main_c_16 (fun i => lit14 (S3.rowMajor i)),
    StableHlo.nullary main_c_17 (fun i => lit15 (S3.rowMajor i)),
    StableHlo.nullary main_c_18 (fun i => lit16 (S3.rowMajor i)),
    StableHlo.nullary main_c_19 (fun i => lit17 (S3.rowMajor i)),
    StableHlo.nullary main_c_20 (fun i => lit18 (S3.rowMajor i)),
    StableHlo.nullary main_c_21 (fun i => lit19 (S3.rowMajor i)),
    StableHlo.nullary main_c_22 (fun i => lit20 (S3.rowMajor i)),
    StableHlo.nullary main_c_23 (fun i => lit21 (S3.rowMajor i)),
    StableHlo.nullary main_c_24 (fun i => lit22 (S3.rowMajor i)),
    StableHlo.nullary main_c_25 (fun i => lit23 (S3.rowMajor i)),
    StableHlo.nullary main_c_26 (constantI S3 32 1#32),
    StableHlo.nullary main_cst (constant S_ .f32 0x00000000#32),
    StableHlo.unary main_cst main_v0 (broadcastInDim S2097152x32 ![] bcast_S_S2097152x32) ]

abbrev epiOps {F : FTy → Type} [FloatOps F] : List (HloOp τ sig (Elt F)) :=
  [ StableHlo.reshape main_v702 main_v703 rfl shapeCasts_S2097152x32_S1x128x128x128x32,
    StableHlo.unary main_arg4 main_v704 (broadcastInDim S1x1x1x1x32 ![4] bcast_S32_S1x1x1x1x32_4),
    StableHlo.unary main_arg2 main_v705 (broadcastInDim S1x128x128x128x32 ![0, 1, 2, 3, 4] bcast_S1x128x128x128x1_S1x128x128x128x32_0_1_2_3_4),
    StableHlo.unary main_v704 main_v706 (broadcastInDim S1x128x128x128x32 ![0, 1, 2, 3, 4] bcast_S1x1x1x1x32_S1x128x128x128x32_0_1_2_3_4),
    StableHlo.binary main_v705 main_v706 main_v707 mulf,
    StableHlo.binary main_v703 main_v707 main_v708 addf,
    StableHlo.unary main_arg2 main_v709 (broadcastInDim S1x128x128x128x32 ![0, 1, 2, 3, 4] bcast_S1x128x128x128x1_S1x128x128x128x32_0_1_2_3_4),
    StableHlo.binary main_v708 main_v709 main_v710 mulf ]

theorem pro_line : Line 5 proOps where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))

theorem epi_line : Line 35 epiOps where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))

theorem pro_c (V : Valuation τ sig (Elt Ideal)) : after proOps V (Proc.devRef .tc main_c) = constantI S3 32 127#32 := by
  after_results_simp
theorem pro_shift00 (V : Valuation τ sig (Elt Ideal)) :
    after proOps V (Proc.devRef .tc main_c_0) = fun i => Cert.Spec.shiftOf (0 : Fin 27) (i 0) := by
  after_results_simp; funext i; obtain ⟨a, rfl⟩ : ∃ a : Fin 3, i = ix1 a := ⟨i 0, eq_ix1 i⟩; fin_cases a <;> rfl
theorem pro_shift01 (V : Valuation τ sig (Elt Ideal)) :
    after proOps V (Proc.devRef .tc main_c_1) = fun i => Cert.Spec.shiftOf (1 : Fin 27) (i 0) := by
  after_results_simp; funext i; obtain ⟨a, rfl⟩ : ∃ a : Fin 3, i = ix1 a := ⟨i 0, eq_ix1 i⟩; fin_cases a <;> rfl
theorem pro_shift02 (V : Valuation τ sig (Elt Ideal)) :
    after proOps V (Proc.devRef .tc main_c_2) = fun i => Cert.Spec.shiftOf (2 : Fin 27) (i 0) := by
  after_results_simp; funext i; obtain ⟨a, rfl⟩ : ∃ a : Fin 3, i = ix1 a := ⟨i 0, eq_ix1 i⟩; fin_cases a <;> rfl
theorem pro_shift03 (V : Valuation τ sig (Elt Ideal)) :
    after proOps V (Proc.devRef .tc main_c_3) = fun i => Cert.Spec.shiftOf (3 : Fin 27) (i 0) := by
  after_results_simp; funext i; obtain ⟨a, rfl⟩ : ∃ a : Fin 3, i = ix1 a := ⟨i 0, eq_ix1 i⟩; fin_cases a <;> rfl
theorem pro_shift04 (V : Valuation τ sig (Elt Ideal)) :
    after proOps V (Proc.devRef .tc main_c_4) = fun i => Cert.Spec.shiftOf (4 : Fin 27) (i 0) := by
  after_results_simp; funext i; obtain ⟨a, rfl⟩ : ∃ a : Fin 3, i = ix1 a := ⟨i 0, eq_ix1 i⟩; fin_cases a <;> rfl
theorem pro_shift05 (V : Valuation τ sig (Elt Ideal)) :
    after proOps V (Proc.devRef .tc main_c_5) = fun i => Cert.Spec.shiftOf (5 : Fin 27) (i 0) := by
  after_results_simp; funext i; obtain ⟨a, rfl⟩ : ∃ a : Fin 3, i = ix1 a := ⟨i 0, eq_ix1 i⟩; fin_cases a <;> rfl
theorem pro_shift06 (V : Valuation τ sig (Elt Ideal)) :
    after proOps V (Proc.devRef .tc main_c_6) = fun i => Cert.Spec.shiftOf (6 : Fin 27) (i 0) := by
  after_results_simp; funext i; obtain ⟨a, rfl⟩ : ∃ a : Fin 3, i = ix1 a := ⟨i 0, eq_ix1 i⟩; fin_cases a <;> rfl
theorem pro_shift07 (V : Valuation τ sig (Elt Ideal)) :
    after proOps V (Proc.devRef .tc main_c_7) = fun i => Cert.Spec.shiftOf (7 : Fin 27) (i 0) := by
  after_results_simp; funext i; obtain ⟨a, rfl⟩ : ∃ a : Fin 3, i = ix1 a := ⟨i 0, eq_ix1 i⟩; fin_cases a <;> rfl
theorem pro_shift08 (V : Valuation τ sig (Elt Ideal)) :
    after proOps V (Proc.devRef .tc main_c_8) = fun i => Cert.Spec.shiftOf (8 : Fin 27) (i 0) := by
  after_results_simp; funext i; obtain ⟨a, rfl⟩ : ∃ a : Fin 3, i = ix1 a := ⟨i 0, eq_ix1 i⟩; fin_cases a <;> rfl
theorem pro_shift09 (V : Valuation τ sig (Elt Ideal)) :
    after proOps V (Proc.devRef .tc main_c_9) = fun i => Cert.Spec.shiftOf (9 : Fin 27) (i 0) := by
  after_results_simp; funext i; obtain ⟨a, rfl⟩ : ∃ a : Fin 3, i = ix1 a := ⟨i 0, eq_ix1 i⟩; fin_cases a <;> rfl
theorem pro_shift10 (V : Valuation τ sig (Elt Ideal)) :
    after proOps V (Proc.devRef .tc main_c_10) = fun i => Cert.Spec.shiftOf (10 : Fin 27) (i 0) := by
  after_results_simp; funext i; obtain ⟨a, rfl⟩ : ∃ a : Fin 3, i = ix1 a := ⟨i 0, eq_ix1 i⟩; fin_cases a <;> rfl
theorem pro_shift11 (V : Valuation τ sig (Elt Ideal)) :
    after proOps V (Proc.devRef .tc main_c_11) = fun i => Cert.Spec.shiftOf (11 : Fin 27) (i 0) := by
  after_results_simp; funext i; obtain ⟨a, rfl⟩ : ∃ a : Fin 3, i = ix1 a := ⟨i 0, eq_ix1 i⟩; fin_cases a <;> rfl
theorem pro_shift12 (V : Valuation τ sig (Elt Ideal)) :
    after proOps V (Proc.devRef .tc main_c_12) = fun i => Cert.Spec.shiftOf (12 : Fin 27) (i 0) := by
  after_results_simp; funext i; obtain ⟨a, rfl⟩ : ∃ a : Fin 3, i = ix1 a := ⟨i 0, eq_ix1 i⟩; fin_cases a <;> rfl
theorem pro_shift13 (V : Valuation τ sig (Elt Ideal)) :
    after proOps V (Proc.devRef .tc main_c_13) = fun i => Cert.Spec.shiftOf (13 : Fin 27) (i 0) := by
  after_results_simp; funext i; obtain ⟨a, rfl⟩ : ∃ a : Fin 3, i = ix1 a := ⟨i 0, eq_ix1 i⟩; fin_cases a <;> rfl
theorem pro_shift14 (V : Valuation τ sig (Elt Ideal)) :
    after proOps V (Proc.devRef .tc main_c_14) = fun i => Cert.Spec.shiftOf (14 : Fin 27) (i 0) := by
  after_results_simp; funext i; obtain ⟨a, rfl⟩ : ∃ a : Fin 3, i = ix1 a := ⟨i 0, eq_ix1 i⟩; fin_cases a <;> rfl
theorem pro_shift15 (V : Valuation τ sig (Elt Ideal)) :
    after proOps V (Proc.devRef .tc main_c_15) = fun i => Cert.Spec.shiftOf (15 : Fin 27) (i 0) := by
  after_results_simp; funext i; obtain ⟨a, rfl⟩ : ∃ a : Fin 3, i = ix1 a := ⟨i 0, eq_ix1 i⟩; fin_cases a <;> rfl
theorem pro_shift16 (V : Valuation τ sig (Elt Ideal)) :
    after proOps V (Proc.devRef .tc main_c_16) = fun i => Cert.Spec.shiftOf (16 : Fin 27) (i 0) := by
  after_results_simp; funext i; obtain ⟨a, rfl⟩ : ∃ a : Fin 3, i = ix1 a := ⟨i 0, eq_ix1 i⟩; fin_cases a <;> rfl
theorem pro_shift17 (V : Valuation τ sig (Elt Ideal)) :
    after proOps V (Proc.devRef .tc main_c_17) = fun i => Cert.Spec.shiftOf (17 : Fin 27) (i 0) := by
  after_results_simp; funext i; obtain ⟨a, rfl⟩ : ∃ a : Fin 3, i = ix1 a := ⟨i 0, eq_ix1 i⟩; fin_cases a <;> rfl
theorem pro_shift18 (V : Valuation τ sig (Elt Ideal)) :
    after proOps V (Proc.devRef .tc main_c_18) = fun i => Cert.Spec.shiftOf (18 : Fin 27) (i 0) := by
  after_results_simp; funext i; obtain ⟨a, rfl⟩ : ∃ a : Fin 3, i = ix1 a := ⟨i 0, eq_ix1 i⟩; fin_cases a <;> rfl
theorem pro_shift19 (V : Valuation τ sig (Elt Ideal)) :
    after proOps V (Proc.devRef .tc main_c_19) = fun i => Cert.Spec.shiftOf (19 : Fin 27) (i 0) := by
  after_results_simp; funext i; obtain ⟨a, rfl⟩ : ∃ a : Fin 3, i = ix1 a := ⟨i 0, eq_ix1 i⟩; fin_cases a <;> rfl
theorem pro_shift20 (V : Valuation τ sig (Elt Ideal)) :
    after proOps V (Proc.devRef .tc main_c_20) = fun i => Cert.Spec.shiftOf (20 : Fin 27) (i 0) := by
  after_results_simp; funext i; obtain ⟨a, rfl⟩ : ∃ a : Fin 3, i = ix1 a := ⟨i 0, eq_ix1 i⟩; fin_cases a <;> rfl
theorem pro_shift21 (V : Valuation τ sig (Elt Ideal)) :
    after proOps V (Proc.devRef .tc main_c_21) = fun i => Cert.Spec.shiftOf (21 : Fin 27) (i 0) := by
  after_results_simp; funext i; obtain ⟨a, rfl⟩ : ∃ a : Fin 3, i = ix1 a := ⟨i 0, eq_ix1 i⟩; fin_cases a <;> rfl
theorem pro_shift22 (V : Valuation τ sig (Elt Ideal)) :
    after proOps V (Proc.devRef .tc main_c_22) = fun i => Cert.Spec.shiftOf (22 : Fin 27) (i 0) := by
  after_results_simp; funext i; obtain ⟨a, rfl⟩ : ∃ a : Fin 3, i = ix1 a := ⟨i 0, eq_ix1 i⟩; fin_cases a <;> rfl
theorem pro_shift23 (V : Valuation τ sig (Elt Ideal)) :
    after proOps V (Proc.devRef .tc main_c_23) = fun i => Cert.Spec.shiftOf (23 : Fin 27) (i 0) := by
  after_results_simp; funext i; obtain ⟨a, rfl⟩ : ∃ a : Fin 3, i = ix1 a := ⟨i 0, eq_ix1 i⟩; fin_cases a <;> rfl
theorem pro_shift24 (V : Valuation τ sig (Elt Ideal)) :
    after proOps V (Proc.devRef .tc main_c_24) = fun i => Cert.Spec.shiftOf (24 : Fin 27) (i 0) := by
  after_results_simp; funext i; obtain ⟨a, rfl⟩ : ∃ a : Fin 3, i = ix1 a := ⟨i 0, eq_ix1 i⟩; fin_cases a <;> rfl
theorem pro_shift25 (V : Valuation τ sig (Elt Ideal)) :
    after proOps V (Proc.devRef .tc main_c_25) = fun i => Cert.Spec.shiftOf (25 : Fin 27) (i 0) := by
  after_results_simp; funext i; obtain ⟨a, rfl⟩ : ∃ a : Fin 3, i = ix1 a := ⟨i 0, eq_ix1 i⟩; fin_cases a <;> rfl
theorem pro_shift26 (V : Valuation τ sig (Elt Ideal)) :
    after proOps V (Proc.devRef .tc main_c_26) = fun i => Cert.Spec.shiftOf (26 : Fin 27) (i 0) := by
  after_results_simp; funext i; obtain ⟨a, rfl⟩ : ∃ a : Fin 3, i = ix1 a := ⟨i 0, eq_ix1 i⟩; fin_cases a <;> rfl
theorem pro_zero (V : Valuation τ sig (Elt Ideal)) :
    after proOps V (Proc.devRef .tc main_v0) = fun _ => (0 : EReal) := by
  after_results_simp
  funext j
  refine (broadcastInDim_apply _ _ _ j ix0 (fun a => a.elim0)).trans ?_
  exact Ideal.ofBits_zero_f32

end Cert.ReferenceIdeal.Hand

end
-- ==== Proof.RefTap.lean ====
import proofs.«406342_j15479062134906_3_alg».proof.Proof.Spec
import Idealize.ShloMosaic.Lib.Pipeline.Value
import Idealize.ShloMosaic.Lib.ValueIdx
import Idealize.ShloMosaic.PureOps.Ideal.Laws

noncomputable section

namespace Cert.ReferenceIdeal.Tap

open Idealize.ShloMosaic Idealize.ShloMosaic.ValueIdx
open Cert.ReferenceIdeal Cert.ReferenceIdeal.Facts₀ Cert.ReferenceIdeal.Facts

variable [Cert.ReferenceIdeal.Facts]

def idxTerm (cd : IVec S200000x3 32) (sft : IVec S3 32) : IVec S200000x1 32 :=
  let shifted : IVec S200000x3 32 :=
    addi cd (broadcastInDim S200000x3 ![0, 1] bcast_S1x3_S200000x3_0_1 (broadcastInDim S1x3 ![1] bcast_S3_S1x3_1 sft))
  let clipped : IVec S200000x3 32 :=
    minsi
      (broadcastInDim S200000x3 ![0, 1] bcast_S1x3_S200000x3_0_1
        (broadcastInDim S1x3 ![1] bcast_S3_S1x3_1 (constantI S3 32 127#32)))
      (maxsi (broadcastInDim S200000x3 ![] bcast_S_S200000x3 (id (constantI S_ 32 0#32))) shifted)
  let flat : IVec S200000 32 :=
    addi
      (muli
        (addi
          (muli
            (shapeCast S200000 (extractStridedSlice S200000x1 ![0, 0] clipped slices_S200000x3_S200000x1_0_0)
              shapeCasts_S200000x1_S200000)
            (broadcastInDim S200000 ![] bcast_S_S200000 (constantI S_ 32 128#32)))
          (shapeCast S200000 (extractStridedSlice S200000x1 ![0, 1] clipped slices_S200000x3_S200000x1_0_1)
            shapeCasts_S200000x1_S200000))
        (broadcastInDim S200000 ![] bcast_S_S200000 (constantI S_ 32 128#32)))
      (shapeCast S200000 (extractStridedSlice S200000x1 ![0, 2] clipped slices_S200000x3_S200000x1_0_2)
        shapeCasts_S200000x1_S200000)
  broadcastInDim S200000x1 ![0] bcast_S200000_S200000x1_0
    (select (cmpi .slt flat (broadcastInDim S200000 ![] bcast_S_S200000 (constantI S_ 32 0#32)))
      (addi flat (broadcastInDim S200000 ![] bcast_S_S200000 (constantI S_ 32 2097152#32)))
      flat)

theorem rows_apply (v : IVec S3 32) (n : Fin 200000) (a : Fin 3) :
    broadcastInDim S200000x3 ![0, 1] bcast_S1x3_S200000x3_0_1 (broadcastInDim S1x3 ![1] bcast_S3_S1x3_1 v) (ix2 n a)
      = v (ix1 a) := by
  refine (broadcastInDim_apply ![0, 1] bcast_S1x3_S200000x3_0_1 _ (ix2 n a) (ix2 (0 : Fin 1) a) fun b => ?_).trans ?_
  · match b with
    | ⟨0, _⟩ => rfl
    | ⟨1, _⟩ => rfl
  · refine broadcastInDim_apply ![1] bcast_S3_S1x3_1 v (ix2 (0 : Fin 1) a) (ix1 a) fun b => ?_
    match b with
    | ⟨0, _⟩ => rfl

theorem shifted_apply (cd : IVec S200000x3 32) (sft : IVec S3 32) (n : Fin 200000) (a : Fin 3) :
    addi cd (broadcastInDim S200000x3 ![0, 1] bcast_S1x3_S200000x3_0_1 (broadcastInDim S1x3 ![1] bcast_S3_S1x3_1 sft))
        (ix2 n a)
      = IntOp.addi (cd (ix2 n a)) (sft (ix1 a)) := by
  show IntOp.addi (cd (ix2 n a)) _ = _
  rw [rows_apply]

theorem clipped_apply (w : IVec S200000x3 32) (n : Fin 200000) (a : Fin 3) :
    minsi
        (broadcastInDim S200000x3 ![0, 1] bcast_S1x3_S200000x3_0_1
          (broadcastInDim S1x3 ![1] bcast_S3_S1x3_1 (constantI S3 32 127#32)))
        (maxsi (broadcastInDim S200000x3 ![] bcast_S_S200000x3 (id (constantI S_ 32 0#32))) w) (ix2 n a)
      = Cert.Spec.clamp (w (ix2 n a)) := by
  show IntOp.minsi _ (IntOp.maxsi _ (w (ix2 n a))) = _
  rw [rows_apply]
  rfl

theorem column_apply (w : IVec S200000x3 32) (off : Fin S200000x3.rank → Nat) (h : S200000x3.Slices off S200000x1)
    (c : Fin 3) (h0 : off 0 = 0) (h1 : off 1 = c.val) (n : Fin 200000) :
    shapeCast S200000 (extractStridedSlice S200000x1 off w h) shapeCasts_S200000x1_S200000 (ix1 n) = w (ix2 n c) := by
  refine (shapeCast_apply _ shapeCasts_S200000x1_S200000 (ix1 n) (ix2 n (0 : Fin 1)) ?_).trans ?_
  · rw [Shape.rowMajor_val_two, Shape.rowMajor_val_one]
    show n.val * 1 + 0 = n.val
    omega
  · refine extractStridedSlice_apply off w h (ix2 n (0 : Fin 1)) (ix2 n c) fun b => ?_
    match b with
    | ⟨0, _⟩ => show n.val = off 0 + n.val; rw [h0]; omega
    | ⟨1, _⟩ => show c.val = off 1 + 0; rw [h1]; omega

theorem flat_apply (w : IVec S200000x3 32) (n : Fin 200000) :
    addi
        (muli
          (addi
            (muli
              (shapeCast S200000 (extractStridedSlice S200000x1 ![0, 0] w slices_S200000x3_S200000x1_0_0)
                shapeCasts_S200000x1_S200000)
              (broadcastInDim S200000 ![] bcast_S_S200000 (constantI S_ 32 128#32)))
            (shapeCast S200000 (extractStridedSlice S200000x1 ![0, 1] w slices_S200000x3_S200000x1_0_1)
              shapeCasts_S200000x1_S200000))
          (broadcastInDim S200000 ![] bcast_S_S200000 (constantI S_ 32 128#32)))
        (shapeCast S200000 (extractStridedSlice S200000x1 ![0, 2] w slices_S200000x3_S200000x1_0_2)
          shapeCasts_S200000x1_S200000) (ix1 n)
      = Cert.Spec.flat3 (w (ix2 n (0 : Fin 3))) (w (ix2 n (1 : Fin 3))) (w (ix2 n (2 : Fin 3))) := by
  show IntOp.addi (IntOp.muli (IntOp.addi (IntOp.muli
      (shapeCast S200000 (extractStridedSlice S200000x1 ![0, 0] w slices_S200000x3_S200000x1_0_0)
        shapeCasts_S200000x1_S200000 (ix1 n)) 128#32)
      (shapeCast S200000 (extractStridedSlice S200000x1 ![0, 1] w slices_S200000x3_S200000x1_0_1)
        shapeCasts_S200000x1_S200000 (ix1 n))) 128#32)
      (shapeCast S200000 (extractStridedSlice S200000x1 ![0, 2] w slices_S200000x3_S200000x1_0_2)
        shapeCasts_S200000x1_S200000 (ix1 n)) = _
  rw [column_apply w ![0, 0] slices_S200000x3_S200000x1_0_0 (0 : Fin 3) rfl rfl n,
    column_apply w ![0, 1] slices_S200000x3_S200000x1_0_1 (1 : Fin 3) rfl rfl n,
    column_apply w ![0, 2] slices_S200000x3_S200000x1_0_2 (2 : Fin 3) rfl rfl n]
  rfl

theorem wrapped_apply (f : IVec S200000 32) (n : Fin 200000) :
    broadcastInDim S200000x1 ![0] bcast_S200000_S200000x1_0
        (select (cmpi .slt f (broadcastInDim S200000 ![] bcast_S_S200000 (constantI S_ 32 0#32)))
          (addi f (broadcastInDim S200000 ![] bcast_S_S200000 (constantI S_ 32 2097152#32)))
          f) (ix2 n (0 : Fin 1))
      = Cert.Spec.wrapNeg (f (ix1 n)) := by
  refine (broadcastInDim_apply ![0] bcast_S200000_S200000x1_0 _ (ix2 n (0 : Fin 1)) (ix1 n) fun b => ?_).trans rfl
  match b with
  | ⟨0, _⟩ => rfl

theorem idxTerm_apply (cd : IVec S200000x3 32) (sft : IVec S3 32) (n : Fin 200000) :
    idxTerm cd sft (ix2 n (0 : Fin 1))
      = Cert.Spec.wrapNeg (Cert.Spec.flat3
          (Cert.Spec.clamp (IntOp.addi (cd (ix2 n (0 : Fin 3))) (sft (ix1 (0 : Fin 3)))))
          (Cert.Spec.clamp (IntOp.addi (cd (ix2 n (1 : Fin 3))) (sft (ix1 (1 : Fin 3)))))
          (Cert.Spec.clamp (IntOp.addi (cd (ix2 n (2 : Fin 3))) (sft (ix1 (2 : Fin 3)))))) := by
  refine (wrapped_apply _ n).trans ?_
  rw [flat_apply, clipped_apply, clipped_apply, clipped_apply, shifted_apply, shifted_apply, shifted_apply]

def updTerm (off : Fin 5 → Nat) (h : S3x3x3x32x32.Slices off S1x1x1x32x32)
    (x : FVec Ideal S200000x32 .f32) (kr : FVec Ideal S3x3x3x32x32 .f32) : FVec Ideal S200000x32 .f32 :=
  Host.dotGeneral dot_S200000x32_S32x32_S200000x32_1_0_0_1_n_n none x
    (shapeCast S32x32 (extractStridedSlice S1x1x1x32x32 off kr h) shapeCasts_S1x1x1x32x32_S32x32)

theorem lhs_row (i : S200000x32.Idx) (q : dot_S200000x32_S32x32_S200000x32_1_0_0_1_n_n.contr.Idx) :
    (dot_S200000x32_S32x32_S200000x32_1_0_0_1_n_n.lhsIdx i q 0).val = (i 0).val := by
  unfold DotDims.lhsIdx
  rw [dif_neg (show ¬(0 : Fin S200000x32.rank) ∈ dot_S200000x32_S32x32_S200000x32_1_0_0_1_n_n.lhsBatch from List.not_mem_nil),
    dif_pos (show (0 : Fin S200000x32.rank) ∈ dot_S200000x32_S32x32_S200000x32_1_0_0_1_n_n.lhsNonContracting from List.mem_singleton.mpr rfl)]
  rfl

theorem lhs_col (i : S200000x32.Idx) (q : dot_S200000x32_S32x32_S200000x32_1_0_0_1_n_n.contr.Idx) :
    (dot_S200000x32_S32x32_S200000x32_1_0_0_1_n_n.lhsIdx i q 1).val = (q ⟨0, show 0 < dot_S200000x32_S32x32_S200000x32_1_0_0_1_n_n.contr.rank from Nat.one_pos⟩).val :=
  dot_S200000x32_S32x32_S200000x32_1_0_0_1_n_n.lhsIdx_val_of_single rfl i q

theorem rhs_row (i : S200000x32.Idx) (q : dot_S200000x32_S32x32_S200000x32_1_0_0_1_n_n.contr.Idx) :
    (dot_S200000x32_S32x32_S200000x32_1_0_0_1_n_n.rhsIdx i q 0).val = (q ⟨0, show 0 < dot_S200000x32_S32x32_S200000x32_1_0_0_1_n_n.contr.rank from Nat.one_pos⟩).val :=
  dot_S200000x32_S32x32_S200000x32_1_0_0_1_n_n.rhsIdx_val_of_single rfl i q

theorem rhs_col (i : S200000x32.Idx) (q : dot_S200000x32_S32x32_S200000x32_1_0_0_1_n_n.contr.Idx) :
    (dot_S200000x32_S32x32_S200000x32_1_0_0_1_n_n.rhsIdx i q 1).val = (i 1).val := by
  unfold DotDims.rhsIdx
  rw [dif_neg (show ¬(1 : Fin S32x32.rank) ∈ dot_S200000x32_S32x32_S200000x32_1_0_0_1_n_n.rhsBatch from List.not_mem_nil),
    dif_pos (show (1 : Fin S32x32.rank) ∈ dot_S200000x32_S32x32_S200000x32_1_0_0_1_n_n.rhsNonContracting from List.mem_singleton.mpr rfl)]
  rfl

theorem product_apply (x : FVec Ideal S200000x32 .f32) (w : FVec Ideal S32x32 .f32) (n : Fin 200000) (j : Fin 32) :
    Host.dotGeneral dot_S200000x32_S32x32_S200000x32_1_0_0_1_n_n none x w (ix2 n j) = ∑ i : Fin 32, x (ix2 n i) * w (ix2 i j) := by
  simp only [Host.dotGeneral]
  rw [Ideal.dotGeneral_apply, ← Equiv.sum_comp (contrEquiv1 dot_S200000x32_S32x32_S200000x32_1_0_0_1_n_n 32 rfl rfl).symm]
  refine Finset.sum_congr rfl fun k _ => ?_
  have hk := contrEquiv1_symm_val dot_S200000x32_S32x32_S200000x32_1_0_0_1_n_n 32 rfl rfl k
  have el : dot_S200000x32_S32x32_S200000x32_1_0_0_1_n_n.lhsIdx (ix2 n j) ((contrEquiv1 dot_S200000x32_S32x32_S200000x32_1_0_0_1_n_n 32 rfl rfl).symm k) = ix2 n k :=
    funext fun a => Fin.ext (by
      match a with
      | ⟨0, _⟩ => exact lhs_row _ _
      | ⟨1, _⟩ => exact (lhs_col _ _).trans hk)
  have er : dot_S200000x32_S32x32_S200000x32_1_0_0_1_n_n.rhsIdx (ix2 n j) ((contrEquiv1 dot_S200000x32_S32x32_S200000x32_1_0_0_1_n_n 32 rfl rfl).symm k) = ix2 k j :=
    funext fun a => Fin.ext (by
      match a with
      | ⟨0, _⟩ => exact (rhs_row _ _).trans hk
      | ⟨1, _⟩ => exact rhs_col _ _)
  rw [el, er]

theorem slice_apply (kr : FVec Ideal S3x3x3x32x32 .f32) (off : Fin 5 → Nat)
    (h : S3x3x3x32x32.Slices off S1x1x1x32x32) (a b c : Fin 3)
    (h0 : off 0 = a.val) (h1 : off 1 = b.val) (h2 : off 2 = c.val) (h3 : off 3 = 0) (h4 : off 4 = 0) (i j : Fin 32) :
    shapeCast S32x32 (extractStridedSlice S1x1x1x32x32 off kr h) shapeCasts_S1x1x1x32x32_S32x32 (ix2 i j)
      = kr (ix5 a b c i j) := by
  refine (shapeCast_apply _ shapeCasts_S1x1x1x32x32_S32x32 (ix2 i j)
    (ix5 (0 : Fin 1) (0 : Fin 1) (0 : Fin 1) i j) ?_).trans ?_
  · rw [Shape.rowMajor_val_five, Shape.rowMajor_val_two]
    show ((((0 : Nat) * 1 + 0) * 1 + 0) * 32 + i.val) * 32 + j.val = i.val * 32 + j.val
    omega
  · refine extractStridedSlice_apply off kr h (ix5 (0 : Fin 1) (0 : Fin 1) (0 : Fin 1) i j) (ix5 a b c i j) fun d => ?_
    match d with
    | ⟨0, _⟩ => show a.val = off 0 + 0; rw [h0]; omega
    | ⟨1, _⟩ => show b.val = off 1 + 0; rw [h1]; omega
    | ⟨2, _⟩ => show c.val = off 2 + 0; rw [h2]; omega
    | ⟨3, _⟩ => show i.val = off 3 + i.val; rw [h3]; omega
    | ⟨4, _⟩ => show j.val = off 4 + j.val; rw [h4]; omega

theorem updTerm_apply_of_off (off : Fin 5 → Nat) (h : S3x3x3x32x32.Slices off S1x1x1x32x32)
    (a b c : Fin 3) (h0 : off 0 = a.val) (h1 : off 1 = b.val) (h2 : off 2 = c.val) (h3 : off 3 = 0) (h4 : off 4 = 0)
    (x : FVec Ideal S200000x32 .f32) (kr : FVec Ideal S3x3x3x32x32 .f32) (n : Fin 200000) (j : Fin 32) :
    updTerm off h x kr (ix2 n j) = ∑ i : Fin 32, x (ix2 n i) * kr (ix5 a b c i j) := by
  unfold updTerm
  rw [product_apply]
  refine Finset.sum_congr rfl fun i _ => ?_
  rw [slice_apply kr off h a b c h0 h1 h2 h3 h4 i j]

theorem updTerm_apply (a b c : Fin 3) (h : S3x3x3x32x32.Slices ![a.val, b.val, c.val, 0, 0] S1x1x1x32x32)
    (x : FVec Ideal S200000x32 .f32) (kr : FVec Ideal S3x3x3x32x32 .f32) (n : Fin 200000) (j : Fin 32) :
    updTerm ![a.val, b.val, c.val, 0, 0] h x kr (ix2 n j) = ∑ i : Fin 32, x (ix2 n i) * kr (ix5 a b c i j) :=
  updTerm_apply_of_off ![a.val, b.val, c.val, 0, 0] h a b c rfl rfl rfl rfl rfl x kr n j

end Cert.ReferenceIdeal.Tap
-- ==== Proof.RefTapLib.lean ====
import proofs.«406342_j15479062134906_3_alg».proof.Proof.RefPro
import proofs.«406342_j15479062134906_3_alg».proof.Proof.RefTap
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Idealize.ShloMosaic.ValueIdx
open Cert.ReferenceIdeal.Facts₀ Cert.ReferenceIdeal.Facts

def shiftVec (t : Fin 27) : IVec S3 32 := fun i => Cert.Spec.shiftOf t (i 0)

def idxR (cd : IVec S200000x3 32) (t : Fin 27) : IVec S200000x1 32 := fun i => Cert.Spec.rowIdx cd (i 0) t

def updR (x : FVec Ideal S200000x32 .f32) (kr : FVec Ideal S3x3x3x32x32 .f32) (t : Fin 27) : FVec Ideal S200000x32 .f32 :=
  fun i => Cert.Spec.tapVal x kr (i 0) t (i 1)

variable [Cert.ReferenceIdeal.Facts]

theorem idxTerm_shift (cd : IVec S200000x3 32) (t : Fin 27) : Tap.idxTerm cd (shiftVec t) = idxR cd t := by
  funext i
  obtain ⟨n, a, rfl⟩ : ∃ (n : Fin 200000) (a : Fin 1), i = ix2 n a := ⟨i 0, i 1, eq_ix2 i⟩
  obtain rfl : a = 0 := Subsingleton.elim _ _
  exact Tap.idxTerm_apply cd (shiftVec t) n

theorem updTerm_tap (t : Fin 27) (off : Fin S3x3x3x32x32.rank → Nat) (h : S3x3x3x32x32.Slices off S1x1x1x32x32)
    (h0 : off 0 = (Cert.Spec.dz t).val) (h1 : off 1 = (Cert.Spec.dy t).val) (h2 : off 2 = (Cert.Spec.dx t).val)
    (h3 : off 3 = 0) (h4 : off 4 = 0) (x : FVec Ideal S200000x32 .f32) (kr : FVec Ideal S3x3x3x32x32 .f32) :
    Tap.updTerm off h x kr = updR x kr t := by
  funext i
  obtain ⟨n, j, rfl⟩ : ∃ (n : Fin 200000) (j : Fin 32), i = ix2 n j := ⟨i 0, i 1, eq_ix2 i⟩
  exact Tap.updTerm_apply_of_off off h _ _ _ h0 h1 h2 h3 h4 x kr n j

/-- What the accumulation uses of tap `t`'s operations; `out`, `prev`, `cs` read the tap's result, the running array and the shift vector. -/
structure IsTap (l : List (HloOp τ sig (Elt Ideal))) (out prev : Valuation τ sig (Elt Ideal) → FVec Ideal S2097152x32 .f32)
    (cs : Valuation τ sig (Elt Ideal) → IVec S3 32) (t : Fin 27) : Prop extends Line 35 l where
  val : ∀ W : Valuation τ sig (Elt Ideal), W (Proc.devRef .tc main_c) = constantI S3 32 127#32 →
    out (after l W) = Ideal.hostScatterAdd scatter_S2097152x32_S200000x1_S200000x32_1_0_0_1 (prev W)
      (Tap.idxTerm (W (Proc.devRef .tc main_arg1)) (cs W))
      (updR (W (Proc.devRef .tc main_arg0)) (W (Proc.devRef .tc main_arg3)) t)
  cs_low : ∀ V W : Valuation τ sig (Elt Ideal),
    (∀ r : Ref sig .tc, r.idx.val < 35 → W (Proc.devRef .tc r) = V (Proc.devRef .tc r)) → cs W = cs V

/-- Buffers below 35 are never written by a tap, so the inputs and the constants are read from `V` at every tap. -/
theorem IsTap.step {l : List (HloOp τ sig (Elt Ideal))} {out prev : Valuation τ sig (Elt Ideal) → FVec Ideal S2097152x32 .f32}
    {cs : Valuation τ sig (Elt Ideal) → IVec S3 32} {t : Fin 27} (T : IsTap l out prev cs t)
    (V W : Valuation τ sig (Elt Ideal)) (A : FVec Ideal S2097152x32 .f32)
    (hlow : ∀ r : Ref sig .tc, r.idx.val < 35 → W (Proc.devRef .tc r) = V (Proc.devRef .tc r))
    (hprev : prev W = A)
    (hc : V (Proc.devRef .tc main_c) = constantI S3 32 127#32)
    (hs : cs V = shiftVec t) :
    (∀ r : Ref sig .tc, r.idx.val < 35 → after l W (Proc.devRef .tc r) = V (Proc.devRef .tc r)) ∧
      out (after l W) = Ideal.hostScatterAdd scatter_S2097152x32_S200000x1_S200000x32_1_0_0_1 A
        (idxR (V (Proc.devRef .tc main_arg1)) t)
        (updR (V (Proc.devRef .tc main_arg0)) (V (Proc.devRef .tc main_arg3)) t) := by
  refine ⟨fun r h => (T.low W r h).trans (hlow r h), ?_⟩
  rw [T.val W ((hlow main_c (by decide)).trans hc), hprev, hlow main_arg1 (by decide), T.cs_low V W hlow, hs,
    hlow main_arg0 (by decide), hlow main_arg3 (by decide), idxTerm_shift]

end Cert.ReferenceIdeal.Hand

end
-- ==== Proof.RefTap00.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps00 {F : FTy → Type} [FloatOps F] : List (HloOp τ sig (Elt F)) :=
  [ StableHlo.unary main_arg3 main_v1 (extractStridedSlice S1x1x1x32x32 ![0, 0, 0, 0, 0] · slices_S3x3x3x32x32_S1x1x1x32x32_0_0_0_0_0),
    StableHlo.reshape main_v1 main_v2 rfl shapeCasts_S1x1x1x32x32_S32x32,
    StableHlo.binary main_arg0 main_v2 main_v3 (fun l r => Host.dotGeneral dot_S200000x32_S32x32_S200000x32_1_0_0_1_n_n none l r),
    StableHlo.unary main_c_0 main_v4 (broadcastInDim S1x3 ![1] bcast_S3_S1x3_1),
    StableHlo.unary main_v4 main_v5 (broadcastInDim S200000x3 ![0, 1] bcast_S1x3_S200000x3_0_1),
    StableHlo.binary main_arg1 main_v5 main_v6 addi,
    StableHlo.nullary main_c_27 (constantI S_ 32 0#32),
    StableHlo.TRef.unary (.of main_c_27 : StableHlo.TRef sig ⟨S_, .i32⟩) main_call0.v0 id,
    StableHlo.TRef.unary main_call0.v0 main_call0.v1 (broadcastInDim S200000x3 ![] bcast_S_S200000x3),
    StableHlo.TRef.binary main_call0.v1 (.of main_v6 : StableHlo.TRef sig ⟨S200000x3, .i32⟩) main_call0.v2 maxsi,
    StableHlo.TRef.unary (.of main_c : StableHlo.TRef sig ⟨S3, .i32⟩) main_call0.v3 (broadcastInDim S1x3 ![1] bcast_S3_S1x3_1),
    StableHlo.TRef.unary main_call0.v3 main_call0.v4 (broadcastInDim S200000x3 ![0, 1] bcast_S1x3_S200000x3_0_1),
    StableHlo.TRef.binary main_call0.v4 main_call0.v2 main_call0.v5 minsi,
    StableHlo.unary main_v7 main_v8 (extractStridedSlice S200000x1 ![0, 0] · slices_S200000x3_S200000x1_0_0),
    StableHlo.reshape main_v8 main_v9 rfl shapeCasts_S200000x1_S200000,
    StableHlo.nullary main_c_28 (constantI S_ 32 128#32),
    StableHlo.unary main_c_28 main_v10 (broadcastInDim S200000 ![] bcast_S_S200000),
    StableHlo.binary main_v9 main_v10 main_v11 muli,
    StableHlo.unary main_v7 main_v12 (extractStridedSlice S200000x1 ![0, 1] · slices_S200000x3_S200000x1_0_1),
    StableHlo.reshape main_v12 main_v13 rfl shapeCasts_S200000x1_S200000,
    StableHlo.binary main_v11 main_v13 main_v14 addi,
    StableHlo.nullary main_c_29 (constantI S_ 32 128#32),
    StableHlo.unary main_c_29 main_v15 (broadcastInDim S200000 ![] bcast_S_S200000),
    StableHlo.binary main_v14 main_v15 main_v16 muli,
    StableHlo.unary main_v7 main_v17 (extractStridedSlice S200000x1 ![0, 2] · slices_S200000x3_S200000x1_0_2),
    StableHlo.reshape main_v17 main_v18 rfl shapeCasts_S200000x1_S200000,
    StableHlo.binary main_v16 main_v18 main_v19 addi,
    StableHlo.nullary main_c_30 (constantI S_ 32 0#32),
    StableHlo.unary main_c_30 main_v20 (broadcastInDim S200000 ![] bcast_S_S200000),
    StableHlo.binary main_v19 main_v20 main_v21 (cmpi .slt),
    StableHlo.nullary main_c_31 (constantI S_ 32 2097152#32),
    StableHlo.unary main_c_31 main_v22 (broadcastInDim S200000 ![] bcast_S_S200000),
    StableHlo.binary main_v19 main_v22 main_v23 addi,
    StableHlo.ternary main_v21 main_v23 main_v19 main_v24 select,
    StableHlo.unary main_v24 main_v25 (broadcastInDim S200000x1 ![0] bcast_S200000_S200000x1_0),
    StableHlo.ternary main_v0 main_v25 main_v3 main_v26 (fun x i u => Host.scatterAdd scatter_S2097152x32_S200000x1_S200000x32_1_0_0_1 x i u) ]

set_option maxRecDepth 8192 in
theorem tap00 : IsTap tapOps00 (· (Proc.devRef .tc main_v26)) (· (Proc.devRef .tc main_v0)) (· (Proc.devRef .tc main_c_0)) 0 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 0 ![0, 0, 0, 0, 0] slices_S3x3x3x32x32_S1x1x1x32x32_0_0_0_0_0 rfl rfl rfl rfl rfl]
    after_results_simp
    rw [hc]
    rfl
  cs_low V W h := h main_c_0 (by decide)

end Cert.ReferenceIdeal.Hand

end
-- ==== Proof.RefTap01.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps01 {F : FTy → Type} [FloatOps F] : List (HloOp τ sig (Elt F)) :=
  [ StableHlo.unary main_arg3 main_v27 (extractStridedSlice S1x1x1x32x32 ![0, 0, 1, 0, 0] · slices_S3x3x3x32x32_S1x1x1x32x32_0_0_1_0_0),
    StableHlo.reshape main_v27 main_v28 rfl shapeCasts_S1x1x1x32x32_S32x32,
    StableHlo.binary main_arg0 main_v28 main_v29 (fun l r => Host.dotGeneral dot_S200000x32_S32x32_S200000x32_1_0_0_1_n_n none l r),
    StableHlo.unary main_c_1 main_v30 (broadcastInDim S1x3 ![1] bcast_S3_S1x3_1),
    StableHlo.unary main_v30 main_v31 (broadcastInDim S200000x3 ![0, 1] bcast_S1x3_S200000x3_0_1),
    StableHlo.binary main_arg1 main_v31 main_v32 addi,
    StableHlo.nullary main_c_32 (constantI S_ 32 0#32),
    StableHlo.TRef.unary (.of main_c_32 : StableHlo.TRef sig ⟨S_, .i32⟩) main_call1.v0 id,
    StableHlo.TRef.unary main_call1.v0 main_call1.v1 (broadcastInDim S200000x3 ![] bcast_S_S200000x3),
    StableHlo.TRef.binary main_call1.v1 (.of main_v32 : StableHlo.TRef sig ⟨S200000x3, .i32⟩) main_call1.v2 maxsi,
    StableHlo.TRef.unary (.of main_c : StableHlo.TRef sig ⟨S3, .i32⟩) main_call1.v3 (broadcastInDim S1x3 ![1] bcast_S3_S1x3_1),
    StableHlo.TRef.unary main_call1.v3 main_call1.v4 (broadcastInDim S200000x3 ![0, 1] bcast_S1x3_S200000x3_0_1),
    StableHlo.TRef.binary main_call1.v4 main_call1.v2 main_call1.v5 minsi,
    StableHlo.unary main_v33 main_v34 (extractStridedSlice S200000x1 ![0, 0] · slices_S200000x3_S200000x1_0_0),
    StableHlo.reshape main_v34 main_v35 rfl shapeCasts_S200000x1_S200000,
    StableHlo.nullary main_c_33 (constantI S_ 32 128#32),
    StableHlo.unary main_c_33 main_v36 (broadcastInDim S200000 ![] bcast_S_S200000),
    StableHlo.binary main_v35 main_v36 main_v37 muli,
    StableHlo.unary main_v33 main_v38 (extractStridedSlice S200000x1 ![0, 1] · slices_S200000x3_S200000x1_0_1),
    StableHlo.reshape main_v38 main_v39 rfl shapeCasts_S200000x1_S200000,
    StableHlo.binary main_v37 main_v39 main_v40 addi,
    StableHlo.nullary main_c_34 (constantI S_ 32 128#32),
    StableHlo.unary main_c_34 main_v41 (broadcastInDim S200000 ![] bcast_S_S200000),
    StableHlo.binary main_v40 main_v41 main_v42 muli,
    StableHlo.unary main_v33 main_v43 (extractStridedSlice S200000x1 ![0, 2] · slices_S200000x3_S200000x1_0_2),
    StableHlo.reshape main_v43 main_v44 rfl shapeCasts_S200000x1_S200000,
    StableHlo.binary main_v42 main_v44 main_v45 addi,
    StableHlo.nullary main_c_35 (constantI S_ 32 0#32),
    StableHlo.unary main_c_35 main_v46 (broadcastInDim S200000 ![] bcast_S_S200000),
    StableHlo.binary main_v45 main_v46 main_v47 (cmpi .slt),
    StableHlo.nullary main_c_36 (constantI S_ 32 2097152#32),
    StableHlo.unary main_c_36 main_v48 (broadcastInDim S200000 ![] bcast_S_S200000),
    StableHlo.binary main_v45 main_v48 main_v49 addi,
    StableHlo.ternary main_v47 main_v49 main_v45 main_v50 select,
    StableHlo.unary main_v50 main_v51 (broadcastInDim S200000x1 ![0] bcast_S200000_S200000x1_0),
    StableHlo.ternary main_v26 main_v51 main_v29 main_v52 (fun x i u => Host.scatterAdd scatter_S2097152x32_S200000x1_S200000x32_1_0_0_1 x i u) ]

set_option maxRecDepth 8192 in
theorem tap01 : IsTap tapOps01 (· (Proc.devRef .tc main_v52)) (· (Proc.devRef .tc main_v26)) (· (Proc.devRef .tc main_c_1)) 1 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 1 ![0, 0, 1, 0, 0] slices_S3x3x3x32x32_S1x1x1x32x32_0_0_1_0_0 rfl rfl rfl rfl rfl]
    after_results_simp
    rw [hc]
    rfl
  cs_low V W h := h main_c_1 (by decide)

end Cert.ReferenceIdeal.Hand

end
-- ==== Proof.RefTap02.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps02 {F : FTy → Type} [FloatOps F] : List (HloOp τ sig (Elt F)) :=
  [ StableHlo.unary main_arg3 main_v53 (extractStridedSlice S1x1x1x32x32 ![0, 0, 2, 0, 0] · slices_S3x3x3x32x32_S1x1x1x32x32_0_0_2_0_0),
    StableHlo.reshape main_v53 main_v54 rfl shapeCasts_S1x1x1x32x32_S32x32,
    StableHlo.binary main_arg0 main_v54 main_v55 (fun l r => Host.dotGeneral dot_S200000x32_S32x32_S200000x32_1_0_0_1_n_n none l r),
    StableHlo.unary main_c_2 main_v56 (broadcastInDim S1x3 ![1] bcast_S3_S1x3_1),
    StableHlo.unary main_v56 main_v57 (broadcastInDim S200000x3 ![0, 1] bcast_S1x3_S200000x3_0_1),
    StableHlo.binary main_arg1 main_v57 main_v58 addi,
    StableHlo.nullary main_c_37 (constantI S_ 32 0#32),
    StableHlo.TRef.unary (.of main_c_37 : StableHlo.TRef sig ⟨S_, .i32⟩) main_call2.v0 id,
    StableHlo.TRef.unary main_call2.v0 main_call2.v1 (broadcastInDim S200000x3 ![] bcast_S_S200000x3),
    StableHlo.TRef.binary main_call2.v1 (.of main_v58 : StableHlo.TRef sig ⟨S200000x3, .i32⟩) main_call2.v2 maxsi,
    StableHlo.TRef.unary (.of main_c : StableHlo.TRef sig ⟨S3, .i32⟩) main_call2.v3 (broadcastInDim S1x3 ![1] bcast_S3_S1x3_1),
    StableHlo.TRef.unary main_call2.v3 main_call2.v4 (broadcastInDim S200000x3 ![0, 1] bcast_S1x3_S200000x3_0_1),
    StableHlo.TRef.binary main_call2.v4 main_call2.v2 main_call2.v5 minsi,
    StableHlo.unary main_v59 main_v60 (extractStridedSlice S200000x1 ![0, 0] · slices_S200000x3_S200000x1_0_0),
    StableHlo.reshape main_v60 main_v61 rfl shapeCasts_S200000x1_S200000,
    StableHlo.nullary main_c_38 (constantI S_ 32 128#32),
    StableHlo.unary main_c_38 main_v62 (broadcastInDim S200000 ![] bcast_S_S200000),
    StableHlo.binary main_v61 main_v62 main_v63 muli,
    StableHlo.unary main_v59 main_v64 (extractStridedSlice S200000x1 ![0, 1] · slices_S200000x3_S200000x1_0_1),
    StableHlo.reshape main_v64 main_v65 rfl shapeCasts_S200000x1_S200000,
    StableHlo.binary main_v63 main_v65 main_v66 addi,
    StableHlo.nullary main_c_39 (constantI S_ 32 128#32),
    StableHlo.unary main_c_39 main_v67 (broadcastInDim S200000 ![] bcast_S_S200000),
    StableHlo.binary main_v66 main_v67 main_v68 muli,
    StableHlo.unary main_v59 main_v69 (extractStridedSlice S200000x1 ![0, 2] · slices_S200000x3_S200000x1_0_2),
    StableHlo.reshape main_v69 main_v70 rfl shapeCasts_S200000x1_S200000,
    StableHlo.binary main_v68 main_v70 main_v71 addi,
    StableHlo.nullary main_c_40 (constantI S_ 32 0#32),
    StableHlo.unary main_c_40 main_v72 (broadcastInDim S200000 ![] bcast_S_S200000),
    StableHlo.binary main_v71 main_v72 main_v73 (cmpi .slt),
    StableHlo.nullary main_c_41 (constantI S_ 32 2097152#32),
    StableHlo.unary main_c_41 main_v74 (broadcastInDim S200000 ![] bcast_S_S200000),
    StableHlo.binary main_v71 main_v74 main_v75 addi,
    StableHlo.ternary main_v73 main_v75 main_v71 main_v76 select,
    StableHlo.unary main_v76 main_v77 (broadcastInDim S200000x1 ![0] bcast_S200000_S200000x1_0),
    StableHlo.ternary main_v52 main_v77 main_v55 main_v78 (fun x i u => Host.scatterAdd scatter_S2097152x32_S200000x1_S200000x32_1_0_0_1 x i u) ]

set_option maxRecDepth 8192 in
theorem tap02 : IsTap tapOps02 (· (Proc.devRef .tc main_v78)) (· (Proc.devRef .tc main_v52)) (· (Proc.devRef .tc main_c_2)) 2 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 2 ![0, 0, 2, 0, 0] slices_S3x3x3x32x32_S1x1x1x32x32_0_0_2_0_0 rfl rfl rfl rfl rfl]
    after_results_simp
    rw [hc]
    rfl
  cs_low V W h := h main_c_2 (by decide)

end Cert.ReferenceIdeal.Hand

end
-- ==== Proof.RefTap03.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps03 {F : FTy → Type} [FloatOps F] : List (HloOp τ sig (Elt F)) :=
  [ StableHlo.unary main_arg3 main_v79 (extractStridedSlice S1x1x1x32x32 ![0, 1, 0, 0, 0] · slices_S3x3x3x32x32_S1x1x1x32x32_0_1_0_0_0),
    StableHlo.reshape main_v79 main_v80 rfl shapeCasts_S1x1x1x32x32_S32x32,
    StableHlo.binary main_arg0 main_v80 main_v81 (fun l r => Host.dotGeneral dot_S200000x32_S32x32_S200000x32_1_0_0_1_n_n none l r),
    StableHlo.unary main_c_3 main_v82 (broadcastInDim S1x3 ![1] bcast_S3_S1x3_1),
    StableHlo.unary main_v82 main_v83 (broadcastInDim S200000x3 ![0, 1] bcast_S1x3_S200000x3_0_1),
    StableHlo.binary main_arg1 main_v83 main_v84 addi,
    StableHlo.nullary main_c_42 (constantI S_ 32 0#32),
    StableHlo.TRef.unary (.of main_c_42 : StableHlo.TRef sig ⟨S_, .i32⟩) main_call3.v0 id,
    StableHlo.TRef.unary main_call3.v0 main_call3.v1 (broadcastInDim S200000x3 ![] bcast_S_S200000x3),
    StableHlo.TRef.binary main_call3.v1 (.of main_v84 : StableHlo.TRef sig ⟨S200000x3, .i32⟩) main_call3.v2 maxsi,
    StableHlo.TRef.unary (.of main_c : StableHlo.TRef sig ⟨S3, .i32⟩) main_call3.v3 (broadcastInDim S1x3 ![1] bcast_S3_S1x3_1),
    StableHlo.TRef.unary main_call3.v3 main_call3.v4 (broadcastInDim S200000x3 ![0, 1] bcast_S1x3_S200000x3_0_1),
    StableHlo.TRef.binary main_call3.v4 main_call3.v2 main_call3.v5 minsi,
    StableHlo.unary main_v85 main_v86 (extractStridedSlice S200000x1 ![0, 0] · slices_S200000x3_S200000x1_0_0),
    StableHlo.reshape main_v86 main_v87 rfl shapeCasts_S200000x1_S200000,
    StableHlo.nullary main_c_43 (constantI S_ 32 128#32),
    StableHlo.unary main_c_43 main_v88 (broadcastInDim S200000 ![] bcast_S_S200000),
    StableHlo.binary main_v87 main_v88 main_v89 muli,
    StableHlo.unary main_v85 main_v90 (extractStridedSlice S200000x1 ![0, 1] · slices_S200000x3_S200000x1_0_1),
    StableHlo.reshape main_v90 main_v91 rfl shapeCasts_S200000x1_S200000,
    StableHlo.binary main_v89 main_v91 main_v92 addi,
    StableHlo.nullary main_c_44 (constantI S_ 32 128#32),
    StableHlo.unary main_c_44 main_v93 (broadcastInDim S200000 ![] bcast_S_S200000),
    StableHlo.binary main_v92 main_v93 main_v94 muli,
    StableHlo.unary main_v85 main_v95 (extractStridedSlice S200000x1 ![0, 2] · slices_S200000x3_S200000x1_0_2),
    StableHlo.reshape main_v95 main_v96 rfl shapeCasts_S200000x1_S200000,
    StableHlo.binary main_v94 main_v96 main_v97 addi,
    StableHlo.nullary main_c_45 (constantI S_ 32 0#32),
    StableHlo.unary main_c_45 main_v98 (broadcastInDim S200000 ![] bcast_S_S200000),
    StableHlo.binary main_v97 main_v98 main_v99 (cmpi .slt),
    StableHlo.nullary main_c_46 (constantI S_ 32 2097152#32),
    StableHlo.unary main_c_46 main_v100 (broadcastInDim S200000 ![] bcast_S_S200000),
    StableHlo.binary main_v97 main_v100 main_v101 addi,
    StableHlo.ternary main_v99 main_v101 main_v97 main_v102 select,
    StableHlo.unary main_v102 main_v103 (broadcastInDim S200000x1 ![0] bcast_S200000_S200000x1_0),
    StableHlo.ternary main_v78 main_v103 main_v81 main_v104 (fun x i u => Host.scatterAdd scatter_S2097152x32_S200000x1_S200000x32_1_0_0_1 x i u) ]

set_option maxRecDepth 8192 in
theorem tap03 : IsTap tapOps03 (· (Proc.devRef .tc main_v104)) (· (Proc.devRef .tc main_v78)) (· (Proc.devRef .tc main_c_3)) 3 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 3 ![0, 1, 0, 0, 0] slices_S3x3x3x32x32_S1x1x1x32x32_0_1_0_0_0 rfl rfl rfl rfl rfl]
    after_results_simp
    rw [hc]
    rfl
  cs_low V W h := h main_c_3 (by decide)

end Cert.ReferenceIdeal.Hand

end
-- ==== Proof.RefTap04.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps04 {F : FTy → Type} [FloatOps F] : List (HloOp τ sig (Elt F)) :=
  [ StableHlo.unary main_arg3 main_v105 (extractStridedSlice S1x1x1x32x32 ![0, 1, 1, 0, 0] · slices_S3x3x3x32x32_S1x1x1x32x32_0_1_1_0_0),
    StableHlo.reshape main_v105 main_v106 rfl shapeCasts_S1x1x1x32x32_S32x32,
    StableHlo.binary main_arg0 main_v106 main_v107 (fun l r => Host.dotGeneral dot_S200000x32_S32x32_S200000x32_1_0_0_1_n_n none l r),
    StableHlo.unary main_c_4 main_v108 (broadcastInDim S1x3 ![1] bcast_S3_S1x3_1),
    StableHlo.unary main_v108 main_v109 (broadcastInDim S200000x3 ![0, 1] bcast_S1x3_S200000x3_0_1),
    StableHlo.binary main_arg1 main_v109 main_v110 addi,
    StableHlo.nullary main_c_47 (constantI S_ 32 0#32),
    StableHlo.TRef.unary (.of main_c_47 : StableHlo.TRef sig ⟨S_, .i32⟩) main_call4.v0 id,
    StableHlo.TRef.unary main_call4.v0 main_call4.v1 (broadcastInDim S200000x3 ![] bcast_S_S200000x3),
    StableHlo.TRef.binary main_call4.v1 (.of main_v110 : StableHlo.TRef sig ⟨S200000x3, .i32⟩) main_call4.v2 maxsi,
    StableHlo.TRef.unary (.of main_c : StableHlo.TRef sig ⟨S3, .i32⟩) main_call4.v3 (broadcastInDim S1x3 ![1] bcast_S3_S1x3_1),
    StableHlo.TRef.unary main_call4.v3 main_call4.v4 (broadcastInDim S200000x3 ![0, 1] bcast_S1x3_S200000x3_0_1),
    StableHlo.TRef.binary main_call4.v4 main_call4.v2 main_call4.v5 minsi,
    StableHlo.unary main_v111 main_v112 (extractStridedSlice S200000x1 ![0, 0] · slices_S200000x3_S200000x1_0_0),
    StableHlo.reshape main_v112 main_v113 rfl shapeCasts_S200000x1_S200000,
    StableHlo.nullary main_c_48 (constantI S_ 32 128#32),
    StableHlo.unary main_c_48 main_v114 (broadcastInDim S200000 ![] bcast_S_S200000),
    StableHlo.binary main_v113 main_v114 main_v115 muli,
    StableHlo.unary main_v111 main_v116 (extractStridedSlice S200000x1 ![0, 1] · slices_S200000x3_S200000x1_0_1),
    StableHlo.reshape main_v116 main_v117 rfl shapeCasts_S200000x1_S200000,
    StableHlo.binary main_v115 main_v117 main_v118 addi,
    StableHlo.nullary main_c_49 (constantI S_ 32 128#32),
    StableHlo.unary main_c_49 main_v119 (broadcastInDim S200000 ![] bcast_S_S200000),
    StableHlo.binary main_v118 main_v119 main_v120 muli,
    StableHlo.unary main_v111 main_v121 (extractStridedSlice S200000x1 ![0, 2] · slices_S200000x3_S200000x1_0_2),
    StableHlo.reshape main_v121 main_v122 rfl shapeCasts_S200000x1_S200000,
    StableHlo.binary main_v120 main_v122 main_v123 addi,
    StableHlo.nullary main_c_50 (constantI S_ 32 0#32),
    StableHlo.unary main_c_50 main_v124 (broadcastInDim S200000 ![] bcast_S_S200000),
    StableHlo.binary main_v123 main_v124 main_v125 (cmpi .slt),
    StableHlo.nullary main_c_51 (constantI S_ 32 2097152#32),
    StableHlo.unary main_c_51 main_v126 (broadcastInDim S200000 ![] bcast_S_S200000),
    StableHlo.binary main_v123 main_v126 main_v127 addi,
    StableHlo.ternary main_v125 main_v127 main_v123 main_v128 select,
    StableHlo.unary main_v128 main_v129 (broadcastInDim S200000x1 ![0] bcast_S200000_S200000x1_0),
    StableHlo.ternary main_v104 main_v129 main_v107 main_v130 (fun x i u => Host.scatterAdd scatter_S2097152x32_S200000x1_S200000x32_1_0_0_1 x i u) ]

set_option maxRecDepth 8192 in
theorem tap04 : IsTap tapOps04 (· (Proc.devRef .tc main_v130)) (· (Proc.devRef .tc main_v104)) (· (Proc.devRef .tc main_c_4)) 4 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 4 ![0, 1, 1, 0, 0] slices_S3x3x3x32x32_S1x1x1x32x32_0_1_1_0_0 rfl rfl rfl rfl rfl]
    after_results_simp
    rw [hc]
    rfl
  cs_low V W h := h main_c_4 (by decide)

end Cert.ReferenceIdeal.Hand

end
-- ==== Proof.RefTap05.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps05 {F : FTy → Type} [FloatOps F] : List (HloOp τ sig (Elt F)) :=
  [ StableHlo.unary main_arg3 main_v131 (extractStridedSlice S1x1x1x32x32 ![0, 1, 2, 0, 0] · slices_S3x3x3x32x32_S1x1x1x32x32_0_1_2_0_0),
    StableHlo.reshape main_v131 main_v132 rfl shapeCasts_S1x1x1x32x32_S32x32,
    StableHlo.binary main_arg0 main_v132 main_v133 (fun l r => Host.dotGeneral dot_S200000x32_S32x32_S200000x32_1_0_0_1_n_n none l r),
    StableHlo.unary main_c_5 main_v134 (broadcastInDim S1x3 ![1] bcast_S3_S1x3_1),
    StableHlo.unary main_v134 main_v135 (broadcastInDim S200000x3 ![0, 1] bcast_S1x3_S200000x3_0_1),
    StableHlo.binary main_arg1 main_v135 main_v136 addi,
    StableHlo.nullary main_c_52 (constantI S_ 32 0#32),
    StableHlo.TRef.unary (.of main_c_52 : StableHlo.TRef sig ⟨S_, .i32⟩) main_call5.v0 id,
    StableHlo.TRef.unary main_call5.v0 main_call5.v1 (broadcastInDim S200000x3 ![] bcast_S_S200000x3),
    StableHlo.TRef.binary main_call5.v1 (.of main_v136 : StableHlo.TRef sig ⟨S200000x3, .i32⟩) main_call5.v2 maxsi,
    StableHlo.TRef.unary (.of main_c : StableHlo.TRef sig ⟨S3, .i32⟩) main_call5.v3 (broadcastInDim S1x3 ![1] bcast_S3_S1x3_1),
    StableHlo.TRef.unary main_call5.v3 main_call5.v4 (broadcastInDim S200000x3 ![0, 1] bcast_S1x3_S200000x3_0_1),
    StableHlo.TRef.binary main_call5.v4 main_call5.v2 main_call5.v5 minsi,
    StableHlo.unary main_v137 main_v138 (extractStridedSlice S200000x1 ![0, 0] · slices_S200000x3_S200000x1_0_0),
    StableHlo.reshape main_v138 main_v139 rfl shapeCasts_S200000x1_S200000,
    StableHlo.nullary main_c_53 (constantI S_ 32 128#32),
    StableHlo.unary main_c_53 main_v140 (broadcastInDim S200000 ![] bcast_S_S200000),
    StableHlo.binary main_v139 main_v140 main_v141 muli,
    StableHlo.unary main_v137 main_v142 (extractStridedSlice S200000x1 ![0, 1] · slices_S200000x3_S200000x1_0_1),
    StableHlo.reshape main_v142 main_v143 rfl shapeCasts_S200000x1_S200000,
    StableHlo.binary main_v141 main_v143 main_v144 addi,
    StableHlo.nullary main_c_54 (constantI S_ 32 128#32),
    StableHlo.unary main_c_54 main_v145 (broadcastInDim S200000 ![] bcast_S_S200000),
    StableHlo.binary main_v144 main_v145 main_v146 muli,
    StableHlo.unary main_v137 main_v147 (extractStridedSlice S200000x1 ![0, 2] · slices_S200000x3_S200000x1_0_2),
    StableHlo.reshape main_v147 main_v148 rfl shapeCasts_S200000x1_S200000,
    StableHlo.binary main_v146 main_v148 main_v149 addi,
    StableHlo.nullary main_c_55 (constantI S_ 32 0#32),
    StableHlo.unary main_c_55 main_v150 (broadcastInDim S200000 ![] bcast_S_S200000),
    StableHlo.binary main_v149 main_v150 main_v151 (cmpi .slt),
    StableHlo.nullary main_c_56 (constantI S_ 32 2097152#32),
    StableHlo.unary main_c_56 main_v152 (broadcastInDim S200000 ![] bcast_S_S200000),
    StableHlo.binary main_v149 main_v152 main_v153 addi,
    StableHlo.ternary main_v151 main_v153 main_v149 main_v154 select,
    StableHlo.unary main_v154 main_v155 (broadcastInDim S200000x1 ![0] bcast_S200000_S200000x1_0),
    StableHlo.ternary main_v130 main_v155 main_v133 main_v156 (fun x i u => Host.scatterAdd scatter_S2097152x32_S200000x1_S200000x32_1_0_0_1 x i u) ]

set_option maxRecDepth 8192 in
theorem tap05 : IsTap tapOps05 (· (Proc.devRef .tc main_v156)) (· (Proc.devRef .tc main_v130)) (· (Proc.devRef .tc main_c_5)) 5 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 5 ![0, 1, 2, 0, 0] slices_S3x3x3x32x32_S1x1x1x32x32_0_1_2_0_0 rfl rfl rfl rfl rfl]
    after_results_simp
    rw [hc]
    rfl
  cs_low V W h := h main_c_5 (by decide)

end Cert.ReferenceIdeal.Hand

end
-- ==== Proof.RefTap06.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps06 {F : FTy → Type} [FloatOps F] : List (HloOp τ sig (Elt F)) :=
  [ StableHlo.unary main_arg3 main_v157 (extractStridedSlice S1x1x1x32x32 ![0, 2, 0, 0, 0] · slices_S3x3x3x32x32_S1x1x1x32x32_0_2_0_0_0),
    StableHlo.reshape main_v157 main_v158 rfl shapeCasts_S1x1x1x32x32_S32x32,
    StableHlo.binary main_arg0 main_v158 main_v159 (fun l r => Host.dotGeneral dot_S200000x32_S32x32_S200000x32_1_0_0_1_n_n none l r),
    StableHlo.unary main_c_6 main_v160 (broadcastInDim S1x3 ![1] bcast_S3_S1x3_1),
    StableHlo.unary main_v160 main_v161 (broadcastInDim S200000x3 ![0, 1] bcast_S1x3_S200000x3_0_1),
    StableHlo.binary main_arg1 main_v161 main_v162 addi,
    StableHlo.nullary main_c_57 (constantI S_ 32 0#32),
    StableHlo.TRef.unary (.of main_c_57 : StableHlo.TRef sig ⟨S_, .i32⟩) main_call6.v0 id,
    StableHlo.TRef.unary main_call6.v0 main_call6.v1 (broadcastInDim S200000x3 ![] bcast_S_S200000x3),
    StableHlo.TRef.binary main_call6.v1 (.of main_v162 : StableHlo.TRef sig ⟨S200000x3, .i32⟩) main_call6.v2 maxsi,
    StableHlo.TRef.unary (.of main_c : StableHlo.TRef sig ⟨S3, .i32⟩) main_call6.v3 (broadcastInDim S1x3 ![1] bcast_S3_S1x3_1),
    StableHlo.TRef.unary main_call6.v3 main_call6.v4 (broadcastInDim S200000x3 ![0, 1] bcast_S1x3_S200000x3_0_1),
    StableHlo.TRef.binary main_call6.v4 main_call6.v2 main_call6.v5 minsi,
    StableHlo.unary main_v163 main_v164 (extractStridedSlice S200000x1 ![0, 0] · slices_S200000x3_S200000x1_0_0),
    StableHlo.reshape main_v164 main_v165 rfl shapeCasts_S200000x1_S200000,
    StableHlo.nullary main_c_58 (constantI S_ 32 128#32),
    StableHlo.unary main_c_58 main_v166 (broadcastInDim S200000 ![] bcast_S_S200000),
    StableHlo.binary main_v165 main_v166 main_v167 muli,
    StableHlo.unary main_v163 main_v168 (extractStridedSlice S200000x1 ![0, 1] · slices_S200000x3_S200000x1_0_1),
    StableHlo.reshape main_v168 main_v169 rfl shapeCasts_S200000x1_S200000,
    StableHlo.binary main_v167 main_v169 main_v170 addi,
    StableHlo.nullary main_c_59 (constantI S_ 32 128#32),
    StableHlo.unary main_c_59 main_v171 (broadcastInDim S200000 ![] bcast_S_S200000),
    StableHlo.binary main_v170 main_v171 main_v172 muli,
    StableHlo.unary main_v163 main_v173 (extractStridedSlice S200000x1 ![0, 2] · slices_S200000x3_S200000x1_0_2),
    StableHlo.reshape main_v173 main_v174 rfl shapeCasts_S200000x1_S200000,
    StableHlo.binary main_v172 main_v174 main_v175 addi,
    StableHlo.nullary main_c_60 (constantI S_ 32 0#32),
    StableHlo.unary main_c_60 main_v176 (broadcastInDim S200000 ![] bcast_S_S200000),
    StableHlo.binary main_v175 main_v176 main_v177 (cmpi .slt),
    StableHlo.nullary main_c_61 (constantI S_ 32 2097152#32),
    StableHlo.unary main_c_61 main_v178 (broadcastInDim S200000 ![] bcast_S_S200000),
    StableHlo.binary main_v175 main_v178 main_v179 addi,
    StableHlo.ternary main_v177 main_v179 main_v175 main_v180 select,
    StableHlo.unary main_v180 main_v181 (broadcastInDim S200000x1 ![0] bcast_S200000_S200000x1_0),
    StableHlo.ternary main_v156 main_v181 main_v159 main_v182 (fun x i u => Host.scatterAdd scatter_S2097152x32_S200000x1_S200000x32_1_0_0_1 x i u) ]

set_option maxRecDepth 8192 in
theorem tap06 : IsTap tapOps06 (· (Proc.devRef .tc main_v182)) (· (Proc.devRef .tc main_v156)) (· (Proc.devRef .tc main_c_6)) 6 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 6 ![0, 2, 0, 0, 0] slices_S3x3x3x32x32_S1x1x1x32x32_0_2_0_0_0 rfl rfl rfl rfl rfl]
    after_results_simp
    rw [hc]
    rfl
  cs_low V W h := h main_c_6 (by decide)

end Cert.ReferenceIdeal.Hand

end
-- ==== Proof.RefTap07.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps07 {F : FTy → Type} [FloatOps F] : List (HloOp τ sig (Elt F)) :=
  [ StableHlo.unary main_arg3 main_v183 (extractStridedSlice S1x1x1x32x32 ![0, 2, 1, 0, 0] · slices_S3x3x3x32x32_S1x1x1x32x32_0_2_1_0_0),
    StableHlo.reshape main_v183 main_v184 rfl shapeCasts_S1x1x1x32x32_S32x32,
    StableHlo.binary main_arg0 main_v184 main_v185 (fun l r => Host.dotGeneral dot_S200000x32_S32x32_S200000x32_1_0_0_1_n_n none l r),
    StableHlo.unary main_c_7 main_v186 (broadcastInDim S1x3 ![1] bcast_S3_S1x3_1),
    StableHlo.unary main_v186 main_v187 (broadcastInDim S200000x3 ![0, 1] bcast_S1x3_S200000x3_0_1),
    StableHlo.binary main_arg1 main_v187 main_v188 addi,
    StableHlo.nullary main_c_62 (constantI S_ 32 0#32),
    StableHlo.TRef.unary (.of main_c_62 : StableHlo.TRef sig ⟨S_, .i32⟩) main_call7.v0 id,
    StableHlo.TRef.unary main_call7.v0 main_call7.v1 (broadcastInDim S200000x3 ![] bcast_S_S200000x3),
    StableHlo.TRef.binary main_call7.v1 (.of main_v188 : StableHlo.TRef sig ⟨S200000x3, .i32⟩) main_call7.v2 maxsi,
    StableHlo.TRef.unary (.of main_c : StableHlo.TRef sig ⟨S3, .i32⟩) main_call7.v3 (broadcastInDim S1x3 ![1] bcast_S3_S1x3_1),
    StableHlo.TRef.unary main_call7.v3 main_call7.v4 (broadcastInDim S200000x3 ![0, 1] bcast_S1x3_S200000x3_0_1),
    StableHlo.TRef.binary main_call7.v4 main_call7.v2 main_call7.v5 minsi,
    StableHlo.unary main_v189 main_v190 (extractStridedSlice S200000x1 ![0, 0] · slices_S200000x3_S200000x1_0_0),
    StableHlo.reshape main_v190 main_v191 rfl shapeCasts_S200000x1_S200000,
    StableHlo.nullary main_c_63 (constantI S_ 32 128#32),
    StableHlo.unary main_c_63 main_v192 (broadcastInDim S200000 ![] bcast_S_S200000),
    StableHlo.binary main_v191 main_v192 main_v193 muli,
    StableHlo.unary main_v189 main_v194 (extractStridedSlice S200000x1 ![0, 1] · slices_S200000x3_S200000x1_0_1),
    StableHlo.reshape main_v194 main_v195 rfl shapeCasts_S200000x1_S200000,
    StableHlo.binary main_v193 main_v195 main_v196 addi,
    StableHlo.nullary main_c_64 (constantI S_ 32 128#32),
    StableHlo.unary main_c_64 main_v197 (broadcastInDim S200000 ![] bcast_S_S200000),
    StableHlo.binary main_v196 main_v197 main_v198 muli,
    StableHlo.unary main_v189 main_v199 (extractStridedSlice S200000x1 ![0, 2] · slices_S200000x3_S200000x1_0_2),
    StableHlo.reshape main_v199 main_v200 rfl shapeCasts_S200000x1_S200000,
    StableHlo.binary main_v198 main_v200 main_v201 addi,
    StableHlo.nullary main_c_65 (constantI S_ 32 0#32),
    StableHlo.unary main_c_65 main_v202 (broadcastInDim S200000 ![] bcast_S_S200000),
    StableHlo.binary main_v201 main_v202 main_v203 (cmpi .slt),
    StableHlo.nullary main_c_66 (constantI S_ 32 2097152#32),
    StableHlo.unary main_c_66 main_v204 (broadcastInDim S200000 ![] bcast_S_S200000),
    StableHlo.binary main_v201 main_v204 main_v205 addi,
    StableHlo.ternary main_v203 main_v205 main_v201 main_v206 select,
    StableHlo.unary main_v206 main_v207 (broadcastInDim S200000x1 ![0] bcast_S200000_S200000x1_0),
    StableHlo.ternary main_v182 main_v207 main_v185 main_v208 (fun x i u => Host.scatterAdd scatter_S2097152x32_S200000x1_S200000x32_1_0_0_1 x i u) ]

set_option maxRecDepth 8192 in
theorem tap07 : IsTap tapOps07 (· (Proc.devRef .tc main_v208)) (· (Proc.devRef .tc main_v182)) (· (Proc.devRef .tc main_c_7)) 7 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 7 ![0, 2, 1, 0, 0] slices_S3x3x3x32x32_S1x1x1x32x32_0_2_1_0_0 rfl rfl rfl rfl rfl]
    after_results_simp
    rw [hc]
    rfl
  cs_low V W h := h main_c_7 (by decide)

end Cert.ReferenceIdeal.Hand

end
-- ==== Proof.RefTap08.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps08 {F : FTy → Type} [FloatOps F] : List (HloOp τ sig (Elt F)) :=
  [ StableHlo.unary main_arg3 main_v209 (extractStridedSlice S1x1x1x32x32 ![0, 2, 2, 0, 0] · slices_S3x3x3x32x32_S1x1x1x32x32_0_2_2_0_0),
    StableHlo.reshape main_v209 main_v210 rfl shapeCasts_S1x1x1x32x32_S32x32,
    StableHlo.binary main_arg0 main_v210 main_v211 (fun l r => Host.dotGeneral dot_S200000x32_S32x32_S200000x32_1_0_0_1_n_n none l r),
    StableHlo.unary main_c_8 main_v212 (broadcastInDim S1x3 ![1] bcast_S3_S1x3_1),
    StableHlo.unary main_v212 main_v213 (broadcastInDim S200000x3 ![0, 1] bcast_S1x3_S200000x3_0_1),
    StableHlo.binary main_arg1 main_v213 main_v214 addi,
    StableHlo.nullary main_c_67 (constantI S_ 32 0#32),
    StableHlo.TRef.unary (.of main_c_67 : StableHlo.TRef sig ⟨S_, .i32⟩) main_call8.v0 id,
    StableHlo.TRef.unary main_call8.v0 main_call8.v1 (broadcastInDim S200000x3 ![] bcast_S_S200000x3),
    StableHlo.TRef.binary main_call8.v1 (.of main_v214 : StableHlo.TRef sig ⟨S200000x3, .i32⟩) main_call8.v2 maxsi,
    StableHlo.TRef.unary (.of main_c : StableHlo.TRef sig ⟨S3, .i32⟩) main_call8.v3 (broadcastInDim S1x3 ![1] bcast_S3_S1x3_1),
    StableHlo.TRef.unary main_call8.v3 main_call8.v4 (broadcastInDim S200000x3 ![0, 1] bcast_S1x3_S200000x3_0_1),
    StableHlo.TRef.binary main_call8.v4 main_call8.v2 main_call8.v5 minsi,
    StableHlo.unary main_v215 main_v216 (extractStridedSlice S200000x1 ![0, 0] · slices_S200000x3_S200000x1_0_0),
    StableHlo.reshape main_v216 main_v217 rfl shapeCasts_S200000x1_S200000,
    StableHlo.nullary main_c_68 (constantI S_ 32 128#32),
    StableHlo.unary main_c_68 main_v218 (broadcastInDim S200000 ![] bcast_S_S200000),
    StableHlo.binary main_v217 main_v218 main_v219 muli,
    StableHlo.unary main_v215 main_v220 (extractStridedSlice S200000x1 ![0, 1] · slices_S200000x3_S200000x1_0_1),
    StableHlo.reshape main_v220 main_v221 rfl shapeCasts_S200000x1_S200000,
    StableHlo.binary main_v219 main_v221 main_v222 addi,
    StableHlo.nullary main_c_69 (constantI S_ 32 128#32),
    StableHlo.unary main_c_69 main_v223 (broadcastInDim S200000 ![] bcast_S_S200000),
    StableHlo.binary main_v222 main_v223 main_v224 muli,
    StableHlo.unary main_v215 main_v225 (extractStridedSlice S200000x1 ![0, 2] · slices_S200000x3_S200000x1_0_2),
    StableHlo.reshape main_v225 main_v226 rfl shapeCasts_S200000x1_S200000,
    StableHlo.binary main_v224 main_v226 main_v227 addi,
    StableHlo.nullary main_c_70 (constantI S_ 32 0#32),
    StableHlo.unary main_c_70 main_v228 (broadcastInDim S200000 ![] bcast_S_S200000),
    StableHlo.binary main_v227 main_v228 main_v229 (cmpi .slt),
    StableHlo.nullary main_c_71 (constantI S_ 32 2097152#32),
    StableHlo.unary main_c_71 main_v230 (broadcastInDim S200000 ![] bcast_S_S200000),
    StableHlo.binary main_v227 main_v230 main_v231 addi,
    StableHlo.ternary main_v229 main_v231 main_v227 main_v232 select,
    StableHlo.unary main_v232 main_v233 (broadcastInDim S200000x1 ![0] bcast_S200000_S200000x1_0),
    StableHlo.ternary main_v208 main_v233 main_v211 main_v234 (fun x i u => Host.scatterAdd scatter_S2097152x32_S200000x1_S200000x32_1_0_0_1 x i u) ]

set_option maxRecDepth 8192 in
theorem tap08 : IsTap tapOps08 (· (Proc.devRef .tc main_v234)) (· (Proc.devRef .tc main_v208)) (· (Proc.devRef .tc main_c_8)) 8 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 8 ![0, 2, 2, 0, 0] slices_S3x3x3x32x32_S1x1x1x32x32_0_2_2_0_0 rfl rfl rfl rfl rfl]
    after_results_simp
    rw [hc]
    rfl
  cs_low V W h := h main_c_8 (by decide)

end Cert.ReferenceIdeal.Hand

end
-- ==== Proof.RefTap09.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps09 {F : FTy → Type} [FloatOps F] : List (HloOp τ sig (Elt F)) :=
  [ StableHlo.unary main_arg3 main_v235 (extractStridedSlice S1x1x1x32x32 ![1, 0, 0, 0, 0] · slices_S3x3x3x32x32_S1x1x1x32x32_1_0_0_0_0),
    StableHlo.reshape main_v235 main_v236 rfl shapeCasts_S1x1x1x32x32_S32x32,
    StableHlo.binary main_arg0 main_v236 main_v237 (fun l r => Host.dotGeneral dot_S200000x32_S32x32_S200000x32_1_0_0_1_n_n none l r),
    StableHlo.unary main_c_9 main_v238 (broadcastInDim S1x3 ![1] bcast_S3_S1x3_1),
    StableHlo.unary main_v238 main_v239 (broadcastInDim S200000x3 ![0, 1] bcast_S1x3_S200000x3_0_1),
    StableHlo.binary main_arg1 main_v239 main_v240 addi,
    StableHlo.nullary main_c_72 (constantI S_ 32 0#32),
    StableHlo.TRef.unary (.of main_c_72 : StableHlo.TRef sig ⟨S_, .i32⟩) main_call9.v0 id,
    StableHlo.TRef.unary main_call9.v0 main_call9.v1 (broadcastInDim S200000x3 ![] bcast_S_S200000x3),
    StableHlo.TRef.binary main_call9.v1 (.of main_v240 : StableHlo.TRef sig ⟨S200000x3, .i32⟩) main_call9.v2 maxsi,
    StableHlo.TRef.unary (.of main_c : StableHlo.TRef sig ⟨S3, .i32⟩) main_call9.v3 (broadcastInDim S1x3 ![1] bcast_S3_S1x3_1),
    StableHlo.TRef.unary main_call9.v3 main_call9.v4 (broadcastInDim S200000x3 ![0, 1] bcast_S1x3_S200000x3_0_1),
    StableHlo.TRef.binary main_call9.v4 main_call9.v2 main_call9.v5 minsi,
    StableHlo.unary main_v241 main_v242 (extractStridedSlice S200000x1 ![0, 0] · slices_S200000x3_S200000x1_0_0),
    StableHlo.reshape main_v242 main_v243 rfl shapeCasts_S200000x1_S200000,
    StableHlo.nullary main_c_73 (constantI S_ 32 128#32),
    StableHlo.unary main_c_73 main_v244 (broadcastInDim S200000 ![] bcast_S_S200000),
    StableHlo.binary main_v243 main_v244 main_v245 muli,
    StableHlo.unary main_v241 main_v246 (extractStridedSlice S200000x1 ![0, 1] · slices_S200000x3_S200000x1_0_1),
    StableHlo.reshape main_v246 main_v247 rfl shapeCasts_S200000x1_S200000,
    StableHlo.binary main_v245 main_v247 main_v248 addi,
    StableHlo.nullary main_c_74 (constantI S_ 32 128#32),
    StableHlo.unary main_c_74 main_v249 (broadcastInDim S200000 ![] bcast_S_S200000),
    StableHlo.binary main_v248 main_v249 main_v250 muli,
    StableHlo.unary main_v241 main_v251 (extractStridedSlice S200000x1 ![0, 2] · slices_S200000x3_S200000x1_0_2),
    StableHlo.reshape main_v251 main_v252 rfl shapeCasts_S200000x1_S200000,
    StableHlo.binary main_v250 main_v252 main_v253 addi,
    StableHlo.nullary main_c_75 (constantI S_ 32 0#32),
    StableHlo.unary main_c_75 main_v254 (broadcastInDim S200000 ![] bcast_S_S200000),
    StableHlo.binary main_v253 main_v254 main_v255 (cmpi .slt),
    StableHlo.nullary main_c_76 (constantI S_ 32 2097152#32),
    StableHlo.unary main_c_76 main_v256 (broadcastInDim S200000 ![] bcast_S_S200000),
    StableHlo.binary main_v253 main_v256 main_v257 addi,
    StableHlo.ternary main_v255 main_v257 main_v253 main_v258 select,
    StableHlo.unary main_v258 main_v259 (broadcastInDim S200000x1 ![0] bcast_S200000_S200000x1_0),
    StableHlo.ternary main_v234 main_v259 main_v237 main_v260 (fun x i u => Host.scatterAdd scatter_S2097152x32_S200000x1_S200000x32_1_0_0_1 x i u) ]

set_option maxRecDepth 8192 in
theorem tap09 : IsTap tapOps09 (· (Proc.devRef .tc main_v260)) (· (Proc.devRef .tc main_v234)) (· (Proc.devRef .tc main_c_9)) 9 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 9 ![1, 0, 0, 0, 0] slices_S3x3x3x32x32_S1x1x1x32x32_1_0_0_0_0 rfl rfl rfl rfl rfl]
    after_results_simp
    rw [hc]
    rfl
  cs_low V W h := h main_c_9 (by decide)

end Cert.ReferenceIdeal.Hand

end
-- ==== Proof.RefTap10.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps10 {F : FTy → Type} [FloatOps F] : List (HloOp τ sig (Elt F)) :=
  [ StableHlo.unary main_arg3 main_v261 (extractStridedSlice S1x1x1x32x32 ![1, 0, 1, 0, 0] · slices_S3x3x3x32x32_S1x1x1x32x32_1_0_1_0_0),
    StableHlo.reshape main_v261 main_v262 rfl shapeCasts_S1x1x1x32x32_S32x32,
    StableHlo.binary main_arg0 main_v262 main_v263 (fun l r => Host.dotGeneral dot_S200000x32_S32x32_S200000x32_1_0_0_1_n_n none l r),
    StableHlo.unary main_c_10 main_v264 (broadcastInDim S1x3 ![1] bcast_S3_S1x3_1),
    StableHlo.unary main_v264 main_v265 (broadcastInDim S200000x3 ![0, 1] bcast_S1x3_S200000x3_0_1),
    StableHlo.binary main_arg1 main_v265 main_v266 addi,
    StableHlo.nullary main_c_77 (constantI S_ 32 0#32),
    StableHlo.TRef.unary (.of main_c_77 : StableHlo.TRef sig ⟨S_, .i32⟩) main_call10.v0 id,
    StableHlo.TRef.unary main_call10.v0 main_call10.v1 (broadcastInDim S200000x3 ![] bcast_S_S200000x3),
    StableHlo.TRef.binary main_call10.v1 (.of main_v266 : StableHlo.TRef sig ⟨S200000x3, .i32⟩) main_call10.v2 maxsi,
    StableHlo.TRef.unary (.of main_c : StableHlo.TRef sig ⟨S3, .i32⟩) main_call10.v3 (broadcastInDim S1x3 ![1] bcast_S3_S1x3_1),
    StableHlo.TRef.unary main_call10.v3 main_call10.v4 (broadcastInDim S200000x3 ![0, 1] bcast_S1x3_S200000x3_0_1),
    StableHlo.TRef.binary main_call10.v4 main_call10.v2 main_call10.v5 minsi,
    StableHlo.unary main_v267 main_v268 (extractStridedSlice S200000x1 ![0, 0] · slices_S200000x3_S200000x1_0_0),
    StableHlo.reshape main_v268 main_v269 rfl shapeCasts_S200000x1_S200000,
    StableHlo.nullary main_c_78 (constantI S_ 32 128#32),
    StableHlo.unary main_c_78 main_v270 (broadcastInDim S200000 ![] bcast_S_S200000),
    StableHlo.binary main_v269 main_v270 main_v271 muli,
    StableHlo.unary main_v267 main_v272 (extractStridedSlice S200000x1 ![0, 1] · slices_S200000x3_S200000x1_0_1),
    StableHlo.reshape main_v272 main_v273 rfl shapeCasts_S200000x1_S200000,
    StableHlo.binary main_v271 main_v273 main_v274 addi,
    StableHlo.nullary main_c_79 (constantI S_ 32 128#32),
    StableHlo.unary main_c_79 main_v275 (broadcastInDim S200000 ![] bcast_S_S200000),
    StableHlo.binary main_v274 main_v275 main_v276 muli,
    StableHlo.unary main_v267 main_v277 (extractStridedSlice S200000x1 ![0, 2] · slices_S200000x3_S200000x1_0_2),
    StableHlo.reshape main_v277 main_v278 rfl shapeCasts_S200000x1_S200000,
    StableHlo.binary main_v276 main_v278 main_v279 addi,
    StableHlo.nullary main_c_80 (constantI S_ 32 0#32),
    StableHlo.unary main_c_80 main_v280 (broadcastInDim S200000 ![] bcast_S_S200000),
    StableHlo.binary main_v279 main_v280 main_v281 (cmpi .slt),
    StableHlo.nullary main_c_81 (constantI S_ 32 2097152#32),
    StableHlo.unary main_c_81 main_v282 (broadcastInDim S200000 ![] bcast_S_S200000),
    StableHlo.binary main_v279 main_v282 main_v283 addi,
    StableHlo.ternary main_v281 main_v283 main_v279 main_v284 select,
    StableHlo.unary main_v284 main_v285 (broadcastInDim S200000x1 ![0] bcast_S200000_S200000x1_0),
    StableHlo.ternary main_v260 main_v285 main_v263 main_v286 (fun x i u => Host.scatterAdd scatter_S2097152x32_S200000x1_S200000x32_1_0_0_1 x i u) ]

set_option maxRecDepth 8192 in
theorem tap10 : IsTap tapOps10 (· (Proc.devRef .tc main_v286)) (· (Proc.devRef .tc main_v260)) (· (Proc.devRef .tc main_c_10)) 10 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 10 ![1, 0, 1, 0, 0] slices_S3x3x3x32x32_S1x1x1x32x32_1_0_1_0_0 rfl rfl rfl rfl rfl]
    after_results_simp
    rw [hc]
    rfl
  cs_low V W h := h main_c_10 (by decide)

end Cert.ReferenceIdeal.Hand

end
-- ==== Proof.RefTap11.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps11 {F : FTy → Type} [FloatOps F] : List (HloOp τ sig (Elt F)) :=
  [ StableHlo.unary main_arg3 main_v287 (extractStridedSlice S1x1x1x32x32 ![1, 0, 2, 0, 0] · slices_S3x3x3x32x32_S1x1x1x32x32_1_0_2_0_0),
    StableHlo.reshape main_v287 main_v288 rfl shapeCasts_S1x1x1x32x32_S32x32,
    StableHlo.binary main_arg0 main_v288 main_v289 (fun l r => Host.dotGeneral dot_S200000x32_S32x32_S200000x32_1_0_0_1_n_n none l r),
    StableHlo.unary main_c_11 main_v290 (broadcastInDim S1x3 ![1] bcast_S3_S1x3_1),
    StableHlo.unary main_v290 main_v291 (broadcastInDim S200000x3 ![0, 1] bcast_S1x3_S200000x3_0_1),
    StableHlo.binary main_arg1 main_v291 main_v292 addi,
    StableHlo.nullary main_c_82 (constantI S_ 32 0#32),
    StableHlo.TRef.unary (.of main_c_82 : StableHlo.TRef sig ⟨S_, .i32⟩) main_call11.v0 id,
    StableHlo.TRef.unary main_call11.v0 main_call11.v1 (broadcastInDim S200000x3 ![] bcast_S_S200000x3),
    StableHlo.TRef.binary main_call11.v1 (.of main_v292 : StableHlo.TRef sig ⟨S200000x3, .i32⟩) main_call11.v2 maxsi,
    StableHlo.TRef.unary (.of main_c : StableHlo.TRef sig ⟨S3, .i32⟩) main_call11.v3 (broadcastInDim S1x3 ![1] bcast_S3_S1x3_1),
    StableHlo.TRef.unary main_call11.v3 main_call11.v4 (broadcastInDim S200000x3 ![0, 1] bcast_S1x3_S200000x3_0_1),
    StableHlo.TRef.binary main_call11.v4 main_call11.v2 main_call11.v5 minsi,
    StableHlo.unary main_v293 main_v294 (extractStridedSlice S200000x1 ![0, 0] · slices_S200000x3_S200000x1_0_0),
    StableHlo.reshape main_v294 main_v295 rfl shapeCasts_S200000x1_S200000,
    StableHlo.nullary main_c_83 (constantI S_ 32 128#32),
    StableHlo.unary main_c_83 main_v296 (broadcastInDim S200000 ![] bcast_S_S200000),
    StableHlo.binary main_v295 main_v296 main_v297 muli,
    StableHlo.unary main_v293 main_v298 (extractStridedSlice S200000x1 ![0, 1] · slices_S200000x3_S200000x1_0_1),
    StableHlo.reshape main_v298 main_v299 rfl shapeCasts_S200000x1_S200000,
    StableHlo.binary main_v297 main_v299 main_v300 addi,
    StableHlo.nullary main_c_84 (constantI S_ 32 128#32),
    StableHlo.unary main_c_84 main_v301 (broadcastInDim S200000 ![] bcast_S_S200000),
    StableHlo.binary main_v300 main_v301 main_v302 muli,
    StableHlo.unary main_v293 main_v303 (extractStridedSlice S200000x1 ![0, 2] · slices_S200000x3_S200000x1_0_2),
    StableHlo.reshape main_v303 main_v304 rfl shapeCasts_S200000x1_S200000,
    StableHlo.binary main_v302 main_v304 main_v305 addi,
    StableHlo.nullary main_c_85 (constantI S_ 32 0#32),
    StableHlo.unary main_c_85 main_v306 (broadcastInDim S200000 ![] bcast_S_S200000),
    StableHlo.binary main_v305 main_v306 main_v307 (cmpi .slt),
    StableHlo.nullary main_c_86 (constantI S_ 32 2097152#32),
    StableHlo.unary main_c_86 main_v308 (broadcastInDim S200000 ![] bcast_S_S200000),
    StableHlo.binary main_v305 main_v308 main_v309 addi,
    StableHlo.ternary main_v307 main_v309 main_v305 main_v310 select,
    StableHlo.unary main_v310 main_v311 (broadcastInDim S200000x1 ![0] bcast_S200000_S200000x1_0),
    StableHlo.ternary main_v286 main_v311 main_v289 main_v312 (fun x i u => Host.scatterAdd scatter_S2097152x32_S200000x1_S200000x32_1_0_0_1 x i u) ]

set_option maxRecDepth 8192 in
theorem tap11 : IsTap tapOps11 (· (Proc.devRef .tc main_v312)) (· (Proc.devRef .tc main_v286)) (· (Proc.devRef .tc main_c_11)) 11 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 11 ![1, 0, 2, 0, 0] slices_S3x3x3x32x32_S1x1x1x32x32_1_0_2_0_0 rfl rfl rfl rfl rfl]
    after_results_simp
    rw [hc]
    rfl
  cs_low V W h := h main_c_11 (by decide)

end Cert.ReferenceIdeal.Hand

end
-- ==== Proof.RefTap12.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps12 {F : FTy → Type} [FloatOps F] : List (HloOp τ sig (Elt F)) :=
  [ StableHlo.unary main_arg3 main_v313 (extractStridedSlice S1x1x1x32x32 ![1, 1, 0, 0, 0] · slices_S3x3x3x32x32_S1x1x1x32x32_1_1_0_0_0),
    StableHlo.reshape main_v313 main_v314 rfl shapeCasts_S1x1x1x32x32_S32x32,
    StableHlo.binary main_arg0 main_v314 main_v315 (fun l r => Host.dotGeneral dot_S200000x32_S32x32_S200000x32_1_0_0_1_n_n none l r),
    StableHlo.unary main_c_12 main_v316 (broadcastInDim S1x3 ![1] bcast_S3_S1x3_1),
    StableHlo.unary main_v316 main_v317 (broadcastInDim S200000x3 ![0, 1] bcast_S1x3_S200000x3_0_1),
    StableHlo.binary main_arg1 main_v317 main_v318 addi,
    StableHlo.nullary main_c_87 (constantI S_ 32 0#32),
    StableHlo.TRef.unary (.of main_c_87 : StableHlo.TRef sig ⟨S_, .i32⟩) main_call12.v0 id,
    StableHlo.TRef.unary main_call12.v0 main_call12.v1 (broadcastInDim S200000x3 ![] bcast_S_S200000x3),
    StableHlo.TRef.binary main_call12.v1 (.of main_v318 : StableHlo.TRef sig ⟨S200000x3, .i32⟩) main_call12.v2 maxsi,
    StableHlo.TRef.unary (.of main_c : StableHlo.TRef sig ⟨S3, .i32⟩) main_call12.v3 (broadcastInDim S1x3 ![1] bcast_S3_S1x3_1),
    StableHlo.TRef.unary main_call12.v3 main_call12.v4 (broadcastInDim S200000x3 ![0, 1] bcast_S1x3_S200000x3_0_1),
    StableHlo.TRef.binary main_call12.v4 main_call12.v2 main_call12.v5 minsi,
    StableHlo.unary main_v319 main_v320 (extractStridedSlice S200000x1 ![0, 0] · slices_S200000x3_S200000x1_0_0),
    StableHlo.reshape main_v320 main_v321 rfl shapeCasts_S200000x1_S200000,
    StableHlo.nullary main_c_88 (constantI S_ 32 128#32),
    StableHlo.unary main_c_88 main_v322 (broadcastInDim S200000 ![] bcast_S_S200000),
    StableHlo.binary main_v321 main_v322 main_v323 muli,
    StableHlo.unary main_v319 main_v324 (extractStridedSlice S200000x1 ![0, 1] · slices_S200000x3_S200000x1_0_1),
    StableHlo.reshape main_v324 main_v325 rfl shapeCasts_S200000x1_S200000,
    StableHlo.binary main_v323 main_v325 main_v326 addi,
    StableHlo.nullary main_c_89 (constantI S_ 32 128#32),
    StableHlo.unary main_c_89 main_v327 (broadcastInDim S200000 ![] bcast_S_S200000),
    StableHlo.binary main_v326 main_v327 main_v328 muli,
    StableHlo.unary main_v319 main_v329 (extractStridedSlice S200000x1 ![0, 2] · slices_S200000x3_S200000x1_0_2),
    StableHlo.reshape main_v329 main_v330 rfl shapeCasts_S200000x1_S200000,
    StableHlo.binary main_v328 main_v330 main_v331 addi,
    StableHlo.nullary main_c_90 (constantI S_ 32 0#32),
    StableHlo.unary main_c_90 main_v332 (broadcastInDim S200000 ![] bcast_S_S200000),
    StableHlo.binary main_v331 main_v332 main_v333 (cmpi .slt),
    StableHlo.nullary main_c_91 (constantI S_ 32 2097152#32),
    StableHlo.unary main_c_91 main_v334 (broadcastInDim S200000 ![] bcast_S_S200000),
    StableHlo.binary main_v331 main_v334 main_v335 addi,
    StableHlo.ternary main_v333 main_v335 main_v331 main_v336 select,
    StableHlo.unary main_v336 main_v337 (broadcastInDim S200000x1 ![0] bcast_S200000_S200000x1_0),
    StableHlo.ternary main_v312 main_v337 main_v315 main_v338 (fun x i u => Host.scatterAdd scatter_S2097152x32_S200000x1_S200000x32_1_0_0_1 x i u) ]

set_option maxRecDepth 8192 in
theorem tap12 : IsTap tapOps12 (· (Proc.devRef .tc main_v338)) (· (Proc.devRef .tc main_v312)) (· (Proc.devRef .tc main_c_12)) 12 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 12 ![1, 1, 0, 0, 0] slices_S3x3x3x32x32_S1x1x1x32x32_1_1_0_0_0 rfl rfl rfl rfl rfl]
    after_results_simp
    rw [hc]
    rfl
  cs_low V W h := h main_c_12 (by decide)

end Cert.ReferenceIdeal.Hand

end
-- ==== Proof.RefTap13.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps13 {F : FTy → Type} [FloatOps F] : List (HloOp τ sig (Elt F)) :=
  [ StableHlo.unary main_arg3 main_v339 (extractStridedSlice S1x1x1x32x32 ![1, 1, 1, 0, 0] · slices_S3x3x3x32x32_S1x1x1x32x32_1_1_1_0_0),
    StableHlo.reshape main_v339 main_v340 rfl shapeCasts_S1x1x1x32x32_S32x32,
    StableHlo.binary main_arg0 main_v340 main_v341 (fun l r => Host.dotGeneral dot_S200000x32_S32x32_S200000x32_1_0_0_1_n_n none l r),
    StableHlo.unary main_c_13 main_v342 (broadcastInDim S1x3 ![1] bcast_S3_S1x3_1),
    StableHlo.unary main_v342 main_v343 (broadcastInDim S200000x3 ![0, 1] bcast_S1x3_S200000x3_0_1),
    StableHlo.binary main_arg1 main_v343 main_v344 addi,
    StableHlo.nullary main_c_92 (constantI S_ 32 0#32),
    StableHlo.TRef.unary (.of main_c_92 : StableHlo.TRef sig ⟨S_, .i32⟩) main_call13.v0 id,
    StableHlo.TRef.unary main_call13.v0 main_call13.v1 (broadcastInDim S200000x3 ![] bcast_S_S200000x3),
    StableHlo.TRef.binary main_call13.v1 (.of main_v344 : StableHlo.TRef sig ⟨S200000x3, .i32⟩) main_call13.v2 maxsi,
    StableHlo.TRef.unary (.of main_c : StableHlo.TRef sig ⟨S3, .i32⟩) main_call13.v3 (broadcastInDim S1x3 ![1] bcast_S3_S1x3_1),
    StableHlo.TRef.unary main_call13.v3 main_call13.v4 (broadcastInDim S200000x3 ![0, 1] bcast_S1x3_S200000x3_0_1),
    StableHlo.TRef.binary main_call13.v4 main_call13.v2 main_call13.v5 minsi,
    StableHlo.unary main_v345 main_v346 (extractStridedSlice S200000x1 ![0, 0] · slices_S200000x3_S200000x1_0_0),
    StableHlo.reshape main_v346 main_v347 rfl shapeCasts_S200000x1_S200000,
    StableHlo.nullary main_c_93 (constantI S_ 32 128#32),
    StableHlo.unary main_c_93 main_v348 (broadcastInDim S200000 ![] bcast_S_S200000),
    StableHlo.binary main_v347 main_v348 main_v349 muli,
    StableHlo.unary main_v345 main_v350 (extractStridedSlice S200000x1 ![0, 1] · slices_S200000x3_S200000x1_0_1),
    StableHlo.reshape main_v350 main_v351 rfl shapeCasts_S200000x1_S200000,
    StableHlo.binary main_v349 main_v351 main_v352 addi,
    StableHlo.nullary main_c_94 (constantI S_ 32 128#32),
    StableHlo.unary main_c_94 main_v353 (broadcastInDim S200000 ![] bcast_S_S200000),
    StableHlo.binary main_v352 main_v353 main_v354 muli,
    StableHlo.unary main_v345 main_v355 (extractStridedSlice S200000x1 ![0, 2] · slices_S200000x3_S200000x1_0_2),
    StableHlo.reshape main_v355 main_v356 rfl shapeCasts_S200000x1_S200000,
    StableHlo.binary main_v354 main_v356 main_v357 addi,
    StableHlo.nullary main_c_95 (constantI S_ 32 0#32),
    StableHlo.unary main_c_95 main_v358 (broadcastInDim S200000 ![] bcast_S_S200000),
    StableHlo.binary main_v357 main_v358 main_v359 (cmpi .slt),
    StableHlo.nullary main_c_96 (constantI S_ 32 2097152#32),
    StableHlo.unary main_c_96 main_v360 (broadcastInDim S200000 ![] bcast_S_S200000),
    StableHlo.binary main_v357 main_v360 main_v361 addi,
    StableHlo.ternary main_v359 main_v361 main_v357 main_v362 select,
    StableHlo.unary main_v362 main_v363 (broadcastInDim S200000x1 ![0] bcast_S200000_S200000x1_0),
    StableHlo.ternary main_v338 main_v363 main_v341 main_v364 (fun x i u => Host.scatterAdd scatter_S2097152x32_S200000x1_S200000x32_1_0_0_1 x i u) ]

set_option maxRecDepth 8192 in
theorem tap13 : IsTap tapOps13 (· (Proc.devRef .tc main_v364)) (· (Proc.devRef .tc main_v338)) (· (Proc.devRef .tc main_c_13)) 13 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 13 ![1, 1, 1, 0, 0] slices_S3x3x3x32x32_S1x1x1x32x32_1_1_1_0_0 rfl rfl rfl rfl rfl]
    after_results_simp
    rw [hc]
    rfl
  cs_low V W h := h main_c_13 (by decide)

end Cert.ReferenceIdeal.Hand

end
-- ==== Proof.RefTap14.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps14 {F : FTy → Type} [FloatOps F] : List (HloOp τ sig (Elt F)) :=
  [ StableHlo.unary main_arg3 main_v365 (extractStridedSlice S1x1x1x32x32 ![1, 1, 2, 0, 0] · slices_S3x3x3x32x32_S1x1x1x32x32_1_1_2_0_0),
    StableHlo.reshape main_v365 main_v366 rfl shapeCasts_S1x1x1x32x32_S32x32,
    StableHlo.binary main_arg0 main_v366 main_v367 (fun l r => Host.dotGeneral dot_S200000x32_S32x32_S200000x32_1_0_0_1_n_n none l r),
    StableHlo.unary main_c_14 main_v368 (broadcastInDim S1x3 ![1] bcast_S3_S1x3_1),
    StableHlo.unary main_v368 main_v369 (broadcastInDim S200000x3 ![0, 1] bcast_S1x3_S200000x3_0_1),
    StableHlo.binary main_arg1 main_v369 main_v370 addi,
    StableHlo.nullary main_c_97 (constantI S_ 32 0#32),
    StableHlo.TRef.unary (.of main_c_97 : StableHlo.TRef sig ⟨S_, .i32⟩) main_call14.v0 id,
    StableHlo.TRef.unary main_call14.v0 main_call14.v1 (broadcastInDim S200000x3 ![] bcast_S_S200000x3),
    StableHlo.TRef.binary main_call14.v1 (.of main_v370 : StableHlo.TRef sig ⟨S200000x3, .i32⟩) main_call14.v2 maxsi,
    StableHlo.TRef.unary (.of main_c : StableHlo.TRef sig ⟨S3, .i32⟩) main_call14.v3 (broadcastInDim S1x3 ![1] bcast_S3_S1x3_1),
    StableHlo.TRef.unary main_call14.v3 main_call14.v4 (broadcastInDim S200000x3 ![0, 1] bcast_S1x3_S200000x3_0_1),
    StableHlo.TRef.binary main_call14.v4 main_call14.v2 main_call14.v5 minsi,
    StableHlo.unary main_v371 main_v372 (extractStridedSlice S200000x1 ![0, 0] · slices_S200000x3_S200000x1_0_0),
    StableHlo.reshape main_v372 main_v373 rfl shapeCasts_S200000x1_S200000,
    StableHlo.nullary main_c_98 (constantI S_ 32 128#32),
    StableHlo.unary main_c_98 main_v374 (broadcastInDim S200000 ![] bcast_S_S200000),
    StableHlo.binary main_v373 main_v374 main_v375 muli,
    StableHlo.unary main_v371 main_v376 (extractStridedSlice S200000x1 ![0, 1] · slices_S200000x3_S200000x1_0_1),
    StableHlo.reshape main_v376 main_v377 rfl shapeCasts_S200000x1_S200000,
    StableHlo.binary main_v375 main_v377 main_v378 addi,
    StableHlo.nullary main_c_99 (constantI S_ 32 128#32),
    StableHlo.unary main_c_99 main_v379 (broadcastInDim S200000 ![] bcast_S_S200000),
    StableHlo.binary main_v378 main_v379 main_v380 muli,
    StableHlo.unary main_v371 main_v381 (extractStridedSlice S200000x1 ![0, 2] · slices_S200000x3_S200000x1_0_2),
    StableHlo.reshape main_v381 main_v382 rfl shapeCasts_S200000x1_S200000,
    StableHlo.binary main_v380 main_v382 main_v383 addi,
    StableHlo.nullary main_c_100 (constantI S_ 32 0#32),
    StableHlo.unary main_c_100 main_v384 (broadcastInDim S200000 ![] bcast_S_S200000),
    StableHlo.binary main_v383 main_v384 main_v385 (cmpi .slt),
    StableHlo.nullary main_c_101 (constantI S_ 32 2097152#32),
    StableHlo.unary main_c_101 main_v386 (broadcastInDim S200000 ![] bcast_S_S200000),
    StableHlo.binary main_v383 main_v386 main_v387 addi,
    StableHlo.ternary main_v385 main_v387 main_v383 main_v388 select,
    StableHlo.unary main_v388 main_v389 (broadcastInDim S200000x1 ![0] bcast_S200000_S200000x1_0),
    StableHlo.ternary main_v364 main_v389 main_v367 main_v390 (fun x i u => Host.scatterAdd scatter_S2097152x32_S200000x1_S200000x32_1_0_0_1 x i u) ]

set_option maxRecDepth 8192 in
theorem tap14 : IsTap tapOps14 (· (Proc.devRef .tc main_v390)) (· (Proc.devRef .tc main_v364)) (· (Proc.devRef .tc main_c_14)) 14 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 14 ![1, 1, 2, 0, 0] slices_S3x3x3x32x32_S1x1x1x32x32_1_1_2_0_0 rfl rfl rfl rfl rfl]
    after_results_simp
    rw [hc]
    rfl
  cs_low V W h := h main_c_14 (by decide)

end Cert.ReferenceIdeal.Hand

end
-- ==== Proof.RefTap15.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps15 {F : FTy → Type} [FloatOps F] : List (HloOp τ sig (Elt F)) :=
  [ StableHlo.unary main_arg3 main_v391 (extractStridedSlice S1x1x1x32x32 ![1, 2, 0, 0, 0] · slices_S3x3x3x32x32_S1x1x1x32x32_1_2_0_0_0),
    StableHlo.reshape main_v391 main_v392 rfl shapeCasts_S1x1x1x32x32_S32x32,
    StableHlo.binary main_arg0 main_v392 main_v393 (fun l r => Host.dotGeneral dot_S200000x32_S32x32_S200000x32_1_0_0_1_n_n none l r),
    StableHlo.unary main_c_15 main_v394 (broadcastInDim S1x3 ![1] bcast_S3_S1x3_1),
    StableHlo.unary main_v394 main_v395 (broadcastInDim S200000x3 ![0, 1] bcast_S1x3_S200000x3_0_1),
    StableHlo.binary main_arg1 main_v395 main_v396 addi,
    StableHlo.nullary main_c_102 (constantI S_ 32 0#32),
    StableHlo.TRef.unary (.of main_c_102 : StableHlo.TRef sig ⟨S_, .i32⟩) main_call15.v0 id,
    StableHlo.TRef.unary main_call15.v0 main_call15.v1 (broadcastInDim S200000x3 ![] bcast_S_S200000x3),
    StableHlo.TRef.binary main_call15.v1 (.of main_v396 : StableHlo.TRef sig ⟨S200000x3, .i32⟩) main_call15.v2 maxsi,
    StableHlo.TRef.unary (.of main_c : StableHlo.TRef sig ⟨S3, .i32⟩) main_call15.v3 (broadcastInDim S1x3 ![1] bcast_S3_S1x3_1),
    StableHlo.TRef.unary main_call15.v3 main_call15.v4 (broadcastInDim S200000x3 ![0, 1] bcast_S1x3_S200000x3_0_1),
    StableHlo.TRef.binary main_call15.v4 main_call15.v2 main_call15.v5 minsi,
    StableHlo.unary main_v397 main_v398 (extractStridedSlice S200000x1 ![0, 0] · slices_S200000x3_S200000x1_0_0),
    StableHlo.reshape main_v398 main_v399 rfl shapeCasts_S200000x1_S200000,
    StableHlo.nullary main_c_103 (constantI S_ 32 128#32),
    StableHlo.unary main_c_103 main_v400 (broadcastInDim S200000 ![] bcast_S_S200000),
    StableHlo.binary main_v399 main_v400 main_v401 muli,
    StableHlo.unary main_v397 main_v402 (extractStridedSlice S200000x1 ![0, 1] · slices_S200000x3_S200000x1_0_1),
    StableHlo.reshape main_v402 main_v403 rfl shapeCasts_S200000x1_S200000,
    StableHlo.binary main_v401 main_v403 main_v404 addi,
    StableHlo.nullary main_c_104 (constantI S_ 32 128#32),
    StableHlo.unary main_c_104 main_v405 (broadcastInDim S200000 ![] bcast_S_S200000),
    StableHlo.binary main_v404 main_v405 main_v406 muli,
    StableHlo.unary main_v397 main_v407 (extractStridedSlice S200000x1 ![0, 2] · slices_S200000x3_S200000x1_0_2),
    StableHlo.reshape main_v407 main_v408 rfl shapeCasts_S200000x1_S200000,
    StableHlo.binary main_v406 main_v408 main_v409 addi,
    StableHlo.nullary main_c_105 (constantI S_ 32 0#32),
    StableHlo.unary main_c_105 main_v410 (broadcastInDim S200000 ![] bcast_S_S200000),
    StableHlo.binary main_v409 main_v410 main_v411 (cmpi .slt),
    StableHlo.nullary main_c_106 (constantI S_ 32 2097152#32),
    StableHlo.unary main_c_106 main_v412 (broadcastInDim S200000 ![] bcast_S_S200000),
    StableHlo.binary main_v409 main_v412 main_v413 addi,
    StableHlo.ternary main_v411 main_v413 main_v409 main_v414 select,
    StableHlo.unary main_v414 main_v415 (broadcastInDim S200000x1 ![0] bcast_S200000_S200000x1_0),
    StableHlo.ternary main_v390 main_v415 main_v393 main_v416 (fun x i u => Host.scatterAdd scatter_S2097152x32_S200000x1_S200000x32_1_0_0_1 x i u) ]

set_option maxRecDepth 8192 in
theorem tap15 : IsTap tapOps15 (· (Proc.devRef .tc main_v416)) (· (Proc.devRef .tc main_v390)) (· (Proc.devRef .tc main_c_15)) 15 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 15 ![1, 2, 0, 0, 0] slices_S3x3x3x32x32_S1x1x1x32x32_1_2_0_0_0 rfl rfl rfl rfl rfl]
    after_results_simp
    rw [hc]
    rfl
  cs_low V W h := h main_c_15 (by decide)

end Cert.ReferenceIdeal.Hand

end
-- ==== Proof.RefTap16.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps16 {F : FTy → Type} [FloatOps F] : List (HloOp τ sig (Elt F)) :=
  [ StableHlo.unary main_arg3 main_v417 (extractStridedSlice S1x1x1x32x32 ![1, 2, 1, 0, 0] · slices_S3x3x3x32x32_S1x1x1x32x32_1_2_1_0_0),
    StableHlo.reshape main_v417 main_v418 rfl shapeCasts_S1x1x1x32x32_S32x32,
    StableHlo.binary main_arg0 main_v418 main_v419 (fun l r => Host.dotGeneral dot_S200000x32_S32x32_S200000x32_1_0_0_1_n_n none l r),
    StableHlo.unary main_c_16 main_v420 (broadcastInDim S1x3 ![1] bcast_S3_S1x3_1),
    StableHlo.unary main_v420 main_v421 (broadcastInDim S200000x3 ![0, 1] bcast_S1x3_S200000x3_0_1),
    StableHlo.binary main_arg1 main_v421 main_v422 addi,
    StableHlo.nullary main_c_107 (constantI S_ 32 0#32),
    StableHlo.TRef.unary (.of main_c_107 : StableHlo.TRef sig ⟨S_, .i32⟩) main_call16.v0 id,
    StableHlo.TRef.unary main_call16.v0 main_call16.v1 (broadcastInDim S200000x3 ![] bcast_S_S200000x3),
    StableHlo.TRef.binary main_call16.v1 (.of main_v422 : StableHlo.TRef sig ⟨S200000x3, .i32⟩) main_call16.v2 maxsi,
    StableHlo.TRef.unary (.of main_c : StableHlo.TRef sig ⟨S3, .i32⟩) main_call16.v3 (broadcastInDim S1x3 ![1] bcast_S3_S1x3_1),
    StableHlo.TRef.unary main_call16.v3 main_call16.v4 (broadcastInDim S200000x3 ![0, 1] bcast_S1x3_S200000x3_0_1),
    StableHlo.TRef.binary main_call16.v4 main_call16.v2 main_call16.v5 minsi,
    StableHlo.unary main_v423 main_v424 (extractStridedSlice S200000x1 ![0, 0] · slices_S200000x3_S200000x1_0_0),
    StableHlo.reshape main_v424 main_v425 rfl shapeCasts_S200000x1_S200000,
    StableHlo.nullary main_c_108 (constantI S_ 32 128#32),
    StableHlo.unary main_c_108 main_v426 (broadcastInDim S200000 ![] bcast_S_S200000),
    StableHlo.binary main_v425 main_v426 main_v427 muli,
    StableHlo.unary main_v423 main_v428 (extractStridedSlice S200000x1 ![0, 1] · slices_S200000x3_S200000x1_0_1),
    StableHlo.reshape main_v428 main_v429 rfl shapeCasts_S200000x1_S200000,
    StableHlo.binary main_v427 main_v429 main_v430 addi,
    StableHlo.nullary main_c_109 (constantI S_ 32 128#32),
    StableHlo.unary main_c_109 main_v431 (broadcastInDim S200000 ![] bcast_S_S200000),
    StableHlo.binary main_v430 main_v431 main_v432 muli,
    StableHlo.unary main_v423 main_v433 (extractStridedSlice S200000x1 ![0, 2] · slices_S200000x3_S200000x1_0_2),
    StableHlo.reshape main_v433 main_v434 rfl shapeCasts_S200000x1_S200000,
    StableHlo.binary main_v432 main_v434 main_v435 addi,
    StableHlo.nullary main_c_110 (constantI S_ 32 0#32),
    StableHlo.unary main_c_110 main_v436 (broadcastInDim S200000 ![] bcast_S_S200000),
    StableHlo.binary main_v435 main_v436 main_v437 (cmpi .slt),
    StableHlo.nullary main_c_111 (constantI S_ 32 2097152#32),
    StableHlo.unary main_c_111 main_v438 (broadcastInDim S200000 ![] bcast_S_S200000),
    StableHlo.binary main_v435 main_v438 main_v439 addi,
    StableHlo.ternary main_v437 main_v439 main_v435 main_v440 select,
    StableHlo.unary main_v440 main_v441 (broadcastInDim S200000x1 ![0] bcast_S200000_S200000x1_0),
    StableHlo.ternary main_v416 main_v441 main_v419 main_v442 (fun x i u => Host.scatterAdd scatter_S2097152x32_S200000x1_S200000x32_1_0_0_1 x i u) ]

set_option maxRecDepth 8192 in
theorem tap16 : IsTap tapOps16 (· (Proc.devRef .tc main_v442)) (· (Proc.devRef .tc main_v416)) (· (Proc.devRef .tc main_c_16)) 16 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 16 ![1, 2, 1, 0, 0] slices_S3x3x3x32x32_S1x1x1x32x32_1_2_1_0_0 rfl rfl rfl rfl rfl]
    after_results_simp
    rw [hc]
    rfl
  cs_low V W h := h main_c_16 (by decide)

end Cert.ReferenceIdeal.Hand

end
-- ==== Proof.RefTap17.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps17 {F : FTy → Type} [FloatOps F] : List (HloOp τ sig (Elt F)) :=
  [ StableHlo.unary main_arg3 main_v443 (extractStridedSlice S1x1x1x32x32 ![1, 2, 2, 0, 0] · slices_S3x3x3x32x32_S1x1x1x32x32_1_2_2_0_0),
    StableHlo.reshape main_v443 main_v444 rfl shapeCasts_S1x1x1x32x32_S32x32,
    StableHlo.binary main_arg0 main_v444 main_v445 (fun l r => Host.dotGeneral dot_S200000x32_S32x32_S200000x32_1_0_0_1_n_n none l r),
    StableHlo.unary main_c_17 main_v446 (broadcastInDim S1x3 ![1] bcast_S3_S1x3_1),
    StableHlo.unary main_v446 main_v447 (broadcastInDim S200000x3 ![0, 1] bcast_S1x3_S200000x3_0_1),
    StableHlo.binary main_arg1 main_v447 main_v448 addi,
    StableHlo.nullary main_c_112 (constantI S_ 32 0#32),
    StableHlo.TRef.unary (.of main_c_112 : StableHlo.TRef sig ⟨S_, .i32⟩) main_call17.v0 id,
    StableHlo.TRef.unary main_call17.v0 main_call17.v1 (broadcastInDim S200000x3 ![] bcast_S_S200000x3),
    StableHlo.TRef.binary main_call17.v1 (.of main_v448 : StableHlo.TRef sig ⟨S200000x3, .i32⟩) main_call17.v2 maxsi,
    StableHlo.TRef.unary (.of main_c : StableHlo.TRef sig ⟨S3, .i32⟩) main_call17.v3 (broadcastInDim S1x3 ![1] bcast_S3_S1x3_1),
    StableHlo.TRef.unary main_call17.v3 main_call17.v4 (broadcastInDim S200000x3 ![0, 1] bcast_S1x3_S200000x3_0_1),
    StableHlo.TRef.binary main_call17.v4 main_call17.v2 main_call17.v5 minsi,
    StableHlo.unary main_v449 main_v450 (extractStridedSlice S200000x1 ![0, 0] · slices_S200000x3_S200000x1_0_0),
    StableHlo.reshape main_v450 main_v451 rfl shapeCasts_S200000x1_S200000,
    StableHlo.nullary main_c_113 (constantI S_ 32 128#32),
    StableHlo.unary main_c_113 main_v452 (broadcastInDim S200000 ![] bcast_S_S200000),
    StableHlo.binary main_v451 main_v452 main_v453 muli,
    StableHlo.unary main_v449 main_v454 (extractStridedSlice S200000x1 ![0, 1] · slices_S200000x3_S200000x1_0_1),
    StableHlo.reshape main_v454 main_v455 rfl shapeCasts_S200000x1_S200000,
    StableHlo.binary main_v453 main_v455 main_v456 addi,
    StableHlo.nullary main_c_114 (constantI S_ 32 128#32),
    StableHlo.unary main_c_114 main_v457 (broadcastInDim S200000 ![] bcast_S_S200000),
    StableHlo.binary main_v456 main_v457 main_v458 muli,
    StableHlo.unary main_v449 main_v459 (extractStridedSlice S200000x1 ![0, 2] · slices_S200000x3_S200000x1_0_2),
    StableHlo.reshape main_v459 main_v460 rfl shapeCasts_S200000x1_S200000,
    StableHlo.binary main_v458 main_v460 main_v461 addi,
    StableHlo.nullary main_c_115 (constantI S_ 32 0#32),
    StableHlo.unary main_c_115 main_v462 (broadcastInDim S200000 ![] bcast_S_S200000),
    StableHlo.binary main_v461 main_v462 main_v463 (cmpi .slt),
    StableHlo.nullary main_c_116 (constantI S_ 32 2097152#32),
    StableHlo.unary main_c_116 main_v464 (broadcastInDim S200000 ![] bcast_S_S200000),
    StableHlo.binary main_v461 main_v464 main_v465 addi,
    StableHlo.ternary main_v463 main_v465 main_v461 main_v466 select,
    StableHlo.unary main_v466 main_v467 (broadcastInDim S200000x1 ![0] bcast_S200000_S200000x1_0),
    StableHlo.ternary main_v442 main_v467 main_v445 main_v468 (fun x i u => Host.scatterAdd scatter_S2097152x32_S200000x1_S200000x32_1_0_0_1 x i u) ]

set_option maxRecDepth 8192 in
theorem tap17 : IsTap tapOps17 (· (Proc.devRef .tc main_v468)) (· (Proc.devRef .tc main_v442)) (· (Proc.devRef .tc main_c_17)) 17 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 17 ![1, 2, 2, 0, 0] slices_S3x3x3x32x32_S1x1x1x32x32_1_2_2_0_0 rfl rfl rfl rfl rfl]
    after_results_simp
    rw [hc]
    rfl
  cs_low V W h := h main_c_17 (by decide)

end Cert.ReferenceIdeal.Hand

end
-- ==== Proof.RefTap18.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps18 {F : FTy → Type} [FloatOps F] : List (HloOp τ sig (Elt F)) :=
  [ StableHlo.unary main_arg3 main_v469 (extractStridedSlice S1x1x1x32x32 ![2, 0, 0, 0, 0] · slices_S3x3x3x32x32_S1x1x1x32x32_2_0_0_0_0),
    StableHlo.reshape main_v469 main_v470 rfl shapeCasts_S1x1x1x32x32_S32x32,
    StableHlo.binary main_arg0 main_v470 main_v471 (fun l r => Host.dotGeneral dot_S200000x32_S32x32_S200000x32_1_0_0_1_n_n none l r),
    StableHlo.unary main_c_18 main_v472 (broadcastInDim S1x3 ![1] bcast_S3_S1x3_1),
    StableHlo.unary main_v472 main_v473 (broadcastInDim S200000x3 ![0, 1] bcast_S1x3_S200000x3_0_1),
    StableHlo.binary main_arg1 main_v473 main_v474 addi,
    StableHlo.nullary main_c_117 (constantI S_ 32 0#32),
    StableHlo.TRef.unary (.of main_c_117 : StableHlo.TRef sig ⟨S_, .i32⟩) main_call18.v0 id,
    StableHlo.TRef.unary main_call18.v0 main_call18.v1 (broadcastInDim S200000x3 ![] bcast_S_S200000x3),
    StableHlo.TRef.binary main_call18.v1 (.of main_v474 : StableHlo.TRef sig ⟨S200000x3, .i32⟩) main_call18.v2 maxsi,
    StableHlo.TRef.unary (.of main_c : StableHlo.TRef sig ⟨S3, .i32⟩) main_call18.v3 (broadcastInDim S1x3 ![1] bcast_S3_S1x3_1),
    StableHlo.TRef.unary main_call18.v3 main_call18.v4 (broadcastInDim S200000x3 ![0, 1] bcast_S1x3_S200000x3_0_1),
    StableHlo.TRef.binary main_call18.v4 main_call18.v2 main_call18.v5 minsi,
    StableHlo.unary main_v475 main_v476 (extractStridedSlice S200000x1 ![0, 0] · slices_S200000x3_S200000x1_0_0),
    StableHlo.reshape main_v476 main_v477 rfl shapeCasts_S200000x1_S200000,
    StableHlo.nullary main_c_118 (constantI S_ 32 128#32),
    StableHlo.unary main_c_118 main_v478 (broadcastInDim S200000 ![] bcast_S_S200000),
    StableHlo.binary main_v477 main_v478 main_v479 muli,
    StableHlo.unary main_v475 main_v480 (extractStridedSlice S200000x1 ![0, 1] · slices_S200000x3_S200000x1_0_1),
    StableHlo.reshape main_v480 main_v481 rfl shapeCasts_S200000x1_S200000,
    StableHlo.binary main_v479 main_v481 main_v482 addi,
    StableHlo.nullary main_c_119 (constantI S_ 32 128#32),
    StableHlo.unary main_c_119 main_v483 (broadcastInDim S200000 ![] bcast_S_S200000),
    StableHlo.binary main_v482 main_v483 main_v484 muli,
    StableHlo.unary main_v475 main_v485 (extractStridedSlice S200000x1 ![0, 2] · slices_S200000x3_S200000x1_0_2),
    StableHlo.reshape main_v485 main_v486 rfl shapeCasts_S200000x1_S200000,
    StableHlo.binary main_v484 main_v486 main_v487 addi,
    StableHlo.nullary main_c_120 (constantI S_ 32 0#32),
    StableHlo.unary main_c_120 main_v488 (broadcastInDim S200000 ![] bcast_S_S200000),
    StableHlo.binary main_v487 main_v488 main_v489 (cmpi .slt),
    StableHlo.nullary main_c_121 (constantI S_ 32 2097152#32),
    StableHlo.unary main_c_121 main_v490 (broadcastInDim S200000 ![] bcast_S_S200000),
    StableHlo.binary main_v487 main_v490 main_v491 addi,
    StableHlo.ternary main_v489 main_v491 main_v487 main_v492 select,
    StableHlo.unary main_v492 main_v493 (broadcastInDim S200000x1 ![0] bcast_S200000_S200000x1_0),
    StableHlo.ternary main_v468 main_v493 main_v471 main_v494 (fun x i u => Host.scatterAdd scatter_S2097152x32_S200000x1_S200000x32_1_0_0_1 x i u) ]

set_option maxRecDepth 8192 in
theorem tap18 : IsTap tapOps18 (· (Proc.devRef .tc main_v494)) (· (Proc.devRef .tc main_v468)) (· (Proc.devRef .tc main_c_18)) 18 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 18 ![2, 0, 0, 0, 0] slices_S3x3x3x32x32_S1x1x1x32x32_2_0_0_0_0 rfl rfl rfl rfl rfl]
    after_results_simp
    rw [hc]
    rfl
  cs_low V W h := h main_c_18 (by decide)

end Cert.ReferenceIdeal.Hand

end
-- ==== Proof.RefTap19.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps19 {F : FTy → Type} [FloatOps F] : List (HloOp τ sig (Elt F)) :=
  [ StableHlo.unary main_arg3 main_v495 (extractStridedSlice S1x1x1x32x32 ![2, 0, 1, 0, 0] · slices_S3x3x3x32x32_S1x1x1x32x32_2_0_1_0_0),
    StableHlo.reshape main_v495 main_v496 rfl shapeCasts_S1x1x1x32x32_S32x32,
    StableHlo.binary main_arg0 main_v496 main_v497 (fun l r => Host.dotGeneral dot_S200000x32_S32x32_S200000x32_1_0_0_1_n_n none l r),
    StableHlo.unary main_c_19 main_v498 (broadcastInDim S1x3 ![1] bcast_S3_S1x3_1),
    StableHlo.unary main_v498 main_v499 (broadcastInDim S200000x3 ![0, 1] bcast_S1x3_S200000x3_0_1),
    StableHlo.binary main_arg1 main_v499 main_v500 addi,
    StableHlo.nullary main_c_122 (constantI S_ 32 0#32),
    StableHlo.TRef.unary (.of main_c_122 : StableHlo.TRef sig ⟨S_, .i32⟩) main_call19.v0 id,
    StableHlo.TRef.unary main_call19.v0 main_call19.v1 (broadcastInDim S200000x3 ![] bcast_S_S200000x3),
    StableHlo.TRef.binary main_call19.v1 (.of main_v500 : StableHlo.TRef sig ⟨S200000x3, .i32⟩) main_call19.v2 maxsi,
    StableHlo.TRef.unary (.of main_c : StableHlo.TRef sig ⟨S3, .i32⟩) main_call19.v3 (broadcastInDim S1x3 ![1] bcast_S3_S1x3_1),
    StableHlo.TRef.unary main_call19.v3 main_call19.v4 (broadcastInDim S200000x3 ![0, 1] bcast_S1x3_S200000x3_0_1),
    StableHlo.TRef.binary main_call19.v4 main_call19.v2 main_call19.v5 minsi,
    StableHlo.unary main_v501 main_v502 (extractStridedSlice S200000x1 ![0, 0] · slices_S200000x3_S200000x1_0_0),
    StableHlo.reshape main_v502 main_v503 rfl shapeCasts_S200000x1_S200000,
    StableHlo.nullary main_c_123 (constantI S_ 32 128#32),
    StableHlo.unary main_c_123 main_v504 (broadcastInDim S200000 ![] bcast_S_S200000),
    StableHlo.binary main_v503 main_v504 main_v505 muli,
    StableHlo.unary main_v501 main_v506 (extractStridedSlice S200000x1 ![0, 1] · slices_S200000x3_S200000x1_0_1),
    StableHlo.reshape main_v506 main_v507 rfl shapeCasts_S200000x1_S200000,
    StableHlo.binary main_v505 main_v507 main_v508 addi,
    StableHlo.nullary main_c_124 (constantI S_ 32 128#32),
    StableHlo.unary main_c_124 main_v509 (broadcastInDim S200000 ![] bcast_S_S200000),
    StableHlo.binary main_v508 main_v509 main_v510 muli,
    StableHlo.unary main_v501 main_v511 (extractStridedSlice S200000x1 ![0, 2] · slices_S200000x3_S200000x1_0_2),
    StableHlo.reshape main_v511 main_v512 rfl shapeCasts_S200000x1_S200000,
    StableHlo.binary main_v510 main_v512 main_v513 addi,
    StableHlo.nullary main_c_125 (constantI S_ 32 0#32),
    StableHlo.unary main_c_125 main_v514 (broadcastInDim S200000 ![] bcast_S_S200000),
    StableHlo.binary main_v513 main_v514 main_v515 (cmpi .slt),
    StableHlo.nullary main_c_126 (constantI S_ 32 2097152#32),
    StableHlo.unary main_c_126 main_v516 (broadcastInDim S200000 ![] bcast_S_S200000),
    StableHlo.binary main_v513 main_v516 main_v517 addi,
    StableHlo.ternary main_v515 main_v517 main_v513 main_v518 select,
    StableHlo.unary main_v518 main_v519 (broadcastInDim S200000x1 ![0] bcast_S200000_S200000x1_0),
    StableHlo.ternary main_v494 main_v519 main_v497 main_v520 (fun x i u => Host.scatterAdd scatter_S2097152x32_S200000x1_S200000x32_1_0_0_1 x i u) ]

set_option maxRecDepth 8192 in
theorem tap19 : IsTap tapOps19 (· (Proc.devRef .tc main_v520)) (· (Proc.devRef .tc main_v494)) (· (Proc.devRef .tc main_c_19)) 19 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 19 ![2, 0, 1, 0, 0] slices_S3x3x3x32x32_S1x1x1x32x32_2_0_1_0_0 rfl rfl rfl rfl rfl]
    after_results_simp
    rw [hc]
    rfl
  cs_low V W h := h main_c_19 (by decide)

end Cert.ReferenceIdeal.Hand

end
-- ==== Proof.RefTap20.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps20 {F : FTy → Type} [FloatOps F] : List (HloOp τ sig (Elt F)) :=
  [ StableHlo.unary main_arg3 main_v521 (extractStridedSlice S1x1x1x32x32 ![2, 0, 2, 0, 0] · slices_S3x3x3x32x32_S1x1x1x32x32_2_0_2_0_0),
    StableHlo.reshape main_v521 main_v522 rfl shapeCasts_S1x1x1x32x32_S32x32,
    StableHlo.binary main_arg0 main_v522 main_v523 (fun l r => Host.dotGeneral dot_S200000x32_S32x32_S200000x32_1_0_0_1_n_n none l r),
    StableHlo.unary main_c_20 main_v524 (broadcastInDim S1x3 ![1] bcast_S3_S1x3_1),
    StableHlo.unary main_v524 main_v525 (broadcastInDim S200000x3 ![0, 1] bcast_S1x3_S200000x3_0_1),
    StableHlo.binary main_arg1 main_v525 main_v526 addi,
    StableHlo.nullary main_c_127 (constantI S_ 32 0#32),
    StableHlo.TRef.unary (.of main_c_127 : StableHlo.TRef sig ⟨S_, .i32⟩) main_call20.v0 id,
    StableHlo.TRef.unary main_call20.v0 main_call20.v1 (broadcastInDim S200000x3 ![] bcast_S_S200000x3),
    StableHlo.TRef.binary main_call20.v1 (.of main_v526 : StableHlo.TRef sig ⟨S200000x3, .i32⟩) main_call20.v2 maxsi,
    StableHlo.TRef.unary (.of main_c : StableHlo.TRef sig ⟨S3, .i32⟩) main_call20.v3 (broadcastInDim S1x3 ![1] bcast_S3_S1x3_1),
    StableHlo.TRef.unary main_call20.v3 main_call20.v4 (broadcastInDim S200000x3 ![0, 1] bcast_S1x3_S200000x3_0_1),
    StableHlo.TRef.binary main_call20.v4 main_call20.v2 main_call20.v5 minsi,
    StableHlo.unary main_v527 main_v528 (extractStridedSlice S200000x1 ![0, 0] · slices_S200000x3_S200000x1_0_0),
    StableHlo.reshape main_v528 main_v529 rfl shapeCasts_S200000x1_S200000,
    StableHlo.nullary main_c_128 (constantI S_ 32 128#32),
    StableHlo.unary main_c_128 main_v530 (broadcastInDim S200000 ![] bcast_S_S200000),
    StableHlo.binary main_v529 main_v530 main_v531 muli,
    StableHlo.unary main_v527 main_v532 (extractStridedSlice S200000x1 ![0, 1] · slices_S200000x3_S200000x1_0_1),
    StableHlo.reshape main_v532 main_v533 rfl shapeCasts_S200000x1_S200000,
    StableHlo.binary main_v531 main_v533 main_v534 addi,
    StableHlo.nullary main_c_129 (constantI S_ 32 128#32),
    StableHlo.unary main_c_129 main_v535 (broadcastInDim S200000 ![] bcast_S_S200000),
    StableHlo.binary main_v534 main_v535 main_v536 muli,
    StableHlo.unary main_v527 main_v537 (extractStridedSlice S200000x1 ![0, 2] · slices_S200000x3_S200000x1_0_2),
    StableHlo.reshape main_v537 main_v538 rfl shapeCasts_S200000x1_S200000,
    StableHlo.binary main_v536 main_v538 main_v539 addi,
    StableHlo.nullary main_c_130 (constantI S_ 32 0#32),
    StableHlo.unary main_c_130 main_v540 (broadcastInDim S200000 ![] bcast_S_S200000),
    StableHlo.binary main_v539 main_v540 main_v541 (cmpi .slt),
    StableHlo.nullary main_c_131 (constantI S_ 32 2097152#32),
    StableHlo.unary main_c_131 main_v542 (broadcastInDim S200000 ![] bcast_S_S200000),
    StableHlo.binary main_v539 main_v542 main_v543 addi,
    StableHlo.ternary main_v541 main_v543 main_v539 main_v544 select,
    StableHlo.unary main_v544 main_v545 (broadcastInDim S200000x1 ![0] bcast_S200000_S200000x1_0),
    StableHlo.ternary main_v520 main_v545 main_v523 main_v546 (fun x i u => Host.scatterAdd scatter_S2097152x32_S200000x1_S200000x32_1_0_0_1 x i u) ]

set_option maxRecDepth 8192 in
theorem tap20 : IsTap tapOps20 (· (Proc.devRef .tc main_v546)) (· (Proc.devRef .tc main_v520)) (· (Proc.devRef .tc main_c_20)) 20 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 20 ![2, 0, 2, 0, 0] slices_S3x3x3x32x32_S1x1x1x32x32_2_0_2_0_0 rfl rfl rfl rfl rfl]
    after_results_simp
    rw [hc]
    rfl
  cs_low V W h := h main_c_20 (by decide)

end Cert.ReferenceIdeal.Hand

end
-- ==== Proof.RefTap21.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps21 {F : FTy → Type} [FloatOps F] : List (HloOp τ sig (Elt F)) :=
  [ StableHlo.unary main_arg3 main_v547 (extractStridedSlice S1x1x1x32x32 ![2, 1, 0, 0, 0] · slices_S3x3x3x32x32_S1x1x1x32x32_2_1_0_0_0),
    StableHlo.reshape main_v547 main_v548 rfl shapeCasts_S1x1x1x32x32_S32x32,
    StableHlo.binary main_arg0 main_v548 main_v549 (fun l r => Host.dotGeneral dot_S200000x32_S32x32_S200000x32_1_0_0_1_n_n none l r),
    StableHlo.unary main_c_21 main_v550 (broadcastInDim S1x3 ![1] bcast_S3_S1x3_1),
    StableHlo.unary main_v550 main_v551 (broadcastInDim S200000x3 ![0, 1] bcast_S1x3_S200000x3_0_1),
    StableHlo.binary main_arg1 main_v551 main_v552 addi,
    StableHlo.nullary main_c_132 (constantI S_ 32 0#32),
    StableHlo.TRef.unary (.of main_c_132 : StableHlo.TRef sig ⟨S_, .i32⟩) main_call21.v0 id,
    StableHlo.TRef.unary main_call21.v0 main_call21.v1 (broadcastInDim S200000x3 ![] bcast_S_S200000x3),
    StableHlo.TRef.binary main_call21.v1 (.of main_v552 : StableHlo.TRef sig ⟨S200000x3, .i32⟩) main_call21.v2 maxsi,
    StableHlo.TRef.unary (.of main_c : StableHlo.TRef sig ⟨S3, .i32⟩) main_call21.v3 (broadcastInDim S1x3 ![1] bcast_S3_S1x3_1),
    StableHlo.TRef.unary main_call21.v3 main_call21.v4 (broadcastInDim S200000x3 ![0, 1] bcast_S1x3_S200000x3_0_1),
    StableHlo.TRef.binary main_call21.v4 main_call21.v2 main_call21.v5 minsi,
    StableHlo.unary main_v553 main_v554 (extractStridedSlice S200000x1 ![0, 0] · slices_S200000x3_S200000x1_0_0),
    StableHlo.reshape main_v554 main_v555 rfl shapeCasts_S200000x1_S200000,
    StableHlo.nullary main_c_133 (constantI S_ 32 128#32),
    StableHlo.unary main_c_133 main_v556 (broadcastInDim S200000 ![] bcast_S_S200000),
    StableHlo.binary main_v555 main_v556 main_v557 muli,
    StableHlo.unary main_v553 main_v558 (extractStridedSlice S200000x1 ![0, 1] · slices_S200000x3_S200000x1_0_1),
    StableHlo.reshape main_v558 main_v559 rfl shapeCasts_S200000x1_S200000,
    StableHlo.binary main_v557 main_v559 main_v560 addi,
    StableHlo.nullary main_c_134 (constantI S_ 32 128#32),
    StableHlo.unary main_c_134 main_v561 (broadcastInDim S200000 ![] bcast_S_S200000),
    StableHlo.binary main_v560 main_v561 main_v562 muli,
    StableHlo.unary main_v553 main_v563 (extractStridedSlice S200000x1 ![0, 2] · slices_S200000x3_S200000x1_0_2),
    StableHlo.reshape main_v563 main_v564 rfl shapeCasts_S200000x1_S200000,
    StableHlo.binary main_v562 main_v564 main_v565 addi,
    StableHlo.nullary main_c_135 (constantI S_ 32 0#32),
    StableHlo.unary main_c_135 main_v566 (broadcastInDim S200000 ![] bcast_S_S200000),
    StableHlo.binary main_v565 main_v566 main_v567 (cmpi .slt),
    StableHlo.nullary main_c_136 (constantI S_ 32 2097152#32),
    StableHlo.unary main_c_136 main_v568 (broadcastInDim S200000 ![] bcast_S_S200000),
    StableHlo.binary main_v565 main_v568 main_v569 addi,
    StableHlo.ternary main_v567 main_v569 main_v565 main_v570 select,
    StableHlo.unary main_v570 main_v571 (broadcastInDim S200000x1 ![0] bcast_S200000_S200000x1_0),
    StableHlo.ternary main_v546 main_v571 main_v549 main_v572 (fun x i u => Host.scatterAdd scatter_S2097152x32_S200000x1_S200000x32_1_0_0_1 x i u) ]

set_option maxRecDepth 8192 in
theorem tap21 : IsTap tapOps21 (· (Proc.devRef .tc main_v572)) (· (Proc.devRef .tc main_v546)) (· (Proc.devRef .tc main_c_21)) 21 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 21 ![2, 1, 0, 0, 0] slices_S3x3x3x32x32_S1x1x1x32x32_2_1_0_0_0 rfl rfl rfl rfl rfl]
    after_results_simp
    rw [hc]
    rfl
  cs_low V W h := h main_c_21 (by decide)

end Cert.ReferenceIdeal.Hand

end
-- ==== Proof.RefTap22.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps22 {F : FTy → Type} [FloatOps F] : List (HloOp τ sig (Elt F)) :=
  [ StableHlo.unary main_arg3 main_v573 (extractStridedSlice S1x1x1x32x32 ![2, 1, 1, 0, 0] · slices_S3x3x3x32x32_S1x1x1x32x32_2_1_1_0_0),
    StableHlo.reshape main_v573 main_v574 rfl shapeCasts_S1x1x1x32x32_S32x32,
    StableHlo.binary main_arg0 main_v574 main_v575 (fun l r => Host.dotGeneral dot_S200000x32_S32x32_S200000x32_1_0_0_1_n_n none l r),
    StableHlo.unary main_c_22 main_v576 (broadcastInDim S1x3 ![1] bcast_S3_S1x3_1),
    StableHlo.unary main_v576 main_v577 (broadcastInDim S200000x3 ![0, 1] bcast_S1x3_S200000x3_0_1),
    StableHlo.binary main_arg1 main_v577 main_v578 addi,
    StableHlo.nullary main_c_137 (constantI S_ 32 0#32),
    StableHlo.TRef.unary (.of main_c_137 : StableHlo.TRef sig ⟨S_, .i32⟩) main_call22.v0 id,
    StableHlo.TRef.unary main_call22.v0 main_call22.v1 (broadcastInDim S200000x3 ![] bcast_S_S200000x3),
    StableHlo.TRef.binary main_call22.v1 (.of main_v578 : StableHlo.TRef sig ⟨S200000x3, .i32⟩) main_call22.v2 maxsi,
    StableHlo.TRef.unary (.of main_c : StableHlo.TRef sig ⟨S3, .i32⟩) main_call22.v3 (broadcastInDim S1x3 ![1] bcast_S3_S1x3_1),
    StableHlo.TRef.unary main_call22.v3 main_call22.v4 (broadcastInDim S200000x3 ![0, 1] bcast_S1x3_S200000x3_0_1),
    StableHlo.TRef.binary main_call22.v4 main_call22.v2 main_call22.v5 minsi,
    StableHlo.unary main_v579 main_v580 (extractStridedSlice S200000x1 ![0, 0] · slices_S200000x3_S200000x1_0_0),
    StableHlo.reshape main_v580 main_v581 rfl shapeCasts_S200000x1_S200000,
    StableHlo.nullary main_c_138 (constantI S_ 32 128#32),
    StableHlo.unary main_c_138 main_v582 (broadcastInDim S200000 ![] bcast_S_S200000),
    StableHlo.binary main_v581 main_v582 main_v583 muli,
    StableHlo.unary main_v579 main_v584 (extractStridedSlice S200000x1 ![0, 1] · slices_S200000x3_S200000x1_0_1),
    StableHlo.reshape main_v584 main_v585 rfl shapeCasts_S200000x1_S200000,
    StableHlo.binary main_v583 main_v585 main_v586 addi,
    StableHlo.nullary main_c_139 (constantI S_ 32 128#32),
    StableHlo.unary main_c_139 main_v587 (broadcastInDim S200000 ![] bcast_S_S200000),
    StableHlo.binary main_v586 main_v587 main_v588 muli,
    StableHlo.unary main_v579 main_v589 (extractStridedSlice S200000x1 ![0, 2] · slices_S200000x3_S200000x1_0_2),
    StableHlo.reshape main_v589 main_v590 rfl shapeCasts_S200000x1_S200000,
    StableHlo.binary main_v588 main_v590 main_v591 addi,
    StableHlo.nullary main_c_140 (constantI S_ 32 0#32),
    StableHlo.unary main_c_140 main_v592 (broadcastInDim S200000 ![] bcast_S_S200000),
    StableHlo.binary main_v591 main_v592 main_v593 (cmpi .slt),
    StableHlo.nullary main_c_141 (constantI S_ 32 2097152#32),
    StableHlo.unary main_c_141 main_v594 (broadcastInDim S200000 ![] bcast_S_S200000),
    StableHlo.binary main_v591 main_v594 main_v595 addi,
    StableHlo.ternary main_v593 main_v595 main_v591 main_v596 select,
    StableHlo.unary main_v596 main_v597 (broadcastInDim S200000x1 ![0] bcast_S200000_S200000x1_0),
    StableHlo.ternary main_v572 main_v597 main_v575 main_v598 (fun x i u => Host.scatterAdd scatter_S2097152x32_S200000x1_S200000x32_1_0_0_1 x i u) ]

set_option maxRecDepth 8192 in
theorem tap22 : IsTap tapOps22 (· (Proc.devRef .tc main_v598)) (· (Proc.devRef .tc main_v572)) (· (Proc.devRef .tc main_c_22)) 22 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 22 ![2, 1, 1, 0, 0] slices_S3x3x3x32x32_S1x1x1x32x32_2_1_1_0_0 rfl rfl rfl rfl rfl]
    after_results_simp
    rw [hc]
    rfl
  cs_low V W h := h main_c_22 (by decide)

end Cert.ReferenceIdeal.Hand

end
-- ==== Proof.RefTap23.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps23 {F : FTy → Type} [FloatOps F] : List (HloOp τ sig (Elt F)) :=
  [ StableHlo.unary main_arg3 main_v599 (extractStridedSlice S1x1x1x32x32 ![2, 1, 2, 0, 0] · slices_S3x3x3x32x32_S1x1x1x32x32_2_1_2_0_0),
    StableHlo.reshape main_v599 main_v600 rfl shapeCasts_S1x1x1x32x32_S32x32,
    StableHlo.binary main_arg0 main_v600 main_v601 (fun l r => Host.dotGeneral dot_S200000x32_S32x32_S200000x32_1_0_0_1_n_n none l r),
    StableHlo.unary main_c_23 main_v602 (broadcastInDim S1x3 ![1] bcast_S3_S1x3_1),
    StableHlo.unary main_v602 main_v603 (broadcastInDim S200000x3 ![0, 1] bcast_S1x3_S200000x3_0_1),
    StableHlo.binary main_arg1 main_v603 main_v604 addi,
    StableHlo.nullary main_c_142 (constantI S_ 32 0#32),
    StableHlo.TRef.unary (.of main_c_142 : StableHlo.TRef sig ⟨S_, .i32⟩) main_call23.v0 id,
    StableHlo.TRef.unary main_call23.v0 main_call23.v1 (broadcastInDim S200000x3 ![] bcast_S_S200000x3),
    StableHlo.TRef.binary main_call23.v1 (.of main_v604 : StableHlo.TRef sig ⟨S200000x3, .i32⟩) main_call23.v2 maxsi,
    StableHlo.TRef.unary (.of main_c : StableHlo.TRef sig ⟨S3, .i32⟩) main_call23.v3 (broadcastInDim S1x3 ![1] bcast_S3_S1x3_1),
    StableHlo.TRef.unary main_call23.v3 main_call23.v4 (broadcastInDim S200000x3 ![0, 1] bcast_S1x3_S200000x3_0_1),
    StableHlo.TRef.binary main_call23.v4 main_call23.v2 main_call23.v5 minsi,
    StableHlo.unary main_v605 main_v606 (extractStridedSlice S200000x1 ![0, 0] · slices_S200000x3_S200000x1_0_0),
    StableHlo.reshape main_v606 main_v607 rfl shapeCasts_S200000x1_S200000,
    StableHlo.nullary main_c_143 (constantI S_ 32 128#32),
    StableHlo.unary main_c_143 main_v608 (broadcastInDim S200000 ![] bcast_S_S200000),
    StableHlo.binary main_v607 main_v608 main_v609 muli,
    StableHlo.unary main_v605 main_v610 (extractStridedSlice S200000x1 ![0, 1] · slices_S200000x3_S200000x1_0_1),
    StableHlo.reshape main_v610 main_v611 rfl shapeCasts_S200000x1_S200000,
    StableHlo.binary main_v609 main_v611 main_v612 addi,
    StableHlo.nullary main_c_144 (constantI S_ 32 128#32),
    StableHlo.unary main_c_144 main_v613 (broadcastInDim S200000 ![] bcast_S_S200000),
    StableHlo.binary main_v612 main_v613 main_v614 muli,
    StableHlo.unary main_v605 main_v615 (extractStridedSlice S200000x1 ![0, 2] · slices_S200000x3_S200000x1_0_2),
    StableHlo.reshape main_v615 main_v616 rfl shapeCasts_S200000x1_S200000,
    StableHlo.binary main_v614 main_v616 main_v617 addi,
    StableHlo.nullary main_c_145 (constantI S_ 32 0#32),
    StableHlo.unary main_c_145 main_v618 (broadcastInDim S200000 ![] bcast_S_S200000),
    StableHlo.binary main_v617 main_v618 main_v619 (cmpi .slt),
    StableHlo.nullary main_c_146 (constantI S_ 32 2097152#32),
    StableHlo.unary main_c_146 main_v620 (broadcastInDim S200000 ![] bcast_S_S200000),
    StableHlo.binary main_v617 main_v620 main_v621 addi,
    StableHlo.ternary main_v619 main_v621 main_v617 main_v622 select,
    StableHlo.unary main_v622 main_v623 (broadcastInDim S200000x1 ![0] bcast_S200000_S200000x1_0),
    StableHlo.ternary main_v598 main_v623 main_v601 main_v624 (fun x i u => Host.scatterAdd scatter_S2097152x32_S200000x1_S200000x32_1_0_0_1 x i u) ]

set_option maxRecDepth 8192 in
theorem tap23 : IsTap tapOps23 (· (Proc.devRef .tc main_v624)) (· (Proc.devRef .tc main_v598)) (· (Proc.devRef .tc main_c_23)) 23 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 23 ![2, 1, 2, 0, 0] slices_S3x3x3x32x32_S1x1x1x32x32_2_1_2_0_0 rfl rfl rfl rfl rfl]
    after_results_simp
    rw [hc]
    rfl
  cs_low V W h := h main_c_23 (by decide)

end Cert.ReferenceIdeal.Hand

end
-- ==== Proof.RefTap24.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps24 {F : FTy → Type} [FloatOps F] : List (HloOp τ sig (Elt F)) :=
  [ StableHlo.unary main_arg3 main_v625 (extractStridedSlice S1x1x1x32x32 ![2, 2, 0, 0, 0] · slices_S3x3x3x32x32_S1x1x1x32x32_2_2_0_0_0),
    StableHlo.reshape main_v625 main_v626 rfl shapeCasts_S1x1x1x32x32_S32x32,
    StableHlo.binary main_arg0 main_v626 main_v627 (fun l r => Host.dotGeneral dot_S200000x32_S32x32_S200000x32_1_0_0_1_n_n none l r),
    StableHlo.unary main_c_24 main_v628 (broadcastInDim S1x3 ![1] bcast_S3_S1x3_1),
    StableHlo.unary main_v628 main_v629 (broadcastInDim S200000x3 ![0, 1] bcast_S1x3_S200000x3_0_1),
    StableHlo.binary main_arg1 main_v629 main_v630 addi,
    StableHlo.nullary main_c_147 (constantI S_ 32 0#32),
    StableHlo.TRef.unary (.of main_c_147 : StableHlo.TRef sig ⟨S_, .i32⟩) main_call24.v0 id,
    StableHlo.TRef.unary main_call24.v0 main_call24.v1 (broadcastInDim S200000x3 ![] bcast_S_S200000x3),
    StableHlo.TRef.binary main_call24.v1 (.of main_v630 : StableHlo.TRef sig ⟨S200000x3, .i32⟩) main_call24.v2 maxsi,
    StableHlo.TRef.unary (.of main_c : StableHlo.TRef sig ⟨S3, .i32⟩) main_call24.v3 (broadcastInDim S1x3 ![1] bcast_S3_S1x3_1),
    StableHlo.TRef.unary main_call24.v3 main_call24.v4 (broadcastInDim S200000x3 ![0, 1] bcast_S1x3_S200000x3_0_1),
    StableHlo.TRef.binary main_call24.v4 main_call24.v2 main_call24.v5 minsi,
    StableHlo.unary main_v631 main_v632 (extractStridedSlice S200000x1 ![0, 0] · slices_S200000x3_S200000x1_0_0),
    StableHlo.reshape main_v632 main_v633 rfl shapeCasts_S200000x1_S200000,
    StableHlo.nullary main_c_148 (constantI S_ 32 128#32),
    StableHlo.unary main_c_148 main_v634 (broadcastInDim S200000 ![] bcast_S_S200000),
    StableHlo.binary main_v633 main_v634 main_v635 muli,
    StableHlo.unary main_v631 main_v636 (extractStridedSlice S200000x1 ![0, 1] · slices_S200000x3_S200000x1_0_1),
    StableHlo.reshape main_v636 main_v637 rfl shapeCasts_S200000x1_S200000,
    StableHlo.binary main_v635 main_v637 main_v638 addi,
    StableHlo.nullary main_c_149 (constantI S_ 32 128#32),
    StableHlo.unary main_c_149 main_v639 (broadcastInDim S200000 ![] bcast_S_S200000),
    StableHlo.binary main_v638 main_v639 main_v640 muli,
    StableHlo.unary main_v631 main_v641 (extractStridedSlice S200000x1 ![0, 2] · slices_S200000x3_S200000x1_0_2),
    StableHlo.reshape main_v641 main_v642 rfl shapeCasts_S200000x1_S200000,
    StableHlo.binary main_v640 main_v642 main_v643 addi,
    StableHlo.nullary main_c_150 (constantI S_ 32 0#32),
    StableHlo.unary main_c_150 main_v644 (broadcastInDim S200000 ![] bcast_S_S200000),
    StableHlo.binary main_v643 main_v644 main_v645 (cmpi .slt),
    StableHlo.nullary main_c_151 (constantI S_ 32 2097152#32),
    StableHlo.unary main_c_151 main_v646 (broadcastInDim S200000 ![] bcast_S_S200000),
    StableHlo.binary main_v643 main_v646 main_v647 addi,
    StableHlo.ternary main_v645 main_v647 main_v643 main_v648 select,
    StableHlo.unary main_v648 main_v649 (broadcastInDim S200000x1 ![0] bcast_S200000_S200000x1_0),
    StableHlo.ternary main_v624 main_v649 main_v627 main_v650 (fun x i u => Host.scatterAdd scatter_S2097152x32_S200000x1_S200000x32_1_0_0_1 x i u) ]

set_option maxRecDepth 8192 in
theorem tap24 : IsTap tapOps24 (· (Proc.devRef .tc main_v650)) (· (Proc.devRef .tc main_v624)) (· (Proc.devRef .tc main_c_24)) 24 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 24 ![2, 2, 0, 0, 0] slices_S3x3x3x32x32_S1x1x1x32x32_2_2_0_0_0 rfl rfl rfl rfl rfl]
    after_results_simp
    rw [hc]
    rfl
  cs_low V W h := h main_c_24 (by decide)

end Cert.ReferenceIdeal.Hand

end
-- ==== Proof.RefTap25.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps25 {F : FTy → Type} [FloatOps F] : List (HloOp τ sig (Elt F)) :=
  [ StableHlo.unary main_arg3 main_v651 (extractStridedSlice S1x1x1x32x32 ![2, 2, 1, 0, 0] · slices_S3x3x3x32x32_S1x1x1x32x32_2_2_1_0_0),
    StableHlo.reshape main_v651 main_v652 rfl shapeCasts_S1x1x1x32x32_S32x32,
    StableHlo.binary main_arg0 main_v652 main_v653 (fun l r => Host.dotGeneral dot_S200000x32_S32x32_S200000x32_1_0_0_1_n_n none l r),
    StableHlo.unary main_c_25 main_v654 (broadcastInDim S1x3 ![1] bcast_S3_S1x3_1),
    StableHlo.unary main_v654 main_v655 (broadcastInDim S200000x3 ![0, 1] bcast_S1x3_S200000x3_0_1),
    StableHlo.binary main_arg1 main_v655 main_v656 addi,
    StableHlo.nullary main_c_152 (constantI S_ 32 0#32),
    StableHlo.TRef.unary (.of main_c_152 : StableHlo.TRef sig ⟨S_, .i32⟩) main_call25.v0 id,
    StableHlo.TRef.unary main_call25.v0 main_call25.v1 (broadcastInDim S200000x3 ![] bcast_S_S200000x3),
    StableHlo.TRef.binary main_call25.v1 (.of main_v656 : StableHlo.TRef sig ⟨S200000x3, .i32⟩) main_call25.v2 maxsi,
    StableHlo.TRef.unary (.of main_c : StableHlo.TRef sig ⟨S3, .i32⟩) main_call25.v3 (broadcastInDim S1x3 ![1] bcast_S3_S1x3_1),
    StableHlo.TRef.unary main_call25.v3 main_call25.v4 (broadcastInDim S200000x3 ![0, 1] bcast_S1x3_S200000x3_0_1),
    StableHlo.TRef.binary main_call25.v4 main_call25.v2 main_call25.v5 minsi,
    StableHlo.unary main_v657 main_v658 (extractStridedSlice S200000x1 ![0, 0] · slices_S200000x3_S200000x1_0_0),
    StableHlo.reshape main_v658 main_v659 rfl shapeCasts_S200000x1_S200000,
    StableHlo.nullary main_c_153 (constantI S_ 32 128#32),
    StableHlo.unary main_c_153 main_v660 (broadcastInDim S200000 ![] bcast_S_S200000),
    StableHlo.binary main_v659 main_v660 main_v661 muli,
    StableHlo.unary main_v657 main_v662 (extractStridedSlice S200000x1 ![0, 1] · slices_S200000x3_S200000x1_0_1),
    StableHlo.reshape main_v662 main_v663 rfl shapeCasts_S200000x1_S200000,
    StableHlo.binary main_v661 main_v663 main_v664 addi,
    StableHlo.nullary main_c_154 (constantI S_ 32 128#32),
    StableHlo.unary main_c_154 main_v665 (broadcastInDim S200000 ![] bcast_S_S200000),
    StableHlo.binary main_v664 main_v665 main_v666 muli,
    StableHlo.unary main_v657 main_v667 (extractStridedSlice S200000x1 ![0, 2] · slices_S200000x3_S200000x1_0_2),
    StableHlo.reshape main_v667 main_v668 rfl shapeCasts_S200000x1_S200000,
    StableHlo.binary main_v666 main_v668 main_v669 addi,
    StableHlo.nullary main_c_155 (constantI S_ 32 0#32),
    StableHlo.unary main_c_155 main_v670 (broadcastInDim S200000 ![] bcast_S_S200000),
    StableHlo.binary main_v669 main_v670 main_v671 (cmpi .slt),
    StableHlo.nullary main_c_156 (constantI S_ 32 2097152#32),
    StableHlo.unary main_c_156 main_v672 (broadcastInDim S200000 ![] bcast_S_S200000),
    StableHlo.binary main_v669 main_v672 main_v673 addi,
    StableHlo.ternary main_v671 main_v673 main_v669 main_v674 select,
    StableHlo.unary main_v674 main_v675 (broadcastInDim S200000x1 ![0] bcast_S200000_S200000x1_0),
    StableHlo.ternary main_v650 main_v675 main_v653 main_v676 (fun x i u => Host.scatterAdd scatter_S2097152x32_S200000x1_S200000x32_1_0_0_1 x i u) ]

set_option maxRecDepth 8192 in
theorem tap25 : IsTap tapOps25 (· (Proc.devRef .tc main_v676)) (· (Proc.devRef .tc main_v650)) (· (Proc.devRef .tc main_c_25)) 25 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 25 ![2, 2, 1, 0, 0] slices_S3x3x3x32x32_S1x1x1x32x32_2_2_1_0_0 rfl rfl rfl rfl rfl]
    after_results_simp
    rw [hc]
    rfl
  cs_low V W h := h main_c_25 (by decide)

end Cert.ReferenceIdeal.Hand

end
-- ==== Proof.RefTap26.lean ====
import proofs.«406342_j15479062134906_3_alg».proof.Proof.RefTapLib

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

abbrev tapOps26 {F : FTy → Type} [FloatOps F] : List (HloOp τ sig (Elt F)) :=
  [ StableHlo.unary main_arg3 main_v677 (extractStridedSlice S1x1x1x32x32 ![2, 2, 2, 0, 0] · slices_S3x3x3x32x32_S1x1x1x32x32_2_2_2_0_0),
    StableHlo.reshape main_v677 main_v678 rfl shapeCasts_S1x1x1x32x32_S32x32,
    StableHlo.binary main_arg0 main_v678 main_v679 (fun l r => Host.dotGeneral dot_S200000x32_S32x32_S200000x32_1_0_0_1_n_n none l r),
    StableHlo.unary main_c_26 main_v680 (broadcastInDim S1x3 ![1] bcast_S3_S1x3_1),
    StableHlo.unary main_v680 main_v681 (broadcastInDim S200000x3 ![0, 1] bcast_S1x3_S200000x3_0_1),
    StableHlo.binary main_arg1 main_v681 main_v682 addi,
    StableHlo.nullary main_c_157 (constantI S_ 32 0#32),
    StableHlo.TRef.unary (.of main_c_157 : StableHlo.TRef sig ⟨S_, .i32⟩) main_call26.v0 id,
    StableHlo.TRef.unary main_call26.v0 main_call26.v1 (broadcastInDim S200000x3 ![] bcast_S_S200000x3),
    StableHlo.TRef.binary main_call26.v1 (.of main_v682 : StableHlo.TRef sig ⟨S200000x3, .i32⟩) main_call26.v2 maxsi,
    StableHlo.TRef.unary (.of main_c : StableHlo.TRef sig ⟨S3, .i32⟩) main_call26.v3 (broadcastInDim S1x3 ![1] bcast_S3_S1x3_1),
    StableHlo.TRef.unary main_call26.v3 main_call26.v4 (broadcastInDim S200000x3 ![0, 1] bcast_S1x3_S200000x3_0_1),
    StableHlo.TRef.binary main_call26.v4 main_call26.v2 main_call26.v5 minsi,
    StableHlo.unary main_v683 main_v684 (extractStridedSlice S200000x1 ![0, 0] · slices_S200000x3_S200000x1_0_0),
    StableHlo.reshape main_v684 main_v685 rfl shapeCasts_S200000x1_S200000,
    StableHlo.nullary main_c_158 (constantI S_ 32 128#32),
    StableHlo.unary main_c_158 main_v686 (broadcastInDim S200000 ![] bcast_S_S200000),
    StableHlo.binary main_v685 main_v686 main_v687 muli,
    StableHlo.unary main_v683 main_v688 (extractStridedSlice S200000x1 ![0, 1] · slices_S200000x3_S200000x1_0_1),
    StableHlo.reshape main_v688 main_v689 rfl shapeCasts_S200000x1_S200000,
    StableHlo.binary main_v687 main_v689 main_v690 addi,
    StableHlo.nullary main_c_159 (constantI S_ 32 128#32),
    StableHlo.unary main_c_159 main_v691 (broadcastInDim S200000 ![] bcast_S_S200000),
    StableHlo.binary main_v690 main_v691 main_v692 muli,
    StableHlo.unary main_v683 main_v693 (extractStridedSlice S200000x1 ![0, 2] · slices_S200000x3_S200000x1_0_2),
    StableHlo.reshape main_v693 main_v694 rfl shapeCasts_S200000x1_S200000,
    StableHlo.binary main_v692 main_v694 main_v695 addi,
    StableHlo.nullary main_c_160 (constantI S_ 32 0#32),
    StableHlo.unary main_c_160 main_v696 (broadcastInDim S200000 ![] bcast_S_S200000),
    StableHlo.binary main_v695 main_v696 main_v697 (cmpi .slt),
    StableHlo.nullary main_c_161 (constantI S_ 32 2097152#32),
    StableHlo.unary main_c_161 main_v698 (broadcastInDim S200000 ![] bcast_S_S200000),
    StableHlo.binary main_v695 main_v698 main_v699 addi,
    StableHlo.ternary main_v697 main_v699 main_v695 main_v700 select,
    StableHlo.unary main_v700 main_v701 (broadcastInDim S200000x1 ![0] bcast_S200000_S200000x1_0),
    StableHlo.ternary main_v676 main_v701 main_v679 main_v702 (fun x i u => Host.scatterAdd scatter_S2097152x32_S200000x1_S200000x32_1_0_0_1 x i u) ]

set_option maxRecDepth 8192 in
theorem tap26 : IsTap tapOps26 (· (Proc.devRef .tc main_v702)) (· (Proc.devRef .tc main_v676)) (· (Proc.devRef .tc main_c_26)) 26 where
  sub := by
    simp only [List.Forall, nullary_bufs_sub, unary_bufs_sub, binary_bufs_sub, ternary_bufs_sub, reshape_bufs_sub, and_self]
  fresh := by
    simp only [List.Forall]
    repeat' apply And.intro
    all_goals rfl
  low W r h := after_of_forall_not_mem (b := Proc.devRef .tc r) _ _ (List.forall_iff_forall_mem.mp (by
    simp only [List.Forall, nullary_writes, unary_writes, binary_writes, ternary_writes, reshape_writes, Finset.mem_singleton]
    repeat' apply And.intro
    all_goals exact devRef_ne_of_ne (ne_of_lt h (by decide))))
  val W hc := by
    beta_reduce
    rw [← updTerm_tap 26 ![2, 2, 2, 0, 0] slices_S3x3x3x32x32_S1x1x1x32x32_2_2_2_0_0 rfl rfl rfl rfl rfl]
    after_results_simp
    rw [hc]
    rfl
  cs_low V W h := h main_c_26 (by decide)

end Cert.ReferenceIdeal.Hand

end
-- ==== Proof.RefOps.lean ====
import proofs.«406342_j15479062134906_3_alg».proof.Proof.RefPro
import proofs.«406342_j15479062134906_3_alg».proof.Proof.RefTap00
import proofs.«406342_j15479062134906_3_alg».proof.Proof.RefTap01
import proofs.«406342_j15479062134906_3_alg».proof.Proof.RefTap02
import proofs.«406342_j15479062134906_3_alg».proof.Proof.RefTap03
import proofs.«406342_j15479062134906_3_alg».proof.Proof.RefTap04
import proofs.«406342_j15479062134906_3_alg».proof.Proof.RefTap05
import proofs.«406342_j15479062134906_3_alg».proof.Proof.RefTap06
import proofs.«406342_j15479062134906_3_alg».proof.Proof.RefTap07
import proofs.«406342_j15479062134906_3_alg».proof.Proof.RefTap08
import proofs.«406342_j15479062134906_3_alg».proof.Proof.RefTap09
import proofs.«406342_j15479062134906_3_alg».proof.Proof.RefTap10
import proofs.«406342_j15479062134906_3_alg».proof.Proof.RefTap11
import proofs.«406342_j15479062134906_3_alg».proof.Proof.RefTap12
import proofs.«406342_j15479062134906_3_alg».proof.Proof.RefTap13
import proofs.«406342_j15479062134906_3_alg».proof.Proof.RefTap14
import proofs.«406342_j15479062134906_3_alg».proof.Proof.RefTap15
import proofs.«406342_j15479062134906_3_alg».proof.Proof.RefTap16
import proofs.«406342_j15479062134906_3_alg».proof.Proof.RefTap17
import proofs.«406342_j15479062134906_3_alg».proof.Proof.RefTap18
import proofs.«406342_j15479062134906_3_alg».proof.Proof.RefTap19
import proofs.«406342_j15479062134906_3_alg».proof.Proof.RefTap20
import proofs.«406342_j15479062134906_3_alg».proof.Proof.RefTap21
import proofs.«406342_j15479062134906_3_alg».proof.Proof.RefTap22
import proofs.«406342_j15479062134906_3_alg».proof.Proof.RefTap23
import proofs.«406342_j15479062134906_3_alg».proof.Proof.RefTap24
import proofs.«406342_j15479062134906_3_alg».proof.Proof.RefTap25
import proofs.«406342_j15479062134906_3_alg».proof.Proof.RefTap26
import Idealize.ShloMosaic.Lib.StableHlo.Run

set_option Elab.async false

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]
variable {F : FTy → Type} [FloatOps F]

/-- The whole program: the prologue, the 27 taps, the epilogue. -/
abbrev ops : List (HloOp τ sig (Elt F)) :=
  proOps ++ (tapOps00 ++ (tapOps01 ++ (tapOps02 ++ (tapOps03 ++ (tapOps04 ++ (tapOps05 ++ (tapOps06 ++ (tapOps07 ++ (tapOps08 ++ (tapOps09 ++ (tapOps10 ++ (tapOps11 ++ (tapOps12 ++ (tapOps13 ++ (tapOps14 ++ (tapOps15 ++ (tapOps16 ++ (tapOps17 ++ (tapOps18 ++ (tapOps19 ++ (tapOps20 ++ (tapOps21 ++ (tapOps22 ++ (tapOps23 ++ (tapOps24 ++ (tapOps25 ++ (tapOps26 ++ epiOps)))))))))))))))))))))))))))

/-- Each printed window `main_partK` is a stretch of that line (the windows cut it at arbitrary places). -/
def opsP0 : List (HloOp τ sig (Elt F)) := proOps ++ (tapOps00.take 35)

set_option maxRecDepth 8192 in
set_option maxHeartbeats 4000000 in
theorem main_part0_eq (c : Dev nD) : main_part0 (F := F) c = seq opsP0 := rfl

def opsP1 : List (HloOp τ sig (Elt F)) := tapOps00.drop 35 ++ (tapOps01 ++ (tapOps02.take 33))

set_option maxRecDepth 8192 in
set_option maxHeartbeats 4000000 in
theorem main_part1_eq (c : Dev nD) : main_part1 (F := F) c = seq opsP1 := rfl

def opsP2 : List (HloOp τ sig (Elt F)) := tapOps02.drop 33 ++ (tapOps03 ++ (tapOps04.take 31))

set_option maxRecDepth 8192 in
set_option maxHeartbeats 4000000 in
theorem main_part2_eq (c : Dev nD) : main_part2 (F := F) c = seq opsP2 := rfl

def opsP3 : List (HloOp τ sig (Elt F)) := tapOps04.drop 31 ++ (tapOps05 ++ (tapOps06.take 29))

set_option maxRecDepth 8192 in
set_option maxHeartbeats 4000000 in
theorem main_part3_eq (c : Dev nD) : main_part3 (F := F) c = seq opsP3 := rfl

def opsP4 : List (HloOp τ sig (Elt F)) := tapOps06.drop 29 ++ (tapOps07 ++ (tapOps08.take 27))

set_option maxRecDepth 8192 in
set_option maxHeartbeats 4000000 in
theorem main_part4_eq (c : Dev nD) : main_part4 (F := F) c = seq opsP4 := rfl

def opsP5 : List (HloOp τ sig (Elt F)) := tapOps08.drop 27 ++ (tapOps09 ++ (tapOps10.take 25))

set_option maxRecDepth 8192 in
set_option maxHeartbeats 4000000 in
theorem main_part5_eq (c : Dev nD) : main_part5 (F := F) c = seq opsP5 := rfl

def opsP6 : List (HloOp τ sig (Elt F)) := tapOps10.drop 25 ++ (tapOps11 ++ (tapOps12.take 23))

set_option maxRecDepth 8192 in
set_option maxHeartbeats 4000000 in
theorem main_part6_eq (c : Dev nD) : main_part6 (F := F) c = seq opsP6 := rfl

def opsP7 : List (HloOp τ sig (Elt F)) := tapOps12.drop 23 ++ (tapOps13 ++ (tapOps14.take 21))

set_option maxRecDepth 8192 in
set_option maxHeartbeats 4000000 in
theorem main_part7_eq (c : Dev nD) : main_part7 (F := F) c = seq opsP7 := rfl

def opsP8 : List (HloOp τ sig (Elt F)) := tapOps14.drop 21 ++ (tapOps15 ++ (tapOps16.take 19))

set_option maxRecDepth 8192 in
set_option maxHeartbeats 4000000 in
theorem main_part8_eq (c : Dev nD) : main_part8 (F := F) c = seq opsP8 := rfl

def opsP9 : List (HloOp τ sig (Elt F)) := tapOps16.drop 19 ++ (tapOps17 ++ (tapOps18.take 17))

set_option maxRecDepth 8192 in
set_option maxHeartbeats 4000000 in
theorem main_part9_eq (c : Dev nD) : main_part9 (F := F) c = seq opsP9 := rfl

def opsP10 : List (HloOp τ sig (Elt F)) := tapOps18.drop 17 ++ (tapOps19 ++ (tapOps20.take 15))

set_option maxRecDepth 8192 in
set_option maxHeartbeats 4000000 in
theorem main_part10_eq (c : Dev nD) : main_part10 (F := F) c = seq opsP10 := rfl

def opsP11 : List (HloOp τ sig (Elt F)) := tapOps20.drop 15 ++ (tapOps21 ++ (tapOps22.take 13))

set_option maxRecDepth 8192 in
set_option maxHeartbeats 4000000 in
theorem main_part11_eq (c : Dev nD) : main_part11 (F := F) c = seq opsP11 := rfl

def opsP12 : List (HloOp τ sig (Elt F)) := tapOps22.drop 13 ++ (tapOps23 ++ (tapOps24.take 6))

set_option maxRecDepth 8192 in
set_option maxHeartbeats 4000000 in
theorem main_part12_eq (c : Dev nD) : main_part12 (F := F) c = seq opsP12 := rfl

def opsP13 : List (HloOp τ sig (Elt F)) := tapOps24.drop 6 ++ (tapOps25 ++ (tapOps26.take 4))

set_option maxRecDepth 8192 in
set_option maxHeartbeats 4000000 in
theorem main_part13_eq (c : Dev nD) : main_part13 (F := F) c = seq opsP13 := rfl

def opsP14 : List (HloOp τ sig (Elt F)) := tapOps26.drop 4 ++ (epiOps)

set_option maxRecDepth 8192 in
set_option maxHeartbeats 4000000 in
theorem main_part14_eq (c : Dev nD) : main_part14 (F := F) c = seq opsP14 := rfl

theorem take_drop_append {α : Type _} (n : Nat) (l r : List α) : l.take n ++ (l.drop n ++ r) = l ++ r := by
  rw [← List.append_assoc, List.take_append_drop]

/-- The windows cut the line at arbitrary places; glued back, they are the line. -/
theorem main_eq (c : Dev nD) : main (F := F) c = seq ops := by
  have e : (ops : List (HloOp τ sig (Elt F))) = opsP0 ++ (opsP1 ++ (opsP2 ++ (opsP3 ++ (opsP4 ++ (opsP5 ++ (opsP6 ++ (opsP7 ++ (opsP8 ++ (opsP9 ++ (opsP10 ++ (opsP11 ++ (opsP12 ++ (opsP13 ++ (opsP14)))))))))))))) := by
    simp only [ops, opsP0, opsP1, opsP2, opsP3, opsP4, opsP5, opsP6, opsP7, opsP8, opsP9, opsP10, opsP11, opsP12, opsP13, opsP14, List.append_assoc, take_drop_append]
  rw [e]
  simp only [seq_append, ← main_part0_eq c, ← main_part1_eq c, ← main_part2_eq c, ← main_part3_eq c, ← main_part4_eq c, ← main_part5_eq c, ← main_part6_eq c, ← main_part7_eq c, ← main_part8_eq c, ← main_part9_eq c, ← main_part10_eq c, ← main_part11_eq c, ← main_part12_eq c, ← main_part13_eq c, ← main_part14_eq c]
  rfl

end Cert.ReferenceIdeal.Hand

end
-- ==== Proof.RefRun.lean ====
import proofs.«406342_j15479062134906_3_alg».proof.Proof.RefOps
import Idealize.ShloMosaic.Lib.StableHlo.Run
import Idealize.ShloMosaic.Lib.Pipeline.Frame
import Mathlib.Data.List.Basic

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable [Cert.ReferenceIdeal.Facts]

theorem scopedRefs_eq : (Finset.univ.filter fun b : Ref sig .tc => b.isScoped) = ∅ := by decide

theorem scopedSems_eq : (Finset.univ.filter fun sm : SemLoc sig => sm.isScoped .tc) = ∅ := by decide

theorem ops_line : Line 5 (ops (F := Ideal)) :=
  pro_line.app (Line.mono (tap00.toLine.app (tap01.toLine.app (tap02.toLine.app (tap03.toLine.app (tap04.toLine.app (tap05.toLine.app (tap06.toLine.app (tap07.toLine.app (tap08.toLine.app (tap09.toLine.app (tap10.toLine.app (tap11.toLine.app (tap12.toLine.app (tap13.toLine.app (tap14.toLine.app (tap15.toLine.app (tap16.toLine.app (tap17.toLine.app (tap18.toLine.app (tap19.toLine.app (tap20.toLine.app (tap21.toLine.app (tap22.toLine.app (tap23.toLine.app (tap24.toLine.app (tap25.toLine.app (tap26.toLine.app epi_line))))))))))))))))))))))))))) (by decide))

theorem run_after (m : (ℓ : Loc nD τ sig) → Buf (Elt Ideal) ℓ) (ρ : Dev nD → PrngReg) :
    θ_run defs (onTc (τ := τ) (main (F := Ideal))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_line.sub) m ρ
    (fun _ => List.forall_iff_forall_mem.mp ops_line.fresh)

/-- No operation writes an argument (the buffers numbered below 5). -/
theorem after_arg (m : (ℓ : Loc nD τ sig) → Buf (Elt Ideal) ℓ) (c : Dev nD) (r : Ref sig .tc) (h : r.idx.val < 5) :
    after ops (launchContents m c) (Proc.devRef .tc r) = m ((c.tc : Thread nD τ).loc r) :=
  ops_line.low _ r h

end Cert.ReferenceIdeal.Hand

end
-- ==== Proof.RefEpi.lean ====
import proofs.«406342_j15479062134906_3_alg».proof.ReferenceIdeal
import proofs.«406342_j15479062134906_3_alg».proof.Proof.Spec
import Idealize.ShloMosaic.Lib.Pipeline.Value
import Idealize.ShloMosaic.Lib.ValueIdx

noncomputable section

namespace Cert.ReferenceIdeal.Tap

open Idealize.ShloMosaic Idealize.ShloMosaic.ValueIdx
open Cert.ReferenceIdeal Cert.ReferenceIdeal.Facts₀

variable [Cert.ReferenceIdeal.Facts]

def epiTerm (accv : S2097152x32.Idx → EReal) (mk : S1x128x128x128x1.Idx → EReal) (b : S32.Idx → EReal) :
    S1x128x128x128x32.Idx → EReal :=
  mulf (F := Ideal) (φ := .f32)
    (addf (F := Ideal) (φ := .f32)
      (shapeCast S1x128x128x128x32 accv shapeCasts_S2097152x32_S1x128x128x128x32)
      (mulf (F := Ideal) (φ := .f32)
        (broadcastInDim S1x128x128x128x32 ![0, 1, 2, 3, 4] bcast_S1x128x128x128x1_S1x128x128x128x32_0_1_2_3_4 mk)
        (broadcastInDim S1x128x128x128x32 ![0, 1, 2, 3, 4] bcast_S1x1x1x1x32_S1x128x128x128x32_0_1_2_3_4
          (broadcastInDim S1x1x1x1x32 ![4] bcast_S32_S1x1x1x1x32_4 b))))
    (broadcastInDim S1x128x128x128x32 ![0, 1, 2, 3, 4] bcast_S1x128x128x128x1_S1x128x128x128x32_0_1_2_3_4 mk)

theorem gridView_apply (accv : S2097152x32.Idx → EReal) (a0 : Fin 1) (a1 a2 a3 : Fin 128) (a4 : Fin 32) :
    shapeCast S1x128x128x128x32 accv shapeCasts_S2097152x32_S1x128x128x128x32 (ix5 a0 a1 a2 a3 a4)
      = accv (ix2 (Cert.Spec.cell a1 a2 a3) a4) := by
  refine shapeCast_apply accv shapeCasts_S2097152x32_S1x128x128x128x32 (ix5 a0 a1 a2 a3 a4)
    (ix2 (Cert.Spec.cell a1 a2 a3) a4) ?_
  rw [Shape.rowMajor_val_two, Shape.rowMajor_val_five]
  have := a0.isLt
  show ((a1.val * 128 + a2.val) * 128 + a3.val) * 32 + a4.val
    = ((((a0.val * 128 + a1.val) * 128 + a2.val) * 128 + a3.val) * 32 + a4.val)
  omega

theorem maskStretch_apply (mk : S1x128x128x128x1.Idx → EReal) (a0 : Fin 1) (a1 a2 a3 : Fin 128) (a4 : Fin 32) :
    broadcastInDim S1x128x128x128x32 ![0, 1, 2, 3, 4] bcast_S1x128x128x128x1_S1x128x128x128x32_0_1_2_3_4 mk
        (ix5 a0 a1 a2 a3 a4)
      = mk (ix5 a0 a1 a2 a3 (0 : Fin 1)) := by
  refine broadcastInDim_apply _ bcast_S1x128x128x128x1_S1x128x128x128x32_0_1_2_3_4 mk (ix5 a0 a1 a2 a3 a4)
    (ix5 a0 a1 a2 a3 (0 : Fin 1)) (fun a => ?_)
  match a with
  | ⟨0, _⟩ => have := a0.isLt; show a0.val = 0; omega
  | ⟨1, _⟩ => rfl
  | ⟨2, _⟩ => rfl
  | ⟨3, _⟩ => rfl
  | ⟨4, _⟩ => rfl

theorem biasStretch_apply (b : S32.Idx → EReal) (a0 : Fin 1) (a1 a2 a3 : Fin 128) (a4 : Fin 32) :
    broadcastInDim S1x128x128x128x32 ![0, 1, 2, 3, 4] bcast_S1x1x1x1x32_S1x128x128x128x32_0_1_2_3_4
        (broadcastInDim S1x1x1x1x32 ![4] bcast_S32_S1x1x1x1x32_4 b) (ix5 a0 a1 a2 a3 a4)
      = b (ix1 a4) := by
  refine (broadcastInDim_apply _ bcast_S1x1x1x1x32_S1x128x128x128x32_0_1_2_3_4
    (broadcastInDim S1x1x1x1x32 ![4] bcast_S32_S1x1x1x1x32_4 b) (ix5 a0 a1 a2 a3 a4)
    (ix5 (0 : Fin 1) (0 : Fin 1) (0 : Fin 1) (0 : Fin 1) a4) (fun a => ?_)).trans ?_
  · match a with
    | ⟨0, _⟩ => rfl
    | ⟨1, _⟩ => rfl
    | ⟨2, _⟩ => rfl
    | ⟨3, _⟩ => rfl
    | ⟨4, _⟩ => rfl
  · refine broadcastInDim_apply _ bcast_S32_S1x1x1x1x32_4 b
      (ix5 (0 : Fin 1) (0 : Fin 1) (0 : Fin 1) (0 : Fin 1) a4) (ix1 a4) (fun a => ?_)
    match a with
    | ⟨0, _⟩ => rfl

theorem epiTerm_apply (accv : S2097152x32.Idx → EReal) (mk : S1x128x128x128x1.Idx → EReal) (b : S32.Idx → EReal) :
    epiTerm accv mk b = fun i =>
      (accv (ix2 (Cert.Spec.cell (i 1) (i 2) (i 3)) (i 4)) + mk (ix5 (i 0) (i 1) (i 2) (i 3) (0 : Fin 1)) * b (ix1 (i 4)))
        * mk (ix5 (i 0) (i 1) (i 2) (i 3) (0 : Fin 1)) := by
  funext i
  obtain ⟨a0, a1, a2, a3, a4, rfl⟩ : ∃ (a0 : Fin 1) (a1 a2 a3 : Fin 128) (a4 : Fin 32), i = ix5 a0 a1 a2 a3 a4 :=
    ⟨_, _, _, _, _, eq_ix5 i⟩
  show (shapeCast S1x128x128x128x32 accv shapeCasts_S2097152x32_S1x128x128x128x32 (ix5 a0 a1 a2 a3 a4)
      + broadcastInDim S1x128x128x128x32 ![0, 1, 2, 3, 4] bcast_S1x128x128x128x1_S1x128x128x128x32_0_1_2_3_4 mk
          (ix5 a0 a1 a2 a3 a4)
        * broadcastInDim S1x128x128x128x32 ![0, 1, 2, 3, 4] bcast_S1x1x1x1x32_S1x128x128x128x32_0_1_2_3_4
          (broadcastInDim S1x1x1x1x32 ![4] bcast_S32_S1x1x1x1x32_4 b) (ix5 a0 a1 a2 a3 a4))
      * broadcastInDim S1x128x128x128x32 ![0, 1, 2, 3, 4] bcast_S1x128x128x128x1_S1x128x128x128x32_0_1_2_3_4 mk
          (ix5 a0 a1 a2 a3 a4)
    = (accv (ix2 (Cert.Spec.cell a1 a2 a3) a4) + mk (ix5 a0 a1 a2 a3 (0 : Fin 1)) * b (ix1 a4))
        * mk (ix5 a0 a1 a2 a3 (0 : Fin 1))
  rw [gridView_apply, maskStretch_apply, biasStretch_apply]

end Cert.ReferenceIdeal.Tap

end
-- ==== Proof.ScatterTaps.lean ====
import proofs.«406342_j15479062134906_3_alg».proof.KernelIdeal
import proofs.«406342_j15479062134906_3_alg».proof.ReferenceIdeal
import Idealize.ShloMosaic.Lib.ValueIdx

noncomputable section

open scoped BigOperators

namespace Cert.ScatterTaps

open Idealize.ShloMosaic Idealize.ShloMosaic.ValueIdx

abbrev rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Row
variable {N R C w : Nat} (wf : ScatterDims.WF ⟨2, ![N, C]⟩ ⟨2, ![R, 1]⟩ ⟨2, ![R, C]⟩ [1] [0] [0] 1)
  (idx : IVec ⟨2, ![R, 1]⟩ w)

theorem start0 (r : Fin R) (c : Fin C) :
    (rowDims N R C wf).start (ix2 r c) idx (0 : Fin 2) = (idx (ix2 r 0)).toInt := by
  unfold ScatterDims.start
  rw [dif_pos (show (0 : Fin 2) ∈ (rowDims N R C wf).scatterDimsToOperandDims from List.mem_singleton.mpr rfl)]
  have hsi : (rowDims N R C wf).siIdx (ix2 r c) ⟨List.idxOf (0 : Fin 2) (rowDims N R C wf).scatterDimsToOperandDims,
      List.idxOf_lt_length_iff.2 (List.mem_singleton.mpr rfl)⟩ = ix2 r 0 := by
    funext b; refine Fin.ext ?_
    match b with
    | ⟨0, _⟩ => rfl
    | ⟨1, _⟩ => rfl
  rw [hsi]

theorem start1 (r : Fin R) (c : Fin C) :
    (rowDims N R C wf).start (ix2 r c) idx (1 : Fin 2) = 0 := by
  unfold ScatterDims.start
  rw [dif_neg (show (1 : Fin 2) ∉ (rowDims N R C wf).scatterDimsToOperandDims from
    (show (1 : Fin 2) ∉ ([0] : List (Fin 2)) by decide))]

theorem window0 (r : Fin R) (c : Fin C) :
    (rowDims N R C wf).window (ix2 r c) (0 : Fin 2) = 0 := by
  unfold ScatterDims.window
  rw [dif_neg (show (0 : Fin 2) ∉ (rowDims N R C wf).sKept from
    (show (0 : Fin 2) ∉ ([1] : List (Fin 2)) by decide))]

theorem window1 (r : Fin R) (c : Fin C) :
    (rowDims N R C wf).window (ix2 r c) (1 : Fin 2) = c.val := by
  unfold ScatterDims.window
  rw [dif_pos (show (1 : Fin 2) ∈ (rowDims N R C wf).sKept from
    (show (1 : Fin 2) ∈ ([1] : List (Fin 2)) by decide))]
  rfl

theorem tot0 (r : Fin R) (c : Fin C) :
    (rowDims N R C wf).start (ix2 r c) idx (0 : Fin 2) + ((rowDims N R C wf).window (ix2 r c) (0 : Fin 2) : ℤ)
      = (idx (ix2 r 0)).toInt := by
  rw [start0, window0]; simp

theorem tot1 (r : Fin R) (c : Fin C) :
    (rowDims N R C wf).start (ix2 r c) idx (1 : Fin 2) + ((rowDims N R C wf).window (ix2 r c) (1 : Fin 2) : ℤ)
      = (c.val : ℤ) := by
  rw [start1, window1]; simp

theorem resultIdx_ix2 (r : Fin R) (c : Fin C) (p : Fin N) (q : Fin C) :
    (rowDims N R C wf).resultIdx? (ix2 r c) idx = some (ix2 p q) ↔
      (idx (ix2 r 0)).toInt = (p.val : ℤ) ∧ q = c := by
  have hp : p.val < N := p.isLt
  have hc : c.val < C := c.isLt
  have hq : q.val < C := q.isLt
  unfold ScatterDims.resultIdx?
  split
  · rename_i h
    rw [Option.some.injEq]
    constructor
    · intro e
      have e0 : ((rowDims N R C wf).start (ix2 r c) idx (0 : Fin 2)
          + ((rowDims N R C wf).window (ix2 r c) (0 : Fin 2) : ℤ)).toNat = p.val :=
        congrArg Fin.val (congrFun e (0 : Fin 2))
      have e1 : ((rowDims N R C wf).start (ix2 r c) idx (1 : Fin 2)
          + ((rowDims N R C wf).window (ix2 r c) (1 : Fin 2) : ℤ)).toNat = q.val :=
        congrArg Fin.val (congrFun e (1 : Fin 2))
      have g0 : 0 ≤ (rowDims N R C wf).start (ix2 r c) idx (0 : Fin 2)
          + ((rowDims N R C wf).window (ix2 r c) (0 : Fin 2) : ℤ) := (h (0 : Fin 2)).1
      rw [tot0] at e0 g0
      rw [tot1] at e1
      refine ⟨by omega, Fin.ext (by omega)⟩
    · rintro ⟨hv, rfl⟩
      funext a
      refine Fin.ext ?_
      match a with
      | ⟨0, _⟩ =>
        show ((rowDims N R C wf).start (ix2 r q) idx (0 : Fin 2)
          + ((rowDims N R C wf).window (ix2 r q) (0 : Fin 2) : ℤ)).toNat = p.val
        rw [tot0]; omega
      | ⟨1, _⟩ =>
        show ((rowDims N R C wf).start (ix2 r q) idx (1 : Fin 2)
          + ((rowDims N R C wf).window (ix2 r q) (1 : Fin 2) : ℤ)).toNat = q.val
        rw [tot1]; omega
  · rename_i h
    constructor
    · intro e; cases e
    · rintro ⟨hv, rfl⟩
      refine absurd (fun a => ?_) h
      match a with
      | ⟨0, _⟩ =>
        show 0 ≤ (rowDims N R C wf).start (ix2 r q) idx (0 : Fin 2)
            + ((rowDims N R C wf).window (ix2 r q) (0 : Fin 2) : ℤ) ∧
          (rowDims N R C wf).start (ix2 r q) idx (0 : Fin 2)
            + ((rowDims N R C wf).window (ix2 r q) (0 : Fin 2) : ℤ) < (N : ℤ)
        rw [tot0]; omega
      | ⟨1, _⟩ =>
        show 0 ≤ (rowDims N R C wf).start (ix2 r q) idx (1 : Fin 2)
            + ((rowDims N R C wf).window (ix2 r q) (1 : Fin 2) : ℤ) ∧
          (rowDims N R C wf).start (ix2 r q) idx (1 : Fin 2)
            + ((rowDims N R C wf).window (ix2 r q) (1 : Fin 2) : ℤ) < (C : ℤ)
        rw [tot1]; omega

theorem scatterAdd_apply (x : (⟨2, ![N, C]⟩ : Shape).Idx → EReal) (upd : (⟨2, ![R, C]⟩ : Shape).Idx → EReal)
    (p : Fin N) (q : Fin C) :
    Ideal.hostScatterAdd (rowDims N R C wf) x idx upd (ix2 p q)
      = x (ix2 p q) + ∑ r : Fin R, if (idx (ix2 r 0)).toInt = (p.val : ℤ) then upd (ix2 r q) else 0 := by
  unfold Ideal.hostScatterAdd
  refine congrArg (x (ix2 p q) + ·) ?_
  rw [Finset.sum_filter, sum_idx2]
  refine Finset.sum_congr rfl fun r _ => ?_
  simp only [resultIdx_ix2]
  by_cases hA : (idx (ix2 r 0)).toInt = (p.val : ℤ)
  · simp only [hA, true_and, Finset.sum_ite_eq, Finset.mem_univ, if_true]
  · simp only [hA, false_and, if_false, Finset.sum_const_zero]

end Row

section Seq
variable {N R C w : Nat} (wf : ScatterDims.WF ⟨2, ![N, C]⟩ ⟨2, ![R, 1]⟩ ⟨2, ![R, C]⟩ [1] [0] [0] 1)

theorem foldl_scatterAdd_apply {τ : Type} (idxs : τ → IVec ⟨2, ![R, 1]⟩ w) (upds : τ → (⟨2, ![R, C]⟩ : Shape).Idx → EReal)
    (l : List τ) (z : (⟨2, ![N, C]⟩ : Shape).Idx → EReal) (p : Fin N) (q : Fin C) :
    l.foldl (fun o t => Ideal.hostScatterAdd (rowDims N R C wf) o (idxs t) (upds t)) z (ix2 p q)
      = z (ix2 p q) + (l.map fun t =>
          ∑ r : Fin R, if (idxs t (ix2 r 0)).toInt = (p.val : ℤ) then upds t (ix2 r q) else 0).sum := by
  induction l generalizing z with
  | nil => simp
  | cons t l ih =>
    rw [List.foldl_cons, ih, scatterAdd_apply, List.map_cons, List.sum_cons, add_assoc]

end Seq

def rowOf (n : Fin 200000) (t : Fin 27) : Fin 5400000 :=
  ⟨n.val * 27 + t.val, by have := n.isLt; have := t.isLt; omega⟩

@[simp] theorem rowOf_val (n : Fin 200000) (t : Fin 27) : (rowOf n t).val = n.val * 27 + t.val := rfl

def rowEquiv : Fin 200000 × Fin 27 ≃ Fin 5400000 where
  toFun x := rowOf x.1 x.2
  invFun r := (⟨r.val / 27, by have := r.isLt; omega⟩, ⟨r.val % 27, by omega⟩)
  left_inv := by
    rintro ⟨n, t⟩
    have := n.isLt; have := t.isLt
    refine Prod.ext (Fin.ext ?_) (Fin.ext ?_)
    · show (n.val * 27 + t.val) / 27 = n.val; omega
    · show (n.val * 27 + t.val) % 27 = t.val; omega
  right_inv := by
    intro r
    refine Fin.ext ?_
    show r.val / 27 * 27 + r.val % 27 = r.val; omega

theorem sum_rows {M : Type*} [AddCommMonoid M] (G : Fin 5400000 → M) :
    ∑ r : Fin 5400000, G r = ∑ t : Fin 27, ∑ n : Fin 200000, G (rowOf n t) := by
  rw [← Equiv.sum_comp rowEquiv G, Fintype.sum_prod_type, Finset.sum_comm]
  rfl

local notation "dK" => Cert.KernelIdeal.scatter_S2097152x32_S5400000x1_S5400000x32_1_0_0_1

local notation "dR" => Cert.ReferenceIdeal.scatter_S2097152x32_S200000x1_S200000x32_1_0_0_1

section One
variable [Cert.KernelIdeal.Facts₀]

theorem dK_eq : dK = rowDims 2097152 5400000 32
    Cert.KernelIdeal.Facts₀.scatter_S2097152x32_S5400000x1_S5400000x32_1_0_0_1_wf := rfl

theorem resultIdxK (idx : IVec ⟨2, ![5400000, 1]⟩ 32) (r : Fin 5400000) (j : Fin 32) (i : (⟨2, ![2097152, 32]⟩ : Shape).Idx) :
    ScatterDims.resultIdx? dK (ix2 r j) idx = some i ↔ (idx (ix2 r 0)).toInt = ((i 0).val : ℤ) ∧ i 1 = j := by
  obtain ⟨p, q, rfl⟩ : ∃ p q, i = ix2 p q := ⟨i 0, i 1, eq_ix2 i⟩
  rw [dK_eq]
  exact resultIdx_ix2 _ idx r j p q

theorem scatterK_apply (z : (⟨2, ![2097152, 32]⟩ : Shape).Idx → EReal) (idx : IVec ⟨2, ![5400000, 1]⟩ 32)
    (upd : (⟨2, ![5400000, 32]⟩ : Shape).Idx → EReal) (p : Fin 2097152) (q : Fin 32) :
    Ideal.hostScatterAdd dK z idx upd (ix2 p q)
      = z (ix2 p q) + ∑ r : Fin 5400000, if (idx (ix2 r 0)).toInt = (p.val : ℤ) then upd (ix2 r q) else 0 := by
  rw [dK_eq]; exact scatterAdd_apply _ idx z upd p q

end One

section Tap
variable [Cert.ReferenceIdeal.Facts₀]

theorem dR_eq : dR = rowDims 2097152 200000 32
    Cert.ReferenceIdeal.Facts₀.scatter_S2097152x32_S200000x1_S200000x32_1_0_0_1_wf := rfl

theorem resultIdxR (idx : IVec ⟨2, ![200000, 1]⟩ 32) (r : Fin 200000) (j : Fin 32) (i : (⟨2, ![2097152, 32]⟩ : Shape).Idx) :
    ScatterDims.resultIdx? dR (ix2 r j) idx = some i ↔ (idx (ix2 r 0)).toInt = ((i 0).val : ℤ) ∧ i 1 = j := by
  obtain ⟨p, q, rfl⟩ : ∃ p q, i = ix2 p q := ⟨i 0, i 1, eq_ix2 i⟩
  rw [dR_eq]
  exact resultIdx_ix2 _ idx r j p q

theorem scatterR_apply (z : (⟨2, ![2097152, 32]⟩ : Shape).Idx → EReal) (idx : IVec ⟨2, ![200000, 1]⟩ 32)
    (upd : (⟨2, ![200000, 32]⟩ : Shape).Idx → EReal) (p : Fin 2097152) (q : Fin 32) :
    Ideal.hostScatterAdd dR z idx upd (ix2 p q)
      = z (ix2 p q) + ∑ n : Fin 200000, if (idx (ix2 n 0)).toInt = (p.val : ℤ) then upd (ix2 n q) else 0 := by
  rw [dR_eq]; exact scatterAdd_apply _ idx z upd p q

end Tap

section Programs
variable [Cert.KernelIdeal.Facts₀] [Cert.ReferenceIdeal.Facts₀]

theorem scatter_taps (z : (⟨2, ![2097152, 32]⟩ : Shape).Idx → EReal)
    (idxK : IVec ⟨2, ![5400000, 1]⟩ 32) (updK : (⟨2, ![5400000, 32]⟩ : Shape).Idx → EReal)
    (idxR : Fin 27 → IVec ⟨2, ![200000, 1]⟩ 32) (updR : Fin 27 → (⟨2, ![200000, 32]⟩ : Shape).Idx → EReal)
    (hidx : ∀ (t : Fin 27) (n : Fin 200000), idxR t (ix2 n 0) = idxK (ix2 (rowOf n t) 0))
    (hupd : ∀ (t : Fin 27) (n : Fin 200000) (j : Fin 32), updR t (ix2 n j) = updK (ix2 (rowOf n t) j)) :
    (List.finRange 27).foldl (fun o t => Ideal.hostScatterAdd dR o (idxR t) (updR t)) z
      = Ideal.hostScatterAdd dK z idxK updK := by
  funext i
  obtain ⟨p, q, rfl⟩ : ∃ p q, i = ix2 p q := ⟨i 0, i 1, eq_ix2 i⟩
  rw [scatterK_apply, dR_eq, foldl_scatterAdd_apply, ← Fin.sum_univ_def, sum_rows]
  refine congrArg (z (ix2 p q) + ·) ?_
  refine Finset.sum_congr rfl fun t _ => Finset.sum_congr rfl fun n _ => ?_
  rw [hidx, hupd]

theorem scatter_taps_nest (z : (⟨2, ![2097152, 32]⟩ : Shape).Idx → EReal)
    (idxK : IVec ⟨2, ![5400000, 1]⟩ 32) (updK : (⟨2, ![5400000, 32]⟩ : Shape).Idx → EReal)
    (idxR : Fin 27 → IVec ⟨2, ![200000, 1]⟩ 32) (updR : Fin 27 → (⟨2, ![200000, 32]⟩ : Shape).Idx → EReal)
    (hidx : ∀ (t : Fin 27) (n : Fin 200000), idxR t (ix2 n 0) = idxK (ix2 (rowOf n t) 0))
    (hupd : ∀ (t : Fin 27) (n : Fin 200000) (j : Fin 32), updR t (ix2 n j) = updK (ix2 (rowOf n t) j)) :
    Ideal.hostScatterAdd dR (Ideal.hostScatterAdd dR (Ideal.hostScatterAdd dR (Ideal.hostScatterAdd dR (Ideal.hostScatterAdd dR (Ideal.hostScatterAdd dR (Ideal.hostScatterAdd dR (Ideal.hostScatterAdd dR (Ideal.hostScatterAdd dR (Ideal.hostScatterAdd dR (Ideal.hostScatterAdd dR (Ideal.hostScatterAdd dR (Ideal.hostScatterAdd dR (Ideal.hostScatterAdd dR (Ideal.hostScatterAdd dR (Ideal.hostScatterAdd dR (Ideal.hostScatterAdd dR (Ideal.hostScatterAdd dR (Ideal.hostScatterAdd dR (Ideal.hostScatterAdd dR (Ideal.hostScatterAdd dR (Ideal.hostScatterAdd dR (Ideal.hostScatterAdd dR (Ideal.hostScatterAdd dR (Ideal.hostScatterAdd dR (Ideal.hostScatterAdd dR (Ideal.hostScatterAdd dR (z) (idxR 0) (updR 0)) (idxR 1) (updR 1)) (idxR 2) (updR 2)) (idxR 3) (updR 3)) (idxR 4) (updR 4)) (idxR 5) (updR 5)) (idxR 6) (updR 6)) (idxR 7) (updR 7)) (idxR 8) (updR 8)) (idxR 9) (updR 9)) (idxR 10) (updR 10)) (idxR 11) (updR 11)) (idxR 12) (updR 12)) (idxR 13) (updR 13)) (idxR 14) (updR 14)) (idxR 15) (updR 15)) (idxR 16) (updR 16)) (idxR 17) (updR 17)) (idxR 18) (updR 18)) (idxR 19) (updR 19)) (idxR 20) (updR 20)) (idxR 21) (updR 21)) (idxR 22) (updR 22)) (idxR 23) (updR 23)) (idxR 24) (updR 24)) (idxR 25) (updR 25)) (idxR 26) (updR 26)
      = Ideal.hostScatterAdd dK z idxK updK :=
  scatter_taps z idxK updK idxR updR hidx hupd

end Programs

end Cert.ScatterTaps

end
-- ==== Proof.RefValue.lean ====
import proofs.«406342_j15479062134906_3_alg».proof.Proof.RefRun
import proofs.«406342_j15479062134906_3_alg».proof.Proof.RefEpi
import proofs.«406342_j15479062134906_3_alg».proof.Proof.ScatterTaps
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo
open Idealize.ShloMosaic.ValueIdx
open Cert.ReferenceIdeal.Facts₀ Cert.ReferenceIdeal.Facts

variable [Cert.KernelIdeal.Facts] [Cert.ReferenceIdeal.Facts]

theorem epi_out (W : Valuation τ sig (Elt Ideal)) :
    after epiOps W (Proc.devRef .tc main_v710)
      = Tap.epiTerm (W (Proc.devRef .tc main_v702)) (W (Proc.devRef .tc main_arg2)) (W (Proc.devRef .tc main_arg4)) := by
  after_results_simp
  rfl

theorem rowN_rowOf (n : Fin 200000) (t : Fin 27) : Cert.Spec.rowN (Cert.ScatterTaps.rowOf n t) = n :=
  Fin.ext (by
    show (Cert.ScatterTaps.rowOf n t).val / 27 = n.val
    rw [Cert.ScatterTaps.rowOf_val]
    have := t.isLt
    omega)

theorem rowT_rowOf (n : Fin 200000) (t : Fin 27) : Cert.Spec.rowT (Cert.ScatterTaps.rowOf n t) = t :=
  Fin.ext (by
    show (Cert.ScatterTaps.rowOf n t).val % 27 = t.val
    rw [Cert.ScatterTaps.rowOf_val]
    have := t.isLt
    omega)

theorem idxR_row (cd : IVec S200000x3 32) (t : Fin 27) (n : Fin 200000) :
    idxR cd t (ix2 n (0 : Fin 1)) = Cert.Spec.idxK cd (ix2 (Cert.ScatterTaps.rowOf n t) (0 : Fin 1)) := by
  show Cert.Spec.rowIdx cd n t
    = Cert.Spec.rowIdx cd (Cert.Spec.rowN (Cert.ScatterTaps.rowOf n t)) (Cert.Spec.rowT (Cert.ScatterTaps.rowOf n t))
  rw [rowN_rowOf, rowT_rowOf]

theorem updR_row (x : FVec Ideal S200000x32 .f32) (kr : FVec Ideal S3x3x3x32x32 .f32) (t : Fin 27) (n : Fin 200000)
    (j : Fin 32) :
    updR x kr t (ix2 n j) = Cert.Spec.updK x kr (ix2 (Cert.ScatterTaps.rowOf n t) j) := by
  show Cert.Spec.tapVal x kr n t j
    = Cert.Spec.tapVal x kr (Cert.Spec.rowN (Cert.ScatterTaps.rowOf n t)) (Cert.Spec.rowT (Cert.ScatterTaps.rowOf n t)) j
  rw [rowN_rowOf, rowT_rowOf]

/-- The 27 scatter-adds into the zero array, one tap after another, are the one scatter-add of all 27·200000 rows. -/
theorem ref_value (m : (ℓ : Loc nD τ sig) → Buf (Elt Ideal) ℓ) (c : Dev nD) :
    after (ops (F := Ideal)) (launchContents m c) (Proc.devRef .tc main_v710)
      = Cert.Spec.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  simp only [ops, after_append]
  obtain ⟨l1, o1⟩ := tap00.step (after proOps (launchContents m c)) (after proOps (launchContents m c)) _ (fun _ _ => rfl) (pro_zero _) (pro_c _) (pro_shift00 _)
  obtain ⟨l2, o2⟩ := tap01.step (after proOps (launchContents m c)) _ _ l1 o1 (pro_c _) (pro_shift01 _)
  obtain ⟨l3, o3⟩ := tap02.step (after proOps (launchContents m c)) _ _ l2 o2 (pro_c _) (pro_shift02 _)
  obtain ⟨l4, o4⟩ := tap03.step (after proOps (launchContents m c)) _ _ l3 o3 (pro_c _) (pro_shift03 _)
  obtain ⟨l5, o5⟩ := tap04.step (after proOps (launchContents m c)) _ _ l4 o4 (pro_c _) (pro_shift04 _)
  obtain ⟨l6, o6⟩ := tap05.step (after proOps (launchContents m c)) _ _ l5 o5 (pro_c _) (pro_shift05 _)
  obtain ⟨l7, o7⟩ := tap06.step (after proOps (launchContents m c)) _ _ l6 o6 (pro_c _) (pro_shift06 _)
  obtain ⟨l8, o8⟩ := tap07.step (after proOps (launchContents m c)) _ _ l7 o7 (pro_c _) (pro_shift07 _)
  obtain ⟨l9, o9⟩ := tap08.step (after proOps (launchContents m c)) _ _ l8 o8 (pro_c _) (pro_shift08 _)
  obtain ⟨l10, o10⟩ := tap09.step (after proOps (launchContents m c)) _ _ l9 o9 (pro_c _) (pro_shift09 _)
  obtain ⟨l11, o11⟩ := tap10.step (after proOps (launchContents m c)) _ _ l10 o10 (pro_c _) (pro_shift10 _)
  obtain ⟨l12, o12⟩ := tap11.step (after proOps (launchContents m c)) _ _ l11 o11 (pro_c _) (pro_shift11 _)
  obtain ⟨l13, o13⟩ := tap12.step (after proOps (launchContents m c)) _ _ l12 o12 (pro_c _) (pro_shift12 _)
  obtain ⟨l14, o14⟩ := tap13.step (after proOps (launchContents m c)) _ _ l13 o13 (pro_c _) (pro_shift13 _)
  obtain ⟨l15, o15⟩ := tap14.step (after proOps (launchContents m c)) _ _ l14 o14 (pro_c _) (pro_shift14 _)
  obtain ⟨l16, o16⟩ := tap15.step (after proOps (launchContents m c)) _ _ l15 o15 (pro_c _) (pro_shift15 _)
  obtain ⟨l17, o17⟩ := tap16.step (after proOps (launchContents m c)) _ _ l16 o16 (pro_c _) (pro_shift16 _)
  obtain ⟨l18, o18⟩ := tap17.step (after proOps (launchContents m c)) _ _ l17 o17 (pro_c _) (pro_shift17 _)
  obtain ⟨l19, o19⟩ := tap18.step (after proOps (launchContents m c)) _ _ l18 o18 (pro_c _) (pro_shift18 _)
  obtain ⟨l20, o20⟩ := tap19.step (after proOps (launchContents m c)) _ _ l19 o19 (pro_c _) (pro_shift19 _)
  obtain ⟨l21, o21⟩ := tap20.step (after proOps (launchContents m c)) _ _ l20 o20 (pro_c _) (pro_shift20 _)
  obtain ⟨l22, o22⟩ := tap21.step (after proOps (launchContents m c)) _ _ l21 o21 (pro_c _) (pro_shift21 _)
  obtain ⟨l23, o23⟩ := tap22.step (after proOps (launchContents m c)) _ _ l22 o22 (pro_c _) (pro_shift22 _)
  obtain ⟨l24, o24⟩ := tap23.step (after proOps (launchContents m c)) _ _ l23 o23 (pro_c _) (pro_shift23 _)
  obtain ⟨l25, o25⟩ := tap24.step (after proOps (launchContents m c)) _ _ l24 o24 (pro_c _) (pro_shift24 _)
  obtain ⟨l26, o26⟩ := tap25.step (after proOps (launchContents m c)) _ _ l25 o25 (pro_c _) (pro_shift25 _)
  obtain ⟨l27, o27⟩ := tap26.step (after proOps (launchContents m c)) _ _ l26 o26 (pro_c _) (pro_shift26 _)
  rw [pro_line.low _ main_arg0 (by decide), pro_line.low _ main_arg1 (by decide), pro_line.low _ main_arg3 (by decide)] at o27
  have hacc := o27.trans (Cert.ScatterTaps.scatter_taps_nest (fun _ => (0 : EReal))
    (Cert.Spec.idxK (m ((c.tc : Thread nD τ).loc main_arg1)))
    (Cert.Spec.updK (m ((c.tc : Thread nD τ).loc main_arg0)) (m ((c.tc : Thread nD τ).loc main_arg3)))
    (idxR (m ((c.tc : Thread nD τ).loc main_arg1)))
    (updR (m ((c.tc : Thread nD τ).loc main_arg0)) (m ((c.tc : Thread nD τ).loc main_arg3)))
    (idxR_row _) (updR_row _ _))
  rw [epi_out, hacc, l27 main_arg2 (by decide), l27 main_arg4 (by decide), pro_line.low _ main_arg2 (by decide), pro_line.low _ main_arg4 (by decide), Tap.epiTerm_apply]
  rfl

end Cert.ReferenceIdeal.Hand

end
-- ==== Proof.lean ====
import proofs.«406342_j15479062134906_3_alg».proof.Defs
import proofs.«406342_j15479062134906_3_alg».proof.Proof.Gen.Kernel
import proofs.«406342_j15479062134906_3_alg».proof.Proof.Gen.Kernel.Skeleton
import proofs.«406342_j15479062134906_3_alg».proof.Proof.Gen.Kernel.Launch
import proofs.«406342_j15479062134906_3_alg».proof.Proof.Gen.Kernel.Regions
import proofs.«406342_j15479062134906_3_alg».proof.Proof.Gen.Kernel.Points
import proofs.«406342_j15479062134906_3_alg».proof.Proof.Gen.KernelIdeal
import proofs.«406342_j15479062134906_3_alg».proof.Proof.Gen.KernelIdeal.Skeleton
import proofs.«406342_j15479062134906_3_alg».proof.Proof.Gen.KernelIdeal.Launch
import proofs.«406342_j15479062134906_3_alg».proof.Proof.Gen.KernelIdeal.Regions
import proofs.«406342_j15479062134906_3_alg».proof.Proof.Gen.KernelIdeal.Points
import proofs.«406342_j15479062134906_3_alg».proof.Proof.Gen.ReferenceIdeal
import proofs.«406342_j15479062134906_3_alg».proof.Proof.Gen.Pre_finite_inputs
import proofs.«406342_j15479062134906_3_alg».proof.Proof.Spec
import proofs.«406342_j15479062134906_3_alg».proof.Proof.KRun
import proofs.«406342_j15479062134906_3_alg».proof.Proof.KiRun
import proofs.«406342_j15479062134906_3_alg».proof.Proof.KiValue
import proofs.«406342_j15479062134906_3_alg».proof.Proof.RefRun
import proofs.«406342_j15479062134906_3_alg».proof.Proof.RefValue
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem

theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

theorem frame_k : Cert.frame_Kernel := fun m ρ _ => Cert.Kernel.Reg.frame m ρ

theorem frame_ki : Cert.frame_KernelIdeal := fun m ρ _ => Cert.KernelIdeal.Reg.frame m ρ

theorem frame_ri : Cert.frame_ReferenceIdeal := fun m ρ _ =>
  (θ_run Cert.ReferenceIdeal.defs _ _).mono (fun _ h c =>
    ⟨(h c _).trans (Cert.ReferenceIdeal.Hand.after_arg m c Cert.ReferenceIdeal.main_arg0 (by decide)), (h c _).trans (Cert.ReferenceIdeal.Hand.after_arg m c Cert.ReferenceIdeal.main_arg1 (by decide)),
     (h c _).trans (Cert.ReferenceIdeal.Hand.after_arg m c Cert.ReferenceIdeal.main_arg2 (by decide)), (h c _).trans (Cert.ReferenceIdeal.Hand.after_arg m c Cert.ReferenceIdeal.main_arg3 (by decide)),
     (h c _).trans (Cert.ReferenceIdeal.Hand.after_arg m c Cert.ReferenceIdeal.main_arg4 (by decide))⟩)
    (Cert.ReferenceIdeal.Hand.run_after m ρ)

theorem algebraic : Cert.algebraic_KernelIdeal_ReferenceIdeal := by
  intro m ρ m' ρ' _ hagree
  refine ⟨fun c => Cert.Spec.result (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg3)) (m ((c.tc : Thread _ _).loc Cert.KernelIdeal.main_arg4)), ?_, ?_⟩
  · refine (θ_run Cert.KernelIdeal.defs _ _).mono (fun r h c => ?_) (Cert.KernelIdeal.Reg.run_all (F := Ideal) m ρ)
    exact ⟨(h c _ (mem_uc Cert.KernelIdeal.main_v50 (by decide))).trans (Cert.KernelIdeal.Val.value m c),
      (h c _ (mem_uc Cert.KernelIdeal.main_arg0 (by decide))).trans (Cert.KernelIdeal.Gen.V14_main_arg0 m _ c),
      (h c _ (mem_uc Cert.KernelIdeal.main_arg1 (by decide))).trans (Cert.KernelIdeal.Gen.V14_main_arg1 m _ c),
      (h c _ (mem_uc Cert.KernelIdeal.main_arg2 (by decide))).trans (Cert.KernelIdeal.Gen.V14_main_arg2 m _ c),
      (h c _ (mem_uc Cert.KernelIdeal.main_arg3 (by decide))).trans (Cert.KernelIdeal.Gen.V14_main_arg3 m _ c),
      (h c _ (mem_uc Cert.KernelIdeal.main_arg4 (by decide))).trans (Cert.KernelIdeal.Gen.V14_main_arg4 m _ c)⟩
  · refine (θ_run Cert.ReferenceIdeal.defs _ _).mono (fun r h c => ?_) (Cert.ReferenceIdeal.Hand.run_after m' ρ')
    refine ⟨(h c _).trans ((Cert.ReferenceIdeal.Hand.ref_value m' c).trans ?_),
      (h c _).trans (Cert.ReferenceIdeal.Hand.after_arg m' c Cert.ReferenceIdeal.main_arg0 (by decide)), (h c _).trans (Cert.ReferenceIdeal.Hand.after_arg m' c Cert.ReferenceIdeal.main_arg1 (by decide)),
      (h c _).trans (Cert.ReferenceIdeal.Hand.after_arg m' c Cert.ReferenceIdeal.main_arg2 (by decide)), (h c _).trans (Cert.ReferenceIdeal.Hand.after_arg m' c Cert.ReferenceIdeal.main_arg3 (by decide)),
      (h c _).trans (Cert.ReferenceIdeal.Hand.after_arg m' c Cert.ReferenceIdeal.main_arg4 (by decide))⟩
    rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
